-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_cst_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_cst_8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_cst_20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x131072 : Shape := ⟨2, ![2, 131072]⟩
abbrev S8192 : Shape := ⟨1, ![8192]⟩
abbrev S512x256 : Shape := ⟨2, ![512, 256]⟩
abbrev S1792x256 : Shape := ⟨2, ![1792, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S1792x256 : S_.BroadcastsInDim S1792x256 (![] : Fin 0 → Fin S1792x256.rank)
  reducesTo_S1792x256_S_d0_1 : S1792x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x512 .f32) (main_arg1 : IVec S2x131072 32) (main_arg2 : IVec S8192 32) (main_arg3 : FVec F S512x256 .f32) (main_arg4 : FVec F S1792x256 .f32) (main_arg5 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S1792x256 .f32 := Host.absf main_arg4
  let main_cst_2 : FVec F S_ .f32 := constant S_ .f32 0x7F800000#32
  let main_v10 : FVec F S1792x256 .f32 := broadcastInDim S1792x256 ![] bcast_S_S1792x256 main_cst_2
  let main_v11 : IVec S1792x256 1 := cmpf .olt main_v9 main_v10
  let main_c_3 : IVec S_ 1 := constantI S_ 1 1#1
  let main_v12 : IVec S_ 1 := (fun x v => Host.reduce IntOp.andi x v reducesTo_S1792x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x512 : Shape := ⟨2, ![8192, 512]⟩
abbrev S2x131072 : Shape := ⟨2, ![2, 131072]⟩
abbrev S8192 : Shape := ⟨1, ![8192]⟩
abbrev S512x256 : Shape := ⟨2, ![512, 256]⟩
abbrev S1792x256 : Shape := ⟨2, ![1792, 256]⟩
abbrev S256 : Shape := ⟨1, ![256]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S1024x1024 : Shape := ⟨2, ![1024, 1024]⟩
abbrev S8192x1 : Shape := ⟨2, ![8192, 1]⟩
abbrev S64x8192 : Shape := ⟨2, ![64, 8192]⟩
abbrev S64x1 : Shape := ⟨2, ![64, 1]⟩
abbrev S64 : Shape := ⟨1, ![64]⟩
abbrev S1x8192 : Shape := ⟨2, ![1, 8192]⟩
abbrev S8192x256 : Shape := ⟨2, ![8192, 256]⟩
abbrev S1024x512 : Shape := ⟨2, ![1024, 512]⟩
abbrev S1024x256 : Shape := ⟨2, ![1024, 256]⟩
abbrev S8192x1024 : Shape := ⟨2, ![8192, 1024]⟩
abbrev S8192x1792 : Shape := ⟨2, ![8192, 1792]⟩
abbrev S64x1792 : Shape := ⟨2, ![64, 1792]⟩
abbrev S64x256 : Shape := ⟨2, ![64, 256]⟩
abbrev S1x256 : Shape := ⟨2, ![1, 256]⟩

abbrev nBuf : Space → Nat
  | .hbm => 70
  | .vmem => 71
  | .smem => 0
  | _ => 0

abbrev bufTy : (tb : Table) → Fin (tcTables nBuf tb) → BufTy
  | .hbm, ⟨0, _⟩ => ⟨S8192x512, .f32⟩
  | .hbm, ⟨1, _⟩ => ⟨S2x131072, .i32⟩
  | .hbm, ⟨2, _⟩ => ⟨S8192, .i32⟩
  | .hbm, ⟨3, _⟩ => ⟨S512x256, .f32⟩
  | .hbm, ⟨4, _⟩ => ⟨S1792x256, .f32⟩
  | .hbm, ⟨5, _⟩ => ⟨S256, .f32⟩
  | .hbm, ⟨6, _⟩ => ⟨S1x131072, .i32⟩
  | .hbm, ⟨7, _⟩ => ⟨S131072, .i32⟩
  | .hbm, ⟨8, _⟩ => ⟨S1x131072, .i32⟩
  | .hbm, ⟨9, _⟩ => ⟨S131072, .i32⟩
  | .hbm, ⟨10, _⟩ => ⟨S_, .f32⟩
  | .hbm, ⟨11, _⟩ => ⟨S8192x8192, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x1, .i32⟩
  | .hbm, ⟨28, _⟩ => ⟨S131072x2, .i32⟩
  | .hbm, ⟨29, _⟩ => ⟨S_, .f32⟩
  | .hbm, ⟨30, _⟩ => ⟨S131072, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x1, .f32⟩
  | .hbm, ⟨36, _⟩ => ⟨S8192x1, .f32⟩
  | .hbm, ⟨37, _⟩ => ⟨S1x8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x1024, .f32⟩
  | .hbm, ⟨48, _⟩ => ⟨S8192x1792, .f32⟩
  | .hbm, ⟨49, _⟩ => ⟨S_, .f32⟩
  | .hbm, ⟨50, _⟩ => ⟨S64x1792, .f32⟩
  | .hbm, ⟨51, _⟩ => ⟨S8192x1, .i32⟩
  | .hbm, ⟨52, _⟩ => ⟨S64x1792, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S64, .f32⟩
  | .hbm, ⟨57, _⟩ => ⟨S8192x1, .i32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64x1, .f32⟩
  | .hbm, ⟨63, _⟩ => ⟨S64x1792, .f32⟩
  | .hbm, ⟨64, _⟩ => ⟨S64x1792, .f32⟩
  | .hbm, ⟨65, _⟩ => ⟨S64x256, .f32⟩
  | .hbm, ⟨66, _⟩ => ⟨S1x256, .f32⟩
  | .hbm, ⟨67, _⟩ => ⟨S64x256, .f32⟩
  | .hbm, ⟨68, _⟩ => ⟨S64x256, .f32⟩
  | .hbm, ⟨69, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S64x8192, .f32⟩
  | .local _ .vmem, ⟨8, _⟩ => ⟨S64x8192, .f32⟩
  | .local _ .vmem, ⟨9, _⟩ => ⟨S64x8192, .f32⟩
  | .local _ .vmem, ⟨10, _⟩ => ⟨S64x8192, .f32⟩
  | .local _ .vmem, ⟨11, _⟩ => ⟨S64x8192, .f32⟩
  | .local _ .vmem, ⟨12, _⟩ => ⟨S64x8192, .f32⟩
  | .local _ .vmem, ⟨13, _⟩ => ⟨S64x8192, .f32⟩
  | .local _ .vmem, ⟨14, _⟩ => ⟨S64x8192, .f32⟩
  | .local _ .vmem, ⟨15, _⟩ => ⟨S64x1, .f32⟩
  | .local _ .vmem, ⟨16, _⟩ => ⟨S64x1, .f32⟩
  | .local _ .vmem, ⟨17, _⟩ => ⟨S64x1, .f32⟩
  | .local _ .vmem, ⟨18, _⟩ => ⟨S64x1, .f32⟩
  | .local _ .vmem, ⟨19, _⟩ => ⟨S64x8192, .f32⟩
  | .local _ .vmem, ⟨20, _⟩ => ⟨S64x8192, .f32⟩
  | .local _ .vmem, ⟨21, _⟩ => ⟨S64x8192, .f32⟩
  | .local _ .vmem, ⟨22, _⟩ => ⟨S64x8192, .f32⟩
  | .local _ .vmem, ⟨23, _⟩ => ⟨S64x1, .f32⟩
  | .local _ .vmem, ⟨24, _⟩ => ⟨S64x1, .f32⟩
  | .local _ .vmem, ⟨25, _⟩ => ⟨S64x1, .f32⟩
  | .local _ .vmem, ⟨26, _⟩ => ⟨S64x1, .f32⟩
  | .local _ .vmem, ⟨27, _⟩ => ⟨S1x8192, .f32⟩
  | .local _ .vmem, ⟨28, _⟩ => ⟨S1x8192, .f32⟩
  | .local _ .vmem, ⟨29, _⟩ => ⟨S64x8192, .f32⟩
  | .local _ .vmem, ⟨30, _⟩ => ⟨S64x8192, .f32⟩
  | .local _ .vmem, ⟨31, _⟩ => ⟨S64x8192, .f32⟩
  | .local _ .vmem, ⟨32, _⟩ => ⟨S64x8192, .f32⟩
  | .local _ .vmem, ⟨33, _⟩ => ⟨S1024x512, .f32⟩
  | .local _ .vmem, ⟨34, _⟩ => ⟨S1024x512, .f32⟩
  | .local _ .vmem, ⟨35, _⟩ => ⟨S512x256, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1024x1024, .f32⟩
  | .local _ .vmem, ⟨40, _⟩ => ⟨S1024x1024, .f32⟩
  | .local _ .vmem, ⟨41, _⟩ => ⟨S1024x256, .f32⟩
  | .local _ .vmem, ⟨42, _⟩ => ⟨S1024x256, .f32⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | .local _ .vmem, ⟨46, _⟩ => ⟨S1024x1024, .f32⟩
  | .local _ .vmem, ⟨47, _⟩ => ⟨S1024x1024, .f32⟩
  | .local _ .vmem, ⟨48, _⟩ => ⟨S1024x256, .f32⟩
  | .local _ .vmem, ⟨49, _⟩ => ⟨S1024x256, .f32⟩
  | .local _ .vmem, ⟨50, _⟩ => ⟨S1024x256, .f32⟩
  | .local _ .vmem, ⟨51, _⟩ => ⟨S1024x256, .f32⟩
  | .local _ .vmem, ⟨52, _⟩ => ⟨S1024x256, .f32⟩
  | .local _ .vmem, ⟨53, _⟩ => ⟨S1024x1024, .f32⟩
  | .local _ .vmem, ⟨54, _⟩ => ⟨S1024x1024, .f32⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | .local _ .vmem, ⟨58, _⟩ => ⟨S1024x512, .f32⟩
  | .local _ .vmem, ⟨59, _⟩ => ⟨S1024x512, .f32⟩
  | .local _ .vmem, ⟨60, _⟩ => ⟨S1024x1024, .f32⟩
  | .local _ .vmem, ⟨61, _⟩ => ⟨S1024x1024, .f32⟩
  | .local _ .vmem, ⟨62, _⟩ => ⟨S1024x512, .f32⟩
  | .local _ .vmem, ⟨63, _⟩ => ⟨S1024x512, .f32⟩
  | .local _ .vmem, ⟨64, _⟩ => ⟨S1024x512, .f32⟩
  | .local _ .vmem, ⟨65, _⟩ => ⟨S1024x512, .f32⟩
  | .local _ .vmem, ⟨66, _⟩ => ⟨S1024x512, .f32⟩
  | .local _ .vmem, ⟨67, _⟩ => ⟨S64x1792, .f32⟩
  | .local _ .vmem, ⟨68, _⟩ => ⟨S1792x256, .f32⟩
  | .local _ .vmem, ⟨69, _⟩ => ⟨S64x256, .f32⟩
  | .local _ .vmem, ⟨70, _⟩ => ⟨S64x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_scratch0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_scratch0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_scratch0 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_scratch0 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_scratch0 : Ref sig .tc := ⟨.vmem, 66, rfl⟩
abbrev cc8_stg0_0 : Ref sig .tc := ⟨.vmem, 67, rfl⟩
abbrev cc8_stg1_0 : Ref sig .tc := ⟨.vmem, 68, rfl⟩
abbrev cc8_stg2_0 : Ref sig .tc := ⟨.vmem, 69, rfl⟩
abbrev cc8_scratch0 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem2_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc8_sem0_0 : DmaSem sig := 61
abbrev cc8_sem1_0 : DmaSem sig := 62
abbrev cc8_sem2_0 : DmaSem sig := 63

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x8192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S64x8192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x8192 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨3, ![8, 1, 1], ![false, false, false]⟩

def k3_cond2 (i : grid3.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 8], ![false, false, false]⟩

def k4_cond2 (i : grid4.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 8], ![false, false, false]⟩

def k5_cond2 (i : grid5.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 1, 8], ![false, false, false]⟩

def k6_cond2 (i : grid6.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 1, 8], ![false, false, false]⟩

def k7_cond2 (i : grid7.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 1, 1], ![false, false, false]⟩

def k8_cond2 (i : grid8.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S64x1792 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 1 → Memref sig .tc .vmem S1792x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 1 → Memref sig .tc .vmem S64x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  iota_S64x8192_d0_w32 : S64x8192.Iotas .tc 32 [0]
  iota_S64x8192_d1_w32 : S64x8192.Iotas .tc 32 [1]
  natLt_1_32 : 1 < 32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S64 : S64x8192.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S8192x1_S1x8192 : S8192x1.ShapeCasts S1x8192
  shapeCasts_S64x1_S64x1 : S64x1.ShapeCasts S64x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S64x1_S64x8192 : S64x1.Broadcasts S64x8192
  broadcasts_S1x8192_S64x8192 : S1x8192.Broadcasts S64x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  concatenates_S8192x256_S8192x256_S8192x512_d1 : Shape.Concatenates [S8192x256, S8192x256] S8192x512 1
  shapeCasts_S1024x512_S1024x512 : S1024x512.ShapeCasts S1024x512
  concatenates_S8192x512_S8192x512_S8192x1024_d1 : Shape.Concatenates [S8192x512, S8192x512] S8192x1024 1
  concatenates_S8192x256_S8192x512_S8192x1024_S8192x1792_d1 : Shape.Concatenates [S8192x256, S8192x512, S8192x1024] S8192x1792 1
  bcast_S_S64x1792 : S_.BroadcastsInDim S64x1792 (![] : Fin 0 → Fin S64x1792.rank)
  bcast_S8192_S8192x1_0 : S8192.BroadcastsInDim S8192x1 (![0] : Fin 1 → Fin S8192x1.rank)
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  bcast_S64x1_S64x1792_0_1 : S64x1.BroadcastsInDim S64x1792 (![0, 1] : Fin 2 → Fin S64x1792.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1792_S64x1792_0_0 : ∀ a, (![0, 0] : Fin 2 → Nat) a + S64x1792.size a ≤ S64x1792.size a
  h_S64x1792 : 0 < S64x1792.numel
  shapeCasts_S64x1792_S64x1792 : S64x1792.ShapeCasts S64x1792
  inb_S1792x256_S1792x256_0_0 : ∀ a, (![0, 0] : Fin 2 → Nat) a + S1792x256.size a ≤ S1792x256.size a
  h_S1792x256 : 0 < S1792x256.numel
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  scatter_S8192x8192_S131072x2_S131072_n_01_01_1_wf : ScatterDims.WF S8192x8192 S131072x2 S131072 [] [0, 1] [0, 1] 1
  dot_S1024x1024_S1024x1024_S1024x1024_1_0_0_1_n_n_wf : DotDims.WF S1024x1024 S1024x1024 S1024x1024 [1] [0] [0] [1] [] []
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x1024_S1024x512_S1024x512_1_0_0_1_n_n_wf : DotDims.WF S1024x1024 S1024x512 S1024x512 [1] [0] [0] [1] [] []
  scatter_S64x1792_S8192x1_S8192x1792_1_0_0_1_wf : ScatterDims.WF S64x1792 S8192x1 S8192x1792 [1] [0] [0] 1
  scatter_S64_S8192x1_S8192_n_0_0_1_wf : ScatterDims.WF S64 S8192x1 S8192 [] [0] [0] 1
  dot_S64x1792_S1792x256_S64x256_1_0_0_1_n_n_wf : DotDims.WF S64x1792 S1792x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S8192x8192.size a
  hwx1_0 : ∀ i : grid1.Coords, EltTy.bits .f32 = 32 ∨ (Rect.block (s := S8192x8192) S64x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x8192.size a ≤ S8192x8192.size a
  hwx1_1 : ∀ i : grid1.Coords, EltTy.bits .f32 = 32 ∨ (Rect.block (s := S8192x8192) S64x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8192.size a ≤ S8192x8192.size a
  hwx1_2 : ∀ i : grid1.Coords, EltTy.bits .f32 = 32 ∨ (Rect.block (s := S8192x8192) S64x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x8192.size a ≤ S8192x8192.size a
  hwx1_3 : ∀ i : grid1.Coords, EltTy.bits .f32 = 32 ∨ (Rect.block (s := S8192x8192) S64x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S8192x1.size a
  hwx1_4 : ∀ i : grid1.Coords, EltTy.bits .f32 = 32 ∨ (Rect.block (s := S8192x1) S64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S8192x1.size a
  hwx1_5 : ∀ i : grid1.Coords, EltTy.bits .f32 = 32 ∨ (Rect.block (s := S8192x1) S64x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x8192.size a ≤ S8192x8192.size a
  hwx2_0 : ∀ i : grid2.Coords, EltTy.bits .f32 = 32 ∨ (Rect.block (s := S8192x8192) S64x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x8192.size a ≤ S8192x8192.size a
  hwx2_1 : ∀ i : grid2.Coords, EltTy.bits .f32 = 32 ∨ (Rect.block (s := S8192x8192) S64x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S8192x1.size a
  hwx2_2 : ∀ i : grid2.Coords, EltTy.bits .f32 = 32 ∨ (Rect.block (s := S8192x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S8192x1.size a
  hwx2_3 : ∀ i : grid2.Coords, EltTy.bits .f32 = 32 ∨ (Rect.block (s := S8192x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8192.size a ≤ S1x8192.size a
  hwx2_4 : ∀ i : grid2.Coords, EltTy.bits .f32 = 32 ∨ (Rect.block (s := S1x8192) S1x8192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8192.size a ≤ S1x8192.size a
  hwx2_5 : ∀ i : grid2.Coords, EltTy.bits .f32 = 32 ∨ (Rect.block (s := S1x8192) S1x8192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x8192.size a ≤ S8192x8192.size a
  hwx2_6 : ∀ i : grid2.Coords, EltTy.bits .f32 = 32 ∨ (Rect.block (s := S8192x8192) S64x8192.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S64x8192.size a ≤ S8192x8192.size a
  hwx2_7 : ∀ i : grid2.Coords, EltTy.bits .f32 = 32 ∨ (Rect.block (s := S8192x8192) S64x8192.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .f32 = 32 ∨ (Rect.block (s := S8192x512) S1024x512.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S8192x256.size a
  hwx3_2 : ∀ i : grid3.Coords, EltTy.bits .f32 = 32 ∨ (Rect.block (s := S8192x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .f32 = 32 ∨ (Rect.block (s := S8192x8192) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S8192x256.size a
  hwx4_1 : ∀ i : grid4.Coords, EltTy.bits .f32 = 32 ∨ (Rect.block (s := S8192x256) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S8192x256.size a
  hwx4_2 : ∀ i : grid4.Coords, EltTy.bits .f32 = 32 ∨ (Rect.block (s := S8192x256) S1024x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x8192.size a
  hwx5_0 : ∀ i : grid5.Coords, EltTy.bits .f32 = 32 ∨ (Rect.block (s := S8192x8192) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S8192x256.size a
  hwx5_1 : ∀ i : grid5.Coords, EltTy.bits .f32 = 32 ∨ (Rect.block (s := S8192x256) S1024x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x256.size a ≤ S8192x256.size a
  hwx5_2 : ∀ i : grid5.Coords, EltTy.bits .f32 = 32 ∨ (Rect.block (s := S8192x256) S1024x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x8192.size a
  hwx6_0 : ∀ i : grid6.Coords, EltTy.bits .f32 = 32 ∨ (Rect.block (s := S8192x8192) S1024x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S8192x512.size a
  hwx6_1 : ∀ i : grid6.Coords, EltTy.bits .f32 = 32 ∨ (Rect.block (s := S8192x512) S1024x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S8192x512.size a
  hwx6_2 : ∀ i : grid6.Coords, EltTy.bits .f32 = 32 ∨ (Rect.block (s := S8192x512) S1024x512.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S8192x8192.size a
  hwx7_0 : ∀ i : grid7.Coords, EltTy.bits .f32 = 32 ∨ (Rect.block (s := S8192x8192) S1024x1024.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S8192x512.size a
  hwx7_1 : ∀ i : grid7.Coords, EltTy.bits .f32 = 32 ∨ (Rect.block (s := S8192x512) S1024x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x512.size a ≤ S8192x512.size a
  hwx7_2 : ∀ i : grid7.Coords, EltTy.bits .f32 = 32 ∨ (Rect.block (s := S8192x512) S1024x512.size (cc7_transform_2 i) (hinb7_2 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S64x1792.size a ≤ S64x1792.size a
  hwx8_0 : ∀ i : grid8.Coords, EltTy.bits .f32 = 32 ∨ (Rect.block (s := S64x1792) S64x1792.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1792x256.size a ≤ S1792x256.size a
  hwx8_1 : ∀ i : grid8.Coords, EltTy.bits .f32 = 32 ∨ (Rect.block (s := S1792x256) S1792x256.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S64x256.size a ≤ S64x256.size a
  hwx8_2 : ∀ i : grid8.Coords, EltTy.bits .f32 = 32 ∨ (Rect.block (s := S64x256) S64x256.size (cc8_transform_2 i) (hinb8_2 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def scatter_S64x1792_S8192x1_S8192x1792_1_0_0_1 : ScatterDims S64x1792 S8192x1 S8192x1792 where
  updateWindowDims := [1]
  insertedWindowDims := [0]
  scatterDimsToOperandDims := [0]
  indexVectorDim := 1
  wf := scatter_S64x1792_S8192x1_S8192x1792_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def dot_S64x1792_S1792x256_S64x256_1_0_0_1_n_n : DotDims S64x1792 S1792x256 S64x256 where
  lhsContracting := [1]
  rhsContracting := [0]
  lhsNonContracting := [0]
  rhsNonContracting := [1]
  lhsBatch := []
  rhsBatch := []
  wf := dot_S64x1792_S1792x256_S64x256_1_0_0_1_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v19) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S64x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S64x8192.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S64x8192.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21_2) S64x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_3) S64x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21_0) S64x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21_1) S64x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21_2) S64x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21_3) S64x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x8192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x8192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24_0) S64x8192.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v24_1) S64x8192.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg0) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S512x256.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v24_0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v24_1) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S1024x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S1024x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v24_0) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v28) S1024x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v29) S1024x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v24_1) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v28) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v30) S1024x512.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v44) S64x1792.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg4) S1792x256.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v45) S64x256.size cc8_transform_2 reads8_2 true false 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S2x131072 : Shape := ⟨2, ![2, 131072]⟩
abbrev S8192 : Shape := ⟨1, ![8192]⟩
abbrev S512x256 : Shape := ⟨2, ![512, 256]⟩
abbrev S1792x256 : Shape := ⟨2, ![1792, 256]⟩
abbrev S256 : Shape := ⟨1, ![256]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192x1 : Shape := ⟨2, ![8192, 1]⟩
abbrev S1x8192 : Shape := ⟨2, ![1, 8192]⟩
abbrev S8192x256 : Shape := ⟨2, ![8192, 256]⟩
abbrev S8192x1024 : Shape := ⟨2, ![8192, 1024]⟩
abbrev S8192x1792 : Shape := ⟨2, ![8192, 1792]⟩
abbrev S64x1792 : Shape := ⟨2, ![64, 1792]⟩
abbrev S64 : Shape := ⟨1, ![64]⟩
abbrev S64x1 : Shape := ⟨2, ![64, 1]⟩
abbrev S64x256 : Shape := ⟨2, ![64, 256]⟩
abbrev S1x256 : Shape := ⟨2, ![1, 256]⟩

abbrev nBuf : Space → Nat
  | .hbm => 129
  | .vmem => 0
  | .smem => 0
  | _ => 0

abbrev hbmTy0_0 (i : Nat) : BufTy := match i % 128 with
  | 0 => ⟨S8192x512, .f32⟩
  | 1 => ⟨S2x131072, .i32⟩
  | 2 => ⟨S8192, .i32⟩
  | 3 => ⟨S512x256, .f32⟩
  | 4 => ⟨S1792x256, .f32⟩
  | 5 => ⟨S256, .f32⟩
  | 6 => ⟨S1x131072, .i32⟩
  | 7 => ⟨S131072, .i32⟩
  | 8 => ⟨S1x131072, .i32⟩
  | 9 => ⟨S131072, .i32⟩
  | 10 => ⟨S_, .f32⟩
  | 11 => ⟨S8192x8192, .f32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x1, .i32⟩
  | 28 => ⟨S131072x2, .i32⟩
  | 29 => ⟨S_, .f32⟩
  | 30 => ⟨S131072, .f32⟩
  | 31 => ⟨S8192x8192, .f32⟩
  | 32 => ⟨S8192x8192, .i32⟩
  | 33 => ⟨S8192x8192, .i32⟩
  | 34 => ⟨S_, .i32⟩
  | 35 => ⟨S8192x8192, .i32⟩
  | 36 => ⟨S8192x8192, .i32⟩
  | 37 => ⟨S8192x8192, .i1⟩
  | 38 => ⟨S8192x8192, .f32⟩
  | 39 => ⟨S8192x8192, .f32⟩
  | 40 => ⟨S_, .f32⟩
  | 41 => ⟨S8192x8192, .f32⟩
  | 42 => ⟨S8192x8192, .i1⟩
  | 43 => ⟨S8192x8192, .f32⟩
  | 44 => ⟨S8192x8192, .f32⟩
  | 45 => ⟨S_, .f32⟩
  | 46 => ⟨S8192x8192, .f32⟩
  | 47 => ⟨S8192x8192, .i1⟩
  | 48 => ⟨S8192x8192, .f32⟩
  | 49 => ⟨S8192x8192, .f32⟩
  | 50 => ⟨S8192x8192, .f32⟩
  | 51 => ⟨S_, .f32⟩
  | 52 => ⟨S8192x8192, .f32⟩
  | 53 => ⟨S8192x8192, .i1⟩
  | 54 => ⟨S8192x8192, .f32⟩
  | 55 => ⟨S_, .f32⟩
  | 56 => ⟨S8192, .f32⟩
  | 57 => ⟨S_, .f32⟩
  | 58 => ⟨S8192, .f32⟩
  | 59 => ⟨S8192, .i1⟩
  | 60 => ⟨S_, .f32⟩
  | 61 => ⟨S8192, .f32⟩
  | 62 => ⟨S8192, .f32⟩
  | 63 => ⟨S_, .f32⟩
  | 64 => ⟨S_, .f32⟩
  | 65 => ⟨S8192, .f32⟩
  | 66 => ⟨S8192, .f32⟩
  | 67 => ⟨S8192x1, .f32⟩
  | 68 => ⟨S8192x8192, .f32⟩
  | 69 => ⟨S8192x8192, .f32⟩
  | 70 => ⟨S1x8192, .f32⟩
  | 71 => ⟨S8192x8192, .f32⟩
  | 72 => ⟨S8192x8192, .f32⟩
  | 73 => ⟨S_, .f32⟩
  | 74 => ⟨S8192, .f32⟩
  | 75 => ⟨S_, .f32⟩
  | 76 => ⟨S8192, .f32⟩
  | 77 => ⟨S8192, .i1⟩
  | 78 => ⟨S_, .f32⟩
  | 79 => ⟨S8192, .f32⟩
  | 80 => ⟨S8192, .f32⟩
  | 81 => ⟨S_, .f32⟩
  | 82 => ⟨S_, .f32⟩
  | 83 => ⟨S8192, .f32⟩
  | 84 => ⟨S8192, .f32⟩
  | 85 => ⟨S8192x1, .f32⟩
  | 86 => ⟨S8192x8192, .f32⟩
  | 87 => ⟨S8192x8192, .f32⟩
  | 88 => ⟨S1x8192, .f32⟩
  | 89 => ⟨S8192x8192, .f32⟩
  | 90 => ⟨S8192x8192, .f32⟩
  | 91 => ⟨S8192x256, .f32⟩
  | 92 => ⟨S_, .f32⟩
  | 93 => ⟨S8192x256, .f32⟩
  | 94 => ⟨S8192x256, .f32⟩
  | 95 => ⟨S8192x256, .f32⟩
  | 96 => ⟨S8192x256, .f32⟩
  | 97 => ⟨S8192x512, .f32⟩
  | 98 => ⟨S_, .f32⟩
  | 99 => ⟨S8192x512, .f32⟩
  | 100 => ⟨S8192x512, .f32⟩
  | 101 => ⟨S8192x512, .f32⟩
  | 102 => ⟨S8192x512, .f32⟩
  | 103 => ⟨S8192x1024, .f32⟩
  | 104 => ⟨S_, .f32⟩
  | 105 => ⟨S8192x1024, .f32⟩
  | 106 => ⟨S8192x1024, .f32⟩
  | 107 => ⟨S8192x1792, .f32⟩
  | 108 => ⟨S_, .f32⟩
  | 109 => ⟨S64x1792, .f32⟩
  | 110 => ⟨S8192x1, .i32⟩
  | 111 => ⟨S64x1792, .f32⟩
  | 112 => ⟨S_, .f32⟩
  | 113 => ⟨S8192, .f32⟩
  | 114 => ⟨S_, .f32⟩
  | 115 => ⟨S64, .f32⟩
  | 116 => ⟨S8192x1, .i32⟩
  | 117 => ⟨S64, .f32⟩
  | 118 => ⟨S_, .f32⟩
  | 119 => ⟨S64, .f32⟩
  | 120 => ⟨S64, .f32⟩
  | 121 => ⟨S64x1, .f32⟩
  | 122 => ⟨S64x1792, .f32⟩
  | 123 => ⟨S64x1792, .f32⟩
  | 124 => ⟨S64x256, .f32⟩
  | 125 => ⟨S1x256, .f32⟩
  | 126 => ⟨S64x256, .f32⟩
  | 127 => ⟨S64x256, .f32⟩
  | _ => ⟨S8192x512, .f32⟩

abbrev hbmTy0_1 (i : Nat) : BufTy := match i % 128 with
  | 0 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_call0_v0 : Ref sig .tc := ⟨.hbm, 64, rfl⟩
abbrev main_call0_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_call1_v0 : Ref sig .tc := ⟨.hbm, 82, rfl⟩
abbrev main_call1_v1 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call3_cst : Ref sig .tc := ⟨.hbm, 98, rfl⟩
abbrev main_call3_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call4_cst : Ref sig .tc := ⟨.hbm, 104, rfl⟩
abbrev main_call4_v0 : Ref sig .tc := ⟨.hbm, 105, rfl⟩
abbrev main_v72 : Ref sig .tc := ⟨.hbm, 106, rfl⟩
abbrev main_v73 : Ref sig .tc := ⟨.hbm, 107, rfl⟩
abbrev main_cst_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_17 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_19 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  concatenates_S8192x256_S8192x256_S8192x512_d1 : Shape.Concatenates [S8192x256, S8192x256] S8192x512 1
  bcast_S_S8192x512 : S_.BroadcastsInDim S8192x512 (![] : Fin 0 → Fin S8192x512.rank)
  concatenates_S8192x512_S8192x512_S8192x1024_d1 : Shape.Concatenates [S8192x512, S8192x512] S8192x1024 1
  bcast_S_S8192x1024 : S_.BroadcastsInDim S8192x1024 (![] : Fin 0 → Fin S8192x1024.rank)
  concatenates_S8192x256_S8192x512_S8192x1024_S8192x1792_d1 : Shape.Concatenates [S8192x256, S8192x512, S8192x1024] S8192x1792 1
  bcast_S_S64x1792 : S_.BroadcastsInDim S64x1792 (![] : Fin 0 → Fin S64x1792.rank)
  bcast_S_S64 : S_.BroadcastsInDim S64 (![] : Fin 0 → Fin S64.rank)
  bcast_S64_S64x1_0 : S64.BroadcastsInDim S64x1 (![0] : Fin 1 → Fin S64x1.rank)
  bcast_S64x1_S64x1792_0_1 : S64x1.BroadcastsInDim S64x1792 (![0, 1] : Fin 2 → Fin S64x1792.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  scatter_S8192x8192_S131072x2_S131072_n_01_01_1_wf : ScatterDims.WF S8192x8192 S131072x2 S131072 [] [0, 1] [0, 1] 1
  dot_S8192x8192_S8192x8192_S8192x8192_1_0_0_1_n_n_wf : DotDims.WF S8192x8192 S8192x8192 S8192x8192 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x8192_S8192x512_S8192x512_1_0_0_1_n_n_wf : DotDims.WF S8192x8192 S8192x512 S8192x512 [1] [0] [0] [1] [] []
  scatter_S64x1792_S8192x1_S8192x1792_1_0_0_1_wf : ScatterDims.WF S64x1792 S8192x1 S8192x1792 [1] [0] [0] 1
  scatter_S64_S8192x1_S8192_n_0_0_1_wf : ScatterDims.WF S64 S8192x1 S8192 [] [0] [0] 1
  dot_S64x1792_S1792x256_S64x256_1_0_0_1_n_n_wf : DotDims.WF S64x1792 S1792x256 S64x256 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def scatter_S64x1792_S8192x1_S8192x1792_1_0_0_1 : ScatterDims S64x1792 S8192x1 S8192x1792 where
  updateWindowDims := [1]
  insertedWindowDims := [0]
  scatterDimsToOperandDims := [0]
  indexVectorDim := 1
  wf := scatter_S64x1792_S8192x1_S8192x1792_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def dot_S64x1792_S1792x256_S64x256_1_0_0_1_n_n : DotDims S64x1792 S1792x256 S64x256 where
  lhsContracting := [1]
  rhsContracting := [0]
  lhsNonContracting := [0]
  rhsNonContracting := [1]
  lhsBatch := []
  rhsBatch := []
  wf := dot_S64x1792_S1792x256_S64x256_1_0_0_1_n_n_wf

class Facts : Prop extends Facts₀ where

variable [Facts]
-- ==== Proof.LibA.lean ====
import Idealize.ShloMosaic.Lib.Pipeline.FrameBody
import Idealize.ShloMosaic.Lib.Tactic

namespace Idealize.ShloMosaic.Memref.IsWhole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F]

local notation "𝕄" => MT nD τ sig Unit (Elt F) ℕ (UR sig nD τ) ℕ

-- a whole memref is held at X exactly when it is held at the raw contents that read X
theorem owns_eq {sh : Shape} {m : Memref sig .tc .vmem sh .f32} (h : m.IsWhole) (c : Dev nD) (X : Vec F sh .f32) :
    (owns (c : Thread nD τ) m fullShare X : sProp 𝕄) = (m.view.loc (c : Thread nD τ) ↦[m.view.set]{fullShare} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

end Idealize.ShloMosaic.Memref.IsWhole
-- ==== Proof.K.Reg0Runs.lean ====
import proofs.«176514_j47991964565814_1_alg».proof.Proof.KLaunch
import proofs.«176514_j47991964565814_1_alg».proof.Proof.LibA
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first0 (i : grid0.Coords) : Prop :=
  (Scalar.cmpi .ne (Scalar.extui (Scalar.cmpi .eq (BitVec.ofNat 32 (i 2).val) 0#32)) 0#32) = 1#1
theorem first0_iff : ∀ t : Fin grid0.N, first0 (grid0.coords t) ↔ t.val % 8 = 0 := by decide +kernel

abbrev last0 (i : grid0.Coords) : Prop := k0_cond2 i = 1#1
theorem last0_iff : ∀ t : Fin grid0.N, last0 (grid0.coords t) ↔ t.val % 8 = 7 := by decide +kernel

theorem live0_0 : ∀ t : Fin cfg0.N, cfg0.idle 0 (grid0.coords t) = false := fun _ => rfl
theorem live0_1 : ∀ t : Fin cfg0.N, cfg0.idle 1 (grid0.coords t) = false := fun _ => rfl

theorem rest0_2 : ∀ t : Fin grid0.N, ¬last0 (grid0.coords t) → cfg0.idle 2 (grid0.coords t) = true := by decide +kernel

theorem noFlush0_2 : ∀ t : Fin grid0.N, ¬last0 (grid0.coords t) → win0_2.flush t = false := by decide +kernel

theorem live0_2 : ∀ t : Fin grid0.N, last0 (grid0.coords t) → cfg0.idle 2 (grid0.coords t) = false := by decide +kernel

abbrev VO0 : View sig .tc .vmem S1024x1024 .f32 := (Memref.whole cc0_stg2_0 : Memref sig .tc .vmem S1024x1024 .f32).view

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

abbrev acM0 : Memref sig .tc .vmem S1024x1024 .f32 := Memref.whole cc0_scratch0
abbrev VA0 : View sig .tc .vmem S1024x1024 .f32 := acM0.view

theorem PhiA0_eq (c : Dev nD) :
    (Pipeline.ΦA spec0 c : sProp 𝕄)
      = iprop(iprop(iprop((∃ d, owns (c : Thread nD τ) acM0 fullShare d)) ∗ Pipeline.scopedRestBut spec0 c [cc0_scratch0]) ∗ (∃ r, prngReg c r)) := by
  unfold Pipeline.ΦA; rw [scopedRest0_split]; simp only [acM0, owns_whole]; try rfl

theorem r0_hz : (![0, 0] : Fin 2 → Nat) = fun _ => 0 := funext fun a => by fin_cases a <;> rfl

variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (x0 x1 xa : Vec F S1024x1024 .f32)

theorem run0_first (hf : first0 i) (hl : ¬last0 i) (xo : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k0_pay2 x0 x1 k0_pay1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  rw [harg3.owns_eq c x0, harg4.owns_eq c x1, harg5.owns_eq c xo]
  unfold owns
  iintro ⟨H0, H1, H2, ⟨%da, %fa, -, HA⟩, Hk⟩
  sl_exec (disch := first | exact hf | exact hl)
  sl_step
  iapply Hk
  isplitl [H0]; · iexact H0
  isplitl [H1]; · iexact H1
  isplitl [H2]; · iexact H2
  iexists _; isplitr; swap; · iexact HA
  ipureintro
  refine (View.read_writes_eq_canon _ _ _ fun y => ?_).trans ?_
  · exact View.cover_of_tiledL _ S1024x1024.size (by sl_kernel_rfl) y
  try sl_unfold_words
  rw [View.canon_cons_unit_zero (S := S1024x1024) r0_hz, View.readCov_unit_zero (S := S1024x1024) _ r0_hz]
  simp only [View.readAt_eq_ld, harg3.read_unread, harg4.read_unread, View.ld_unit_zero (S := S1024x1024) r0_hz]

theorem run0_mid (hf : ¬first0 i) (hl : ¬last0 i) (xo : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xa
        ∗ (iprop(owns (c : Thread nD τ) arg3 fullShare x0 ∗ owns (c : Thread nD τ) arg4 fullShare x1 ∗ owns (c : Thread nD τ) arg5 fullShare xo ∗ owns (c : Thread nD τ) arg6 fullShare (k0_pay2 x0 x1 xa)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  rw [harg3.owns_eq c x0, harg4.owns_eq c x1, harg5.owns_eq c xo, harg6.owns_eq c xa]
  unfold owns
  iintro ⟨H0, H1, H2, HA, Hk⟩
  sl_exec (disch := first | exact hf | exact hl)
  sl_step
  iapply Hk
  isplitl [H0]; · iexact H0
  isplitl [H1]; · iexact H1
  isplitl [H2]; · iexact H2
  iexists _; isplitr; swap; · iexact HA
  ipureintro
  refine (View.read_writes_eq_canon _ _ _ fun y => ?_).trans ?_
  · exact View.cover_of_tiledL _ S1024x1024.size (by sl_kernel_rfl) y
  try sl_unfold_words
  rw [View.canon_unit_zero r0_hz]
  simp only [View.readAt_eq_ld, harg3.read_unread, harg4.read_unread, harg6.read_unread, View.ld_unit_zero (S := S1024x1024) r0_hz]

theorem run0_last (hf : ¬first0 i) (hl : last0 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xa
        ∗ (iprop(owns (c : Thread nD τ) arg3 fullShare x0 ∗ owns (c : Thread nD τ) arg4 fullShare x1 ∗ owns (c : Thread nD τ) arg5 fullShare (k0_pay2 x0 x1 xa) ∗ owns (c : Thread nD τ) arg6 fullShare (k0_pay2 x0 x1 xa)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  rw [harg3.owns_eq c x0, harg4.owns_eq c x1, harg6.owns_eq c xa]
  unfold owns
  iintro ⟨H0, H1, ⟨%d2, %f2, -, H2⟩, HA, Hk⟩
  sl_exec (disch := first | exact hf | exact hl)
  sl_step
  iapply Hk
  isplitl [H0]; · iexact H0
  isplitl [H1]; · iexact H1
  isplitl [H2]
  · iexists _; isplitr; swap; · iexact H2
    ipureintro
    refine (View.read_writes_eq_canon _ _ _ fun y => ?_).trans ?_
    · exact View.cover_of_tiledL _ S1024x1024.size (by sl_kernel_rfl) y
    try sl_unfold_words
    rw [View.canon_unit_zero r0_hz, View.readCov_unit_zero (S := S1024x1024) _ r0_hz]
    simp only [View.readAt_eq_ld, harg3.read_unread, harg4.read_unread, harg6.read_unread, View.ld_unit_zero (S := S1024x1024) r0_hz]
  iexists _; isplitr; swap; · iexact HA
  ipureintro
  refine (View.read_writes_eq_canon _ _ _ fun y => ?_).trans ?_
  · exact View.cover_of_tiledL _ S1024x1024.size (by sl_kernel_rfl) y
  try sl_unfold_words
  rw [View.canon_unit_zero r0_hz]
  simp only [View.readAt_eq_ld, harg3.read_unread, harg4.read_unread, harg6.read_unread, View.ld_unit_zero (S := S1024x1024) r0_hz]

end Cert.Kernel.Hand

end
-- ==== Proof.K.Reg0.lean ====
import proofs.«176514_j47991964565814_1_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Frame rule: a triple for the body extends by everything the body does not touch.
theorem body_frame {c : Dev nD} {t : Fin cfg0.N} {D0 D1 D : Type} {A Apre Apost R G Ho X0 X1 O' : sProp 𝕄} {O Opre Opost : D → sProp 𝕄}
    (hrun : ∀ d K, iprop(X0 ∗ X1 ∗ Opre d ∗ Apre ∗ (iprop(X0 ∗ X1 ∗ Opost d ∗ Apost) -∗ K ⟨⟩))
      ⊢ wp frame (wpE (defs₀ (F := F)) Variants.none c none) Set.univ (bodyAt0 t) K)
    (hA : A ⊢ Apre) (hO : ∀ d, O d ⊢ Opre d) (hO' : ∀ d, Opost d ⊢ O') :
    iprop(iprop(iprop(A ∗ R) ∗ G) ∗ Ho ∗ (∃ _d : D0, X0) ∗ (∃ _d : D1, X1) ∗ (∃ d, O d))
      ⊢ wp frame (wpE (defs₀ (F := F)) Variants.none c none) Set.univ (bodyAt0 t)
          (fun _ => iprop(iprop(iprop(Apost ∗ R) ∗ G) ∗ Ho ∗ X0 ∗ X1 ∗ O')) := by
  iintro ⟨⟨⟨HA, HR⟩, Hg⟩, Ho, ⟨%d0, H0⟩, ⟨%d1, H1⟩, ⟨%d, H2⟩⟩
  iapply hrun d _
  isplitl [H0]; · iexact H0
  isplitl [H1]; · iexact H1
  isplitl [H2]; · iapply hO d; iexact H2
  isplitl [HA]; · iapply hA; iexact HA
  iintro ⟨H0, H1, H2, HA⟩
  iframe
  iapply hO' d; iexact H2

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def accStep0 (t : Fin cfg0.N) (prev : Vec F S1024x1024 .f32) : Vec F S1024x1024 .f32 :=
  k0_pay2 (iblk0 V c 0 t) (iblk0 V c 1 t) (if t.val % 8 = 0 then k0_pay1 else prev)

-- The accumulated value before position `n`: the steps at the points below it, composed.
def accIn0 : (n : ℕ) → n ≤ cfg0.N → Vec F S1024x1024 .f32
  | 0, _ => k0_pay1
  | n + 1, hn => accStep0 V c ⟨n, hn⟩ (accIn0 n (Nat.le_of_lt hn))

theorem accIn0_succ (t : Fin cfg0.N) :
    accIn0 V c (t.val + 1) t.isLt = accStep0 V c t (accIn0 V c t.val (Nat.le_of_lt t.isLt)) := rfl

def outAt0 (t : Fin cfg0.N) : Vec F S1024x1024 .f32 := accIn0 V c (t.val + 1) t.isLt

def Phi0 (n : ℕ) (h : n ≤ cfg0.N) : sProp 𝕄 :=
  iprop(iprop((if n = 0 then iprop(∃ d, owns (c : Thread nD τ) acM0 fullShare d) else owns (c : Thread nD τ) acM0 fullShare (accIn0 V c n h))
    ∗ Pipeline.scopedRestBut spec0 c [cc0_scratch0]) ∗ (∃ r, prngReg c r))

theorem acc_any (n : ℕ) (h : n ≤ cfg0.N) :
    (if n = 0 then iprop(∃ d, owns (c : Thread nD τ) acM0 fullShare d) else owns (c : Thread nD τ) acM0 fullShare (accIn0 V c n h) : sProp 𝕄)
      ⊢ iprop(∃ d, owns (c : Thread nD τ) acM0 fullShare d) := by
  split
  · exact .rfl
  · iintro H; iexists _; iexact H

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := Phi0 V c t.val (Nat.le_of_lt_succ t.isLt)
  q w := match w with
    | ⟨0, _⟩ => fullShare.left
    | ⟨1, _⟩ => fullShare.right
    | ⟨2, _⟩ => fullShare
  owed _ := 0

theorem A_eq0 (w : Fin cfg0.W) : (dat0 V c).A w = V c (Pipeline.arrRef spec0 w) := rfl
theorem after0_2 (t : Fin cfg0.N) : (dat0 V c).after 2 t = outAt0 V c t := rfl

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1]
  rw [show (dat0 V c).owesAt () t.succ = (dat0 V c).owesAt () t.castSucc from rfl,
    show (dat0 V c).Φ t.succ = Phi0 V c (t.val + 1) t.isLt from rfl,
    show (dat0 V c).Φ t.castSucc = Phi0 V c t.val (Nat.le_of_lt t.isLt) from rfl, Phi0, Phi0,
    if_neg (Nat.succ_ne_zero _), accIn0_succ, accStep0,
    show (dat0 V c).leavesExact 0 t = owns (c : Thread nD τ) (ms0_0 t) fullShare (iblk0 V c 0 t) from by
      unfold Dat.leavesExact; rw [live0_0 t]; rfl,
    show (dat0 V c).leavesExact 1 t = owns (c : Thread nD τ) (ms0_1 t) fullShare (iblk0 V c 1 t) from by
      unfold Dat.leavesExact; rw [live0_1 t]; rfl]
  by_cases h0 : t.val % 8 = 0
  · have hl : ¬last0 (grid0.coords t) := fun h => by have := (last0_iff t).mp h; omega
    rw [Dat.leavesExact_idle (dat0 V c) 2 t (rest0_2 t hl) (noFlush0_2 t hl), if_pos h0]
    exact body_frame (fun d K => run0_first c _ _ _ _ _ _ _ _ _ _ _ ((first0_iff t).mpr h0) hl _ Set.univ K) (acc_any V c _ _)
      (fun _ => .rfl) (fun d => by iintro H; iexists d; iexact H)
  · have hf : ¬first0 (grid0.coords t) := fun h => h0 ((first0_iff t).mp h)
    rw [if_neg h0, if_neg fun e => h0 (by rw [e])]
    by_cases h7 : t.val % 8 = 7
    · rw [show (dat0 V c).leavesExact 2 t = owns (c : Thread nD τ) (ms0_2 t) fullShare (outAt0 V c t) from by
          unfold Dat.leavesExact; rw [live0_2 t ((last0_iff t).mpr h7)]; rfl, outAt0, accIn0_succ, accStep0, if_neg h0]
      exact body_frame (fun d K => run0_last c _ _ _ _ _ _ _ _ _ _ _ _ hf ((last0_iff t).mpr h7) Set.univ K) .rfl
        (fun d => by iintro H; iexists _; iexact H) (fun _ => .rfl)
    · have hl : ¬last0 (grid0.coords t) := fun h => h7 ((last0_iff t).mp h)
      rw [Dat.leavesExact_idle (dat0 V c) 2 t (rest0_2 t hl) (noFlush0_2 t hl)]
      exact body_frame (fun d K => run0_mid c _ _ _ _ _ _ _ _ _ _ _ _ hf hl _ Set.univ K) .rfl
        (fun _ => .rfl) (fun d => by iintro H; iexists d; iexact H)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq, show (dat0 V c).Φ 0 = Phi0 V c 0 (Nat.zero_le _) from rfl, Phi0, if_pos rfl]
  try exact .rfl

theorem hout0 (c : Dev nD) : (dat0 V c).Φ (Fin.last cfg0.N) ⊢ Pipeline.ΦA spec0 c := by
  rw [PhiA0_eq, show (dat0 V c).Φ (Fin.last cfg0.N) = Phi0 V c cfg0.N (Nat.le_refl _) from rfl, Phi0]
  exact sep_mono (sep_mono (acc_any V c _ _) .rfl) .rfl

end Cert.Kernel.Hand

end
-- ==== Proof.K.Reg1.lean ====
import proofs.«176514_j47991964565814_1_alg».proof.Proof.KLaunch
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def band1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem hz1 : (![0, 0] : Fin 2 → Nat) = fun _ => 0 := funext fun a => by fin_cases a <;> rfl

-- Every output is stored whole once, so it ends at that store's payload over the two input bands, which are only read.
theorem build_adj_band (c : Dev nD) (E : Set ℕ) (i : grid1.Coords)
    (arg1 arg2 arg3 arg4 : Memref sig .tc .vmem S64x8192 .f32) (arg5 arg6 : Memref sig .tc .vmem S64x1 .f32)
    (harg1 : arg1.IsWhole) (harg2 : arg2.IsWhole) (harg3 : arg3.IsWhole) (harg4 : arg4.IsWhole) (harg5 : arg5.IsWhole) (harg6 : arg6.IsWhole)
    (a aa : Vec F S64x8192 .f32) (K : PUnit → sProp 𝕄) :
    iprop(owns c arg1 fullShare a ∗ owns c arg2 fullShare aa
        ∗ (∃ d, owns c arg3 fullShare d) ∗ (∃ d, owns c arg4 fullShare d)
        ∗ (∃ d, owns c arg5 fullShare d) ∗ (∃ d, owns c arg6 fullShare d)
        ∗ (iprop(owns c arg1 fullShare a ∗ owns c arg2 fullShare aa
            ∗ owns c arg3 fullShare (k1_pay4 i a)
            ∗ owns c arg4 fullShare (k1_pay5 i a aa)
            ∗ owns c arg5 fullShare (k1_pay6 i a)
            ∗ owns c arg6 fullShare (k1_pay1 (k1_pay5 i a aa))) -∗ K ⟨⟩))
      ⊢ wp frame (wpE (defs₀ (F := F)) Variants.none c none) E
          (cc1__build_adj_kernel i arg1 harg1 arg2 harg2 arg3 harg3 arg4 harg4 arg5 harg5 arg6 harg6) K := by
  simp only [cc1__build_adj_kernel_eq_skeleton]; unfold cc1__build_adj_kernel_skel
  simp only [k1_part1_eq_skeleton]; unfold k1_part1_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf1 hf2
  sl_exec
  sl_step
  iapply Hk
  isplitl [H1]; · iexists f1; iframe H1; ipureintro; rfl
  isplitl [H2]; · iexists f2; iframe H2; ipureintro; rfl
  isplitl [H3]; · iexists _; iframe H3; ipureintro; exact (View.read_writes_eq_canon _ _ _ (View.cover_of_tiled _ S64x8192.size (by rfl))).trans (by
      rw [View.canon_unit_zero hz1]; simp only [View.readAt_eq_ld, View.ld_unit_zero (S := S64x8192) hz1])
  isplitl [H4]; · iexists _; iframe H4; ipureintro; exact (View.read_writes_eq_canon _ _ _ (View.cover_of_tiled _ S64x8192.size (by rfl))).trans (by
      rw [View.canon_unit_zero hz1]; simp only [View.readAt_eq_ld, View.ld_unit_zero (S := S64x8192) hz1])
  isplitl [H5]; · iexists _; iframe H5; ipureintro; exact (View.read_writes_eq_canon _ _ _ (View.cover_of_tiled _ S64x1.size (by rfl))).trans (by
      rw [View.canon_unit_zero hz1]; simp only [View.readAt_eq_ld, View.ld_unit_zero (S := S64x8192) hz1])
  iexists _; iframe H6; ipureintro; exact (View.read_writes_eq_canon _ _ _ (View.cover_of_tiled _ S64x1.size (by rfl))).trans (by
      rw [View.canon_unit_zero hz1]; simp only [View.readAt_eq_ld, View.ld_unit_zero (S := S64x8192) hz1])

def dat1 (c : Dev nD) : Dat τ (Elt F) Unit ℕ (UR sig nD τ) ℕ cfg1 c where
  A w := V c (Pipeline.arrRef spec1 w)
  after w t := match w with
    | ⟨0, _⟩ => band1 V c 0 t
    | ⟨1, _⟩ => band1 V c 1 t
    | ⟨2, _⟩ => k1_pay4 (grid1.coords t) (band1 V c 0 t)
    | ⟨3, _⟩ => k1_pay5 (grid1.coords t) (band1 V c 0 t) (band1 V c 1 t)
    | ⟨4, _⟩ => k1_pay6 (grid1.coords t) (band1 V c 0 t)
    | ⟨5, _⟩ => k1_pay1 (k1_pay5 (grid1.coords t) (band1 V c 0 t) (band1 V c 1 t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = k1_pay4 (grid1.coords t) (band1 V c 0 t) := by dsimp only [dat1]
theorem after1_3 (c : Dev nD) (t : Fin cfg1.N) :
    (dat1 V c).after 3 t = k1_pay5 (grid1.coords t) (band1 V c 0 t) (band1 V c 1 t) := by dsimp only [dat1]
theorem after1_4 (c : Dev nD) (t : Fin cfg1.N) :
    (dat1 V c).after 4 t = k1_pay6 (grid1.coords t) (band1 V c 0 t) := by dsimp only [dat1]
theorem after1_5 (c : Dev nD) (t : Fin cfg1.N) :
    (dat1 V c).after 5 t = k1_pay1 (k1_pay5 (grid1.coords t) (band1 V c 0 t) (band1 V c 1 t)) := by dsimp only [dat1]

theorem before1_0 (c : Dev nD) (t : Fin cfg1.N) (d) : (dat1 V c).before 0 t d = band1 V c 0 t :=
  (dat1 V c).before_in_eq_fetched 0 rfl (fun _ => rfl) (fun _ _ _ => rfl) (fun _ => rfl) t d
theorem before1_1 (c : Dev nD) (t : Fin cfg1.N) (d) : (dat1 V c).before 1 t d = band1 V c 1 t :=
  (dat1 V c).before_in_eq_fetched 1 rfl (fun _ => rfl) (fun _ _ _ => rfl) (fun _ => rfl) t d

-- At any point the inputs' buffers hold their bands, so the body's triple applies; the invariant and the debt pass through unread.
theorem sound_body1 (c : Dev nD) (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d))
      ∗ (∃ d, owns c (st1_4 t) fullShare ((dat1 V c).before 4 t d))
      ∗ (∃ d, owns c (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns c (st1_0 t) fullShare ((dat1 V c).after 0 t)
        ∗ owns c (st1_1 t) fullShare ((dat1 V c).after 1 t)
        ∗ owns c (st1_2 t) fullShare ((dat1 V c).after 2 t)
        ∗ owns c (st1_3 t) fullShare ((dat1 V c).after 3 t)
        ∗ owns c (st1_4 t) fullShare ((dat1 V c).after 4 t)
        ∗ owns c (st1_5 t) fullShare ((dat1 V c).after 5 t))) := by
  unfold bodyAt1
  simp only [before1_0, before1_1]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩⟩
  iapply (build_adj_band c Set.univ (grid1.coords t) _ _ _ _ _ _ _ _ _ _ _ _ (band1 V c 0 t) (band1 V c 1 t) _)
  iframe H0 H1
  isplitl [H2]; · iexists _; iexact H2
  isplitl [H3]; · iexists _; iexact H3
  isplitl [H4]; · iexists _; iexact H4
  isplitl [H5]; · iexists _; iexact H5
  iintro ⟨H0, H1, H2, H3, H4, H5⟩
  iframe

theorem body_obligation1 (c : Dev nD) :
    BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.Kernel.Hand
-- ==== Proof.K.Reg2.lean ====
import proofs.«176514_j47991964565814_1_alg».proof.Proof.KLaunch
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

-- Every output is stored whole once, so it ends at that store's payload over the inputs, which are only read.
theorem sound_kernel2 (c : Dev nD) (E : Set ℕ) (i : grid2.Coords)
    (arg1 arg2 arg7 arg8 : Memref sig .tc .vmem S64x8192 .f32) (arg3 arg4 : Memref sig .tc .vmem S64x1 .f32) (arg5 arg6 : Memref sig .tc .vmem S1x8192 .f32)
    (harg1 : arg1.IsWhole) (harg2 : arg2.IsWhole) (harg3 : arg3.IsWhole) (harg4 : arg4.IsWhole)
    (harg5 : arg5.IsWhole) (harg6 : arg6.IsWhole) (harg7 : arg7.IsWhole) (harg8 : arg8.IsWhole)
    (x0 x1 : Vec F S64x8192 .f32) (x2 x3 : Vec F S64x1 .f32) (x4 x5 : Vec F S1x8192 .f32) (K : PUnit → sProp 𝕄) :
    iprop(owns c arg1 fullShare x0 ∗ owns c arg2 fullShare x1
        ∗ owns c arg3 fullShare x2 ∗ owns c arg4 fullShare x3
        ∗ owns c arg5 fullShare x4 ∗ owns c arg6 fullShare x5
        ∗ (∃ d, owns c arg7 fullShare d) ∗ (∃ d, owns c arg8 fullShare d)
        ∗ (iprop(owns c arg1 fullShare x0 ∗ owns c arg2 fullShare x1
            ∗ owns c arg3 fullShare x2 ∗ owns c arg4 fullShare x3
            ∗ owns c arg5 fullShare x4 ∗ owns c arg6 fullShare x5
            ∗ owns c arg7 fullShare (k2_pay4 x2 x4 x0) ∗ owns c arg8 fullShare (k2_pay1 (k2_pay2 x3) (k2_pay3 x5) x1)) -∗ K ⟨⟩))
      ⊢ wp frame (wpE (defs₀ (F := F)) Variants.none c none) E
          (cc2__normalize_kernel i arg1 harg1 arg2 harg2 arg3 harg3 arg4 harg4 arg5 harg5 arg6 harg6 arg7 harg7 arg8 harg8) K := by
  simp only [cc2__normalize_kernel_eq_skeleton]; unfold cc2__normalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists _; iframe H6; ipureintro; exact (View.read_writes_eq_canon _ _ _ (View.cover_of_tiled _ S64x8192.size (by rfl))).trans (by
      rw [View.canon_unit_zero hz2]; simp only [View.readAt_eq_ld, View.ld_unit_zero (S := S64x8192) hz2, View.ld_unit_zero (S := S64x1) hz2, View.ld_unit_zero (S := S1x8192) hz2])
  iexists _; iframe H7; ipureintro; exact (View.read_writes_eq_canon _ _ _ (View.cover_of_tiled _ S64x8192.size (by rfl))).trans (by
      rw [View.canon_unit_zero hz2]; simp only [View.readAt_eq_ld, View.ld_unit_zero (S := S64x8192) hz2, View.ld_unit_zero (S := S64x1) hz2, View.ld_unit_zero (S := S1x8192) hz2])

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay4 (iblk2 V c 2 t) (iblk2 V c 4 t) (iblk2 V c 0 t)
    | ⟨7, _⟩ => k2_pay1 (k2_pay2 (iblk2 V c 3 t)) (k2_pay3 (iblk2 V c 5 t)) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) :
    (dat2 V c).after 6 t = k2_pay4 (iblk2 V c 2 t) (iblk2 V c 4 t) (iblk2 V c 0 t) := by dsimp only [dat2]
theorem after2_7 (c : Dev nD) (t : Fin cfg2.N) :
    (dat2 V c).after 7 t = k2_pay1 (k2_pay2 (iblk2 V c 3 t)) (k2_pay3 (iblk2 V c 5 t)) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

-- At any point the inputs' buffers hold their blocks, so the body's triple applies; the invariant and the debt pass through unread.
theorem sound_body2 (c : Dev nD) (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d))
      ∗ (∃ d, owns c (st2_5 t) fullShare ((dat2 V c).before 5 t d))
      ∗ (∃ d, owns c (st2_6 t) fullShare ((dat2 V c).before 6 t d))
      ∗ (∃ d, owns c (st2_7 t) fullShare ((dat2 V c).before 7 t d)))
    ⊢ wp frame (wpE (defs₀ (F := F)) Variants.none c none) Set.univ (bodyAt2 t) (fun _ =>
      iprop((dat2 V c).Φ t.succ ∗ (dat2 V c).owesAt () t.succ
        ∗ owns c (st2_0 t) fullShare ((dat2 V c).after 0 t)
        ∗ owns c (st2_1 t) fullShare ((dat2 V c).after 1 t)
        ∗ owns c (st2_2 t) fullShare ((dat2 V c).after 2 t)
        ∗ owns c (st2_3 t) fullShare ((dat2 V c).after 3 t)
        ∗ owns c (st2_4 t) fullShare ((dat2 V c).after 4 t)
        ∗ owns c (st2_5 t) fullShare ((dat2 V c).after 5 t)
        ∗ owns c (st2_6 t) fullShare ((dat2 V c).after 6 t)
        ∗ owns c (st2_7 t) fullShare ((dat2 V c).after 7 t))) := by
  unfold bodyAt2
  simp only [before2_0, before2_1, before2_2, before2_3, before2_4, before2_5]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  isplitl [H7]; · iexists _; iexact H7
  iintro ⟨H0, H1, H2, H3, H4, H5, H6, H7⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand

end
-- ==== Proof.K.Reg3.lean ====
import proofs.«176514_j47991964565814_1_alg».proof.Proof.KLaunch
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev clears3 (i : grid3.Coords) : Prop :=
  (Scalar.cmpi .ne (Scalar.extui (Scalar.cmpi .eq (BitVec.ofNat 32 (i 2).val) 0#32)) 0#32) = 1#1

theorem clears3_all : ∀ t : Fin cfg3.N, clears3 (grid3.coords t) :=
  (by decide +kernel : ∀ t : Fin grid3.N, clears3 (grid3.coords t))

abbrev stores3 (i : grid3.Coords) : Prop := k3_cond2 i = 1#1

theorem stores3_all : ∀ t : Fin cfg3.N, stores3 (grid3.coords t) :=
  (by decide +kernel : ∀ t : Fin grid3.N, stores3 (grid3.coords t))

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel

abbrev ms3_0 (t : Fin cfg3.N) : Memref sig .tc .vmem S1024x512 .f32 := win3_0.stage (cfg3.slots t 0)
abbrev ms3_1 (t : Fin cfg3.N) : Memref sig .tc .vmem S512x256 .f32 := win3_1.stage (cfg3.slots t 1)
abbrev ms3_2 (t : Fin cfg3.N) : Memref sig .tc .vmem S1024x256 .f32 := win3_2.stage (cfg3.slots t 2)

abbrev acc3 : Memref sig .tc .vmem S1024x256 .f32 := Memref.whole cc3_scratch0

theorem PhiA3_eq (c : Dev nD) :
    (Pipeline.ΦA spec3 c : sProp 𝕄)
      = iprop(iprop(iprop((∃ d, owns c acc3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3, owns_whole]; try rfl

theorem origin3 : (![0, 0] : Fin 2 → Nat) = fun _ => 0 := funext fun a => by fin_cases a <;> rfl

-- Both tests hold, so every branch is decided: the result block ends at the one product, clamped below at zero.
theorem kernelRun3 (c : Dev nD) (i : grid3.Coords)
    (arg3 : Memref sig .tc .vmem S1024x512 .f32) (harg3 : arg3.IsWhole) (arg4 : Memref sig .tc .vmem S512x256 .f32) (harg4 : arg4.IsWhole)
    (arg5 : Memref sig .tc .vmem S1024x256 .f32) (harg5 : arg5.IsWhole) (arg6 : Memref sig .tc .vmem S1024x256 .f32) (harg6 : arg6.IsWhole)
    (h0 : clears3 i) (h1 : stores3 i) (x0 : Vec F S1024x512 .f32) (x1 : Vec F S512x256 .f32) (E : Set ℕ) (K : PUnit → sProp 𝕄) :
    iprop(owns c arg3 fullShare x0 ∗ owns c arg4 fullShare x1
        ∗ (∃ d, owns c arg5 fullShare d) ∗ (∃ d, owns c arg6 fullShare d)
        ∗ (iprop(owns c arg3 fullShare x0 ∗ owns c arg4 fullShare x1
            ∗ owns c arg5 fullShare (k3_pay3 (k3_pay2 x0 x1 k3_pay1)) ∗ (∃ d, owns c arg6 fullShare d)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %f2, -, H2⟩, ⟨%ds, %fs, -, HS⟩, Hk⟩
  obtain rfl := harg3.eq_unread hf0; obtain rfl := harg4.eq_unread hf1
  sl_exec (disch := first | exact h0 | exact h1)
  sl_step
  iapply Hk
  isplitl [H0]; · iexists _; iframe H0; ipureintro; exact harg3.read_unread _
  isplitl [H1]; · iexists _; iframe H1; ipureintro; exact harg4.read_unread _
  isplitl [H2]
  · iexists _; iframe H2; ipureintro
    refine (View.read_writes_eq_canon _ _ _ fun y => View.cover_of_tiledL _ S1024x256.size (by sl_kernel_rfl) y).trans ?_
    try sl_unfold_words
    rw [View.canon_unit_zero origin3, View.readCov_cons_toLoadRect, View.readCov_unit_zero _ origin3]
    simp only [View.readAt_eq_ld, harg3.read_unread, harg4.read_unread, View.ld_unit_zero (S := S1024x512) origin3, View.ld_unit_zero (S := S512x256) origin3]
  iexists _; iexists _; iframe HS; ipureintro; rfl

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (k3_pay2 (iblk3 V c 0 t) (iblk3 V c 1 t) k3_pay1)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay3 (k3_pay2 (iblk3 V c 0 t) (iblk3 V c 1 t) k3_pay1) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- The invariant lends the accumulator at whatever it holds and takes it back at whatever the body leaves in it.
theorem sound_body3 (c : Dev nD) (t : Fin cfg3.N) :
    iprop((dat3 V c).Φ t.castSucc ∗ (dat3 V c).owesAt () t.castSucc
      ∗ (∃ d, owns c (ms3_0 t) fullShare ((dat3 V c).before 0 t d))
      ∗ (∃ d, owns c (ms3_1 t) fullShare ((dat3 V c).before 1 t d))
      ∗ (∃ d, owns c (ms3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t)) := by
  unfold bodyAt3
  simp only [before3_0, before3_1]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl]
  rw [show (dat3 V c).leavesExact 0 t = owns c (ms3_0 t) fullShare ((dat3 V c).after 0 t) from by
    unfold Dat.leavesExact; rw [live3_0 t], after3_0]
  rw [show (dat3 V c).leavesExact 1 t = owns c (ms3_1 t) fullShare ((dat3 V c).after 1 t) from by
    unfold Dat.leavesExact; rw [live3_1 t], after3_1]
  rw [show (dat3 V c).leavesExact 2 t = owns c (ms3_2 t) fullShare ((dat3 V c).after 2 t) from by
    unfold Dat.leavesExact; rw [live3_2 t], after3_2]
  rw [PhiA3_eq]
  iintro ⟨⟨⟨HS, Hrest⟩, Hg⟩, Ho, ⟨%d0, H0⟩, ⟨%d1, H1⟩, ⟨%d2, H2⟩⟩
  iapply (kernelRun3 c (grid3.coords t) _ _ _ _ _ _ _ _ (clears3_all t) (stores3_all t) (iblk3 V c 0 t) (iblk3 V c 1 t) Set.univ _)
  iframe H0 H1 HS
  isplitl [H2]; · iexists _; iexact H2
  iintro ⟨H0, H1, H2, HS⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := Idealize.SL.BI.Entails.refl _

end Cert.Kernel.Hand

end
-- ==== Proof.K.Reg4.lean ====
import proofs.«176514_j47991964565814_1_alg».proof.Proof.KLaunch
import proofs.«176514_j47991964565814_1_alg».proof.Proof.LibA
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev atFirstK4 (i : grid4.Coords) : Prop := (Scalar.cmpi .ne (Scalar.extui (Scalar.cmpi .eq (BitVec.ofNat 32 (i 2).val) 0#32)) 0#32) = 1#1
-- the contraction index runs fastest: it is 0 exactly at the multiples of 8
theorem atFirstK4_iff : ∀ t : Fin grid4.N, atFirstK4 (grid4.coords t) ↔ t.val % 8 = 0 := by decide +kernel

abbrev atLastK4 (i : grid4.Coords) : Prop := k4_cond2 i = 1#1
theorem atLastK4_iff : ∀ t : Fin grid4.N, atLastK4 (grid4.coords t) ↔ t.val % 8 = 7 := by decide +kernel

theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬atLastK4 (grid4.coords t) → cfg4.idle 2 (grid4.coords t) = true := by decide +kernel
theorem keep4_2 : ∀ t : Fin cfg4.N, ¬atLastK4 (grid4.coords t) → (cfg4.win 2).flush t = false := by decide +kernel
theorem live4_2 : ∀ t : Fin cfg4.N, atLastK4 (grid4.coords t) → cfg4.idle 2 (grid4.coords t) = false := by decide +kernel

abbrev stg4_0 (t : Fin cfg4.N) : Memref sig .tc .vmem S1024x1024 .f32 := win4_0.stage (cfg4.slots t 0)
abbrev stgW4_0 (t : Fin cfg4.N) : (stg4_0 t).IsWhole := hstage4_0 ((cfg4.slots t 0).cast nbuf4_0)
abbrev stg4_1 (t : Fin cfg4.N) : Memref sig .tc .vmem S1024x256 .f32 := win4_1.stage (cfg4.slots t 1)
abbrev stgW4_1 (t : Fin cfg4.N) : (stg4_1 t).IsWhole := hstage4_1 ((cfg4.slots t 1).cast nbuf4_1)
abbrev stg4_2 (t : Fin cfg4.N) : Memref sig .tc .vmem S1024x256 .f32 := win4_2.stage (cfg4.slots t 2)
abbrev stgW4_2 (t : Fin cfg4.N) : (stg4_2 t).IsWhole := hstage4_2 ((cfg4.slots t 2).cast nbuf4_2)
abbrev acc4 : Memref sig .tc .vmem S1024x256 .f32 := Memref.whole cc4_scratch0

theorem PhiA4_eq (c : Dev nD) :
    (Pipeline.ΦA spec4 c : sProp 𝕄)
      = iprop(iprop(iprop((∃ d, owns (c : Thread nD τ) acc4 fullShare d)) ∗ Pipeline.scopedRestBut spec4 c [cc4_scratch0]) ∗ (∃ r, prngReg c r)) := by
  unfold Pipeline.ΦA; rw [scopedRest4_split]; simp only [acc4, owns_whole]; try rfl

theorem origin4 : (![0, 0] : Fin 2 → Nat) = fun _ => 0 := funext fun a => by fin_cases a <;> rfl

section Body

variable (c : Dev nD) (i : grid4.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole)
  (x0 : Vec F S1024x1024 .f32) (x1 xs xo : Vec F S1024x256 .f32)

-- at contraction index 0 the running sum restarts: it becomes zero plus the first block product
theorem runFirst4 (h0 : atFirstK4 i) (h7 : ¬atLastK4 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k4_pay2 x0 x1 k4_pay1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_cons_unit_zero (S := S1024x256) origin4, View.readCov_unit_zero (S := S1024x256) _ origin4]
  simp only [View.readAt_eq_ld, harg3.read_unread, harg4.read_unread, View.ld_unit_zero (S := S1024x1024) origin4, View.ld_unit_zero (S := S1024x256) origin4]

-- at a middle index the block product is added to the running sum
theorem runMid4 (h0 : ¬atFirstK4 i) (h7 : ¬atLastK4 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k4_pay2 x0 x1 xs)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin4]
  simp only [View.readAt_eq_ld, harg3.read_unread, harg4.read_unread, harg6.read_unread, View.ld_unit_zero (S := S1024x1024) origin4, View.ld_unit_zero (S := S1024x256) origin4]

-- at the last index the last block product is added, and the result block is the entrywise maximum of the sum and 0
theorem runLast4 (h0 : ¬atFirstK4 i) (h7 : atLastK4 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k4_pay3 (k4_pay2 x0 x1 xs)) ∗ owns (c : Thread nD τ) arg6 fullShare (k4_pay2 x0 x1 xs)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x256.size (by sl_kernel_rfl) y
    try sl_unfold_words
    rw [View.canon_unit_zero origin4, View.readCov_unit_zero (S := S1024x256) _ origin4]
    simp only [View.readAt_eq_ld, harg3.read_unread, harg4.read_unread, harg6.read_unread, View.ld_unit_zero (S := S1024x1024) origin4, View.ld_unit_zero (S := S1024x256) origin4]
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin4]
  simp only [View.readAt_eq_ld, harg3.read_unread, harg4.read_unread, harg6.read_unread, View.ld_unit_zero (S := S1024x1024) origin4, View.ld_unit_zero (S := S1024x256) origin4]

end Body

variable (c : Dev nD)

-- the running sum after position n: one block product added to zero where the contraction restarts,
-- elsewhere to the sum after position n - 1
def accAt4 : (n : ℕ) → n < cfg4.N → Vec F S1024x256 .f32
  | 0, hn => k4_pay2 (blk4 V c 0 ⟨0, hn⟩) (blk4 V c 1 ⟨0, hn⟩) k4_pay1
  | n + 1, hn => k4_pay2 (blk4 V c 0 ⟨n + 1, hn⟩) (blk4 V c 1 ⟨n + 1, hn⟩)
      (if (n + 1) % 8 = 0 then k4_pay1 else accAt4 n (Nat.lt_of_succ_lt hn))

theorem accAt4_restart (t : Fin cfg4.N) (h0 : t.val % 8 = 0) :
    accAt4 V c t.val t.isLt = k4_pay2 (blk4 V c 0 t) (blk4 V c 1 t) (k4_pay1 (F := F)) := by
  obtain ⟨n, hn⟩ := t
  cases n with
  | zero => rfl
  | succ n => exact congrArg (k4_pay2 _ _) (if_pos h0)

theorem accAt4_add (t : Fin cfg4.N) (h0 : ¬t.val % 8 = 0) :
    accAt4 V c t.val t.isLt = k4_pay2 (blk4 V c 0 t) (blk4 V c 1 t) (accAt4 V c (t.val - 1) (Nat.lt_of_le_of_lt (Nat.sub_le _ _) t.isLt)) := by
  obtain ⟨n, hn⟩ := t
  cases n with
  | zero => exact absurd (Nat.zero_mod _) h0
  | succ n => exact congrArg (k4_pay2 _ _) (if_neg h0)

def outAt4 (t : Fin cfg4.N) : Vec F S1024x256 .f32 := k4_pay3 (accAt4 V c t.val t.isLt)

-- the running sum's part of the invariant before position n: anything at the start, afterwards the sum after position n - 1
def Sum4 (n : ℕ) (h : n ≤ cfg4.N) : sProp 𝕄 :=
  if hz : n = 0 then iprop(∃ d, owns (c : Thread nD τ) acc4 fullShare d) else owns (c : Thread nD τ) acc4 fullShare (accAt4 V c (n - 1) (by omega))

def Inv4 (n : ℕ) (h : n ≤ cfg4.N) : sProp 𝕄 :=
  iprop(iprop(Sum4 V c n h ∗ Pipeline.scopedRestBut spec4 c [cc4_scratch0]) ∗ (∃ r, prngReg c r))

-- the value of the running sum may be forgotten at any position
theorem Sum4_forget (n : ℕ) (h : n ≤ cfg4.N) : Sum4 V c n h ⊢ iprop(∃ d, owns (c : Thread nD τ) acc4 fullShare d) := by
  unfold Sum4; split
  · exact .rfl
  · iintro H; iexists _; iexact H

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => outAt4 V c t
  Φ t := Inv4 V c t.val (Nat.le_of_lt_succ t.isLt)
  q _ := fullShare
  owed _ := 0

theorem A_eq4 (w : Fin cfg4.W) : (dat4 V c).A w = V c (Pipeline.arrRef spec4 w) := rfl
theorem after4_2 (t : Fin cfg4.N) : (dat4 V c).after 2 t = outAt4 V c t := rfl

theorem held4_0 (t : Fin cfg4.N) (d) : (dat4 V c).before 0 t d = blk4 V c 0 t :=
  ((dat4 V c).before_in_eq_fetched 0 rfl (fun _ => rfl) (fun _ _ _ => rfl) (fun _ => rfl) t d).trans rfl
theorem held4_1 (t : Fin cfg4.N) (d) : (dat4 V c).before 1 t d = blk4 V c 1 t :=
  ((dat4 V c).before_in_eq_fetched 1 rfl (fun _ => rfl) (fun _ _ _ => rfl) (fun _ => rfl) t d).trans rfl

-- by the point's residue mod 8 the matching case applies and gives the invariant of the next position
theorem sound_body4 (t : Fin cfg4.N) :
    iprop((dat4 V c).Φ t.castSucc ∗ (dat4 V c).owesAt () t.castSucc
    ∗ (∃ d, owns (c : Thread nD τ) (stg4_0 t) fullShare ((dat4 V c).before 0 t d))
    ∗ (∃ d, owns (c : Thread nD τ) (stg4_1 t) fullShare ((dat4 V c).before 1 t d))
    ∗ (∃ d, owns (c : Thread nD τ) (stg4_2 t) fullShare ((dat4 V c).before 2 t d)))
      ⊢ wp frame (wpE (defs₀ (F := F)) Variants.none c none) Set.univ (bodyAt4 t) (fun _ => iprop((dat4 V c).Φ t.succ ∗ (dat4 V c).owesAt () t.succ
    ∗ (dat4 V c).leavesExact 0 t
    ∗ (dat4 V c).leavesExact 1 t
    ∗ (dat4 V c).leavesExact 2 t)) := by
  unfold bodyAt4
  simp only [held4_0, held4_1]
  rw [show (dat4 V c).owesAt () t.succ = (dat4 V c).owesAt () t.castSucc from rfl,
    show (dat4 V c).Φ t.succ = Inv4 V c (t.val + 1) t.isLt from rfl,
    show (dat4 V c).Φ t.castSucc = Inv4 V c t.val (Nat.le_of_lt t.isLt) from rfl, Inv4, Inv4,
    show Sum4 V c (t.val + 1) t.isLt = owns (c : Thread nD τ) acc4 fullShare (accAt4 V c t.val t.isLt) from rfl,
    show (dat4 V c).leavesExact 0 t = owns (c : Thread nD τ) (stg4_0 t) fullShare (blk4 V c 0 t) from by
      unfold Dat.leavesExact; rw [live4_0 t]; rfl,
    show (dat4 V c).leavesExact 1 t = owns (c : Thread nD τ) (stg4_1 t) fullShare (blk4 V c 1 t) from by
      unfold Dat.leavesExact; rw [live4_1 t]; rfl]
  by_cases h0 : t.val % 8 = 0
  · have h7 : ¬atLastK4 (grid4.coords t) := fun h => by have := (atLastK4_iff t).mp h; omega
    rw [Dat.leavesExact_idle (dat4 V c) 2 t (idle4_2 t h7) (keep4_2 t h7), accAt4_restart V c t h0]
    refine (sep_mono (sep_mono (sep_mono (Sum4_forget V c _ _) .rfl) .rfl) .rfl).trans ?_
    iintro ⟨⟨⟨HS, HR⟩, Hg⟩, Ho, ⟨%d0, H0⟩, ⟨%d1, H1⟩, ⟨%d2, H2⟩⟩
    iapply (runFirst4 c (grid4.coords t) _ _ _ _ _ _ _ _ (blk4 V c 0 t) (blk4 V c 1 t) _ ((atFirstK4_iff t).mpr h0) h7 Set.univ _)
    iframe
    iintro ⟨H0, H1, H2, HS⟩
    iframe
    iexists _; iexact H2
  · have hf : ¬atFirstK4 (grid4.coords t) := fun h => h0 ((atFirstK4_iff t).mp h)
    rw [accAt4_add V c t h0, Sum4, dif_neg fun e => h0 (by rw [e])]
    by_cases h7 : t.val % 8 = 7
    · rw [show (dat4 V c).leavesExact 2 t = owns (c : Thread nD τ) (stg4_2 t) fullShare (outAt4 V c t) from by
          unfold Dat.leavesExact; rw [live4_2 t ((atLastK4_iff t).mpr h7)]; rfl, outAt4, accAt4_add V c t h0]
      iintro ⟨⟨⟨HS, HR⟩, Hg⟩, Ho, ⟨%d0, H0⟩, ⟨%d1, H1⟩, ⟨%d2, H2⟩⟩
      iapply (runLast4 c (grid4.coords t) _ _ _ _ _ _ _ _ (blk4 V c 0 t) (blk4 V c 1 t) _ hf ((atLastK4_iff t).mpr h7) Set.univ _)
      isplitl [H0]; · iexact H0
      isplitl [H1]; · iexact H1
      isplitl [H2]; · iexists _; iexact H2
      iframe
      iintro ⟨H0, H1, H2, HS⟩
      iframe
    · have hl : ¬atLastK4 (grid4.coords t) := fun h => h7 ((atLastK4_iff t).mp h)
      rw [Dat.leavesExact_idle (dat4 V c) 2 t (idle4_2 t hl) (keep4_2 t hl)]
      iintro ⟨⟨⟨HS, HR⟩, Hg⟩, Ho, ⟨%d0, H0⟩, ⟨%d1, H1⟩, ⟨%d2, H2⟩⟩
      iapply (runMid4 c (grid4.coords t) _ _ _ _ _ _ _ _ (blk4 V c 0 t) (blk4 V c 1 t) _ _ hf hl Set.univ _)
      iframe
      iintro ⟨H0, H1, H2, HS⟩
      iframe
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [PhiA4_eq]; exact .rfl

theorem hout4 (c : Dev nD) : (dat4 V c).Φ (Fin.last cfg4.N) ⊢ Pipeline.ΦA spec4 c := by
  rw [PhiA4_eq]; exact sep_mono (sep_mono (Sum4_forget V c _ _) .rfl) .rfl

end Cert.Kernel.Hand

end
-- ==== Proof.K.Reg5.lean ====
import proofs.«176514_j47991964565814_1_alg».proof.Proof.KLaunch
import proofs.«176514_j47991964565814_1_alg».proof.Proof.LibA
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev atFirstK5 (i : grid5.Coords) : Prop := (Scalar.cmpi .ne (Scalar.extui (Scalar.cmpi .eq (BitVec.ofNat 32 (i 2).val) 0#32)) 0#32) = 1#1
-- the contraction index runs fastest: it is 0 exactly at the multiples of 8
theorem atFirstK5_iff : ∀ t : Fin grid5.N, atFirstK5 (grid5.coords t) ↔ t.val % 8 = 0 := by decide +kernel

abbrev atLastK5 (i : grid5.Coords) : Prop := k5_cond2 i = 1#1
theorem atLastK5_iff : ∀ t : Fin grid5.N, atLastK5 (grid5.coords t) ↔ t.val % 8 = 7 := by decide +kernel

theorem live5_0 : ∀ t : Fin cfg5.N, cfg5.idle 0 (grid5.coords t) = false := by decide +kernel
theorem live5_1 : ∀ t : Fin cfg5.N, cfg5.idle 1 (grid5.coords t) = false := by decide +kernel
theorem idle5_2 : ∀ t : Fin cfg5.N, ¬atLastK5 (grid5.coords t) → cfg5.idle 2 (grid5.coords t) = true := by decide +kernel
theorem keep5_2 : ∀ t : Fin cfg5.N, ¬atLastK5 (grid5.coords t) → (cfg5.win 2).flush t = false := by decide +kernel
theorem live5_2 : ∀ t : Fin cfg5.N, atLastK5 (grid5.coords t) → cfg5.idle 2 (grid5.coords t) = false := by decide +kernel

abbrev stg5_0 (t : Fin cfg5.N) : Memref sig .tc .vmem S1024x1024 .f32 := win5_0.stage (cfg5.slots t 0)
abbrev stgW5_0 (t : Fin cfg5.N) : (stg5_0 t).IsWhole := hstage5_0 ((cfg5.slots t 0).cast nbuf5_0)
abbrev stg5_1 (t : Fin cfg5.N) : Memref sig .tc .vmem S1024x256 .f32 := win5_1.stage (cfg5.slots t 1)
abbrev stgW5_1 (t : Fin cfg5.N) : (stg5_1 t).IsWhole := hstage5_1 ((cfg5.slots t 1).cast nbuf5_1)
abbrev stg5_2 (t : Fin cfg5.N) : Memref sig .tc .vmem S1024x256 .f32 := win5_2.stage (cfg5.slots t 2)
abbrev stgW5_2 (t : Fin cfg5.N) : (stg5_2 t).IsWhole := hstage5_2 ((cfg5.slots t 2).cast nbuf5_2)
abbrev acc5 : Memref sig .tc .vmem S1024x256 .f32 := Memref.whole cc5_scratch0

theorem PhiA5_eq (c : Dev nD) :
    (Pipeline.ΦA spec5 c : sProp 𝕄)
      = iprop(iprop(iprop((∃ d, owns (c : Thread nD τ) acc5 fullShare d)) ∗ Pipeline.scopedRestBut spec5 c [cc5_scratch0]) ∗ (∃ r, prngReg c r)) := by
  unfold Pipeline.ΦA; rw [scopedRest5_split]; simp only [acc5, owns_whole]; try rfl

theorem origin5 : (![0, 0] : Fin 2 → Nat) = fun _ => 0 := funext fun a => by fin_cases a <;> rfl

section Body

variable (c : Dev nD) (i : grid5.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole)
  (x0 : Vec F S1024x1024 .f32) (x1 xs xo : Vec F S1024x256 .f32)

-- at contraction index 0 the running sum restarts: it becomes zero plus the first block product
theorem runFirst5 (h0 : atFirstK5 i) (h7 : ¬atLastK5 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k5_pay2 x0 x1 k5_pay1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_cons_unit_zero (S := S1024x256) origin5, View.readCov_unit_zero (S := S1024x256) _ origin5]
  simp only [View.readAt_eq_ld, harg3.read_unread, harg4.read_unread, View.ld_unit_zero (S := S1024x1024) origin5, View.ld_unit_zero (S := S1024x256) origin5]

-- at a middle index the block product is added to the running sum
theorem runMid5 (h0 : ¬atFirstK5 i) (h7 : ¬atLastK5 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k5_pay2 x0 x1 xs)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin5]
  simp only [View.readAt_eq_ld, harg3.read_unread, harg4.read_unread, harg6.read_unread, View.ld_unit_zero (S := S1024x1024) origin5, View.ld_unit_zero (S := S1024x256) origin5]

-- at the last index the last block product is added, and the result block is the entrywise maximum of the sum and 0
theorem runLast5 (h0 : ¬atFirstK5 i) (h7 : atLastK5 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k5_pay3 (k5_pay2 x0 x1 xs)) ∗ owns (c : Thread nD τ) arg6 fullShare (k5_pay2 x0 x1 xs)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x256.size (by sl_kernel_rfl) y
    try sl_unfold_words
    rw [View.canon_unit_zero origin5, View.readCov_unit_zero (S := S1024x256) _ origin5]
    simp only [View.readAt_eq_ld, harg3.read_unread, harg4.read_unread, harg6.read_unread, View.ld_unit_zero (S := S1024x1024) origin5, View.ld_unit_zero (S := S1024x256) origin5]
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin5]
  simp only [View.readAt_eq_ld, harg3.read_unread, harg4.read_unread, harg6.read_unread, View.ld_unit_zero (S := S1024x1024) origin5, View.ld_unit_zero (S := S1024x256) origin5]

end Body

variable (c : Dev nD)

-- the running sum after position n: one block product added to zero where the contraction restarts,
-- elsewhere to the sum after position n - 1
def accAt5 : (n : ℕ) → n < cfg5.N → Vec F S1024x256 .f32
  | 0, hn => k5_pay2 (blk5 V c 0 ⟨0, hn⟩) (blk5 V c 1 ⟨0, hn⟩) k5_pay1
  | n + 1, hn => k5_pay2 (blk5 V c 0 ⟨n + 1, hn⟩) (blk5 V c 1 ⟨n + 1, hn⟩)
      (if (n + 1) % 8 = 0 then k5_pay1 else accAt5 n (Nat.lt_of_succ_lt hn))

theorem accAt5_restart (t : Fin cfg5.N) (h0 : t.val % 8 = 0) :
    accAt5 V c t.val t.isLt = k5_pay2 (blk5 V c 0 t) (blk5 V c 1 t) (k5_pay1 (F := F)) := by
  obtain ⟨n, hn⟩ := t
  cases n with
  | zero => rfl
  | succ n => exact congrArg (k5_pay2 _ _) (if_pos h0)

theorem accAt5_add (t : Fin cfg5.N) (h0 : ¬t.val % 8 = 0) :
    accAt5 V c t.val t.isLt = k5_pay2 (blk5 V c 0 t) (blk5 V c 1 t) (accAt5 V c (t.val - 1) (Nat.lt_of_le_of_lt (Nat.sub_le _ _) t.isLt)) := by
  obtain ⟨n, hn⟩ := t
  cases n with
  | zero => exact absurd (Nat.zero_mod _) h0
  | succ n => exact congrArg (k5_pay2 _ _) (if_neg h0)

def outAt5 (t : Fin cfg5.N) : Vec F S1024x256 .f32 := k5_pay3 (accAt5 V c t.val t.isLt)

-- the running sum's part of the invariant before position n: anything at the start, afterwards the sum after position n - 1
def Sum5 (n : ℕ) (h : n ≤ cfg5.N) : sProp 𝕄 :=
  if hz : n = 0 then iprop(∃ d, owns (c : Thread nD τ) acc5 fullShare d) else owns (c : Thread nD τ) acc5 fullShare (accAt5 V c (n - 1) (by omega))

def Inv5 (n : ℕ) (h : n ≤ cfg5.N) : sProp 𝕄 :=
  iprop(iprop(Sum5 V c n h ∗ Pipeline.scopedRestBut spec5 c [cc5_scratch0]) ∗ (∃ r, prngReg c r))

-- the value of the running sum may be forgotten at any position
theorem Sum5_forget (n : ℕ) (h : n ≤ cfg5.N) : Sum5 V c n h ⊢ iprop(∃ d, owns (c : Thread nD τ) acc5 fullShare d) := by
  unfold Sum5; split
  · exact .rfl
  · iintro H; iexists _; iexact H

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => outAt5 V c t
  Φ t := Inv5 V c t.val (Nat.le_of_lt_succ t.isLt)
  q _ := fullShare
  owed _ := 0

theorem A_eq5 (w : Fin cfg5.W) : (dat5 V c).A w = V c (Pipeline.arrRef spec5 w) := rfl
theorem after5_2 (t : Fin cfg5.N) : (dat5 V c).after 2 t = outAt5 V c t := rfl

theorem held5_0 (t : Fin cfg5.N) (d) : (dat5 V c).before 0 t d = blk5 V c 0 t :=
  ((dat5 V c).before_in_eq_fetched 0 rfl (fun _ => rfl) (fun _ _ _ => rfl) (fun _ => rfl) t d).trans rfl
theorem held5_1 (t : Fin cfg5.N) (d) : (dat5 V c).before 1 t d = blk5 V c 1 t :=
  ((dat5 V c).before_in_eq_fetched 1 rfl (fun _ => rfl) (fun _ _ _ => rfl) (fun _ => rfl) t d).trans rfl

-- by the point's residue mod 8 the matching case applies and gives the invariant of the next position
theorem sound_body5 (t : Fin cfg5.N) :
    iprop((dat5 V c).Φ t.castSucc ∗ (dat5 V c).owesAt () t.castSucc
    ∗ (∃ d, owns (c : Thread nD τ) (stg5_0 t) fullShare ((dat5 V c).before 0 t d))
    ∗ (∃ d, owns (c : Thread nD τ) (stg5_1 t) fullShare ((dat5 V c).before 1 t d))
    ∗ (∃ d, owns (c : Thread nD τ) (stg5_2 t) fullShare ((dat5 V c).before 2 t d)))
      ⊢ wp frame (wpE (defs₀ (F := F)) Variants.none c none) Set.univ (bodyAt5 t) (fun _ => iprop((dat5 V c).Φ t.succ ∗ (dat5 V c).owesAt () t.succ
    ∗ (dat5 V c).leavesExact 0 t
    ∗ (dat5 V c).leavesExact 1 t
    ∗ (dat5 V c).leavesExact 2 t)) := by
  unfold bodyAt5
  simp only [held5_0, held5_1]
  rw [show (dat5 V c).owesAt () t.succ = (dat5 V c).owesAt () t.castSucc from rfl,
    show (dat5 V c).Φ t.succ = Inv5 V c (t.val + 1) t.isLt from rfl,
    show (dat5 V c).Φ t.castSucc = Inv5 V c t.val (Nat.le_of_lt t.isLt) from rfl, Inv5, Inv5,
    show Sum5 V c (t.val + 1) t.isLt = owns (c : Thread nD τ) acc5 fullShare (accAt5 V c t.val t.isLt) from rfl,
    show (dat5 V c).leavesExact 0 t = owns (c : Thread nD τ) (stg5_0 t) fullShare (blk5 V c 0 t) from by
      unfold Dat.leavesExact; rw [live5_0 t]; rfl,
    show (dat5 V c).leavesExact 1 t = owns (c : Thread nD τ) (stg5_1 t) fullShare (blk5 V c 1 t) from by
      unfold Dat.leavesExact; rw [live5_1 t]; rfl]
  by_cases h0 : t.val % 8 = 0
  · have h7 : ¬atLastK5 (grid5.coords t) := fun h => by have := (atLastK5_iff t).mp h; omega
    rw [Dat.leavesExact_idle (dat5 V c) 2 t (idle5_2 t h7) (keep5_2 t h7), accAt5_restart V c t h0]
    refine (sep_mono (sep_mono (sep_mono (Sum5_forget V c _ _) .rfl) .rfl) .rfl).trans ?_
    iintro ⟨⟨⟨HS, HR⟩, Hg⟩, Ho, ⟨%d0, H0⟩, ⟨%d1, H1⟩, ⟨%d2, H2⟩⟩
    iapply (runFirst5 c (grid5.coords t) _ _ _ _ _ _ _ _ (blk5 V c 0 t) (blk5 V c 1 t) _ ((atFirstK5_iff t).mpr h0) h7 Set.univ _)
    iframe
    iintro ⟨H0, H1, H2, HS⟩
    iframe
    iexists _; iexact H2
  · have hf : ¬atFirstK5 (grid5.coords t) := fun h => h0 ((atFirstK5_iff t).mp h)
    rw [accAt5_add V c t h0, Sum5, dif_neg fun e => h0 (by rw [e])]
    by_cases h7 : t.val % 8 = 7
    · rw [show (dat5 V c).leavesExact 2 t = owns (c : Thread nD τ) (stg5_2 t) fullShare (outAt5 V c t) from by
          unfold Dat.leavesExact; rw [live5_2 t ((atLastK5_iff t).mpr h7)]; rfl, outAt5, accAt5_add V c t h0]
      iintro ⟨⟨⟨HS, HR⟩, Hg⟩, Ho, ⟨%d0, H0⟩, ⟨%d1, H1⟩, ⟨%d2, H2⟩⟩
      iapply (runLast5 c (grid5.coords t) _ _ _ _ _ _ _ _ (blk5 V c 0 t) (blk5 V c 1 t) _ hf ((atLastK5_iff t).mpr h7) Set.univ _)
      isplitl [H0]; · iexact H0
      isplitl [H1]; · iexact H1
      isplitl [H2]; · iexists _; iexact H2
      iframe
      iintro ⟨H0, H1, H2, HS⟩
      iframe
    · have hl : ¬atLastK5 (grid5.coords t) := fun h => h7 ((atLastK5_iff t).mp h)
      rw [Dat.leavesExact_idle (dat5 V c) 2 t (idle5_2 t hl) (keep5_2 t hl)]
      iintro ⟨⟨⟨HS, HR⟩, Hg⟩, Ho, ⟨%d0, H0⟩, ⟨%d1, H1⟩, ⟨%d2, H2⟩⟩
      iapply (runMid5 c (grid5.coords t) _ _ _ _ _ _ _ _ (blk5 V c 0 t) (blk5 V c 1 t) _ _ hf hl Set.univ _)
      iframe
      iintro ⟨H0, H1, H2, HS⟩
      iframe
      iexists _; iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [PhiA5_eq]; exact .rfl

theorem hout5 (c : Dev nD) : (dat5 V c).Φ (Fin.last cfg5.N) ⊢ Pipeline.ΦA spec5 c := by
  rw [PhiA5_eq]; exact sep_mono (sep_mono (Sum5_forget V c _ _) .rfl) .rfl

end Cert.Kernel.Hand

end
-- ==== Proof.K.Reg6.lean ====
import proofs.«176514_j47991964565814_1_alg».proof.Proof.KLaunch
import proofs.«176514_j47991964565814_1_alg».proof.Proof.LibA
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev atFirstK6 (i : grid6.Coords) : Prop := (Scalar.cmpi .ne (Scalar.extui (Scalar.cmpi .eq (BitVec.ofNat 32 (i 2).val) 0#32)) 0#32) = 1#1
-- the contraction index runs fastest: it is 0 exactly at the multiples of 8
theorem atFirstK6_iff : ∀ t : Fin grid6.N, atFirstK6 (grid6.coords t) ↔ t.val % 8 = 0 := by decide +kernel

abbrev atLastK6 (i : grid6.Coords) : Prop := k6_cond2 i = 1#1
theorem atLastK6_iff : ∀ t : Fin grid6.N, atLastK6 (grid6.coords t) ↔ t.val % 8 = 7 := by decide +kernel

theorem live6_0 : ∀ t : Fin cfg6.N, cfg6.idle 0 (grid6.coords t) = false := by decide +kernel
theorem live6_1 : ∀ t : Fin cfg6.N, cfg6.idle 1 (grid6.coords t) = false := by decide +kernel
theorem idle6_2 : ∀ t : Fin cfg6.N, ¬atLastK6 (grid6.coords t) → cfg6.idle 2 (grid6.coords t) = true := by decide +kernel
theorem keep6_2 : ∀ t : Fin cfg6.N, ¬atLastK6 (grid6.coords t) → (cfg6.win 2).flush t = false := by decide +kernel
theorem live6_2 : ∀ t : Fin cfg6.N, atLastK6 (grid6.coords t) → cfg6.idle 2 (grid6.coords t) = false := by decide +kernel

abbrev stg6_0 (t : Fin cfg6.N) : Memref sig .tc .vmem S1024x1024 .f32 := win6_0.stage (cfg6.slots t 0)
abbrev stgW6_0 (t : Fin cfg6.N) : (stg6_0 t).IsWhole := hstage6_0 ((cfg6.slots t 0).cast nbuf6_0)
abbrev stg6_1 (t : Fin cfg6.N) : Memref sig .tc .vmem S1024x512 .f32 := win6_1.stage (cfg6.slots t 1)
abbrev stgW6_1 (t : Fin cfg6.N) : (stg6_1 t).IsWhole := hstage6_1 ((cfg6.slots t 1).cast nbuf6_1)
abbrev stg6_2 (t : Fin cfg6.N) : Memref sig .tc .vmem S1024x512 .f32 := win6_2.stage (cfg6.slots t 2)
abbrev stgW6_2 (t : Fin cfg6.N) : (stg6_2 t).IsWhole := hstage6_2 ((cfg6.slots t 2).cast nbuf6_2)
abbrev acc6 : Memref sig .tc .vmem S1024x512 .f32 := Memref.whole cc6_scratch0

theorem PhiA6_eq (c : Dev nD) :
    (Pipeline.ΦA spec6 c : sProp 𝕄)
      = iprop(iprop(iprop((∃ d, owns (c : Thread nD τ) acc6 fullShare d)) ∗ Pipeline.scopedRestBut spec6 c [cc6_scratch0]) ∗ (∃ r, prngReg c r)) := by
  unfold Pipeline.ΦA; rw [scopedRest6_split]; simp only [acc6, owns_whole]; try rfl

theorem origin6 : (![0, 0] : Fin 2 → Nat) = fun _ => 0 := funext fun a => by fin_cases a <;> rfl

section Body

variable (c : Dev nD) (i : grid6.Coords) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole)
  (x0 : Vec F S1024x1024 .f32) (x1 xs xo : Vec F S1024x512 .f32)

-- at contraction index 0 the running sum restarts: it becomes zero plus the first block product
theorem runFirst6 (h0 : atFirstK6 i) (h7 : ¬atLastK6 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k6_pay2 x0 x1 k6_pay1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_cons_unit_zero (S := S1024x512) origin6, View.readCov_unit_zero (S := S1024x512) _ origin6]
  simp only [View.readAt_eq_ld, harg3.read_unread, harg4.read_unread, View.ld_unit_zero (S := S1024x1024) origin6, View.ld_unit_zero (S := S1024x512) origin6]

-- at a middle index the block product is added to the running sum
theorem runMid6 (h0 : ¬atFirstK6 i) (h7 : ¬atLastK6 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k6_pay2 x0 x1 xs)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin6]
  simp only [View.readAt_eq_ld, harg3.read_unread, harg4.read_unread, harg6.read_unread, View.ld_unit_zero (S := S1024x1024) origin6, View.ld_unit_zero (S := S1024x512) origin6]

-- at the last index the last block product is added, and the result block is the entrywise maximum of the sum and 0
theorem runLast6 (h0 : ¬atFirstK6 i) (h7 : atLastK6 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k6_pay3 (k6_pay2 x0 x1 xs)) ∗ owns (c : Thread nD τ) arg6 fullShare (k6_pay2 x0 x1 xs)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x512.size (by sl_kernel_rfl) y
    try sl_unfold_words
    rw [View.canon_unit_zero origin6, View.readCov_unit_zero (S := S1024x512) _ origin6]
    simp only [View.readAt_eq_ld, harg3.read_unread, harg4.read_unread, harg6.read_unread, View.ld_unit_zero (S := S1024x1024) origin6, View.ld_unit_zero (S := S1024x512) origin6]
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin6]
  simp only [View.readAt_eq_ld, harg3.read_unread, harg4.read_unread, harg6.read_unread, View.ld_unit_zero (S := S1024x1024) origin6, View.ld_unit_zero (S := S1024x512) origin6]

end Body

variable (c : Dev nD)

-- the running sum after position n: one block product added to zero where the contraction restarts,
-- elsewhere to the sum after position n - 1
def accAt6 : (n : ℕ) → n < cfg6.N → Vec F S1024x512 .f32
  | 0, hn => k6_pay2 (blk6 V c 0 ⟨0, hn⟩) (blk6 V c 1 ⟨0, hn⟩) k6_pay1
  | n + 1, hn => k6_pay2 (blk6 V c 0 ⟨n + 1, hn⟩) (blk6 V c 1 ⟨n + 1, hn⟩)
      (if (n + 1) % 8 = 0 then k6_pay1 else accAt6 n (Nat.lt_of_succ_lt hn))

theorem accAt6_restart (t : Fin cfg6.N) (h0 : t.val % 8 = 0) :
    accAt6 V c t.val t.isLt = k6_pay2 (blk6 V c 0 t) (blk6 V c 1 t) (k6_pay1 (F := F)) := by
  obtain ⟨n, hn⟩ := t
  cases n with
  | zero => rfl
  | succ n => exact congrArg (k6_pay2 _ _) (if_pos h0)

theorem accAt6_add (t : Fin cfg6.N) (h0 : ¬t.val % 8 = 0) :
    accAt6 V c t.val t.isLt = k6_pay2 (blk6 V c 0 t) (blk6 V c 1 t) (accAt6 V c (t.val - 1) (Nat.lt_of_le_of_lt (Nat.sub_le _ _) t.isLt)) := by
  obtain ⟨n, hn⟩ := t
  cases n with
  | zero => exact absurd (Nat.zero_mod _) h0
  | succ n => exact congrArg (k6_pay2 _ _) (if_neg h0)

def outAt6 (t : Fin cfg6.N) : Vec F S1024x512 .f32 := k6_pay3 (accAt6 V c t.val t.isLt)

-- the running sum's part of the invariant before position n: anything at the start, afterwards the sum after position n - 1
def Sum6 (n : ℕ) (h : n ≤ cfg6.N) : sProp 𝕄 :=
  if hz : n = 0 then iprop(∃ d, owns (c : Thread nD τ) acc6 fullShare d) else owns (c : Thread nD τ) acc6 fullShare (accAt6 V c (n - 1) (by omega))

def Inv6 (n : ℕ) (h : n ≤ cfg6.N) : sProp 𝕄 :=
  iprop(iprop(Sum6 V c n h ∗ Pipeline.scopedRestBut spec6 c [cc6_scratch0]) ∗ (∃ r, prngReg c r))

-- the value of the running sum may be forgotten at any position
theorem Sum6_forget (n : ℕ) (h : n ≤ cfg6.N) : Sum6 V c n h ⊢ iprop(∃ d, owns (c : Thread nD τ) acc6 fullShare d) := by
  unfold Sum6; split
  · exact .rfl
  · iintro H; iexists _; iexact H

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => outAt6 V c t
  Φ t := Inv6 V c t.val (Nat.le_of_lt_succ t.isLt)
  q _ := fullShare
  owed _ := 0

theorem A_eq6 (w : Fin cfg6.W) : (dat6 V c).A w = V c (Pipeline.arrRef spec6 w) := rfl
theorem after6_2 (t : Fin cfg6.N) : (dat6 V c).after 2 t = outAt6 V c t := rfl

theorem held6_0 (t : Fin cfg6.N) (d) : (dat6 V c).before 0 t d = blk6 V c 0 t :=
  ((dat6 V c).before_in_eq_fetched 0 rfl (fun _ => rfl) (fun _ _ _ => rfl) (fun _ => rfl) t d).trans rfl
theorem held6_1 (t : Fin cfg6.N) (d) : (dat6 V c).before 1 t d = blk6 V c 1 t :=
  ((dat6 V c).before_in_eq_fetched 1 rfl (fun _ => rfl) (fun _ _ _ => rfl) (fun _ => rfl) t d).trans rfl

-- by the point's residue mod 8 the matching case applies and gives the invariant of the next position
theorem sound_body6 (t : Fin cfg6.N) :
    iprop((dat6 V c).Φ t.castSucc ∗ (dat6 V c).owesAt () t.castSucc
    ∗ (∃ d, owns (c : Thread nD τ) (stg6_0 t) fullShare ((dat6 V c).before 0 t d))
    ∗ (∃ d, owns (c : Thread nD τ) (stg6_1 t) fullShare ((dat6 V c).before 1 t d))
    ∗ (∃ d, owns (c : Thread nD τ) (stg6_2 t) fullShare ((dat6 V c).before 2 t d)))
      ⊢ wp frame (wpE (defs₀ (F := F)) Variants.none c none) Set.univ (bodyAt6 t) (fun _ => iprop((dat6 V c).Φ t.succ ∗ (dat6 V c).owesAt () t.succ
    ∗ (dat6 V c).leavesExact 0 t
    ∗ (dat6 V c).leavesExact 1 t
    ∗ (dat6 V c).leavesExact 2 t)) := by
  unfold bodyAt6
  simp only [held6_0, held6_1]
  rw [show (dat6 V c).owesAt () t.succ = (dat6 V c).owesAt () t.castSucc from rfl,
    show (dat6 V c).Φ t.succ = Inv6 V c (t.val + 1) t.isLt from rfl,
    show (dat6 V c).Φ t.castSucc = Inv6 V c t.val (Nat.le_of_lt t.isLt) from rfl, Inv6, Inv6,
    show Sum6 V c (t.val + 1) t.isLt = owns (c : Thread nD τ) acc6 fullShare (accAt6 V c t.val t.isLt) from rfl,
    show (dat6 V c).leavesExact 0 t = owns (c : Thread nD τ) (stg6_0 t) fullShare (blk6 V c 0 t) from by
      unfold Dat.leavesExact; rw [live6_0 t]; rfl,
    show (dat6 V c).leavesExact 1 t = owns (c : Thread nD τ) (stg6_1 t) fullShare (blk6 V c 1 t) from by
      unfold Dat.leavesExact; rw [live6_1 t]; rfl]
  by_cases h0 : t.val % 8 = 0
  · have h7 : ¬atLastK6 (grid6.coords t) := fun h => by have := (atLastK6_iff t).mp h; omega
    rw [Dat.leavesExact_idle (dat6 V c) 2 t (idle6_2 t h7) (keep6_2 t h7), accAt6_restart V c t h0]
    refine (sep_mono (sep_mono (sep_mono (Sum6_forget V c _ _) .rfl) .rfl) .rfl).trans ?_
    iintro ⟨⟨⟨HS, HR⟩, Hg⟩, Ho, ⟨%d0, H0⟩, ⟨%d1, H1⟩, ⟨%d2, H2⟩⟩
    iapply (runFirst6 c (grid6.coords t) _ _ _ _ _ _ _ _ (blk6 V c 0 t) (blk6 V c 1 t) _ ((atFirstK6_iff t).mpr h0) h7 Set.univ _)
    iframe
    iintro ⟨H0, H1, H2, HS⟩
    iframe
    iexists _; iexact H2
  · have hf : ¬atFirstK6 (grid6.coords t) := fun h => h0 ((atFirstK6_iff t).mp h)
    rw [accAt6_add V c t h0, Sum6, dif_neg fun e => h0 (by rw [e])]
    by_cases h7 : t.val % 8 = 7
    · rw [show (dat6 V c).leavesExact 2 t = owns (c : Thread nD τ) (stg6_2 t) fullShare (outAt6 V c t) from by
          unfold Dat.leavesExact; rw [live6_2 t ((atLastK6_iff t).mpr h7)]; rfl, outAt6, accAt6_add V c t h0]
      iintro ⟨⟨⟨HS, HR⟩, Hg⟩, Ho, ⟨%d0, H0⟩, ⟨%d1, H1⟩, ⟨%d2, H2⟩⟩
      iapply (runLast6 c (grid6.coords t) _ _ _ _ _ _ _ _ (blk6 V c 0 t) (blk6 V c 1 t) _ hf ((atLastK6_iff t).mpr h7) Set.univ _)
      isplitl [H0]; · iexact H0
      isplitl [H1]; · iexact H1
      isplitl [H2]; · iexists _; iexact H2
      iframe
      iintro ⟨H0, H1, H2, HS⟩
      iframe
    · have hl : ¬atLastK6 (grid6.coords t) := fun h => h7 ((atLastK6_iff t).mp h)
      rw [Dat.leavesExact_idle (dat6 V c) 2 t (idle6_2 t hl) (keep6_2 t hl)]
      iintro ⟨⟨⟨HS, HR⟩, Hg⟩, Ho, ⟨%d0, H0⟩, ⟨%d1, H1⟩, ⟨%d2, H2⟩⟩
      iapply (runMid6 c (grid6.coords t) _ _ _ _ _ _ _ _ (blk6 V c 0 t) (blk6 V c 1 t) _ _ hf hl Set.univ _)
      iframe
      iintro ⟨H0, H1, H2, HS⟩
      iframe
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [PhiA6_eq]; exact .rfl

theorem hout6 (c : Dev nD) : (dat6 V c).Φ (Fin.last cfg6.N) ⊢ Pipeline.ΦA spec6 c := by
  rw [PhiA6_eq]; exact sep_mono (sep_mono (Sum6_forget V c _ _) .rfl) .rfl

end Cert.Kernel.Hand

end
-- ==== Proof.K.Reg7.lean ====
import proofs.«176514_j47991964565814_1_alg».proof.Proof.KLaunch
import proofs.«176514_j47991964565814_1_alg».proof.Proof.LibA
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev atFirstK7 (i : grid7.Coords) : Prop := (Scalar.cmpi .ne (Scalar.extui (Scalar.cmpi .eq (BitVec.ofNat 32 (i 2).val) 0#32)) 0#32) = 1#1
-- the contraction index runs fastest: it is 0 exactly at the multiples of 8
theorem atFirstK7_iff : ∀ t : Fin grid7.N, atFirstK7 (grid7.coords t) ↔ t.val % 8 = 0 := by decide +kernel

abbrev atLastK7 (i : grid7.Coords) : Prop := k7_cond2 i = 1#1
theorem atLastK7_iff : ∀ t : Fin grid7.N, atLastK7 (grid7.coords t) ↔ t.val % 8 = 7 := by decide +kernel

theorem live7_0 : ∀ t : Fin cfg7.N, cfg7.idle 0 (grid7.coords t) = false := by decide +kernel
theorem live7_1 : ∀ t : Fin cfg7.N, cfg7.idle 1 (grid7.coords t) = false := by decide +kernel
theorem idle7_2 : ∀ t : Fin cfg7.N, ¬atLastK7 (grid7.coords t) → cfg7.idle 2 (grid7.coords t) = true := by decide +kernel
theorem keep7_2 : ∀ t : Fin cfg7.N, ¬atLastK7 (grid7.coords t) → (cfg7.win 2).flush t = false := by decide +kernel
theorem live7_2 : ∀ t : Fin cfg7.N, atLastK7 (grid7.coords t) → cfg7.idle 2 (grid7.coords t) = false := by decide +kernel

abbrev stg7_0 (t : Fin cfg7.N) : Memref sig .tc .vmem S1024x1024 .f32 := win7_0.stage (cfg7.slots t 0)
abbrev stgW7_0 (t : Fin cfg7.N) : (stg7_0 t).IsWhole := hstage7_0 ((cfg7.slots t 0).cast nbuf7_0)
abbrev stg7_1 (t : Fin cfg7.N) : Memref sig .tc .vmem S1024x512 .f32 := win7_1.stage (cfg7.slots t 1)
abbrev stgW7_1 (t : Fin cfg7.N) : (stg7_1 t).IsWhole := hstage7_1 ((cfg7.slots t 1).cast nbuf7_1)
abbrev stg7_2 (t : Fin cfg7.N) : Memref sig .tc .vmem S1024x512 .f32 := win7_2.stage (cfg7.slots t 2)
abbrev stgW7_2 (t : Fin cfg7.N) : (stg7_2 t).IsWhole := hstage7_2 ((cfg7.slots t 2).cast nbuf7_2)
abbrev acc7 : Memref sig .tc .vmem S1024x512 .f32 := Memref.whole cc7_scratch0

theorem PhiA7_eq (c : Dev nD) :
    (Pipeline.ΦA spec7 c : sProp 𝕄)
      = iprop(iprop(iprop((∃ d, owns (c : Thread nD τ) acc7 fullShare d)) ∗ Pipeline.scopedRestBut spec7 c [cc7_scratch0]) ∗ (∃ r, prngReg c r)) := by
  unfold Pipeline.ΦA; rw [scopedRest7_split]; simp only [acc7, owns_whole]; try rfl

theorem origin7 : (![0, 0] : Fin 2 → Nat) = fun _ => 0 := funext fun a => by fin_cases a <;> rfl

section Body

variable (c : Dev nD) (i : grid7.Coords) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole)
  (x0 : Vec F S1024x1024 .f32) (x1 xs xo : Vec F S1024x512 .f32)

-- at contraction index 0 the running sum restarts: it becomes zero plus the first block product
theorem runFirst7 (h0 : atFirstK7 i) (h7 : ¬atLastK7 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k7_pay2 x0 x1 k7_pay1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_cons_unit_zero (S := S1024x512) origin7, View.readCov_unit_zero (S := S1024x512) _ origin7]
  simp only [View.readAt_eq_ld, harg3.read_unread, harg4.read_unread, View.ld_unit_zero (S := S1024x1024) origin7, View.ld_unit_zero (S := S1024x512) origin7]

-- at a middle index the block product is added to the running sum
theorem runMid7 (h0 : ¬atFirstK7 i) (h7 : ¬atLastK7 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k7_pay2 x0 x1 xs)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin7]
  simp only [View.readAt_eq_ld, harg3.read_unread, harg4.read_unread, harg6.read_unread, View.ld_unit_zero (S := S1024x1024) origin7, View.ld_unit_zero (S := S1024x512) origin7]

-- at the last index the last block product is added, and the result block is the entrywise maximum of the sum and 0
theorem runLast7 (h0 : ¬atFirstK7 i) (h7 : atLastK7 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k7_pay3 (k7_pay2 x0 x1 xs)) ∗ owns (c : Thread nD τ) arg6 fullShare (k7_pay2 x0 x1 xs)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x512.size (by sl_kernel_rfl) y
    try sl_unfold_words
    rw [View.canon_unit_zero origin7, View.readCov_unit_zero (S := S1024x512) _ origin7]
    simp only [View.readAt_eq_ld, harg3.read_unread, harg4.read_unread, harg6.read_unread, View.ld_unit_zero (S := S1024x1024) origin7, View.ld_unit_zero (S := S1024x512) origin7]
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin7]
  simp only [View.readAt_eq_ld, harg3.read_unread, harg4.read_unread, harg6.read_unread, View.ld_unit_zero (S := S1024x1024) origin7, View.ld_unit_zero (S := S1024x512) origin7]

end Body

variable (c : Dev nD)

-- the running sum after position n: one block product added to zero where the contraction restarts,
-- elsewhere to the sum after position n - 1
def accAt7 : (n : ℕ) → n < cfg7.N → Vec F S1024x512 .f32
  | 0, hn => k7_pay2 (blk7 V c 0 ⟨0, hn⟩) (blk7 V c 1 ⟨0, hn⟩) k7_pay1
  | n + 1, hn => k7_pay2 (blk7 V c 0 ⟨n + 1, hn⟩) (blk7 V c 1 ⟨n + 1, hn⟩)
      (if (n + 1) % 8 = 0 then k7_pay1 else accAt7 n (Nat.lt_of_succ_lt hn))

theorem accAt7_restart (t : Fin cfg7.N) (h0 : t.val % 8 = 0) :
    accAt7 V c t.val t.isLt = k7_pay2 (blk7 V c 0 t) (blk7 V c 1 t) (k7_pay1 (F := F)) := by
  obtain ⟨n, hn⟩ := t
  cases n with
  | zero => rfl
  | succ n => exact congrArg (k7_pay2 _ _) (if_pos h0)

theorem accAt7_add (t : Fin cfg7.N) (h0 : ¬t.val % 8 = 0) :
    accAt7 V c t.val t.isLt = k7_pay2 (blk7 V c 0 t) (blk7 V c 1 t) (accAt7 V c (t.val - 1) (Nat.lt_of_le_of_lt (Nat.sub_le _ _) t.isLt)) := by
  obtain ⟨n, hn⟩ := t
  cases n with
  | zero => exact absurd (Nat.zero_mod _) h0
  | succ n => exact congrArg (k7_pay2 _ _) (if_neg h0)

def outAt7 (t : Fin cfg7.N) : Vec F S1024x512 .f32 := k7_pay3 (accAt7 V c t.val t.isLt)

-- the running sum's part of the invariant before position n: anything at the start, afterwards the sum after position n - 1
def Sum7 (n : ℕ) (h : n ≤ cfg7.N) : sProp 𝕄 :=
  if hz : n = 0 then iprop(∃ d, owns (c : Thread nD τ) acc7 fullShare d) else owns (c : Thread nD τ) acc7 fullShare (accAt7 V c (n - 1) (by omega))

def Inv7 (n : ℕ) (h : n ≤ cfg7.N) : sProp 𝕄 :=
  iprop(iprop(Sum7 V c n h ∗ Pipeline.scopedRestBut spec7 c [cc7_scratch0]) ∗ (∃ r, prngReg c r))

-- the value of the running sum may be forgotten at any position
theorem Sum7_forget (n : ℕ) (h : n ≤ cfg7.N) : Sum7 V c n h ⊢ iprop(∃ d, owns (c : Thread nD τ) acc7 fullShare d) := by
  unfold Sum7; split
  · exact .rfl
  · iintro H; iexists _; iexact H

def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => outAt7 V c t
  Φ t := Inv7 V c t.val (Nat.le_of_lt_succ t.isLt)
  q _ := fullShare
  owed _ := 0

theorem A_eq7 (w : Fin cfg7.W) : (dat7 V c).A w = V c (Pipeline.arrRef spec7 w) := rfl
theorem after7_2 (t : Fin cfg7.N) : (dat7 V c).after 2 t = outAt7 V c t := rfl

theorem held7_0 (t : Fin cfg7.N) (d) : (dat7 V c).before 0 t d = blk7 V c 0 t :=
  ((dat7 V c).before_in_eq_fetched 0 rfl (fun _ => rfl) (fun _ _ _ => rfl) (fun _ => rfl) t d).trans rfl
theorem held7_1 (t : Fin cfg7.N) (d) : (dat7 V c).before 1 t d = blk7 V c 1 t :=
  ((dat7 V c).before_in_eq_fetched 1 rfl (fun _ => rfl) (fun _ _ _ => rfl) (fun _ => rfl) t d).trans rfl

-- by the point's residue mod 8 the matching case applies and gives the invariant of the next position
theorem sound_body7 (t : Fin cfg7.N) :
    iprop((dat7 V c).Φ t.castSucc ∗ (dat7 V c).owesAt () t.castSucc
    ∗ (∃ d, owns (c : Thread nD τ) (stg7_0 t) fullShare ((dat7 V c).before 0 t d))
    ∗ (∃ d, owns (c : Thread nD τ) (stg7_1 t) fullShare ((dat7 V c).before 1 t d))
    ∗ (∃ d, owns (c : Thread nD τ) (stg7_2 t) fullShare ((dat7 V c).before 2 t d)))
      ⊢ wp frame (wpE (defs₀ (F := F)) Variants.none c none) Set.univ (bodyAt7 t) (fun _ => iprop((dat7 V c).Φ t.succ ∗ (dat7 V c).owesAt () t.succ
    ∗ (dat7 V c).leavesExact 0 t
    ∗ (dat7 V c).leavesExact 1 t
    ∗ (dat7 V c).leavesExact 2 t)) := by
  unfold bodyAt7
  simp only [held7_0, held7_1]
  rw [show (dat7 V c).owesAt () t.succ = (dat7 V c).owesAt () t.castSucc from rfl,
    show (dat7 V c).Φ t.succ = Inv7 V c (t.val + 1) t.isLt from rfl,
    show (dat7 V c).Φ t.castSucc = Inv7 V c t.val (Nat.le_of_lt t.isLt) from rfl, Inv7, Inv7,
    show Sum7 V c (t.val + 1) t.isLt = owns (c : Thread nD τ) acc7 fullShare (accAt7 V c t.val t.isLt) from rfl,
    show (dat7 V c).leavesExact 0 t = owns (c : Thread nD τ) (stg7_0 t) fullShare (blk7 V c 0 t) from by
      unfold Dat.leavesExact; rw [live7_0 t]; rfl,
    show (dat7 V c).leavesExact 1 t = owns (c : Thread nD τ) (stg7_1 t) fullShare (blk7 V c 1 t) from by
      unfold Dat.leavesExact; rw [live7_1 t]; rfl]
  by_cases h0 : t.val % 8 = 0
  · have h7 : ¬atLastK7 (grid7.coords t) := fun h => by have := (atLastK7_iff t).mp h; omega
    rw [Dat.leavesExact_idle (dat7 V c) 2 t (idle7_2 t h7) (keep7_2 t h7), accAt7_restart V c t h0]
    refine (sep_mono (sep_mono (sep_mono (Sum7_forget V c _ _) .rfl) .rfl) .rfl).trans ?_
    iintro ⟨⟨⟨HS, HR⟩, Hg⟩, Ho, ⟨%d0, H0⟩, ⟨%d1, H1⟩, ⟨%d2, H2⟩⟩
    iapply (runFirst7 c (grid7.coords t) _ _ _ _ _ _ _ _ (blk7 V c 0 t) (blk7 V c 1 t) _ ((atFirstK7_iff t).mpr h0) h7 Set.univ _)
    iframe
    iintro ⟨H0, H1, H2, HS⟩
    iframe
    iexists _; iexact H2
  · have hf : ¬atFirstK7 (grid7.coords t) := fun h => h0 ((atFirstK7_iff t).mp h)
    rw [accAt7_add V c t h0, Sum7, dif_neg fun e => h0 (by rw [e])]
    by_cases h7 : t.val % 8 = 7
    · rw [show (dat7 V c).leavesExact 2 t = owns (c : Thread nD τ) (stg7_2 t) fullShare (outAt7 V c t) from by
          unfold Dat.leavesExact; rw [live7_2 t ((atLastK7_iff t).mpr h7)]; rfl, outAt7, accAt7_add V c t h0]
      iintro ⟨⟨⟨HS, HR⟩, Hg⟩, Ho, ⟨%d0, H0⟩, ⟨%d1, H1⟩, ⟨%d2, H2⟩⟩
      iapply (runLast7 c (grid7.coords t) _ _ _ _ _ _ _ _ (blk7 V c 0 t) (blk7 V c 1 t) _ hf ((atLastK7_iff t).mpr h7) Set.univ _)
      isplitl [H0]; · iexact H0
      isplitl [H1]; · iexact H1
      isplitl [H2]; · iexists _; iexact H2
      iframe
      iintro ⟨H0, H1, H2, HS⟩
      iframe
    · have hl : ¬atLastK7 (grid7.coords t) := fun h => h7 ((atLastK7_iff t).mp h)
      rw [Dat.leavesExact_idle (dat7 V c) 2 t (idle7_2 t hl) (keep7_2 t hl)]
      iintro ⟨⟨⟨HS, HR⟩, Hg⟩, Ho, ⟨%d0, H0⟩, ⟨%d1, H1⟩, ⟨%d2, H2⟩⟩
      iapply (runMid7 c (grid7.coords t) _ _ _ _ _ _ _ _ (blk7 V c 0 t) (blk7 V c 1 t) _ _ hf hl Set.univ _)
      iframe
      iintro ⟨H0, H1, H2, HS⟩
      iframe
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [PhiA7_eq]; exact .rfl

theorem hout7 (c : Dev nD) : (dat7 V c).Φ (Fin.last cfg7.N) ⊢ Pipeline.ΦA spec7 c := by
  rw [PhiA7_eq]; exact sep_mono (sep_mono (Sum7_forget V c _ _) .rfl) .rfl

end Cert.Kernel.Hand

end
-- ==== Proof.K.Reg8.lean ====
import proofs.«176514_j47991964565814_1_alg».proof.Proof.KLaunch
import proofs.«176514_j47991964565814_1_alg».proof.Proof.Gen.Kernel.Skeleton
import proofs.«176514_j47991964565814_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev clears8 (i : grid8.Coords) : Prop :=
  (Scalar.cmpi .ne (Scalar.extui (Scalar.cmpi .eq (BitVec.ofNat 32 (i 2).val) 0#32)) 0#32) = 1#1

theorem clears8_all : ∀ t : Fin cfg8.N, clears8 (grid8.coords t) :=
  (by decide +kernel : ∀ t : Fin grid8.N, clears8 (grid8.coords t))

abbrev stores8 (i : grid8.Coords) : Prop := k8_cond2 i = 1#1

theorem stores8_all : ∀ t : Fin cfg8.N, stores8 (grid8.coords t) :=
  (by decide +kernel : ∀ t : Fin grid8.N, stores8 (grid8.coords t))

theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel

abbrev ms8_0 (t : Fin cfg8.N) : Memref sig .tc .vmem S64x1792 .f32 := win8_0.stage (cfg8.slots t 0)
abbrev ms8_1 (t : Fin cfg8.N) : Memref sig .tc .vmem S1792x256 .f32 := win8_1.stage (cfg8.slots t 1)
abbrev ms8_2 (t : Fin cfg8.N) : Memref sig .tc .vmem S64x256 .f32 := win8_2.stage (cfg8.slots t 2)

abbrev acc8 : Memref sig .tc .vmem S64x256 .f32 := Memref.whole cc8_scratch0

theorem PhiA8_eq (c : Dev nD) :
    (Pipeline.ΦA spec8 c : sProp 𝕄)
      = iprop(iprop(iprop((∃ d, owns c acc8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [acc8, owns_whole]; try rfl

theorem origin8 : (![0, 0] : Fin 2 → Nat) = fun _ => 0 := funext fun a => by fin_cases a <;> rfl

-- Both tests hold, so every branch is decided: the result block ends at the one product.
theorem kernelRun8 (c : Dev nD) (i : grid8.Coords)
    (arg3 : Memref sig .tc .vmem S64x1792 .f32) (harg3 : arg3.IsWhole) (arg4 : Memref sig .tc .vmem S1792x256 .f32) (harg4 : arg4.IsWhole)
    (arg5 : Memref sig .tc .vmem S64x256 .f32) (harg5 : arg5.IsWhole) (arg6 : Memref sig .tc .vmem S64x256 .f32) (harg6 : arg6.IsWhole)
    (h0 : clears8 i) (h1 : stores8 i) (x0 : Vec F S64x1792 .f32) (x1 : Vec F S1792x256 .f32) (E : Set ℕ) (K : PUnit → sProp 𝕄) :
    iprop(owns c arg3 fullShare x0 ∗ owns c arg4 fullShare x1
        ∗ (∃ d, owns c arg5 fullShare d) ∗ (∃ d, owns c arg6 fullShare d)
        ∗ (iprop(owns c arg3 fullShare x0 ∗ owns c arg4 fullShare x1
            ∗ owns c arg5 fullShare (k8_pay2 x0 x1 k8_pay1) ∗ (∃ d, owns c arg6 fullShare d)) -∗ K ⟨⟩))
      ⊢ wp frame (wpE (defs₀ (F := F)) Variants.none c none) E (cc8__matmul_kernel i arg3 harg3 arg4 harg4 arg5 harg5 arg6 harg6) K := by
  simp only [cc8__matmul_kernel_eq_skeleton]; unfold cc8__matmul_kernel_skel
  unfold owns
  iintro ⟨⟨%f0, %hf0, H0⟩, ⟨%f1, %hf1, H1⟩, ⟨%d2, %f2, -, H2⟩, ⟨%ds, %fs, -, HS⟩, Hk⟩
  obtain rfl := harg3.eq_unread hf0; obtain rfl := harg4.eq_unread hf1
  sl_exec (disch := first | exact h0 | exact h1)
  sl_step
  iapply Hk
  isplitl [H0]; · iexists _; iframe H0; ipureintro; exact harg3.read_unread _
  isplitl [H1]; · iexists _; iframe H1; ipureintro; exact harg4.read_unread _
  isplitl [H2]
  · iexists _; iframe H2; ipureintro
    refine (View.read_writes_eq_canon _ _ _ fun y => View.cover_of_tiledL _ S64x256.size (by sl_kernel_rfl) y).trans ?_
    try sl_unfold_words
    rw [View.canon_unit_zero origin8, View.readCov_cons_toLoadRect, View.readCov_unit_zero _ origin8]
    simp only [View.readAt_eq_ld, harg3.read_unread, harg4.read_unread, View.ld_unit_zero (S := S64x1792) origin8, View.ld_unit_zero (S := S1792x256) origin8]
  iexists _; iexists _; iframe HS; ipureintro; rfl

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay2 (iblk8 V c 0 t) (iblk8 V c 1 t) k8_pay1
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = k8_pay2 (iblk8 V c 0 t) (iblk8 V c 1 t) k8_pay1 := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

-- The invariant lends the accumulator at whatever it holds and takes it back at whatever the body leaves in it.
theorem sound_body8 (c : Dev nD) (t : Fin cfg8.N) :
    iprop((dat8 V c).Φ t.castSucc ∗ (dat8 V c).owesAt () t.castSucc
      ∗ (∃ d, owns c (ms8_0 t) fullShare ((dat8 V c).before 0 t d))
      ∗ (∃ d, owns c (ms8_1 t) fullShare ((dat8 V c).before 1 t d))
      ∗ (∃ d, owns c (ms8_2 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ (dat8 V c).leavesExact 0 t ∗ (dat8 V c).leavesExact 1 t ∗ (dat8 V c).leavesExact 2 t)) := by
  unfold bodyAt8
  simp only [before8_0, before8_1]
  rw [show (dat8 V c).owesAt () t.succ = (dat8 V c).owesAt () t.castSucc from rfl]
  rw [show (dat8 V c).Φ t.succ = Pipeline.ΦA spec8 c from rfl, show (dat8 V c).Φ t.castSucc = Pipeline.ΦA spec8 c from rfl]
  rw [show (dat8 V c).leavesExact 0 t = owns c (ms8_0 t) fullShare ((dat8 V c).after 0 t) from by
    unfold Dat.leavesExact; rw [live8_0 t], after8_0]
  rw [show (dat8 V c).leavesExact 1 t = owns c (ms8_1 t) fullShare ((dat8 V c).after 1 t) from by
    unfold Dat.leavesExact; rw [live8_1 t], after8_1]
  rw [show (dat8 V c).leavesExact 2 t = owns c (ms8_2 t) fullShare ((dat8 V c).after 2 t) from by
    unfold Dat.leavesExact; rw [live8_2 t], after8_2]
  rw [PhiA8_eq]
  iintro ⟨⟨⟨HS, Hrest⟩, Hg⟩, Ho, ⟨%d0, H0⟩, ⟨%d1, H1⟩, ⟨%d2, H2⟩⟩
  iapply (kernelRun8 c (grid8.coords t) _ _ _ _ _ _ _ _ (clears8_all t) (stores8_all t) (iblk8 V c 0 t) (iblk8 V c 1 t) Set.univ _)
  iframe H0 H1 HS
  isplitl [H2]; · iexists _; iexact H2
  iintro ⟨H0, H1, H2, HS⟩
  iframe

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := Idealize.SL.BI.Entails.refl _

theorem hout8 (c : Dev nD) : (dat8 V c).Φ (Fin.last cfg8.N) ⊢ Pipeline.ΦA spec8 c := Idealize.SL.BI.Entails.refl _

end Cert.Kernel.Hand

end
-- ==== Proof.K.SegsW.lean ====
import proofs.«176514_j47991964565814_1_alg».proof.Proof.KRegions
import proofs.«176514_j47991964565814_1_alg».proof.Proof.K.Reg0
import proofs.«176514_j47991964565814_1_alg».proof.Proof.K.Reg1
import proofs.«176514_j47991964565814_1_alg».proof.Proof.K.Reg2
import proofs.«176514_j47991964565814_1_alg».proof.Proof.K.Reg3
import proofs.«176514_j47991964565814_1_alg».proof.Proof.K.Reg4
import proofs.«176514_j47991964565814_1_alg».proof.Proof.K.Reg5
import proofs.«176514_j47991964565814_1_alg».proof.Proof.K.Reg6
import proofs.«176514_j47991964565814_1_alg».proof.Proof.K.Reg7
import proofs.«176514_j47991964565814_1_alg».proof.Proof.K.Reg8

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (c : Dev nD)

def W1 : Valuation τ sig (Elt F) := StableHlo.after hostOps0 (fun b => m (c, b))
def W2 : Valuation τ sig (Elt F) :=
  Function.update (W1 m c)
    main_v20 ((dat0 (fun c b => W1 m c b) c).arrAt 2 cfg0.N)
def W3 : Valuation τ sig (Elt F) :=
  Function.update (Function.update (Function.update (Function.update (W2 m c)
    main_v21_0 ((dat1 (fun c b => W2 m c b) c).arrAt 2 cfg1.N))
    main_v21_1 ((dat1 (fun c b => W2 m c b) c).arrAt 3 cfg1.N))
    main_v21_2 ((dat1 (fun c b => W2 m c b) c).arrAt 4 cfg1.N))
    main_v21_3 ((dat1 (fun c b => W2 m c b) c).arrAt 5 cfg1.N)
def W4 : Valuation τ sig (Elt F) := StableHlo.after hostOps2 (W3 m c)
def W5 : Valuation τ sig (Elt F) :=
  Function.update (Function.update (W4 m c)
    main_v24_0 ((dat2 (fun c b => W4 m c b) c).arrAt 6 cfg2.N))
    main_v24_1 ((dat2 (fun c b => W4 m c b) c).arrAt 7 cfg2.N)
def W6 : Valuation τ sig (Elt F) :=
  Function.update (W5 m c)
    main_v25 ((dat3 (fun c b => W5 m c b) c).arrAt 2 cfg3.N)
def W7 : Valuation τ sig (Elt F) :=
  Function.update (W6 m c)
    main_v26 ((dat4 (fun c b => W6 m c b) c).arrAt 2 cfg4.N)
def W8 : Valuation τ sig (Elt F) :=
  Function.update (W7 m c)
    main_v27 ((dat5 (fun c b => W7 m c b) c).arrAt 2 cfg5.N)
def W9 : Valuation τ sig (Elt F) := StableHlo.after hostOps6 (W8 m c)
def W10 : Valuation τ sig (Elt F) :=
  Function.update (W9 m c)
    main_v29 ((dat6 (fun c b => W9 m c b) c).arrAt 2 cfg6.N)
def W11 : Valuation τ sig (Elt F) :=
  Function.update (W10 m c)
    main_v30 ((dat7 (fun c b => W10 m c b) c).arrAt 2 cfg7.N)
def W12 : Valuation τ sig (Elt F) := StableHlo.after hostOps8 (W11 m c)
def W13 : Valuation τ sig (Elt F) :=
  Function.update (W12 m c)
    main_v45 ((dat8 (fun c b => W12 m c b) c).arrAt 2 cfg8.N)
def W14 : Valuation τ sig (Elt F) := StableHlo.after hostOps9 (W13 m c)

-- An update is not seen at another reference.
theorem upd_ne {V : Valuation τ sig (Elt F)} {a b : Ref sig .tc} (h : b ≠ a) (x) :
    Function.update V (Proc.devRef .tc a) x (Proc.devRef .tc b) = V (Proc.devRef .tc b) :=
  Function.update_of_ne (StableHlo.devRef_ne_of_ne h) ..

theorem W2_main_v20 : W2 m c main_v20 = (dat0 (fun c b => W1 m c b) c).arrAt 2 cfg0.N :=
  Function.update_self ..
theorem W3_main_v21_0 : W3 m c main_v21_0 = (dat1 (fun c b => W2 m c b) c).arrAt 2 cfg1.N :=
  (upd_ne (by decide) _).trans ((upd_ne (by decide) _).trans ((upd_ne (by decide) _).trans (Function.update_self ..)))
theorem W3_main_v21_1 : W3 m c main_v21_1 = (dat1 (fun c b => W2 m c b) c).arrAt 3 cfg1.N :=
  (upd_ne (by decide) _).trans ((upd_ne (by decide) _).trans (Function.update_self ..))
theorem W3_main_v21_2 : W3 m c main_v21_2 = (dat1 (fun c b => W2 m c b) c).arrAt 4 cfg1.N :=
  (upd_ne (by decide) _).trans (Function.update_self ..)
theorem W3_main_v21_3 : W3 m c main_v21_3 = (dat1 (fun c b => W2 m c b) c).arrAt 5 cfg1.N :=
  Function.update_self ..
theorem W5_main_v24_0 : W5 m c main_v24_0 = (dat2 (fun c b => W4 m c b) c).arrAt 6 cfg2.N :=
  (upd_ne (by decide) _).trans (Function.update_self ..)
theorem W5_main_v24_1 : W5 m c main_v24_1 = (dat2 (fun c b => W4 m c b) c).arrAt 7 cfg2.N :=
  Function.update_self ..
theorem W6_main_v25 : W6 m c main_v25 = (dat3 (fun c b => W5 m c b) c).arrAt 2 cfg3.N :=
  Function.update_self ..
theorem W7_main_v26 : W7 m c main_v26 = (dat4 (fun c b => W6 m c b) c).arrAt 2 cfg4.N :=
  Function.update_self ..
theorem W8_main_v27 : W8 m c main_v27 = (dat5 (fun c b => W7 m c b) c).arrAt 2 cfg5.N :=
  Function.update_self ..
theorem W10_main_v29 : W10 m c main_v29 = (dat6 (fun c b => W9 m c b) c).arrAt 2 cfg6.N :=
  Function.update_self ..
theorem W11_main_v30 : W11 m c main_v30 = (dat7 (fun c b => W10 m c b) c).arrAt 2 cfg7.N :=
  Function.update_self ..
theorem W13_main_v45 : W13 m c main_v45 = (dat8 (fun c b => W12 m c b) c).arrAt 2 cfg8.N :=
  Function.update_self ..

def outsW : Outs (F := F)
  | 2, r, c => W2 m c r
  | 3, r, c => W3 m c r
  | 5, r, c => W5 m c r
  | 6, r, c => W6 m c r
  | 7, r, c => W7 m c r
  | 8, r, c => W8 m c r
  | 10, r, c => W10 m c r
  | 11, r, c => W11 m c r
  | 13, r, c => W13 m c r
  | _, r, c => m ((c : Thread nD τ).loc r)

-- Updates of equal valuations by equal contents are equal.
theorem upd_congr {V V' : Valuation τ sig (Elt F)} {a : DevRef τ sig} {x y : BufTy.Contents (Elt F) a.ty}
    (h : V = V') (hx : x = y) : Function.update V a x = Function.update V' a y := h ▸ hx ▸ rfl

theorem V1_eq : V1 m c = W1 m c := rfl
theorem V2_eq : V2 m (outsW m) c = W2 m c := upd_congr (V1_eq m c) (W2_main_v20 m c)
theorem V3_eq : V3 m (outsW m) c = W3 m c :=
  upd_congr (upd_congr (upd_congr (upd_congr (V2_eq m c) (W3_main_v21_0 m c)) (W3_main_v21_1 m c)) (W3_main_v21_2 m c))
    (W3_main_v21_3 m c)
theorem V4_eq : V4 m (outsW m) c = W4 m c := congrArg (StableHlo.after hostOps2) (V3_eq m c)
theorem V5_eq : V5 m (outsW m) c = W5 m c :=
  upd_congr (upd_congr (V4_eq m c) (W5_main_v24_0 m c)) (W5_main_v24_1 m c)
theorem V6_eq : V6 m (outsW m) c = W6 m c := upd_congr (V5_eq m c) (W6_main_v25 m c)
theorem V7_eq : V7 m (outsW m) c = W7 m c := upd_congr (V6_eq m c) (W7_main_v26 m c)
theorem V8_eq : V8 m (outsW m) c = W8 m c := upd_congr (V7_eq m c) (W8_main_v27 m c)
theorem V9_eq : V9 m (outsW m) c = W9 m c := congrArg (StableHlo.after hostOps6) (V8_eq m c)
theorem V10_eq : V10 m (outsW m) c = W10 m c := upd_congr (V9_eq m c) (W10_main_v29 m c)
theorem V11_eq : V11 m (outsW m) c = W11 m c := upd_congr (V10_eq m c) (W11_main_v30 m c)
theorem V12_eq : V12 m (outsW m) c = W12 m c := congrArg (StableHlo.after hostOps8) (V11_eq m c)
theorem V13_eq : V13 m (outsW m) c = W13 m c := upd_congr (V12_eq m c) (W13_main_v45 m c)
theorem V14_eq : V14 m (outsW m) c = W14 m c := congrArg (StableHlo.after hostOps9) (V13_eq m c)

end Cert.Kernel.Hand

end
-- ==== Proof.K.Seg0.lean ====
import proofs.«176514_j47991964565814_1_alg».proof.Proof.K.Reg0
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrRefs0 : Finset.univ.image (Pipeline.arrRef spec0) = {main_v19, main_v20} := by decide

theorem arrays_eq_shares {cfg : Cfg sig Λ₀} {c : Dev nD} (dat : Dat τ (Elt F) Unit ℕ (UR sig nD τ) ℕ cfg c)
    (harr : ∀ w, (cfg.spec w).arr.IsWhole) (G : (w : Fin cfg.W) → Buf (Elt F) ((cfg.win w).arr.view.loc (c : Thread nD τ))) :
    (dat.arrays G : sProp 𝕄)
      = bigSep Finset.univ fun w => (((c : Thread nD τ).loc (Pipeline.arrRef cfg.spec w)) ↦{dat.share w} G w : sProp 𝕄) := by
  unfold Dat.arrays
  exact bigSep_congr fun w _ => by rw [(harr w).set_eq_univ]

theorem arrays0_eq (c : Dev nD) (G : (w : Fin cfg0.W) → Buf (Elt F) ((cfg0.win w).arr.view.loc (c : Thread nD τ))) :
    ((dat0 V c).arrays G : sProp 𝕄)
      = iprop((((c : Thread nD τ).loc main_v19) ↦{fullShare.left} G 0) ∗ (((c : Thread nD τ).loc main_v19) ↦{fullShare.right} G 1)
          ∗ (((c : Thread nD τ).loc main_v20) ↦{fullShare} G 2)) := by
  rw [arrays_eq_shares (dat0 V c) arr_whole0 G, bigSep_W0]; rfl

theorem entry0 (c : Dev nD) :
    (unscopedBufs c (V c) : sProp 𝕄)
      ⊢ iprop((dat0 V c).arrays ((dat0 V c).arrAt · 0) ∗ Pipeline.unscopedRest spec0 c (V c)) := by
  rw [Pipeline.unscopedBufs_split₀ cfgs (0 : Fin 9) winFacts₀0.arr_unscoped c (V c)]
  refine sep_mono ?_ .rfl
  rw [arrays0_eq]
  unfold Pipeline.arrBufs
  rw [show Finset.univ.image (Pipeline.arrRef (cfgs (0 : Fin 9)).spec) = {main_v19, main_v20} from arrRefs0,
    BI.bigSep_insert (by decide), BI.bigSep_singleton]
  refine (show iprop((((c : Thread nD τ).loc main_v19) ↦{fullShare} V c main_v19) ∗ (((c : Thread nD τ).loc main_v20) ↦{fullShare} V c main_v20)) ⊢ _ from ?_)
  iintro ⟨H19, H20⟩
  ihave H := (pointsTo_share (PosShare.mem_left_op_right fullShare)).1 $$ H19
  icases H with ⟨Hl, Hr⟩
  isplitl [Hl]; · iexact Hl
  isplitl [Hr]; · iexact Hr
  iexact H20

theorem exit0 (c : Dev nD) :
    iprop((dat0 V c).arrays ((dat0 V c).arrAt · cfg0.N) ∗ Pipeline.unscopedRest spec0 c (V c))
      ⊢ (unscopedBufs c (Function.update (V c) main_v20 ((dat0 V c).arrAt 2 cfg0.N)) : sProp 𝕄) := by
  rw [Pipeline.unscopedBufs_split₀ cfgs (0 : Fin 9) winFacts₀0.arr_unscoped c (Function.update (V c) main_v20 ((dat0 V c).arrAt 2 cfg0.N))]
  refine sep_mono ?_ (Entails.of_eq ?_)
  · rw [arrays0_eq]
    unfold Pipeline.arrBufs
    rw [show Finset.univ.image (Pipeline.arrRef (cfgs (0 : Fin 9)).spec) = {main_v19, main_v20} from arrRefs0,
      BI.bigSep_insert (by decide), BI.bigSep_singleton]
    rw [(dat0 V c).arrAt_in 0 rfl, (dat0 V c).arrAt_in 1 rfl, A_eq0, A_eq0]
    rw [Function.update_of_ne (by decide : main_v19 ≠ main_v20), Function.update_self]
    refine (show _ ⊢ iprop((((c : Thread nD τ).loc main_v19) ↦{fullShare} V c main_v19) ∗ (((c : Thread nD τ).loc main_v20) ↦{fullShare} (dat0 V c).arrAt 2 cfg0.N)) from ?_)
    iintro ⟨Hl, Hr, H20⟩
    isplitl [Hl Hr]
    · iapply (pointsTo_share (PosShare.mem_left_op_right fullShare)).2
      isplitl [Hl] <;> iassumption
    iexact H20
  · unfold Pipeline.unscopedRest
    refine bigSep_congr fun b hb => ?_
    have hne : b ≠ main_v20 := fun e => (Finset.mem_sdiff.mp hb).2 (by rw [e, show Finset.univ.image (Pipeline.arrRef spec0) = {main_v19, main_v20} from arrRefs0]; decide)
    rw [Function.update_of_ne hne]

end Cert.Kernel.Hand

end
-- ==== Proof.K.Segs.lean ====
import proofs.«176514_j47991964565814_1_alg».proof.Proof.K.SegsW
import proofs.«176514_j47991964565814_1_alg».proof.Proof.K.Seg0
import Idealize.ShloMosaic.Lib.Pipeline.FrameBody
import Idealize.ShloMosaic.Lib.Pipeline.RegionsLoop
import Idealize.ShloMosaic.Lib.Pipeline.Frame
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

-- A valuation read at the references of the core.
abbrev atTc (W : Dev nD → Valuation τ sig (Elt F)) (c : Dev nD) (b : Ref sig .tc) : Buf (Elt F) ((c.tc : Thread nD τ).loc b) := W c b

def pdats : (p : Fin 9) → (c : Dev nD) → Dat τ (Elt F) Unit ℕ (UR sig nD τ) ℕ (cfgs p) c
  | ⟨0, _⟩ => dat0 (atTc (W1 m))
  | ⟨1, _⟩ => dat1 (atTc (W2 m))
  | ⟨2, _⟩ => dat2 (atTc (W4 m))
  | ⟨3, _⟩ => dat3 (atTc (W5 m))
  | ⟨4, _⟩ => dat4 (atTc (W6 m))
  | ⟨5, _⟩ => dat5 (atTc (W7 m))
  | ⟨6, _⟩ => dat6 (atTc (W9 m))
  | ⟨7, _⟩ => dat7 (atTc (W10 m))
  | ⟨8, _⟩ => dat8 (atTc (W12 m))

abbrev R (c : Dev nD) : sProp 𝕄 :=
  iprop((∃ r, prngReg c r) ∗ ∃ W, owes (c : Thread nD τ) (0 : CellTallies nD τ sig Unit) W)

abbrev Reg (p : Fin 9) :=
  Pipeline.RegionSeg (pcfgs (F := F)) adm (pdats m) () defs₀ Variants.none (fun _ => ∅) (fun _ _ => 0) p

section
variable {cfg : Cfg sig Λ₀} {c : Dev nD} (dat : Dat τ (Elt F) Unit ℕ (UR sig nD τ) ℕ cfg c)

theorem owes_owed (t : Fin (cfg.N + 1)) (h : dat.owed t = 0) (W : Finset (SemLoc sig × Unit)) :
    (owes (c : Thread nD τ) (0 : CellTallies nD τ sig Unit) W : sProp 𝕄) = owes (c : Thread nD τ) (dat.owed t) W := by
  rw [h]

-- `V` with the arrays of the windows `os` at what the write-backs leave in them.
def wb : List (Fin cfg.W) → Valuation τ sig (Elt F) → Valuation τ sig (Elt F)
  | [], V => V
  | o :: os, V => wb os (Function.update V (Proc.devRef .tc (Pipeline.arrRef cfg.spec o)) (dat.arrAt o cfg.N))

theorem wb_of_ne (b : Ref sig .tc) : ∀ (os : List (Fin cfg.W)) (V : Valuation τ sig (Elt F)),
    (∀ o ∈ os, b ≠ Pipeline.arrRef cfg.spec o) → wb dat os V (Proc.devRef .tc b) = V (Proc.devRef .tc b)
  | [], _, _ => rfl
  | o :: os, _, h => (wb_of_ne b os _ fun w hw => h w (List.mem_cons_of_mem _ hw)).trans
      (upd_ne (h o List.mem_cons_self) _)

-- Distinct arrays: the last write to an output window's array is its own.
theorem wb_mem (hinj : Function.Injective (Pipeline.arrRef cfg.spec)) (o : Fin cfg.W) :
    ∀ (os : List (Fin cfg.W)) (V : Valuation τ sig (Elt F)), os.Nodup → o ∈ os →
      wb dat os V (Proc.devRef .tc (Pipeline.arrRef cfg.spec o)) = dat.arrAt o cfg.N
  | o' :: os, _, hn, ho => by
    rcases List.mem_cons.1 ho with rfl | ho
    · exact (wb_of_ne dat _ os _ fun w hw e => (List.nodup_cons.1 hn).1 (by rwa [hinj e])).trans (Function.update_self ..)
    · exact wb_mem hinj o os _ (List.nodup_cons.1 hn).2 ho
end

variable (pd : (p : Fin 9) → (c : Dev nD) → Dat τ (Elt F) Unit ℕ (UR sig nD τ) ℕ (cfgs p) c) (p : Fin 9)
  (V V' : Dev nD → Valuation τ sig (Elt F))
  (howed : ∀ c t, (pd p c).owed t = 0)
  (hrec : ∀ c t, (pd p c).recorded t = Set.univ)
  (hbody : ∀ c, BodyObligation (pd p c) (defs₀ (F := F)) Variants.none () Set.univ)
  (hΦin : ∀ c, Pipeline.ΦA (cfgs p).spec c ⊢ (pd p c).Φ 0)
  (hΦout : ∀ c, (pd p c).Φ (Fin.last (cfgs p).N) ⊢ Pipeline.ΦA (cfgs p).spec c)

-- A region as a segment of the program, given how its arrays leave and rejoin the unscoped buffers.
set_option backward.isDefEq.respectTransparency.types false in
def regOf₀ (hw : Pipeline.WinFacts₀ (cfgs p).spec) (hbp : ∀ w : Fin (cfgs p).W, 0 < ((cfgs p).spec w).block.numel)
    (hsw : ∀ (w : Fin (cfgs p).W) (s : Fin ((cfgs p).spec w).nbuf), (((cfgs p).spec w).stage s).IsWhole)
    (hsplit : ∀ c, (unscopedBufs c (fun b => V c b) : sProp 𝕄)
      ⊢ iprop((pd p c).arrays ((pd p c).arrAt · 0) ∗ Pipeline.unscopedRest (cfgs p).spec c (fun b => V c b)))
    (hjoin : ∀ c, iprop((pd p c).arrays ((pd p c).arrAt · (cfgs p).N) ∗ Pipeline.unscopedRest (cfgs p).spec c (fun b => V c b))
      ⊢ (unscopedBufs c (fun b => V' c b) : sProp 𝕄)) :
    Pipeline.RegionSeg (pcfgs (F := F)) adm pd () defs₀ Variants.none (fun _ => ∅) (fun _ _ => 0) p where
  win := hw
  block_pos := hbp
  stage_whole := hsw
  K := PEmpty
  osem k := k.elim
  ho := Pipeline.OwnSemFacts.none _
  hbody c := (hbody c).loose
  hwaits := Pipeline.hwaits_of_owed_zero _ _ _ _ _ _ p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (fun b => V c b)
  hentry c := by
    rw [Pipeline.ownSems0_none]
    have hsplit := hsplit c
    rw [Pipeline.unscopedBufs_held] at hsplit
    iintro ⟨⟨Hub, Hg, Hown⟩, -, -⟩
    ihave Hs := hsplit $$ Hub
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hown]
    · unfold Pipeline.Dat.owesAt Pipeline.owesWithin
      icases Hown with ⟨%W, Hown⟩; iexists W; isplitr
      · ipureintro; exact fun x _ => Or.inl ((hrec c 0).symm ▸ Set.mem_univ x)
      iapply (Entails.of_eq (owes_owed (pd p c) 0 (howed c 0) W))
      iexact Hown
    isplitl [Hg]; · iexact Hg
    iexact Hrest
  hin c := by
    iintro ⟨Hg, -, Hsc⟩
    iapply (hΦin c)
    unfold Pipeline.ΦA
    isplitl [Hsc]; · iexact Hsc
    iexact Hg
  hout c := by
    rw [Pipeline.ownSems0_none]
    refine (hΦout c).trans ?_
    unfold Pipeline.ΦA
    iintro ⟨Hsc, Hg⟩
    isplitl [Hg]; · iexact Hg
    isplitr; · iempintro
    iexact Hsc
  hexit c := by
    have hjoin := hjoin c
    rw [Pipeline.unscopedBufs_held] at hjoin
    iintro ⟨Harr, Hown, Hg, Hrest⟩
    imodintro
    isplitl [Harr Hrest]
    · iapply hjoin; isplitl [Harr] <;> iassumption
    isplitl [Hg]; · iexact Hg
    unfold Pipeline.Dat.owesAt Pipeline.owesWithin
    icases Hown with ⟨%W, -, Hown⟩; iexists W
    iapply (Entails.of_eq (owes_owed (pd p c) (Fin.last (cfgs p).N) (howed c _) W).symm)
    iexact Hown

-- A region whose windows sit on distinct arrays, leaving the arrays of its output windows `os` rewritten.
set_option backward.isDefEq.respectTransparency.types false in
def regOf (lf : Pipeline.LaunchFacts (nD := nD) (τ := τ) cfgs p) (os : List (Fin (cfgs p).W))
    (hV' : ∀ c, V' c = wb (pd p c) os (V c))
    (hos : os.Nodup ∧ ∀ w, w ∉ os → ((cfgs p).win w).isOut = false)
    (hq : ∀ c w, (pd p c).q w = fullShare)
    (hA : ∀ c w, (pd p c).A w = V c (Pipeline.arrRef (cfgs p).spec w)) :
    Pipeline.RegionSeg (pcfgs (F := F)) adm pd () defs₀ Variants.none (fun _ => ∅) (fun _ _ => 0) p :=
  regOf₀ pd p V V' howed hrec hbody hΦin hΦout lf.win.to₀ lf.block_pos lf.stage_whole
    (fun c => Pipeline.arrays_of_unscopedBufs (p := p) (pcfgs (F := F)) adm pd lf.win lf.arr_whole c
      ((pd p c).share_full (hq c)) (fun b => V c b) (hA c))
    (fun c => Pipeline.unscopedBufs_of_arrays (p := p) (pcfgs (F := F)) adm lf.win lf.arr_whole c pd ((pd p c).share_full (hq c))
      (fun b => V c b) (fun b => V' c b) ((pd p c).arrAt · (cfgs p).N)
      (fun w => by
        rw [hV' c]
        by_cases hw : w ∈ os
        · exact (wb_mem _ lf.win.arr_inj w os _ hos.1 hw).symm
        · exact ((pd p c).arrAt_in w (hos.2 w hw) _).trans ((hA c w).trans
            (wb_of_ne _ _ os _ fun o ho e => hw (by rwa [lf.win.arr_inj e])).symm))
      (fun b hb => by
        rw [hV' c]
        exact wb_of_ne _ b os _ fun o _ e => hb (e ▸ Finset.mem_image_of_mem _ (Finset.mem_univ o))))

-- Region 0 reads one array through two windows, so its arrays are split off and put back by its own two entailments.
def reg0 : Reg m 0 :=
  regOf₀ (pdats m) 0 (W1 m) (W2 m) (fun _ _ => rfl) (fun _ _ => rfl) (body_obligation0 (atTc (W1 m))) (hin0 (atTc (W1 m))) (hout0 (atTc (W1 m)))
    winFacts₀0 block_pos0 stage_whole0 (entry0 (atTc (W1 m))) fun c => by
      have h := exit0 (fun c b => W1 m c b) c
      rwa [show Function.update (fun b : Ref sig .tc => W1 m c b) main_v20 ((dat0 (fun c b => W1 m c b) c).arrAt 2 cfg0.N)
          = fun b : Ref sig .tc => W2 m c b from funext fun b => by
        by_cases hb : b = main_v20
        · subst hb; rw [Function.update_self, W2_main_v20]
        · rw [Function.update_of_ne hb]; exact (upd_ne hb _).symm] at h
def reg1 : Reg m 1 :=
  regOf (pdats m) 1 (W2 m) (W3 m) (fun _ _ => rfl) (fun _ _ => rfl) (body_obligation1 (atTc (W2 m)))
    (hin1 (atTc (W2 m))) (hout1 (atTc (W2 m))) launch1 [2, 3, 4, 5] (fun _ => rfl) (by decide) (fun _ _ => rfl)
    (A_eq1 (atTc (W2 m)))
def reg2 : Reg m 2 :=
  regOf (pdats m) 2 (W4 m) (W5 m) (fun _ _ => rfl) (fun _ _ => rfl) (body_obligation2 (atTc (W4 m)))
    (hin2 (atTc (W4 m))) (hout2 (atTc (W4 m))) launch2 [6, 7] (fun _ => rfl) (by decide) (fun _ _ => rfl)
    (A_eq2 (atTc (W4 m)))
def reg3 : Reg m 3 :=
  regOf (pdats m) 3 (W5 m) (W6 m) (fun _ _ => rfl) (fun _ _ => rfl) (body_obligation3 (atTc (W5 m)))
    (hin3 (atTc (W5 m))) (hout3 (atTc (W5 m))) launch3 [2] (fun _ => rfl) (by decide) (fun _ _ => rfl)
    (A_eq3 (atTc (W5 m)))
def reg4 : Reg m 4 :=
  regOf (pdats m) 4 (W6 m) (W7 m) (fun _ _ => rfl) (fun _ _ => rfl) (body_obligation4 (atTc (W6 m)))
    (hin4 (atTc (W6 m))) (hout4 (atTc (W6 m))) launch4 [2] (fun _ => rfl) (by decide) (fun _ _ => rfl)
    (A_eq4 (atTc (W6 m)))
def reg5 : Reg m 5 :=
  regOf (pdats m) 5 (W7 m) (W8 m) (fun _ _ => rfl) (fun _ _ => rfl) (body_obligation5 (atTc (W7 m)))
    (hin5 (atTc (W7 m))) (hout5 (atTc (W7 m))) launch5 [2] (fun _ => rfl) (by decide) (fun _ _ => rfl)
    (A_eq5 (atTc (W7 m)))
def reg6 : Reg m 6 :=
  regOf (pdats m) 6 (W9 m) (W10 m) (fun _ _ => rfl) (fun _ _ => rfl) (body_obligation6 (atTc (W9 m)))
    (hin6 (atTc (W9 m))) (hout6 (atTc (W9 m))) launch6 [2] (fun _ => rfl) (by decide) (fun _ _ => rfl)
    (A_eq6 (atTc (W9 m)))
def reg7 : Reg m 7 :=
  regOf (pdats m) 7 (W10 m) (W11 m) (fun _ _ => rfl) (fun _ _ => rfl) (body_obligation7 (atTc (W10 m)))
    (hin7 (atTc (W10 m))) (hout7 (atTc (W10 m))) launch7 [2] (fun _ => rfl) (by decide) (fun _ _ => rfl)
    (A_eq7 (atTc (W10 m)))
def reg8 : Reg m 8 :=
  regOf (pdats m) 8 (W12 m) (W13 m) (fun _ _ => rfl) (fun _ _ => rfl) (body_obligation8 (atTc (W12 m)))
    (hin8 (atTc (W12 m))) (hout8 (atTc (W12 m))) launch8 [2] (fun _ => rfl) (by decide) (fun _ _ => rfl)
    (A_eq8 (atTc (W12 m)))

end Cert.Kernel.Hand

end
-- ==== Proof.K.Run.lean ====
import proofs.«176514_j47991964565814_1_alg».proof.Proof.K.Segs

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase Idealize.SL.BI.Laws Idealize.SL.ProofMode
open Idealize.ShloMosaic.Rounds
open Idealize.ShloMosaic.Pipeline (Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Equal valuations give the same thread state.
theorem held_congr (c : Dev nD) {V W : Valuation τ sig (Elt F)} (h : V = W) :
    (iprop(StableHlo.held (c : Thread nD τ) (Pipeline.ucRefs τ sig) V ∗ R c) : sProp 𝕄)
      ⊢ iprop(StableHlo.held (c : Thread nD τ) (Pipeline.ucRefs τ sig) W ∗ R c) := h ▸ .rfl

-- The items of the program chain from the launch to the return, where every whole unscoped buffer is read off the state.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m c b) := by
  refine Pipeline.θ_run_regions_kit_dev (pcfgs (F := F)) adm (pdats m) () cellOf_inj emb₁ defs₀ Variants.none
    (fun _ => ∅) (fun _ _ => 0) m ρ main
    (segs m (outsW m) Variants.none (fun _ => ∅) (fun _ _ => 0) (fun _ => R) () (pdats m) (reg0 m) (reg1 m) (reg2 m)
      (reg3 m) (reg4 m) (reg5 m) (reg6 m) (reg7 m) (reg8 m))
    (fun c Q => by rewrite [main_chain c, Seg.run_eq_chain]; exact .rfl)
    (fun c => by simp only [segs, Seg.pipes_host, Seg.pipes_region, Seg.pipes_nil]; decide) 0 (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (W14 m c))
    (hch := fun c => ⟨.rfl, .rfl, .rfl, held_congr c (V3_eq m c).symm, held_congr c (V4_eq m c), .rfl, .rfl, .rfl,
      held_congr c (V8_eq m c).symm, held_congr c (V9_eq m c), .rfl, held_congr c (V11_eq m c).symm,
      held_congr c (V12_eq m c), held_congr c (V13_eq m c).symm,
      (held_congr c (V14_eq m c)).trans (sep_mono .rfl (by iintro ⟨-, H⟩; iexact H))⟩)
    (hinit := Pipeline.initEach (fun _ => ∅) (fun _ _ => 0) fun c => ?_)
    (QY := fun c s => ∀ b ∈ Pipeline.ucRefs τ sig, s.mem ((c : Thread nD τ).1, b) = W14 m c b)
    (hfin := fun c s' => ?_) (hQ := fun _ h => h)
  · rw [BI.bigSep_emp_const, ownU_emb₁]
    iintro Hu; imodintro
    isplitl [Hu]; · iexact Hu
    iempintro
  · rw [← Pipeline.unscopedBufs_held (Ix := Unit) (Name := ℕ) (U := UR sig nD τ) (Lvl := ℕ) c (V0 m c)]
    iintro ⟨⟨Hub, -, Hown, -, Hg, -⟩, -⟩
    imodintro
    isplitl [Hub]; · iexact Hub
    isplitl [Hg]; · iexists _; iexact Hg
    iexists ∅; iexact Hown
  · unfold StableHlo.held
    iintro ⟨Hh, HSI⟩
    imodintro
    iapply (pointsTo_read_all (Pipeline.ucRefs τ sig) (fun b => ((c : Thread nD τ).1, b)) (W14 m c) s')
    isplitl [Hh] <;> iassumption

end Cert.Kernel.Hand

end
-- ==== Proof.K.Frame.lean ====
import proofs.«176514_j47991964565814_1_alg».proof.Proof.K.Run

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (ρ : Dev nD → PrngReg)

-- An unscoped buffer no item writes ends as launched.
theorem arg_end {r : PUnit × MemSt nD τ sig (Elt F)} (h : ∀ c : Dev nD, ∀ b ∈ Pipeline.ucRefs τ sig,
      r.2.mem ((c : Thread nD τ).1, b) = W14 m c b) (c : Dev nD) (b : Ref sig .tc)
    (hb : ¬ (Proc.devRef .tc b : DevRef τ sig).isScoped)
    (hV : V14 m (outsW m) c (Proc.devRef .tc b) = m ((c : Thread nD τ).loc b)) :
    r.2.mem ((c.tc : Thread nD τ).loc b) = m ((c.tc : Thread nD τ).loc b) :=
  (h c _ (Finset.mem_filter.mpr ⟨StableHlo.devRef_mem_tcRefs b, hb⟩)).trans ((congrFun (V14_eq m c) _).symm.trans hV)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_end m h c main_arg0 (by decide) (V14_main_arg0 m _ c), arg_end m h c main_arg1 (by decide) (V14_main_arg1 m _ c),
     arg_end m h c main_arg2 (by decide) (V14_main_arg2 m _ c), arg_end m h c main_arg3 (by decide) (V14_main_arg3 m _ c),
     arg_end m h c main_arg4 (by decide) (V14_main_arg4 m _ c), arg_end m h c main_arg5 (by decide) (V14_main_arg5 m _ c)⟩)
    (run_all m ρ)

end Cert.Kernel.Hand

end
-- ==== Proof.KI.Reg0Runs.lean ====
import proofs.«176514_j47991964565814_1_alg».proof.Proof.KILaunch
import proofs.«176514_j47991964565814_1_alg».proof.Proof.LibA
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first0 (i : grid0.Coords) : Prop :=
  (Scalar.cmpi .ne (Scalar.extui (Scalar.cmpi .eq (BitVec.ofNat 32 (i 2).val) 0#32)) 0#32) = 1#1
theorem first0_iff : ∀ t : Fin grid0.N, first0 (grid0.coords t) ↔ t.val % 8 = 0 := by decide +kernel

abbrev last0 (i : grid0.Coords) : Prop := k0_cond2 i = 1#1
theorem last0_iff : ∀ t : Fin grid0.N, last0 (grid0.coords t) ↔ t.val % 8 = 7 := by decide +kernel

theorem live0_0 : ∀ t : Fin cfg0.N, cfg0.idle 0 (grid0.coords t) = false := fun _ => rfl
theorem live0_1 : ∀ t : Fin cfg0.N, cfg0.idle 1 (grid0.coords t) = false := fun _ => rfl

theorem rest0_2 : ∀ t : Fin grid0.N, ¬last0 (grid0.coords t) → cfg0.idle 2 (grid0.coords t) = true := by decide +kernel

theorem noFlush0_2 : ∀ t : Fin grid0.N, ¬last0 (grid0.coords t) → win0_2.flush t = false := by decide +kernel

theorem live0_2 : ∀ t : Fin grid0.N, last0 (grid0.coords t) → cfg0.idle 2 (grid0.coords t) = false := by decide +kernel

abbrev VO0 : View sig .tc .vmem S1024x1024 .f32 := (Memref.whole cc0_stg2_0 : Memref sig .tc .vmem S1024x1024 .f32).view

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

abbrev acM0 : Memref sig .tc .vmem S1024x1024 .f32 := Memref.whole cc0_scratch0
abbrev VA0 : View sig .tc .vmem S1024x1024 .f32 := acM0.view

theorem PhiA0_eq (c : Dev nD) :
    (Pipeline.ΦA spec0 c : sProp 𝕄)
      = iprop(iprop(iprop((∃ d, owns (c : Thread nD τ) acM0 fullShare d)) ∗ Pipeline.scopedRestBut spec0 c [cc0_scratch0]) ∗ (∃ r, prngReg c r)) := by
  unfold Pipeline.ΦA; rw [scopedRest0_split]; simp only [acM0, owns_whole]; try rfl

theorem r0_hz : (![0, 0] : Fin 2 → Nat) = fun _ => 0 := funext fun a => by fin_cases a <;> rfl

variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (x0 x1 xa : Vec F S1024x1024 .f32)

theorem run0_first (hf : first0 i) (hl : ¬last0 i) (xo : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k0_pay2 x0 x1 k0_pay1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  rw [harg3.owns_eq c x0, harg4.owns_eq c x1, harg5.owns_eq c xo]
  unfold owns
  iintro ⟨H0, H1, H2, ⟨%da, %fa, -, HA⟩, Hk⟩
  sl_exec (disch := first | exact hf | exact hl)
  sl_step
  iapply Hk
  isplitl [H0]; · iexact H0
  isplitl [H1]; · iexact H1
  isplitl [H2]; · iexact H2
  iexists _; isplitr; swap; · iexact HA
  ipureintro
  refine (View.read_writes_eq_canon _ _ _ fun y => ?_).trans ?_
  · exact View.cover_of_tiledL _ S1024x1024.size (by sl_kernel_rfl) y
  try sl_unfold_words
  rw [View.canon_cons_unit_zero (S := S1024x1024) r0_hz, View.readCov_unit_zero (S := S1024x1024) _ r0_hz]
  simp only [View.readAt_eq_ld, harg3.read_unread, harg4.read_unread, View.ld_unit_zero (S := S1024x1024) r0_hz]

theorem run0_mid (hf : ¬first0 i) (hl : ¬last0 i) (xo : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xa
        ∗ (iprop(owns (c : Thread nD τ) arg3 fullShare x0 ∗ owns (c : Thread nD τ) arg4 fullShare x1 ∗ owns (c : Thread nD τ) arg5 fullShare xo ∗ owns (c : Thread nD τ) arg6 fullShare (k0_pay2 x0 x1 xa)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  rw [harg3.owns_eq c x0, harg4.owns_eq c x1, harg5.owns_eq c xo, harg6.owns_eq c xa]
  unfold owns
  iintro ⟨H0, H1, H2, HA, Hk⟩
  sl_exec (disch := first | exact hf | exact hl)
  sl_step
  iapply Hk
  isplitl [H0]; · iexact H0
  isplitl [H1]; · iexact H1
  isplitl [H2]; · iexact H2
  iexists _; isplitr; swap; · iexact HA
  ipureintro
  refine (View.read_writes_eq_canon _ _ _ fun y => ?_).trans ?_
  · exact View.cover_of_tiledL _ S1024x1024.size (by sl_kernel_rfl) y
  try sl_unfold_words
  rw [View.canon_unit_zero r0_hz]
  simp only [View.readAt_eq_ld, harg3.read_unread, harg4.read_unread, harg6.read_unread, View.ld_unit_zero (S := S1024x1024) r0_hz]

theorem run0_last (hf : ¬first0 i) (hl : last0 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xa
        ∗ (iprop(owns (c : Thread nD τ) arg3 fullShare x0 ∗ owns (c : Thread nD τ) arg4 fullShare x1 ∗ owns (c : Thread nD τ) arg5 fullShare (k0_pay2 x0 x1 xa) ∗ owns (c : Thread nD τ) arg6 fullShare (k0_pay2 x0 x1 xa)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  rw [harg3.owns_eq c x0, harg4.owns_eq c x1, harg6.owns_eq c xa]
  unfold owns
  iintro ⟨H0, H1, ⟨%d2, %f2, -, H2⟩, HA, Hk⟩
  sl_exec (disch := first | exact hf | exact hl)
  sl_step
  iapply Hk
  isplitl [H0]; · iexact H0
  isplitl [H1]; · iexact H1
  isplitl [H2]
  · iexists _; isplitr; swap; · iexact H2
    ipureintro
    refine (View.read_writes_eq_canon _ _ _ fun y => ?_).trans ?_
    · exact View.cover_of_tiledL _ S1024x1024.size (by sl_kernel_rfl) y
    try sl_unfold_words
    rw [View.canon_unit_zero r0_hz, View.readCov_unit_zero (S := S1024x1024) _ r0_hz]
    simp only [View.readAt_eq_ld, harg3.read_unread, harg4.read_unread, harg6.read_unread, View.ld_unit_zero (S := S1024x1024) r0_hz]
  iexists _; isplitr; swap; · iexact HA
  ipureintro
  refine (View.read_writes_eq_canon _ _ _ fun y => ?_).trans ?_
  · exact View.cover_of_tiledL _ S1024x1024.size (by sl_kernel_rfl) y
  try sl_unfold_words
  rw [View.canon_unit_zero r0_hz]
  simp only [View.readAt_eq_ld, harg3.read_unread, harg4.read_unread, harg6.read_unread, View.ld_unit_zero (S := S1024x1024) r0_hz]

end Cert.KernelIdeal.Hand

end
-- ==== Proof.KI.Reg0.lean ====
import proofs.«176514_j47991964565814_1_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Frame rule: a triple for the body extends by everything the body does not touch.
theorem body_frame {c : Dev nD} {t : Fin cfg0.N} {D0 D1 D : Type} {A Apre Apost R G Ho X0 X1 O' : sProp 𝕄} {O Opre Opost : D → sProp 𝕄}
    (hrun : ∀ d K, iprop(X0 ∗ X1 ∗ Opre d ∗ Apre ∗ (iprop(X0 ∗ X1 ∗ Opost d ∗ Apost) -∗ K ⟨⟩))
      ⊢ wp frame (wpE (defs₀ (F := F)) Variants.none c none) Set.univ (bodyAt0 t) K)
    (hA : A ⊢ Apre) (hO : ∀ d, O d ⊢ Opre d) (hO' : ∀ d, Opost d ⊢ O') :
    iprop(iprop(iprop(A ∗ R) ∗ G) ∗ Ho ∗ (∃ _d : D0, X0) ∗ (∃ _d : D1, X1) ∗ (∃ d, O d))
      ⊢ wp frame (wpE (defs₀ (F := F)) Variants.none c none) Set.univ (bodyAt0 t)
          (fun _ => iprop(iprop(iprop(Apost ∗ R) ∗ G) ∗ Ho ∗ X0 ∗ X1 ∗ O')) := by
  iintro ⟨⟨⟨HA, HR⟩, Hg⟩, Ho, ⟨%d0, H0⟩, ⟨%d1, H1⟩, ⟨%d, H2⟩⟩
  iapply hrun d _
  isplitl [H0]; · iexact H0
  isplitl [H1]; · iexact H1
  isplitl [H2]; · iapply hO d; iexact H2
  isplitl [HA]; · iapply hA; iexact HA
  iintro ⟨H0, H1, H2, HA⟩
  iframe
  iapply hO' d; iexact H2

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def accStep0 (t : Fin cfg0.N) (prev : Vec F S1024x1024 .f32) : Vec F S1024x1024 .f32 :=
  k0_pay2 (iblk0 V c 0 t) (iblk0 V c 1 t) (if t.val % 8 = 0 then k0_pay1 else prev)

-- The accumulated value before position `n`: the steps at the points below it, composed.
def accIn0 : (n : ℕ) → n ≤ cfg0.N → Vec F S1024x1024 .f32
  | 0, _ => k0_pay1
  | n + 1, hn => accStep0 V c ⟨n, hn⟩ (accIn0 n (Nat.le_of_lt hn))

theorem accIn0_succ (t : Fin cfg0.N) :
    accIn0 V c (t.val + 1) t.isLt = accStep0 V c t (accIn0 V c t.val (Nat.le_of_lt t.isLt)) := rfl

def outAt0 (t : Fin cfg0.N) : Vec F S1024x1024 .f32 := accIn0 V c (t.val + 1) t.isLt

def Phi0 (n : ℕ) (h : n ≤ cfg0.N) : sProp 𝕄 :=
  iprop(iprop((if n = 0 then iprop(∃ d, owns (c : Thread nD τ) acM0 fullShare d) else owns (c : Thread nD τ) acM0 fullShare (accIn0 V c n h))
    ∗ Pipeline.scopedRestBut spec0 c [cc0_scratch0]) ∗ (∃ r, prngReg c r))

theorem acc_any (n : ℕ) (h : n ≤ cfg0.N) :
    (if n = 0 then iprop(∃ d, owns (c : Thread nD τ) acM0 fullShare d) else owns (c : Thread nD τ) acM0 fullShare (accIn0 V c n h) : sProp 𝕄)
      ⊢ iprop(∃ d, owns (c : Thread nD τ) acM0 fullShare d) := by
  split
  · exact .rfl
  · iintro H; iexists _; iexact H

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := Phi0 V c t.val (Nat.le_of_lt_succ t.isLt)
  q w := match w with
    | ⟨0, _⟩ => fullShare.left
    | ⟨1, _⟩ => fullShare.right
    | ⟨2, _⟩ => fullShare
  owed _ := 0

theorem A_eq0 (w : Fin cfg0.W) : (dat0 V c).A w = V c (Pipeline.arrRef spec0 w) := rfl
theorem after0_2 (t : Fin cfg0.N) : (dat0 V c).after 2 t = outAt0 V c t := rfl

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1]
  rw [show (dat0 V c).owesAt () t.succ = (dat0 V c).owesAt () t.castSucc from rfl,
    show (dat0 V c).Φ t.succ = Phi0 V c (t.val + 1) t.isLt from rfl,
    show (dat0 V c).Φ t.castSucc = Phi0 V c t.val (Nat.le_of_lt t.isLt) from rfl, Phi0, Phi0,
    if_neg (Nat.succ_ne_zero _), accIn0_succ, accStep0,
    show (dat0 V c).leavesExact 0 t = owns (c : Thread nD τ) (ms0_0 t) fullShare (iblk0 V c 0 t) from by
      unfold Dat.leavesExact; rw [live0_0 t]; rfl,
    show (dat0 V c).leavesExact 1 t = owns (c : Thread nD τ) (ms0_1 t) fullShare (iblk0 V c 1 t) from by
      unfold Dat.leavesExact; rw [live0_1 t]; rfl]
  by_cases h0 : t.val % 8 = 0
  · have hl : ¬last0 (grid0.coords t) := fun h => by have := (last0_iff t).mp h; omega
    rw [Dat.leavesExact_idle (dat0 V c) 2 t (rest0_2 t hl) (noFlush0_2 t hl), if_pos h0]
    exact body_frame (fun d K => run0_first c _ _ _ _ _ _ _ _ _ _ _ ((first0_iff t).mpr h0) hl _ Set.univ K) (acc_any V c _ _)
      (fun _ => .rfl) (fun d => by iintro H; iexists d; iexact H)
  · have hf : ¬first0 (grid0.coords t) := fun h => h0 ((first0_iff t).mp h)
    rw [if_neg h0, if_neg fun e => h0 (by rw [e])]
    by_cases h7 : t.val % 8 = 7
    · rw [show (dat0 V c).leavesExact 2 t = owns (c : Thread nD τ) (ms0_2 t) fullShare (outAt0 V c t) from by
          unfold Dat.leavesExact; rw [live0_2 t ((last0_iff t).mpr h7)]; rfl, outAt0, accIn0_succ, accStep0, if_neg h0]
      exact body_frame (fun d K => run0_last c _ _ _ _ _ _ _ _ _ _ _ _ hf ((last0_iff t).mpr h7) Set.univ K) .rfl
        (fun d => by iintro H; iexists _; iexact H) (fun _ => .rfl)
    · have hl : ¬last0 (grid0.coords t) := fun h => h7 ((last0_iff t).mp h)
      rw [Dat.leavesExact_idle (dat0 V c) 2 t (rest0_2 t hl) (noFlush0_2 t hl)]
      exact body_frame (fun d K => run0_mid c _ _ _ _ _ _ _ _ _ _ _ _ hf hl _ Set.univ K) .rfl
        (fun _ => .rfl) (fun d => by iintro H; iexists d; iexact H)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq, show (dat0 V c).Φ 0 = Phi0 V c 0 (Nat.zero_le _) from rfl, Phi0, if_pos rfl]
  try exact .rfl

theorem hout0 (c : Dev nD) : (dat0 V c).Φ (Fin.last cfg0.N) ⊢ Pipeline.ΦA spec0 c := by
  rw [PhiA0_eq, show (dat0 V c).Φ (Fin.last cfg0.N) = Phi0 V c cfg0.N (Nat.le_refl _) from rfl, Phi0]
  exact sep_mono (sep_mono (acc_any V c _ _) .rfl) .rfl

end Cert.KernelIdeal.Hand

end
-- ==== Proof.KI.Reg1.lean ====
import proofs.«176514_j47991964565814_1_alg».proof.Proof.KILaunch
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def band1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem hz1 : (![0, 0] : Fin 2 → Nat) = fun _ => 0 := funext fun a => by fin_cases a <;> rfl

-- Every output is stored whole once, so it ends at that store's payload over the two input bands, which are only read.
theorem build_adj_band (c : Dev nD) (E : Set ℕ) (i : grid1.Coords)
    (arg1 arg2 arg3 arg4 : Memref sig .tc .vmem S64x8192 .f32) (arg5 arg6 : Memref sig .tc .vmem S64x1 .f32)
    (harg1 : arg1.IsWhole) (harg2 : arg2.IsWhole) (harg3 : arg3.IsWhole) (harg4 : arg4.IsWhole) (harg5 : arg5.IsWhole) (harg6 : arg6.IsWhole)
    (a aa : Vec F S64x8192 .f32) (K : PUnit → sProp 𝕄) :
    iprop(owns c arg1 fullShare a ∗ owns c arg2 fullShare aa
        ∗ (∃ d, owns c arg3 fullShare d) ∗ (∃ d, owns c arg4 fullShare d)
        ∗ (∃ d, owns c arg5 fullShare d) ∗ (∃ d, owns c arg6 fullShare d)
        ∗ (iprop(owns c arg1 fullShare a ∗ owns c arg2 fullShare aa
            ∗ owns c arg3 fullShare (k1_pay4 i a)
            ∗ owns c arg4 fullShare (k1_pay5 i a aa)
            ∗ owns c arg5 fullShare (k1_pay6 i a)
            ∗ owns c arg6 fullShare (k1_pay1 (k1_pay5 i a aa))) -∗ K ⟨⟩))
      ⊢ wp frame (wpE (defs₀ (F := F)) Variants.none c none) E
          (cc1__build_adj_kernel i arg1 harg1 arg2 harg2 arg3 harg3 arg4 harg4 arg5 harg5 arg6 harg6) K := by
  simp only [cc1__build_adj_kernel_eq_skeleton]; unfold cc1__build_adj_kernel_skel
  simp only [k1_part1_eq_skeleton]; unfold k1_part1_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf1 hf2
  sl_exec
  sl_step
  iapply Hk
  isplitl [H1]; · iexists f1; iframe H1; ipureintro; rfl
  isplitl [H2]; · iexists f2; iframe H2; ipureintro; rfl
  isplitl [H3]; · iexists _; iframe H3; ipureintro; exact (View.read_writes_eq_canon _ _ _ (View.cover_of_tiled _ S64x8192.size (by rfl))).trans (by
      rw [View.canon_unit_zero hz1]; simp only [View.readAt_eq_ld, View.ld_unit_zero (S := S64x8192) hz1])
  isplitl [H4]; · iexists _; iframe H4; ipureintro; exact (View.read_writes_eq_canon _ _ _ (View.cover_of_tiled _ S64x8192.size (by rfl))).trans (by
      rw [View.canon_unit_zero hz1]; simp only [View.readAt_eq_ld, View.ld_unit_zero (S := S64x8192) hz1])
  isplitl [H5]; · iexists _; iframe H5; ipureintro; exact (View.read_writes_eq_canon _ _ _ (View.cover_of_tiled _ S64x1.size (by rfl))).trans (by
      rw [View.canon_unit_zero hz1]; simp only [View.readAt_eq_ld, View.ld_unit_zero (S := S64x8192) hz1])
  iexists _; iframe H6; ipureintro; exact (View.read_writes_eq_canon _ _ _ (View.cover_of_tiled _ S64x1.size (by rfl))).trans (by
      rw [View.canon_unit_zero hz1]; simp only [View.readAt_eq_ld, View.ld_unit_zero (S := S64x8192) hz1])

def dat1 (c : Dev nD) : Dat τ (Elt F) Unit ℕ (UR sig nD τ) ℕ cfg1 c where
  A w := V c (Pipeline.arrRef spec1 w)
  after w t := match w with
    | ⟨0, _⟩ => band1 V c 0 t
    | ⟨1, _⟩ => band1 V c 1 t
    | ⟨2, _⟩ => k1_pay4 (grid1.coords t) (band1 V c 0 t)
    | ⟨3, _⟩ => k1_pay5 (grid1.coords t) (band1 V c 0 t) (band1 V c 1 t)
    | ⟨4, _⟩ => k1_pay6 (grid1.coords t) (band1 V c 0 t)
    | ⟨5, _⟩ => k1_pay1 (k1_pay5 (grid1.coords t) (band1 V c 0 t) (band1 V c 1 t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = k1_pay4 (grid1.coords t) (band1 V c 0 t) := by dsimp only [dat1]
theorem after1_3 (c : Dev nD) (t : Fin cfg1.N) :
    (dat1 V c).after 3 t = k1_pay5 (grid1.coords t) (band1 V c 0 t) (band1 V c 1 t) := by dsimp only [dat1]
theorem after1_4 (c : Dev nD) (t : Fin cfg1.N) :
    (dat1 V c).after 4 t = k1_pay6 (grid1.coords t) (band1 V c 0 t) := by dsimp only [dat1]
theorem after1_5 (c : Dev nD) (t : Fin cfg1.N) :
    (dat1 V c).after 5 t = k1_pay1 (k1_pay5 (grid1.coords t) (band1 V c 0 t) (band1 V c 1 t)) := by dsimp only [dat1]

theorem before1_0 (c : Dev nD) (t : Fin cfg1.N) (d) : (dat1 V c).before 0 t d = band1 V c 0 t :=
  (dat1 V c).before_in_eq_fetched 0 rfl (fun _ => rfl) (fun _ _ _ => rfl) (fun _ => rfl) t d
theorem before1_1 (c : Dev nD) (t : Fin cfg1.N) (d) : (dat1 V c).before 1 t d = band1 V c 1 t :=
  (dat1 V c).before_in_eq_fetched 1 rfl (fun _ => rfl) (fun _ _ _ => rfl) (fun _ => rfl) t d

-- At any point the inputs' buffers hold their bands, so the body's triple applies; the invariant and the debt pass through unread.
theorem sound_body1 (c : Dev nD) (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d))
      ∗ (∃ d, owns c (st1_4 t) fullShare ((dat1 V c).before 4 t d))
      ∗ (∃ d, owns c (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns c (st1_0 t) fullShare ((dat1 V c).after 0 t)
        ∗ owns c (st1_1 t) fullShare ((dat1 V c).after 1 t)
        ∗ owns c (st1_2 t) fullShare ((dat1 V c).after 2 t)
        ∗ owns c (st1_3 t) fullShare ((dat1 V c).after 3 t)
        ∗ owns c (st1_4 t) fullShare ((dat1 V c).after 4 t)
        ∗ owns c (st1_5 t) fullShare ((dat1 V c).after 5 t))) := by
  unfold bodyAt1
  simp only [before1_0, before1_1]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩⟩
  iapply (build_adj_band c Set.univ (grid1.coords t) _ _ _ _ _ _ _ _ _ _ _ _ (band1 V c 0 t) (band1 V c 1 t) _)
  iframe H0 H1
  isplitl [H2]; · iexists _; iexact H2
  isplitl [H3]; · iexists _; iexact H3
  isplitl [H4]; · iexists _; iexact H4
  isplitl [H5]; · iexists _; iexact H5
  iintro ⟨H0, H1, H2, H3, H4, H5⟩
  iframe

theorem body_obligation1 (c : Dev nD) :
    BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Hand
-- ==== Proof.KI.Reg2.lean ====
import proofs.«176514_j47991964565814_1_alg».proof.Proof.KILaunch
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

-- Every output is stored whole once, so it ends at that store's payload over the inputs, which are only read.
theorem sound_kernel2 (c : Dev nD) (E : Set ℕ) (i : grid2.Coords)
    (arg1 arg2 arg7 arg8 : Memref sig .tc .vmem S64x8192 .f32) (arg3 arg4 : Memref sig .tc .vmem S64x1 .f32) (arg5 arg6 : Memref sig .tc .vmem S1x8192 .f32)
    (harg1 : arg1.IsWhole) (harg2 : arg2.IsWhole) (harg3 : arg3.IsWhole) (harg4 : arg4.IsWhole)
    (harg5 : arg5.IsWhole) (harg6 : arg6.IsWhole) (harg7 : arg7.IsWhole) (harg8 : arg8.IsWhole)
    (x0 x1 : Vec F S64x8192 .f32) (x2 x3 : Vec F S64x1 .f32) (x4 x5 : Vec F S1x8192 .f32) (K : PUnit → sProp 𝕄) :
    iprop(owns c arg1 fullShare x0 ∗ owns c arg2 fullShare x1
        ∗ owns c arg3 fullShare x2 ∗ owns c arg4 fullShare x3
        ∗ owns c arg5 fullShare x4 ∗ owns c arg6 fullShare x5
        ∗ (∃ d, owns c arg7 fullShare d) ∗ (∃ d, owns c arg8 fullShare d)
        ∗ (iprop(owns c arg1 fullShare x0 ∗ owns c arg2 fullShare x1
            ∗ owns c arg3 fullShare x2 ∗ owns c arg4 fullShare x3
            ∗ owns c arg5 fullShare x4 ∗ owns c arg6 fullShare x5
            ∗ owns c arg7 fullShare (k2_pay4 x2 x4 x0) ∗ owns c arg8 fullShare (k2_pay1 (k2_pay2 x3) (k2_pay3 x5) x1)) -∗ K ⟨⟩))
      ⊢ wp frame (wpE (defs₀ (F := F)) Variants.none c none) E
          (cc2__normalize_kernel i arg1 harg1 arg2 harg2 arg3 harg3 arg4 harg4 arg5 harg5 arg6 harg6 arg7 harg7 arg8 harg8) K := by
  simp only [cc2__normalize_kernel_eq_skeleton]; unfold cc2__normalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists _; iframe H6; ipureintro; exact (View.read_writes_eq_canon _ _ _ (View.cover_of_tiled _ S64x8192.size (by rfl))).trans (by
      rw [View.canon_unit_zero hz2]; simp only [View.readAt_eq_ld, View.ld_unit_zero (S := S64x8192) hz2, View.ld_unit_zero (S := S64x1) hz2, View.ld_unit_zero (S := S1x8192) hz2])
  iexists _; iframe H7; ipureintro; exact (View.read_writes_eq_canon _ _ _ (View.cover_of_tiled _ S64x8192.size (by rfl))).trans (by
      rw [View.canon_unit_zero hz2]; simp only [View.readAt_eq_ld, View.ld_unit_zero (S := S64x8192) hz2, View.ld_unit_zero (S := S64x1) hz2, View.ld_unit_zero (S := S1x8192) hz2])

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay4 (iblk2 V c 2 t) (iblk2 V c 4 t) (iblk2 V c 0 t)
    | ⟨7, _⟩ => k2_pay1 (k2_pay2 (iblk2 V c 3 t)) (k2_pay3 (iblk2 V c 5 t)) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) :
    (dat2 V c).after 6 t = k2_pay4 (iblk2 V c 2 t) (iblk2 V c 4 t) (iblk2 V c 0 t) := by dsimp only [dat2]
theorem after2_7 (c : Dev nD) (t : Fin cfg2.N) :
    (dat2 V c).after 7 t = k2_pay1 (k2_pay2 (iblk2 V c 3 t)) (k2_pay3 (iblk2 V c 5 t)) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

-- At any point the inputs' buffers hold their blocks, so the body's triple applies; the invariant and the debt pass through unread.
theorem sound_body2 (c : Dev nD) (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d))
      ∗ (∃ d, owns c (st2_5 t) fullShare ((dat2 V c).before 5 t d))
      ∗ (∃ d, owns c (st2_6 t) fullShare ((dat2 V c).before 6 t d))
      ∗ (∃ d, owns c (st2_7 t) fullShare ((dat2 V c).before 7 t d)))
    ⊢ wp frame (wpE (defs₀ (F := F)) Variants.none c none) Set.univ (bodyAt2 t) (fun _ =>
      iprop((dat2 V c).Φ t.succ ∗ (dat2 V c).owesAt () t.succ
        ∗ owns c (st2_0 t) fullShare ((dat2 V c).after 0 t)
        ∗ owns c (st2_1 t) fullShare ((dat2 V c).after 1 t)
        ∗ owns c (st2_2 t) fullShare ((dat2 V c).after 2 t)
        ∗ owns c (st2_3 t) fullShare ((dat2 V c).after 3 t)
        ∗ owns c (st2_4 t) fullShare ((dat2 V c).after 4 t)
        ∗ owns c (st2_5 t) fullShare ((dat2 V c).after 5 t)
        ∗ owns c (st2_6 t) fullShare ((dat2 V c).after 6 t)
        ∗ owns c (st2_7 t) fullShare ((dat2 V c).after 7 t))) := by
  unfold bodyAt2
  simp only [before2_0, before2_1, before2_2, before2_3, before2_4, before2_5]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  isplitl [H7]; · iexists _; iexact H7
  iintro ⟨H0, H1, H2, H3, H4, H5, H6, H7⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand

end
-- ==== Proof.KI.Reg3.lean ====
import proofs.«176514_j47991964565814_1_alg».proof.Proof.KILaunch
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev clears3 (i : grid3.Coords) : Prop :=
  (Scalar.cmpi .ne (Scalar.extui (Scalar.cmpi .eq (BitVec.ofNat 32 (i 2).val) 0#32)) 0#32) = 1#1

theorem clears3_all : ∀ t : Fin cfg3.N, clears3 (grid3.coords t) :=
  (by decide +kernel : ∀ t : Fin grid3.N, clears3 (grid3.coords t))

abbrev stores3 (i : grid3.Coords) : Prop := k3_cond2 i = 1#1

theorem stores3_all : ∀ t : Fin cfg3.N, stores3 (grid3.coords t) :=
  (by decide +kernel : ∀ t : Fin grid3.N, stores3 (grid3.coords t))

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel

abbrev ms3_0 (t : Fin cfg3.N) : Memref sig .tc .vmem S1024x512 .f32 := win3_0.stage (cfg3.slots t 0)
abbrev ms3_1 (t : Fin cfg3.N) : Memref sig .tc .vmem S512x256 .f32 := win3_1.stage (cfg3.slots t 1)
abbrev ms3_2 (t : Fin cfg3.N) : Memref sig .tc .vmem S1024x256 .f32 := win3_2.stage (cfg3.slots t 2)

abbrev acc3 : Memref sig .tc .vmem S1024x256 .f32 := Memref.whole cc3_scratch0

theorem PhiA3_eq (c : Dev nD) :
    (Pipeline.ΦA spec3 c : sProp 𝕄)
      = iprop(iprop(iprop((∃ d, owns c acc3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3, owns_whole]; try rfl

theorem origin3 : (![0, 0] : Fin 2 → Nat) = fun _ => 0 := funext fun a => by fin_cases a <;> rfl

-- Both tests hold, so every branch is decided: the result block ends at the one product, clamped below at zero.
theorem kernelRun3 (c : Dev nD) (i : grid3.Coords)
    (arg3 : Memref sig .tc .vmem S1024x512 .f32) (harg3 : arg3.IsWhole) (arg4 : Memref sig .tc .vmem S512x256 .f32) (harg4 : arg4.IsWhole)
    (arg5 : Memref sig .tc .vmem S1024x256 .f32) (harg5 : arg5.IsWhole) (arg6 : Memref sig .tc .vmem S1024x256 .f32) (harg6 : arg6.IsWhole)
    (h0 : clears3 i) (h1 : stores3 i) (x0 : Vec F S1024x512 .f32) (x1 : Vec F S512x256 .f32) (E : Set ℕ) (K : PUnit → sProp 𝕄) :
    iprop(owns c arg3 fullShare x0 ∗ owns c arg4 fullShare x1
        ∗ (∃ d, owns c arg5 fullShare d) ∗ (∃ d, owns c arg6 fullShare d)
        ∗ (iprop(owns c arg3 fullShare x0 ∗ owns c arg4 fullShare x1
            ∗ owns c arg5 fullShare (k3_pay3 (k3_pay2 x0 x1 k3_pay1)) ∗ (∃ d, owns c arg6 fullShare d)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %f2, -, H2⟩, ⟨%ds, %fs, -, HS⟩, Hk⟩
  obtain rfl := harg3.eq_unread hf0; obtain rfl := harg4.eq_unread hf1
  sl_exec (disch := first | exact h0 | exact h1)
  sl_step
  iapply Hk
  isplitl [H0]; · iexists _; iframe H0; ipureintro; exact harg3.read_unread _
  isplitl [H1]; · iexists _; iframe H1; ipureintro; exact harg4.read_unread _
  isplitl [H2]
  · iexists _; iframe H2; ipureintro
    refine (View.read_writes_eq_canon _ _ _ fun y => View.cover_of_tiledL _ S1024x256.size (by sl_kernel_rfl) y).trans ?_
    try sl_unfold_words
    rw [View.canon_unit_zero origin3, View.readCov_cons_toLoadRect, View.readCov_unit_zero _ origin3]
    simp only [View.readAt_eq_ld, harg3.read_unread, harg4.read_unread, View.ld_unit_zero (S := S1024x512) origin3, View.ld_unit_zero (S := S512x256) origin3]
  iexists _; iexists _; iframe HS; ipureintro; rfl

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (k3_pay2 (iblk3 V c 0 t) (iblk3 V c 1 t) k3_pay1)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay3 (k3_pay2 (iblk3 V c 0 t) (iblk3 V c 1 t) k3_pay1) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- The invariant lends the accumulator at whatever it holds and takes it back at whatever the body leaves in it.
theorem sound_body3 (c : Dev nD) (t : Fin cfg3.N) :
    iprop((dat3 V c).Φ t.castSucc ∗ (dat3 V c).owesAt () t.castSucc
      ∗ (∃ d, owns c (ms3_0 t) fullShare ((dat3 V c).before 0 t d))
      ∗ (∃ d, owns c (ms3_1 t) fullShare ((dat3 V c).before 1 t d))
      ∗ (∃ d, owns c (ms3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t)) := by
  unfold bodyAt3
  simp only [before3_0, before3_1]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl]
  rw [show (dat3 V c).leavesExact 0 t = owns c (ms3_0 t) fullShare ((dat3 V c).after 0 t) from by
    unfold Dat.leavesExact; rw [live3_0 t], after3_0]
  rw [show (dat3 V c).leavesExact 1 t = owns c (ms3_1 t) fullShare ((dat3 V c).after 1 t) from by
    unfold Dat.leavesExact; rw [live3_1 t], after3_1]
  rw [show (dat3 V c).leavesExact 2 t = owns c (ms3_2 t) fullShare ((dat3 V c).after 2 t) from by
    unfold Dat.leavesExact; rw [live3_2 t], after3_2]
  rw [PhiA3_eq]
  iintro ⟨⟨⟨HS, Hrest⟩, Hg⟩, Ho, ⟨%d0, H0⟩, ⟨%d1, H1⟩, ⟨%d2, H2⟩⟩
  iapply (kernelRun3 c (grid3.coords t) _ _ _ _ _ _ _ _ (clears3_all t) (stores3_all t) (iblk3 V c 0 t) (iblk3 V c 1 t) Set.univ _)
  iframe H0 H1 HS
  isplitl [H2]; · iexists _; iexact H2
  iintro ⟨H0, H1, H2, HS⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := Idealize.SL.BI.Entails.refl _

end Cert.KernelIdeal.Hand

end
-- ==== Proof.KI.Reg4.lean ====
import proofs.«176514_j47991964565814_1_alg».proof.Proof.KILaunch
import proofs.«176514_j47991964565814_1_alg».proof.Proof.LibA
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev atFirstK4 (i : grid4.Coords) : Prop := (Scalar.cmpi .ne (Scalar.extui (Scalar.cmpi .eq (BitVec.ofNat 32 (i 2).val) 0#32)) 0#32) = 1#1
-- the contraction index runs fastest: it is 0 exactly at the multiples of 8
theorem atFirstK4_iff : ∀ t : Fin grid4.N, atFirstK4 (grid4.coords t) ↔ t.val % 8 = 0 := by decide +kernel

abbrev atLastK4 (i : grid4.Coords) : Prop := k4_cond2 i = 1#1
theorem atLastK4_iff : ∀ t : Fin grid4.N, atLastK4 (grid4.coords t) ↔ t.val % 8 = 7 := by decide +kernel

theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬atLastK4 (grid4.coords t) → cfg4.idle 2 (grid4.coords t) = true := by decide +kernel
theorem keep4_2 : ∀ t : Fin cfg4.N, ¬atLastK4 (grid4.coords t) → (cfg4.win 2).flush t = false := by decide +kernel
theorem live4_2 : ∀ t : Fin cfg4.N, atLastK4 (grid4.coords t) → cfg4.idle 2 (grid4.coords t) = false := by decide +kernel

abbrev stg4_0 (t : Fin cfg4.N) : Memref sig .tc .vmem S1024x1024 .f32 := win4_0.stage (cfg4.slots t 0)
abbrev stgW4_0 (t : Fin cfg4.N) : (stg4_0 t).IsWhole := hstage4_0 ((cfg4.slots t 0).cast nbuf4_0)
abbrev stg4_1 (t : Fin cfg4.N) : Memref sig .tc .vmem S1024x256 .f32 := win4_1.stage (cfg4.slots t 1)
abbrev stgW4_1 (t : Fin cfg4.N) : (stg4_1 t).IsWhole := hstage4_1 ((cfg4.slots t 1).cast nbuf4_1)
abbrev stg4_2 (t : Fin cfg4.N) : Memref sig .tc .vmem S1024x256 .f32 := win4_2.stage (cfg4.slots t 2)
abbrev stgW4_2 (t : Fin cfg4.N) : (stg4_2 t).IsWhole := hstage4_2 ((cfg4.slots t 2).cast nbuf4_2)
abbrev acc4 : Memref sig .tc .vmem S1024x256 .f32 := Memref.whole cc4_scratch0

theorem PhiA4_eq (c : Dev nD) :
    (Pipeline.ΦA spec4 c : sProp 𝕄)
      = iprop(iprop(iprop((∃ d, owns (c : Thread nD τ) acc4 fullShare d)) ∗ Pipeline.scopedRestBut spec4 c [cc4_scratch0]) ∗ (∃ r, prngReg c r)) := by
  unfold Pipeline.ΦA; rw [scopedRest4_split]; simp only [acc4, owns_whole]; try rfl

theorem origin4 : (![0, 0] : Fin 2 → Nat) = fun _ => 0 := funext fun a => by fin_cases a <;> rfl

section Body

variable (c : Dev nD) (i : grid4.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole)
  (x0 : Vec F S1024x1024 .f32) (x1 xs xo : Vec F S1024x256 .f32)

-- at contraction index 0 the running sum restarts: it becomes zero plus the first block product
theorem runFirst4 (h0 : atFirstK4 i) (h7 : ¬atLastK4 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k4_pay2 x0 x1 k4_pay1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_cons_unit_zero (S := S1024x256) origin4, View.readCov_unit_zero (S := S1024x256) _ origin4]
  simp only [View.readAt_eq_ld, harg3.read_unread, harg4.read_unread, View.ld_unit_zero (S := S1024x1024) origin4, View.ld_unit_zero (S := S1024x256) origin4]

-- at a middle index the block product is added to the running sum
theorem runMid4 (h0 : ¬atFirstK4 i) (h7 : ¬atLastK4 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k4_pay2 x0 x1 xs)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin4]
  simp only [View.readAt_eq_ld, harg3.read_unread, harg4.read_unread, harg6.read_unread, View.ld_unit_zero (S := S1024x1024) origin4, View.ld_unit_zero (S := S1024x256) origin4]

-- at the last index the last block product is added, and the result block is the entrywise maximum of the sum and 0
theorem runLast4 (h0 : ¬atFirstK4 i) (h7 : atLastK4 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k4_pay3 (k4_pay2 x0 x1 xs)) ∗ owns (c : Thread nD τ) arg6 fullShare (k4_pay2 x0 x1 xs)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x256.size (by sl_kernel_rfl) y
    try sl_unfold_words
    rw [View.canon_unit_zero origin4, View.readCov_unit_zero (S := S1024x256) _ origin4]
    simp only [View.readAt_eq_ld, harg3.read_unread, harg4.read_unread, harg6.read_unread, View.ld_unit_zero (S := S1024x1024) origin4, View.ld_unit_zero (S := S1024x256) origin4]
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin4]
  simp only [View.readAt_eq_ld, harg3.read_unread, harg4.read_unread, harg6.read_unread, View.ld_unit_zero (S := S1024x1024) origin4, View.ld_unit_zero (S := S1024x256) origin4]

end Body

variable (c : Dev nD)

-- the running sum after position n: one block product added to zero where the contraction restarts,
-- elsewhere to the sum after position n - 1
def accAt4 : (n : ℕ) → n < cfg4.N → Vec F S1024x256 .f32
  | 0, hn => k4_pay2 (blk4 V c 0 ⟨0, hn⟩) (blk4 V c 1 ⟨0, hn⟩) k4_pay1
  | n + 1, hn => k4_pay2 (blk4 V c 0 ⟨n + 1, hn⟩) (blk4 V c 1 ⟨n + 1, hn⟩)
      (if (n + 1) % 8 = 0 then k4_pay1 else accAt4 n (Nat.lt_of_succ_lt hn))

theorem accAt4_restart (t : Fin cfg4.N) (h0 : t.val % 8 = 0) :
    accAt4 V c t.val t.isLt = k4_pay2 (blk4 V c 0 t) (blk4 V c 1 t) (k4_pay1 (F := F)) := by
  obtain ⟨n, hn⟩ := t
  cases n with
  | zero => rfl
  | succ n => exact congrArg (k4_pay2 _ _) (if_pos h0)

theorem accAt4_add (t : Fin cfg4.N) (h0 : ¬t.val % 8 = 0) :
    accAt4 V c t.val t.isLt = k4_pay2 (blk4 V c 0 t) (blk4 V c 1 t) (accAt4 V c (t.val - 1) (Nat.lt_of_le_of_lt (Nat.sub_le _ _) t.isLt)) := by
  obtain ⟨n, hn⟩ := t
  cases n with
  | zero => exact absurd (Nat.zero_mod _) h0
  | succ n => exact congrArg (k4_pay2 _ _) (if_neg h0)

def outAt4 (t : Fin cfg4.N) : Vec F S1024x256 .f32 := k4_pay3 (accAt4 V c t.val t.isLt)

-- the running sum's part of the invariant before position n: anything at the start, afterwards the sum after position n - 1
def Sum4 (n : ℕ) (h : n ≤ cfg4.N) : sProp 𝕄 :=
  if hz : n = 0 then iprop(∃ d, owns (c : Thread nD τ) acc4 fullShare d) else owns (c : Thread nD τ) acc4 fullShare (accAt4 V c (n - 1) (by omega))

def Inv4 (n : ℕ) (h : n ≤ cfg4.N) : sProp 𝕄 :=
  iprop(iprop(Sum4 V c n h ∗ Pipeline.scopedRestBut spec4 c [cc4_scratch0]) ∗ (∃ r, prngReg c r))

-- the value of the running sum may be forgotten at any position
theorem Sum4_forget (n : ℕ) (h : n ≤ cfg4.N) : Sum4 V c n h ⊢ iprop(∃ d, owns (c : Thread nD τ) acc4 fullShare d) := by
  unfold Sum4; split
  · exact .rfl
  · iintro H; iexists _; iexact H

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => outAt4 V c t
  Φ t := Inv4 V c t.val (Nat.le_of_lt_succ t.isLt)
  q _ := fullShare
  owed _ := 0

theorem A_eq4 (w : Fin cfg4.W) : (dat4 V c).A w = V c (Pipeline.arrRef spec4 w) := rfl
theorem after4_2 (t : Fin cfg4.N) : (dat4 V c).after 2 t = outAt4 V c t := rfl

theorem held4_0 (t : Fin cfg4.N) (d) : (dat4 V c).before 0 t d = blk4 V c 0 t :=
  ((dat4 V c).before_in_eq_fetched 0 rfl (fun _ => rfl) (fun _ _ _ => rfl) (fun _ => rfl) t d).trans rfl
theorem held4_1 (t : Fin cfg4.N) (d) : (dat4 V c).before 1 t d = blk4 V c 1 t :=
  ((dat4 V c).before_in_eq_fetched 1 rfl (fun _ => rfl) (fun _ _ _ => rfl) (fun _ => rfl) t d).trans rfl

-- by the point's residue mod 8 the matching case applies and gives the invariant of the next position
theorem sound_body4 (t : Fin cfg4.N) :
    iprop((dat4 V c).Φ t.castSucc ∗ (dat4 V c).owesAt () t.castSucc
    ∗ (∃ d, owns (c : Thread nD τ) (stg4_0 t) fullShare ((dat4 V c).before 0 t d))
    ∗ (∃ d, owns (c : Thread nD τ) (stg4_1 t) fullShare ((dat4 V c).before 1 t d))
    ∗ (∃ d, owns (c : Thread nD τ) (stg4_2 t) fullShare ((dat4 V c).before 2 t d)))
      ⊢ wp frame (wpE (defs₀ (F := F)) Variants.none c none) Set.univ (bodyAt4 t) (fun _ => iprop((dat4 V c).Φ t.succ ∗ (dat4 V c).owesAt () t.succ
    ∗ (dat4 V c).leavesExact 0 t
    ∗ (dat4 V c).leavesExact 1 t
    ∗ (dat4 V c).leavesExact 2 t)) := by
  unfold bodyAt4
  simp only [held4_0, held4_1]
  rw [show (dat4 V c).owesAt () t.succ = (dat4 V c).owesAt () t.castSucc from rfl,
    show (dat4 V c).Φ t.succ = Inv4 V c (t.val + 1) t.isLt from rfl,
    show (dat4 V c).Φ t.castSucc = Inv4 V c t.val (Nat.le_of_lt t.isLt) from rfl, Inv4, Inv4,
    show Sum4 V c (t.val + 1) t.isLt = owns (c : Thread nD τ) acc4 fullShare (accAt4 V c t.val t.isLt) from rfl,
    show (dat4 V c).leavesExact 0 t = owns (c : Thread nD τ) (stg4_0 t) fullShare (blk4 V c 0 t) from by
      unfold Dat.leavesExact; rw [live4_0 t]; rfl,
    show (dat4 V c).leavesExact 1 t = owns (c : Thread nD τ) (stg4_1 t) fullShare (blk4 V c 1 t) from by
      unfold Dat.leavesExact; rw [live4_1 t]; rfl]
  by_cases h0 : t.val % 8 = 0
  · have h7 : ¬atLastK4 (grid4.coords t) := fun h => by have := (atLastK4_iff t).mp h; omega
    rw [Dat.leavesExact_idle (dat4 V c) 2 t (idle4_2 t h7) (keep4_2 t h7), accAt4_restart V c t h0]
    refine (sep_mono (sep_mono (sep_mono (Sum4_forget V c _ _) .rfl) .rfl) .rfl).trans ?_
    iintro ⟨⟨⟨HS, HR⟩, Hg⟩, Ho, ⟨%d0, H0⟩, ⟨%d1, H1⟩, ⟨%d2, H2⟩⟩
    iapply (runFirst4 c (grid4.coords t) _ _ _ _ _ _ _ _ (blk4 V c 0 t) (blk4 V c 1 t) _ ((atFirstK4_iff t).mpr h0) h7 Set.univ _)
    iframe
    iintro ⟨H0, H1, H2, HS⟩
    iframe
    iexists _; iexact H2
  · have hf : ¬atFirstK4 (grid4.coords t) := fun h => h0 ((atFirstK4_iff t).mp h)
    rw [accAt4_add V c t h0, Sum4, dif_neg fun e => h0 (by rw [e])]
    by_cases h7 : t.val % 8 = 7
    · rw [show (dat4 V c).leavesExact 2 t = owns (c : Thread nD τ) (stg4_2 t) fullShare (outAt4 V c t) from by
          unfold Dat.leavesExact; rw [live4_2 t ((atLastK4_iff t).mpr h7)]; rfl, outAt4, accAt4_add V c t h0]
      iintro ⟨⟨⟨HS, HR⟩, Hg⟩, Ho, ⟨%d0, H0⟩, ⟨%d1, H1⟩, ⟨%d2, H2⟩⟩
      iapply (runLast4 c (grid4.coords t) _ _ _ _ _ _ _ _ (blk4 V c 0 t) (blk4 V c 1 t) _ hf ((atLastK4_iff t).mpr h7) Set.univ _)
      isplitl [H0]; · iexact H0
      isplitl [H1]; · iexact H1
      isplitl [H2]; · iexists _; iexact H2
      iframe
      iintro ⟨H0, H1, H2, HS⟩
      iframe
    · have hl : ¬atLastK4 (grid4.coords t) := fun h => h7 ((atLastK4_iff t).mp h)
      rw [Dat.leavesExact_idle (dat4 V c) 2 t (idle4_2 t hl) (keep4_2 t hl)]
      iintro ⟨⟨⟨HS, HR⟩, Hg⟩, Ho, ⟨%d0, H0⟩, ⟨%d1, H1⟩, ⟨%d2, H2⟩⟩
      iapply (runMid4 c (grid4.coords t) _ _ _ _ _ _ _ _ (blk4 V c 0 t) (blk4 V c 1 t) _ _ hf hl Set.univ _)
      iframe
      iintro ⟨H0, H1, H2, HS⟩
      iframe
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [PhiA4_eq]; exact .rfl

theorem hout4 (c : Dev nD) : (dat4 V c).Φ (Fin.last cfg4.N) ⊢ Pipeline.ΦA spec4 c := by
  rw [PhiA4_eq]; exact sep_mono (sep_mono (Sum4_forget V c _ _) .rfl) .rfl

end Cert.KernelIdeal.Hand

end
-- ==== Proof.KI.Reg5.lean ====
import proofs.«176514_j47991964565814_1_alg».proof.Proof.KILaunch
import proofs.«176514_j47991964565814_1_alg».proof.Proof.LibA
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev atFirstK5 (i : grid5.Coords) : Prop := (Scalar.cmpi .ne (Scalar.extui (Scalar.cmpi .eq (BitVec.ofNat 32 (i 2).val) 0#32)) 0#32) = 1#1
-- the contraction index runs fastest: it is 0 exactly at the multiples of 8
theorem atFirstK5_iff : ∀ t : Fin grid5.N, atFirstK5 (grid5.coords t) ↔ t.val % 8 = 0 := by decide +kernel

abbrev atLastK5 (i : grid5.Coords) : Prop := k5_cond2 i = 1#1
theorem atLastK5_iff : ∀ t : Fin grid5.N, atLastK5 (grid5.coords t) ↔ t.val % 8 = 7 := by decide +kernel

theorem live5_0 : ∀ t : Fin cfg5.N, cfg5.idle 0 (grid5.coords t) = false := by decide +kernel
theorem live5_1 : ∀ t : Fin cfg5.N, cfg5.idle 1 (grid5.coords t) = false := by decide +kernel
theorem idle5_2 : ∀ t : Fin cfg5.N, ¬atLastK5 (grid5.coords t) → cfg5.idle 2 (grid5.coords t) = true := by decide +kernel
theorem keep5_2 : ∀ t : Fin cfg5.N, ¬atLastK5 (grid5.coords t) → (cfg5.win 2).flush t = false := by decide +kernel
theorem live5_2 : ∀ t : Fin cfg5.N, atLastK5 (grid5.coords t) → cfg5.idle 2 (grid5.coords t) = false := by decide +kernel

abbrev stg5_0 (t : Fin cfg5.N) : Memref sig .tc .vmem S1024x1024 .f32 := win5_0.stage (cfg5.slots t 0)
abbrev stgW5_0 (t : Fin cfg5.N) : (stg5_0 t).IsWhole := hstage5_0 ((cfg5.slots t 0).cast nbuf5_0)
abbrev stg5_1 (t : Fin cfg5.N) : Memref sig .tc .vmem S1024x256 .f32 := win5_1.stage (cfg5.slots t 1)
abbrev stgW5_1 (t : Fin cfg5.N) : (stg5_1 t).IsWhole := hstage5_1 ((cfg5.slots t 1).cast nbuf5_1)
abbrev stg5_2 (t : Fin cfg5.N) : Memref sig .tc .vmem S1024x256 .f32 := win5_2.stage (cfg5.slots t 2)
abbrev stgW5_2 (t : Fin cfg5.N) : (stg5_2 t).IsWhole := hstage5_2 ((cfg5.slots t 2).cast nbuf5_2)
abbrev acc5 : Memref sig .tc .vmem S1024x256 .f32 := Memref.whole cc5_scratch0

theorem PhiA5_eq (c : Dev nD) :
    (Pipeline.ΦA spec5 c : sProp 𝕄)
      = iprop(iprop(iprop((∃ d, owns (c : Thread nD τ) acc5 fullShare d)) ∗ Pipeline.scopedRestBut spec5 c [cc5_scratch0]) ∗ (∃ r, prngReg c r)) := by
  unfold Pipeline.ΦA; rw [scopedRest5_split]; simp only [acc5, owns_whole]; try rfl

theorem origin5 : (![0, 0] : Fin 2 → Nat) = fun _ => 0 := funext fun a => by fin_cases a <;> rfl

section Body

variable (c : Dev nD) (i : grid5.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole)
  (x0 : Vec F S1024x1024 .f32) (x1 xs xo : Vec F S1024x256 .f32)

-- at contraction index 0 the running sum restarts: it becomes zero plus the first block product
theorem runFirst5 (h0 : atFirstK5 i) (h7 : ¬atLastK5 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k5_pay2 x0 x1 k5_pay1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_cons_unit_zero (S := S1024x256) origin5, View.readCov_unit_zero (S := S1024x256) _ origin5]
  simp only [View.readAt_eq_ld, harg3.read_unread, harg4.read_unread, View.ld_unit_zero (S := S1024x1024) origin5, View.ld_unit_zero (S := S1024x256) origin5]

-- at a middle index the block product is added to the running sum
theorem runMid5 (h0 : ¬atFirstK5 i) (h7 : ¬atLastK5 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k5_pay2 x0 x1 xs)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin5]
  simp only [View.readAt_eq_ld, harg3.read_unread, harg4.read_unread, harg6.read_unread, View.ld_unit_zero (S := S1024x1024) origin5, View.ld_unit_zero (S := S1024x256) origin5]

-- at the last index the last block product is added, and the result block is the entrywise maximum of the sum and 0
theorem runLast5 (h0 : ¬atFirstK5 i) (h7 : atLastK5 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k5_pay3 (k5_pay2 x0 x1 xs)) ∗ owns (c : Thread nD τ) arg6 fullShare (k5_pay2 x0 x1 xs)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x256.size (by sl_kernel_rfl) y
    try sl_unfold_words
    rw [View.canon_unit_zero origin5, View.readCov_unit_zero (S := S1024x256) _ origin5]
    simp only [View.readAt_eq_ld, harg3.read_unread, harg4.read_unread, harg6.read_unread, View.ld_unit_zero (S := S1024x1024) origin5, View.ld_unit_zero (S := S1024x256) origin5]
  iexists _; isplitr
  swap; · iexact HS
  ipureintro
  refine (View.read_writes_eq_canon _ _ _ fun y => ?_).trans ?_
  · exact View.cover_of_tiledL _ S1024x256.size (by sl_kernel_rfl) y
  try sl_unfold_words
  rw [View.canon_unit_zero origin5]
  simp only [View.readAt_eq_ld, harg3.read_unread, harg4.read_unread, harg6.read_unread, View.ld_unit_zero (S := S1024x1024) origin5, View.ld_unit_zero (S := S1024x256) origin5]

end Body

variable (c : Dev nD)

-- the running sum after position n: one block product added to zero where the contraction restarts,
-- elsewhere to the sum after position n - 1
def accAt5 : (n : ℕ) → n < cfg5.N → Vec F S1024x256 .f32
  | 0, hn => k5_pay2 (blk5 V c 0 ⟨0, hn⟩) (blk5 V c 1 ⟨0, hn⟩) k5_pay1
  | n + 1, hn => k5_pay2 (blk5 V c 0 ⟨n + 1, hn⟩) (blk5 V c 1 ⟨n + 1, hn⟩)
      (if (n + 1) % 8 = 0 then k5_pay1 else accAt5 n (Nat.lt_of_succ_lt hn))

theorem accAt5_restart (t : Fin cfg5.N) (h0 : t.val % 8 = 0) :
    accAt5 V c t.val t.isLt = k5_pay2 (blk5 V c 0 t) (blk5 V c 1 t) (k5_pay1 (F := F)) := by
  obtain ⟨n, hn⟩ := t
  cases n with
  | zero => rfl
  | succ n => exact congrArg (k5_pay2 _ _) (if_pos h0)

theorem accAt5_add (t : Fin cfg5.N) (h0 : ¬t.val % 8 = 0) :
    accAt5 V c t.val t.isLt = k5_pay2 (blk5 V c 0 t) (blk5 V c 1 t) (accAt5 V c (t.val - 1) (Nat.lt_of_le_of_lt (Nat.sub_le _ _) t.isLt)) := by
  obtain ⟨n, hn⟩ := t
  cases n with
  | zero => exact absurd (Nat.zero_mod _) h0
  | succ n => exact congrArg (k5_pay2 _ _) (if_neg h0)

def outAt5 (t : Fin cfg5.N) : Vec F S1024x256 .f32 := k5_pay3 (accAt5 V c t.val t.isLt)

-- the running sum's part of the invariant before position n: anything at the start, afterwards the sum after position n - 1
def Sum5 (n : ℕ) (h : n ≤ cfg5.N) : sProp 𝕄 :=
  if hz : n = 0 then iprop(∃ d, owns (c : Thread nD τ) acc5 fullShare d) else owns (c : Thread nD τ) acc5 fullShare (accAt5 V c (n - 1) (by omega))

def Inv5 (n : ℕ) (h : n ≤ cfg5.N) : sProp 𝕄 :=
  iprop(iprop(Sum5 V c n h ∗ Pipeline.scopedRestBut spec5 c [cc5_scratch0]) ∗ (∃ r, prngReg c r))

-- the value of the running sum may be forgotten at any position
theorem Sum5_forget (n : ℕ) (h : n ≤ cfg5.N) : Sum5 V c n h ⊢ iprop(∃ d, owns (c : Thread nD τ) acc5 fullShare d) := by
  unfold Sum5; split
  · exact .rfl
  · iintro H; iexists _; iexact H

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => outAt5 V c t
  Φ t := Inv5 V c t.val (Nat.le_of_lt_succ t.isLt)
  q _ := fullShare
  owed _ := 0

theorem A_eq5 (w : Fin cfg5.W) : (dat5 V c).A w = V c (Pipeline.arrRef spec5 w) := rfl
theorem after5_2 (t : Fin cfg5.N) : (dat5 V c).after 2 t = outAt5 V c t := rfl

theorem held5_0 (t : Fin cfg5.N) (d) : (dat5 V c).before 0 t d = blk5 V c 0 t :=
  ((dat5 V c).before_in_eq_fetched 0 rfl (fun _ => rfl) (fun _ _ _ => rfl) (fun _ => rfl) t d).trans rfl
theorem held5_1 (t : Fin cfg5.N) (d) : (dat5 V c).before 1 t d = blk5 V c 1 t :=
  ((dat5 V c).before_in_eq_fetched 1 rfl (fun _ => rfl) (fun _ _ _ => rfl) (fun _ => rfl) t d).trans rfl

-- by the point's residue mod 8 the matching case applies and gives the invariant of the next position
theorem sound_body5 (t : Fin cfg5.N) :
    iprop((dat5 V c).Φ t.castSucc ∗ (dat5 V c).owesAt () t.castSucc
    ∗ (∃ d, owns (c : Thread nD τ) (stg5_0 t) fullShare ((dat5 V c).before 0 t d))
    ∗ (∃ d, owns (c : Thread nD τ) (stg5_1 t) fullShare ((dat5 V c).before 1 t d))
    ∗ (∃ d, owns (c : Thread nD τ) (stg5_2 t) fullShare ((dat5 V c).before 2 t d)))
      ⊢ wp frame (wpE (defs₀ (F := F)) Variants.none c none) Set.univ (bodyAt5 t) (fun _ => iprop((dat5 V c).Φ t.succ ∗ (dat5 V c).owesAt () t.succ
    ∗ (dat5 V c).leavesExact 0 t
    ∗ (dat5 V c).leavesExact 1 t
    ∗ (dat5 V c).leavesExact 2 t)) := by
  unfold bodyAt5
  simp only [held5_0, held5_1]
  rw [show (dat5 V c).owesAt () t.succ = (dat5 V c).owesAt () t.castSucc from rfl,
    show (dat5 V c).Φ t.succ = Inv5 V c (t.val + 1) t.isLt from rfl,
    show (dat5 V c).Φ t.castSucc = Inv5 V c t.val (Nat.le_of_lt t.isLt) from rfl, Inv5, Inv5,
    show Sum5 V c (t.val + 1) t.isLt = owns (c : Thread nD τ) acc5 fullShare (accAt5 V c t.val t.isLt) from rfl,
    show (dat5 V c).leavesExact 0 t = owns (c : Thread nD τ) (stg5_0 t) fullShare (blk5 V c 0 t) from by
      unfold Dat.leavesExact; rw [live5_0 t]; rfl,
    show (dat5 V c).leavesExact 1 t = owns (c : Thread nD τ) (stg5_1 t) fullShare (blk5 V c 1 t) from by
      unfold Dat.leavesExact; rw [live5_1 t]; rfl]
  by_cases h0 : t.val % 8 = 0
  · have h7 : ¬atLastK5 (grid5.coords t) := fun h => by have := (atLastK5_iff t).mp h; omega
    rw [Dat.leavesExact_idle (dat5 V c) 2 t (idle5_2 t h7) (keep5_2 t h7), accAt5_restart V c t h0]
    refine (sep_mono (sep_mono (sep_mono (Sum5_forget V c _ _) .rfl) .rfl) .rfl).trans ?_
    iintro ⟨⟨⟨HS, HR⟩, Hg⟩, Ho, ⟨%d0, H0⟩, ⟨%d1, H1⟩, ⟨%d2, H2⟩⟩
    iapply (runFirst5 c (grid5.coords t) _ _ _ _ _ _ _ _ (blk5 V c 0 t) (blk5 V c 1 t) _ ((atFirstK5_iff t).mpr h0) h7 Set.univ _)
    iframe
    iintro ⟨H0, H1, H2, HS⟩
    iframe
    iexists _; iexact H2
  · have hf : ¬atFirstK5 (grid5.coords t) := fun h => h0 ((atFirstK5_iff t).mp h)
    rw [accAt5_add V c t h0, Sum5, dif_neg fun e => h0 (by rw [e])]
    by_cases h7 : t.val % 8 = 7
    · rw [show (dat5 V c).leavesExact 2 t = owns (c : Thread nD τ) (stg5_2 t) fullShare (outAt5 V c t) from by
          unfold Dat.leavesExact; rw [live5_2 t ((atLastK5_iff t).mpr h7)]; rfl, outAt5, accAt5_add V c t h0]
      iintro ⟨⟨⟨HS, HR⟩, Hg⟩, Ho, ⟨%d0, H0⟩, ⟨%d1, H1⟩, ⟨%d2, H2⟩⟩
      iapply (runLast5 c (grid5.coords t) _ _ _ _ _ _ _ _ (blk5 V c 0 t) (blk5 V c 1 t) _ hf ((atLastK5_iff t).mpr h7) Set.univ _)
      isplitl [H0]; · iexact H0
      isplitl [H1]; · iexact H1
      isplitl [H2]; · iexists _; iexact H2
      iframe
      iintro ⟨H0, H1, H2, HS⟩
      iframe
    · have hl : ¬atLastK5 (grid5.coords t) := fun h => h7 ((atLastK5_iff t).mp h)
      rw [Dat.leavesExact_idle (dat5 V c) 2 t (idle5_2 t hl) (keep5_2 t hl)]
      iintro ⟨⟨⟨HS, HR⟩, Hg⟩, Ho, ⟨%d0, H0⟩, ⟨%d1, H1⟩, ⟨%d2, H2⟩⟩
      iapply (runMid5 c (grid5.coords t) _ _ _ _ _ _ _ _ (blk5 V c 0 t) (blk5 V c 1 t) _ _ hf hl Set.univ _)
      iframe
      iintro ⟨H0, H1, H2, HS⟩
      iframe
      iexists _; iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [PhiA5_eq]; exact .rfl

theorem hout5 (c : Dev nD) : (dat5 V c).Φ (Fin.last cfg5.N) ⊢ Pipeline.ΦA spec5 c := by
  rw [PhiA5_eq]; exact sep_mono (sep_mono (Sum5_forget V c _ _) .rfl) .rfl

end Cert.KernelIdeal.Hand

end
-- ==== Proof.KI.Reg6.lean ====
import proofs.«176514_j47991964565814_1_alg».proof.Proof.KILaunch
import proofs.«176514_j47991964565814_1_alg».proof.Proof.LibA
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev atFirstK6 (i : grid6.Coords) : Prop := (Scalar.cmpi .ne (Scalar.extui (Scalar.cmpi .eq (BitVec.ofNat 32 (i 2).val) 0#32)) 0#32) = 1#1
-- the contraction index runs fastest: it is 0 exactly at the multiples of 8
theorem atFirstK6_iff : ∀ t : Fin grid6.N, atFirstK6 (grid6.coords t) ↔ t.val % 8 = 0 := by decide +kernel

abbrev atLastK6 (i : grid6.Coords) : Prop := k6_cond2 i = 1#1
theorem atLastK6_iff : ∀ t : Fin grid6.N, atLastK6 (grid6.coords t) ↔ t.val % 8 = 7 := by decide +kernel

theorem live6_0 : ∀ t : Fin cfg6.N, cfg6.idle 0 (grid6.coords t) = false := by decide +kernel
theorem live6_1 : ∀ t : Fin cfg6.N, cfg6.idle 1 (grid6.coords t) = false := by decide +kernel
theorem idle6_2 : ∀ t : Fin cfg6.N, ¬atLastK6 (grid6.coords t) → cfg6.idle 2 (grid6.coords t) = true := by decide +kernel
theorem keep6_2 : ∀ t : Fin cfg6.N, ¬atLastK6 (grid6.coords t) → (cfg6.win 2).flush t = false := by decide +kernel
theorem live6_2 : ∀ t : Fin cfg6.N, atLastK6 (grid6.coords t) → cfg6.idle 2 (grid6.coords t) = false := by decide +kernel

abbrev stg6_0 (t : Fin cfg6.N) : Memref sig .tc .vmem S1024x1024 .f32 := win6_0.stage (cfg6.slots t 0)
abbrev stgW6_0 (t : Fin cfg6.N) : (stg6_0 t).IsWhole := hstage6_0 ((cfg6.slots t 0).cast nbuf6_0)
abbrev stg6_1 (t : Fin cfg6.N) : Memref sig .tc .vmem S1024x512 .f32 := win6_1.stage (cfg6.slots t 1)
abbrev stgW6_1 (t : Fin cfg6.N) : (stg6_1 t).IsWhole := hstage6_1 ((cfg6.slots t 1).cast nbuf6_1)
abbrev stg6_2 (t : Fin cfg6.N) : Memref sig .tc .vmem S1024x512 .f32 := win6_2.stage (cfg6.slots t 2)
abbrev stgW6_2 (t : Fin cfg6.N) : (stg6_2 t).IsWhole := hstage6_2 ((cfg6.slots t 2).cast nbuf6_2)
abbrev acc6 : Memref sig .tc .vmem S1024x512 .f32 := Memref.whole cc6_scratch0

theorem PhiA6_eq (c : Dev nD) :
    (Pipeline.ΦA spec6 c : sProp 𝕄)
      = iprop(iprop(iprop((∃ d, owns (c : Thread nD τ) acc6 fullShare d)) ∗ Pipeline.scopedRestBut spec6 c [cc6_scratch0]) ∗ (∃ r, prngReg c r)) := by
  unfold Pipeline.ΦA; rw [scopedRest6_split]; simp only [acc6, owns_whole]; try rfl

theorem origin6 : (![0, 0] : Fin 2 → Nat) = fun _ => 0 := funext fun a => by fin_cases a <;> rfl

section Body

variable (c : Dev nD) (i : grid6.Coords) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole)
  (x0 : Vec F S1024x1024 .f32) (x1 xs xo : Vec F S1024x512 .f32)

-- at contraction index 0 the running sum restarts: it becomes zero plus the first block product
theorem runFirst6 (h0 : atFirstK6 i) (h7 : ¬atLastK6 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k6_pay2 x0 x1 k6_pay1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_cons_unit_zero (S := S1024x512) origin6, View.readCov_unit_zero (S := S1024x512) _ origin6]
  simp only [View.readAt_eq_ld, harg3.read_unread, harg4.read_unread, View.ld_unit_zero (S := S1024x1024) origin6, View.ld_unit_zero (S := S1024x512) origin6]

-- at a middle index the block product is added to the running sum
theorem runMid6 (h0 : ¬atFirstK6 i) (h7 : ¬atLastK6 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k6_pay2 x0 x1 xs)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin6]
  simp only [View.readAt_eq_ld, harg3.read_unread, harg4.read_unread, harg6.read_unread, View.ld_unit_zero (S := S1024x1024) origin6, View.ld_unit_zero (S := S1024x512) origin6]

-- at the last index the last block product is added, and the result block is the entrywise maximum of the sum and 0
theorem runLast6 (h0 : ¬atFirstK6 i) (h7 : atLastK6 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k6_pay3 (k6_pay2 x0 x1 xs)) ∗ owns (c : Thread nD τ) arg6 fullShare (k6_pay2 x0 x1 xs)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x512.size (by sl_kernel_rfl) y
    try sl_unfold_words
    rw [View.canon_unit_zero origin6, View.readCov_unit_zero (S := S1024x512) _ origin6]
    simp only [View.readAt_eq_ld, harg3.read_unread, harg4.read_unread, harg6.read_unread, View.ld_unit_zero (S := S1024x1024) origin6, View.ld_unit_zero (S := S1024x512) origin6]
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin6]
  simp only [View.readAt_eq_ld, harg3.read_unread, harg4.read_unread, harg6.read_unread, View.ld_unit_zero (S := S1024x1024) origin6, View.ld_unit_zero (S := S1024x512) origin6]

end Body

variable (c : Dev nD)

-- the running sum after position n: one block product added to zero where the contraction restarts,
-- elsewhere to the sum after position n - 1
def accAt6 : (n : ℕ) → n < cfg6.N → Vec F S1024x512 .f32
  | 0, hn => k6_pay2 (blk6 V c 0 ⟨0, hn⟩) (blk6 V c 1 ⟨0, hn⟩) k6_pay1
  | n + 1, hn => k6_pay2 (blk6 V c 0 ⟨n + 1, hn⟩) (blk6 V c 1 ⟨n + 1, hn⟩)
      (if (n + 1) % 8 = 0 then k6_pay1 else accAt6 n (Nat.lt_of_succ_lt hn))

theorem accAt6_restart (t : Fin cfg6.N) (h0 : t.val % 8 = 0) :
    accAt6 V c t.val t.isLt = k6_pay2 (blk6 V c 0 t) (blk6 V c 1 t) (k6_pay1 (F := F)) := by
  obtain ⟨n, hn⟩ := t
  cases n with
  | zero => rfl
  | succ n => exact congrArg (k6_pay2 _ _) (if_pos h0)

theorem accAt6_add (t : Fin cfg6.N) (h0 : ¬t.val % 8 = 0) :
    accAt6 V c t.val t.isLt = k6_pay2 (blk6 V c 0 t) (blk6 V c 1 t) (accAt6 V c (t.val - 1) (Nat.lt_of_le_of_lt (Nat.sub_le _ _) t.isLt)) := by
  obtain ⟨n, hn⟩ := t
  cases n with
  | zero => exact absurd (Nat.zero_mod _) h0
  | succ n => exact congrArg (k6_pay2 _ _) (if_neg h0)

def outAt6 (t : Fin cfg6.N) : Vec F S1024x512 .f32 := k6_pay3 (accAt6 V c t.val t.isLt)

-- the running sum's part of the invariant before position n: anything at the start, afterwards the sum after position n - 1
def Sum6 (n : ℕ) (h : n ≤ cfg6.N) : sProp 𝕄 :=
  if hz : n = 0 then iprop(∃ d, owns (c : Thread nD τ) acc6 fullShare d) else owns (c : Thread nD τ) acc6 fullShare (accAt6 V c (n - 1) (by omega))

def Inv6 (n : ℕ) (h : n ≤ cfg6.N) : sProp 𝕄 :=
  iprop(iprop(Sum6 V c n h ∗ Pipeline.scopedRestBut spec6 c [cc6_scratch0]) ∗ (∃ r, prngReg c r))

-- the value of the running sum may be forgotten at any position
theorem Sum6_forget (n : ℕ) (h : n ≤ cfg6.N) : Sum6 V c n h ⊢ iprop(∃ d, owns (c : Thread nD τ) acc6 fullShare d) := by
  unfold Sum6; split
  · exact .rfl
  · iintro H; iexists _; iexact H

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => outAt6 V c t
  Φ t := Inv6 V c t.val (Nat.le_of_lt_succ t.isLt)
  q _ := fullShare
  owed _ := 0

theorem A_eq6 (w : Fin cfg6.W) : (dat6 V c).A w = V c (Pipeline.arrRef spec6 w) := rfl
theorem after6_2 (t : Fin cfg6.N) : (dat6 V c).after 2 t = outAt6 V c t := rfl

theorem held6_0 (t : Fin cfg6.N) (d) : (dat6 V c).before 0 t d = blk6 V c 0 t :=
  ((dat6 V c).before_in_eq_fetched 0 rfl (fun _ => rfl) (fun _ _ _ => rfl) (fun _ => rfl) t d).trans rfl
theorem held6_1 (t : Fin cfg6.N) (d) : (dat6 V c).before 1 t d = blk6 V c 1 t :=
  ((dat6 V c).before_in_eq_fetched 1 rfl (fun _ => rfl) (fun _ _ _ => rfl) (fun _ => rfl) t d).trans rfl

-- by the point's residue mod 8 the matching case applies and gives the invariant of the next position
theorem sound_body6 (t : Fin cfg6.N) :
    iprop((dat6 V c).Φ t.castSucc ∗ (dat6 V c).owesAt () t.castSucc
    ∗ (∃ d, owns (c : Thread nD τ) (stg6_0 t) fullShare ((dat6 V c).before 0 t d))
    ∗ (∃ d, owns (c : Thread nD τ) (stg6_1 t) fullShare ((dat6 V c).before 1 t d))
    ∗ (∃ d, owns (c : Thread nD τ) (stg6_2 t) fullShare ((dat6 V c).before 2 t d)))
      ⊢ wp frame (wpE (defs₀ (F := F)) Variants.none c none) Set.univ (bodyAt6 t) (fun _ => iprop((dat6 V c).Φ t.succ ∗ (dat6 V c).owesAt () t.succ
    ∗ (dat6 V c).leavesExact 0 t
    ∗ (dat6 V c).leavesExact 1 t
    ∗ (dat6 V c).leavesExact 2 t)) := by
  unfold bodyAt6
  simp only [held6_0, held6_1]
  rw [show (dat6 V c).owesAt () t.succ = (dat6 V c).owesAt () t.castSucc from rfl,
    show (dat6 V c).Φ t.succ = Inv6 V c (t.val + 1) t.isLt from rfl,
    show (dat6 V c).Φ t.castSucc = Inv6 V c t.val (Nat.le_of_lt t.isLt) from rfl, Inv6, Inv6,
    show Sum6 V c (t.val + 1) t.isLt = owns (c : Thread nD τ) acc6 fullShare (accAt6 V c t.val t.isLt) from rfl,
    show (dat6 V c).leavesExact 0 t = owns (c : Thread nD τ) (stg6_0 t) fullShare (blk6 V c 0 t) from by
      unfold Dat.leavesExact; rw [live6_0 t]; rfl,
    show (dat6 V c).leavesExact 1 t = owns (c : Thread nD τ) (stg6_1 t) fullShare (blk6 V c 1 t) from by
      unfold Dat.leavesExact; rw [live6_1 t]; rfl]
  by_cases h0 : t.val % 8 = 0
  · have h7 : ¬atLastK6 (grid6.coords t) := fun h => by have := (atLastK6_iff t).mp h; omega
    rw [Dat.leavesExact_idle (dat6 V c) 2 t (idle6_2 t h7) (keep6_2 t h7), accAt6_restart V c t h0]
    refine (sep_mono (sep_mono (sep_mono (Sum6_forget V c _ _) .rfl) .rfl) .rfl).trans ?_
    iintro ⟨⟨⟨HS, HR⟩, Hg⟩, Ho, ⟨%d0, H0⟩, ⟨%d1, H1⟩, ⟨%d2, H2⟩⟩
    iapply (runFirst6 c (grid6.coords t) _ _ _ _ _ _ _ _ (blk6 V c 0 t) (blk6 V c 1 t) _ ((atFirstK6_iff t).mpr h0) h7 Set.univ _)
    iframe
    iintro ⟨H0, H1, H2, HS⟩
    iframe
    iexists _; iexact H2
  · have hf : ¬atFirstK6 (grid6.coords t) := fun h => h0 ((atFirstK6_iff t).mp h)
    rw [accAt6_add V c t h0, Sum6, dif_neg fun e => h0 (by rw [e])]
    by_cases h7 : t.val % 8 = 7
    · rw [show (dat6 V c).leavesExact 2 t = owns (c : Thread nD τ) (stg6_2 t) fullShare (outAt6 V c t) from by
          unfold Dat.leavesExact; rw [live6_2 t ((atLastK6_iff t).mpr h7)]; rfl, outAt6, accAt6_add V c t h0]
      iintro ⟨⟨⟨HS, HR⟩, Hg⟩, Ho, ⟨%d0, H0⟩, ⟨%d1, H1⟩, ⟨%d2, H2⟩⟩
      iapply (runLast6 c (grid6.coords t) _ _ _ _ _ _ _ _ (blk6 V c 0 t) (blk6 V c 1 t) _ hf ((atLastK6_iff t).mpr h7) Set.univ _)
      isplitl [H0]; · iexact H0
      isplitl [H1]; · iexact H1
      isplitl [H2]; · iexists _; iexact H2
      iframe
      iintro ⟨H0, H1, H2, HS⟩
      iframe
    · have hl : ¬atLastK6 (grid6.coords t) := fun h => h7 ((atLastK6_iff t).mp h)
      rw [Dat.leavesExact_idle (dat6 V c) 2 t (idle6_2 t hl) (keep6_2 t hl)]
      iintro ⟨⟨⟨HS, HR⟩, Hg⟩, Ho, ⟨%d0, H0⟩, ⟨%d1, H1⟩, ⟨%d2, H2⟩⟩
      iapply (runMid6 c (grid6.coords t) _ _ _ _ _ _ _ _ (blk6 V c 0 t) (blk6 V c 1 t) _ _ hf hl Set.univ _)
      iframe
      iintro ⟨H0, H1, H2, HS⟩
      iframe
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [PhiA6_eq]; exact .rfl

theorem hout6 (c : Dev nD) : (dat6 V c).Φ (Fin.last cfg6.N) ⊢ Pipeline.ΦA spec6 c := by
  rw [PhiA6_eq]; exact sep_mono (sep_mono (Sum6_forget V c _ _) .rfl) .rfl

end Cert.KernelIdeal.Hand

end
-- ==== Proof.KI.Reg7.lean ====
import proofs.«176514_j47991964565814_1_alg».proof.Proof.KILaunch
import proofs.«176514_j47991964565814_1_alg».proof.Proof.LibA
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev atFirstK7 (i : grid7.Coords) : Prop := (Scalar.cmpi .ne (Scalar.extui (Scalar.cmpi .eq (BitVec.ofNat 32 (i 2).val) 0#32)) 0#32) = 1#1
-- the contraction index runs fastest: it is 0 exactly at the multiples of 8
theorem atFirstK7_iff : ∀ t : Fin grid7.N, atFirstK7 (grid7.coords t) ↔ t.val % 8 = 0 := by decide +kernel

abbrev atLastK7 (i : grid7.Coords) : Prop := k7_cond2 i = 1#1
theorem atLastK7_iff : ∀ t : Fin grid7.N, atLastK7 (grid7.coords t) ↔ t.val % 8 = 7 := by decide +kernel

theorem live7_0 : ∀ t : Fin cfg7.N, cfg7.idle 0 (grid7.coords t) = false := by decide +kernel
theorem live7_1 : ∀ t : Fin cfg7.N, cfg7.idle 1 (grid7.coords t) = false := by decide +kernel
theorem idle7_2 : ∀ t : Fin cfg7.N, ¬atLastK7 (grid7.coords t) → cfg7.idle 2 (grid7.coords t) = true := by decide +kernel
theorem keep7_2 : ∀ t : Fin cfg7.N, ¬atLastK7 (grid7.coords t) → (cfg7.win 2).flush t = false := by decide +kernel
theorem live7_2 : ∀ t : Fin cfg7.N, atLastK7 (grid7.coords t) → cfg7.idle 2 (grid7.coords t) = false := by decide +kernel

abbrev stg7_0 (t : Fin cfg7.N) : Memref sig .tc .vmem S1024x1024 .f32 := win7_0.stage (cfg7.slots t 0)
abbrev stgW7_0 (t : Fin cfg7.N) : (stg7_0 t).IsWhole := hstage7_0 ((cfg7.slots t 0).cast nbuf7_0)
abbrev stg7_1 (t : Fin cfg7.N) : Memref sig .tc .vmem S1024x512 .f32 := win7_1.stage (cfg7.slots t 1)
abbrev stgW7_1 (t : Fin cfg7.N) : (stg7_1 t).IsWhole := hstage7_1 ((cfg7.slots t 1).cast nbuf7_1)
abbrev stg7_2 (t : Fin cfg7.N) : Memref sig .tc .vmem S1024x512 .f32 := win7_2.stage (cfg7.slots t 2)
abbrev stgW7_2 (t : Fin cfg7.N) : (stg7_2 t).IsWhole := hstage7_2 ((cfg7.slots t 2).cast nbuf7_2)
abbrev acc7 : Memref sig .tc .vmem S1024x512 .f32 := Memref.whole cc7_scratch0

theorem PhiA7_eq (c : Dev nD) :
    (Pipeline.ΦA spec7 c : sProp 𝕄)
      = iprop(iprop(iprop((∃ d, owns (c : Thread nD τ) acc7 fullShare d)) ∗ Pipeline.scopedRestBut spec7 c [cc7_scratch0]) ∗ (∃ r, prngReg c r)) := by
  unfold Pipeline.ΦA; rw [scopedRest7_split]; simp only [acc7, owns_whole]; try rfl

theorem origin7 : (![0, 0] : Fin 2 → Nat) = fun _ => 0 := funext fun a => by fin_cases a <;> rfl

section Body

variable (c : Dev nD) (i : grid7.Coords) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole)
  (x0 : Vec F S1024x1024 .f32) (x1 xs xo : Vec F S1024x512 .f32)

-- at contraction index 0 the running sum restarts: it becomes zero plus the first block product
theorem runFirst7 (h0 : atFirstK7 i) (h7 : ¬atLastK7 i) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d)
        ∗ (iprop(owns (c : Thread nD τ) arg3 fullShare x0 ∗ owns (c : Thread nD τ) arg4 fullShare x1 ∗ owns (c : Thread nD τ) arg5 fullShare xo ∗ owns (c : Thread nD τ) arg6 fullShare (k7_pay2 x0 x1 k7_pay1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  rw [harg3.owns_eq c x0, harg4.owns_eq c x1, harg5.owns_eq c xo]
  unfold owns
  iintro ⟨H0, H1, H2, ⟨%ds, %fs, -, HS⟩, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_cons_unit_zero (S := S1024x512) origin7, View.readCov_unit_zero (S := S1024x512) _ origin7]
  simp only [View.readAt_eq_ld, harg3.read_unread, harg4.read_unread, View.ld_unit_zero (S := S1024x1024) origin7, View.ld_unit_zero (S := S1024x512) origin7]

-- at a middle index the block product is added to the running sum
theorem runMid7 (h0 : ¬atFirstK7 i) (h7 : ¬atLastK7 i) (E : Set ℕ) (K : PUnit → sProp 𝕄) :
    iprop(owns (c : Thread nD τ) arg3 fullShare x0 ∗ owns (c : Thread nD τ) arg4 fullShare x1 ∗ owns (c : Thread nD τ) arg5 fullShare xo ∗ owns (c : Thread nD τ) arg6 fullShare xs
        ∗ (iprop(owns (c : Thread nD τ) arg3 fullShare x0 ∗ owns (c : Thread nD τ) arg4 fullShare x1 ∗ owns (c : Thread nD τ) arg5 fullShare xo ∗ owns (c : Thread nD τ) arg6 fullShare (k7_pay2 x0 x1 xs)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  rw [harg3.owns_eq c x0, harg4.owns_eq c x1, harg5.owns_eq c xo, harg6.owns_eq c xs]
  unfold owns
  iintro ⟨H0, H1, H2, HS, Hk⟩
  sl_exec (disch := first | exact h0 | exact h7)
  sl_step
  iapply Hk
  isplitl [H0]; · iexact H0
  isplitl [H1]; · iexact H1
  isplitl [H2]; · iexact H2
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin7]
  simp only [View.readAt_eq_ld, harg3.read_unread, harg4.read_unread, harg6.read_unread, View.ld_unit_zero (S := S1024x1024) origin7, View.ld_unit_zero (S := S1024x512) origin7]

-- at the last index the last block product is added, and the result block is the entrywise maximum of the sum and 0
theorem runLast7 (h0 : ¬atFirstK7 i) (h7 : atLastK7 i) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k7_pay3 (k7_pay2 x0 x1 xs)) ∗ owns (c : Thread nD τ) arg6 fullShare (k7_pay2 x0 x1 xs)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  rw [harg3.owns_eq c x0, harg4.owns_eq c x1, harg6.owns_eq c xs]
  unfold owns
  iintro ⟨H0, H1, ⟨%d2, %f2, -, H2⟩, HS, Hk⟩
  sl_exec (disch := first | exact h0 | exact h7)
  sl_step
  iapply Hk
  isplitl [H0]; · iexact H0
  isplitl [H1]; · iexact H1
  isplitl [H2]
  · iexists _; isplitr
    swap; · iexact H2
    ipureintro
    refine (View.read_writes_eq_canon _ _ _ fun y => ?_).trans ?_
    · exact View.cover_of_tiledL _ S1024x512.size (by sl_kernel_rfl) y
    try sl_unfold_words
    rw [View.canon_unit_zero origin7, View.readCov_unit_zero (S := S1024x512) _ origin7]
    simp only [View.readAt_eq_ld, harg3.read_unread, harg4.read_unread, harg6.read_unread, View.ld_unit_zero (S := S1024x1024) origin7, View.ld_unit_zero (S := S1024x512) origin7]
  iexists _; isplitr
  swap; · iexact HS
  ipureintro
  refine (View.read_writes_eq_canon _ _ _ fun y => ?_).trans ?_
  · exact View.cover_of_tiledL _ S1024x512.size (by sl_kernel_rfl) y
  try sl_unfold_words
  rw [View.canon_unit_zero origin7]
  simp only [View.readAt_eq_ld, harg3.read_unread, harg4.read_unread, harg6.read_unread, View.ld_unit_zero (S := S1024x1024) origin7, View.ld_unit_zero (S := S1024x512) origin7]

end Body

variable (c : Dev nD)

-- the running sum after position n: one block product added to zero where the contraction restarts,
-- elsewhere to the sum after position n - 1
def accAt7 : (n : ℕ) → n < cfg7.N → Vec F S1024x512 .f32
  | 0, hn => k7_pay2 (blk7 V c 0 ⟨0, hn⟩) (blk7 V c 1 ⟨0, hn⟩) k7_pay1
  | n + 1, hn => k7_pay2 (blk7 V c 0 ⟨n + 1, hn⟩) (blk7 V c 1 ⟨n + 1, hn⟩)
      (if (n + 1) % 8 = 0 then k7_pay1 else accAt7 n (Nat.lt_of_succ_lt hn))

theorem accAt7_restart (t : Fin cfg7.N) (h0 : t.val % 8 = 0) :
    accAt7 V c t.val t.isLt = k7_pay2 (blk7 V c 0 t) (blk7 V c 1 t) (k7_pay1 (F := F)) := by
  obtain ⟨n, hn⟩ := t
  cases n with
  | zero => rfl
  | succ n => exact congrArg (k7_pay2 _ _) (if_pos h0)

theorem accAt7_add (t : Fin cfg7.N) (h0 : ¬t.val % 8 = 0) :
    accAt7 V c t.val t.isLt = k7_pay2 (blk7 V c 0 t) (blk7 V c 1 t) (accAt7 V c (t.val - 1) (Nat.lt_of_le_of_lt (Nat.sub_le _ _) t.isLt)) := by
  obtain ⟨n, hn⟩ := t
  cases n with
  | zero => exact absurd (Nat.zero_mod _) h0
  | succ n => exact congrArg (k7_pay2 _ _) (if_neg h0)

def outAt7 (t : Fin cfg7.N) : Vec F S1024x512 .f32 := k7_pay3 (accAt7 V c t.val t.isLt)

-- the running sum's part of the invariant before position n: anything at the start, afterwards the sum after position n - 1
def Sum7 (n : ℕ) (h : n ≤ cfg7.N) : sProp 𝕄 :=
  if hz : n = 0 then iprop(∃ d, owns (c : Thread nD τ) acc7 fullShare d) else owns (c : Thread nD τ) acc7 fullShare (accAt7 V c (n - 1) (by omega))

def Inv7 (n : ℕ) (h : n ≤ cfg7.N) : sProp 𝕄 :=
  iprop(iprop(Sum7 V c n h ∗ Pipeline.scopedRestBut spec7 c [cc7_scratch0]) ∗ (∃ r, prngReg c r))

-- the value of the running sum may be forgotten at any position
theorem Sum7_forget (n : ℕ) (h : n ≤ cfg7.N) : Sum7 V c n h ⊢ iprop(∃ d, owns (c : Thread nD τ) acc7 fullShare d) := by
  unfold Sum7; split
  · exact .rfl
  · iintro H; iexists _; iexact H

def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => outAt7 V c t
  Φ t := Inv7 V c t.val (Nat.le_of_lt_succ t.isLt)
  q _ := fullShare
  owed _ := 0

theorem A_eq7 (w : Fin cfg7.W) : (dat7 V c).A w = V c (Pipeline.arrRef spec7 w) := rfl
theorem after7_2 (t : Fin cfg7.N) : (dat7 V c).after 2 t = outAt7 V c t := rfl

theorem held7_0 (t : Fin cfg7.N) (d) : (dat7 V c).before 0 t d = blk7 V c 0 t :=
  ((dat7 V c).before_in_eq_fetched 0 rfl (fun _ => rfl) (fun _ _ _ => rfl) (fun _ => rfl) t d).trans rfl
theorem held7_1 (t : Fin cfg7.N) (d) : (dat7 V c).before 1 t d = blk7 V c 1 t :=
  ((dat7 V c).before_in_eq_fetched 1 rfl (fun _ => rfl) (fun _ _ _ => rfl) (fun _ => rfl) t d).trans rfl

-- by the point's residue mod 8 the matching case applies and gives the invariant of the next position
theorem sound_body7 (t : Fin cfg7.N) :
    iprop((dat7 V c).Φ t.castSucc ∗ (dat7 V c).owesAt () t.castSucc
    ∗ (∃ d, owns (c : Thread nD τ) (stg7_0 t) fullShare ((dat7 V c).before 0 t d))
    ∗ (∃ d, owns (c : Thread nD τ) (stg7_1 t) fullShare ((dat7 V c).before 1 t d))
    ∗ (∃ d, owns (c : Thread nD τ) (stg7_2 t) fullShare ((dat7 V c).before 2 t d)))
      ⊢ wp frame (wpE (defs₀ (F := F)) Variants.none c none) Set.univ (bodyAt7 t) (fun _ => iprop((dat7 V c).Φ t.succ ∗ (dat7 V c).owesAt () t.succ
    ∗ (dat7 V c).leavesExact 0 t
    ∗ (dat7 V c).leavesExact 1 t
    ∗ (dat7 V c).leavesExact 2 t)) := by
  unfold bodyAt7
  simp only [held7_0, held7_1]
  rw [show (dat7 V c).owesAt () t.succ = (dat7 V c).owesAt () t.castSucc from rfl,
    show (dat7 V c).Φ t.succ = Inv7 V c (t.val + 1) t.isLt from rfl,
    show (dat7 V c).Φ t.castSucc = Inv7 V c t.val (Nat.le_of_lt t.isLt) from rfl, Inv7, Inv7,
    show Sum7 V c (t.val + 1) t.isLt = owns (c : Thread nD τ) acc7 fullShare (accAt7 V c t.val t.isLt) from rfl,
    show (dat7 V c).leavesExact 0 t = owns (c : Thread nD τ) (stg7_0 t) fullShare (blk7 V c 0 t) from by
      unfold Dat.leavesExact; rw [live7_0 t]; rfl,
    show (dat7 V c).leavesExact 1 t = owns (c : Thread nD τ) (stg7_1 t) fullShare (blk7 V c 1 t) from by
      unfold Dat.leavesExact; rw [live7_1 t]; rfl]
  by_cases h0 : t.val % 8 = 0
  · have h7 : ¬atLastK7 (grid7.coords t) := fun h => by have := (atLastK7_iff t).mp h; omega
    rw [Dat.leavesExact_idle (dat7 V c) 2 t (idle7_2 t h7) (keep7_2 t h7), accAt7_restart V c t h0]
    refine (sep_mono (sep_mono (sep_mono (Sum7_forget V c _ _) .rfl) .rfl) .rfl).trans ?_
    iintro ⟨⟨⟨HS, HR⟩, Hg⟩, Ho, ⟨%d0, H0⟩, ⟨%d1, H1⟩, ⟨%d2, H2⟩⟩
    iapply (runFirst7 c (grid7.coords t) _ _ _ _ _ _ _ _ (blk7 V c 0 t) (blk7 V c 1 t) _ ((atFirstK7_iff t).mpr h0) h7 Set.univ _)
    iframe
    iintro ⟨H0, H1, H2, HS⟩
    iframe
    iexists _; iexact H2
  · have hf : ¬atFirstK7 (grid7.coords t) := fun h => h0 ((atFirstK7_iff t).mp h)
    rw [accAt7_add V c t h0, Sum7, dif_neg fun e => h0 (by rw [e])]
    by_cases h7 : t.val % 8 = 7
    · rw [show (dat7 V c).leavesExact 2 t = owns (c : Thread nD τ) (stg7_2 t) fullShare (outAt7 V c t) from by
          unfold Dat.leavesExact; rw [live7_2 t ((atLastK7_iff t).mpr h7)]; rfl, outAt7, accAt7_add V c t h0]
      iintro ⟨⟨⟨HS, HR⟩, Hg⟩, Ho, ⟨%d0, H0⟩, ⟨%d1, H1⟩, ⟨%d2, H2⟩⟩
      iapply (runLast7 c (grid7.coords t) _ _ _ _ _ _ _ _ (blk7 V c 0 t) (blk7 V c 1 t) _ hf ((atLastK7_iff t).mpr h7) Set.univ _)
      isplitl [H0]; · iexact H0
      isplitl [H1]; · iexact H1
      isplitl [H2]; · iexists _; iexact H2
      iframe
      iintro ⟨H0, H1, H2, HS⟩
      iframe
    · have hl : ¬atLastK7 (grid7.coords t) := fun h => h7 ((atLastK7_iff t).mp h)
      rw [Dat.leavesExact_idle (dat7 V c) 2 t (idle7_2 t hl) (keep7_2 t hl)]
      iintro ⟨⟨⟨HS, HR⟩, Hg⟩, Ho, ⟨%d0, H0⟩, ⟨%d1, H1⟩, ⟨%d2, H2⟩⟩
      iapply (runMid7 c (grid7.coords t) _ _ _ _ _ _ _ _ (blk7 V c 0 t) (blk7 V c 1 t) _ _ hf hl Set.univ _)
      iframe
      iintro ⟨H0, H1, H2, HS⟩
      iframe
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [PhiA7_eq]; exact .rfl

theorem hout7 (c : Dev nD) : (dat7 V c).Φ (Fin.last cfg7.N) ⊢ Pipeline.ΦA spec7 c := by
  rw [PhiA7_eq]; exact sep_mono (sep_mono (Sum7_forget V c _ _) .rfl) .rfl

end Cert.KernelIdeal.Hand

end
-- ==== Proof.KI.Reg8.lean ====
import proofs.«176514_j47991964565814_1_alg».proof.Proof.KILaunch
import proofs.«176514_j47991964565814_1_alg».proof.Proof.Gen.KernelIdeal.Skeleton
import proofs.«176514_j47991964565814_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev clears8 (i : grid8.Coords) : Prop :=
  (Scalar.cmpi .ne (Scalar.extui (Scalar.cmpi .eq (BitVec.ofNat 32 (i 2).val) 0#32)) 0#32) = 1#1

theorem clears8_all : ∀ t : Fin cfg8.N, clears8 (grid8.coords t) :=
  (by decide +kernel : ∀ t : Fin grid8.N, clears8 (grid8.coords t))

abbrev stores8 (i : grid8.Coords) : Prop := k8_cond2 i = 1#1

theorem stores8_all : ∀ t : Fin cfg8.N, stores8 (grid8.coords t) :=
  (by decide +kernel : ∀ t : Fin grid8.N, stores8 (grid8.coords t))

theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel

abbrev ms8_0 (t : Fin cfg8.N) : Memref sig .tc .vmem S64x1792 .f32 := win8_0.stage (cfg8.slots t 0)
abbrev ms8_1 (t : Fin cfg8.N) : Memref sig .tc .vmem S1792x256 .f32 := win8_1.stage (cfg8.slots t 1)
abbrev ms8_2 (t : Fin cfg8.N) : Memref sig .tc .vmem S64x256 .f32 := win8_2.stage (cfg8.slots t 2)

abbrev acc8 : Memref sig .tc .vmem S64x256 .f32 := Memref.whole cc8_scratch0

theorem PhiA8_eq (c : Dev nD) :
    (Pipeline.ΦA spec8 c : sProp 𝕄)
      = iprop(iprop(iprop((∃ d, owns c acc8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [acc8, owns_whole]; try rfl

theorem origin8 : (![0, 0] : Fin 2 → Nat) = fun _ => 0 := funext fun a => by fin_cases a <;> rfl

-- Both tests hold, so every branch is decided: the result block ends at the one product.
theorem kernelRun8 (c : Dev nD) (i : grid8.Coords)
    (arg3 : Memref sig .tc .vmem S64x1792 .f32) (harg3 : arg3.IsWhole) (arg4 : Memref sig .tc .vmem S1792x256 .f32) (harg4 : arg4.IsWhole)
    (arg5 : Memref sig .tc .vmem S64x256 .f32) (harg5 : arg5.IsWhole) (arg6 : Memref sig .tc .vmem S64x256 .f32) (harg6 : arg6.IsWhole)
    (h0 : clears8 i) (h1 : stores8 i) (x0 : Vec F S64x1792 .f32) (x1 : Vec F S1792x256 .f32) (E : Set ℕ) (K : PUnit → sProp 𝕄) :
    iprop(owns c arg3 fullShare x0 ∗ owns c arg4 fullShare x1
        ∗ (∃ d, owns c arg5 fullShare d) ∗ (∃ d, owns c arg6 fullShare d)
        ∗ (iprop(owns c arg3 fullShare x0 ∗ owns c arg4 fullShare x1
            ∗ owns c arg5 fullShare (k8_pay2 x0 x1 k8_pay1) ∗ (∃ d, owns c arg6 fullShare d)) -∗ K ⟨⟩))
      ⊢ wp frame (wpE (defs₀ (F := F)) Variants.none c none) E (cc8__matmul_kernel i arg3 harg3 arg4 harg4 arg5 harg5 arg6 harg6) K := by
  simp only [cc8__matmul_kernel_eq_skeleton]; unfold cc8__matmul_kernel_skel
  unfold owns
  iintro ⟨⟨%f0, %hf0, H0⟩, ⟨%f1, %hf1, H1⟩, ⟨%d2, %f2, -, H2⟩, ⟨%ds, %fs, -, HS⟩, Hk⟩
  obtain rfl := harg3.eq_unread hf0; obtain rfl := harg4.eq_unread hf1
  sl_exec (disch := first | exact h0 | exact h1)
  sl_step
  iapply Hk
  isplitl [H0]; · iexists _; iframe H0; ipureintro; exact harg3.read_unread _
  isplitl [H1]; · iexists _; iframe H1; ipureintro; exact harg4.read_unread _
  isplitl [H2]
  · iexists _; iframe H2; ipureintro
    refine (View.read_writes_eq_canon _ _ _ fun y => View.cover_of_tiledL _ S64x256.size (by sl_kernel_rfl) y).trans ?_
    try sl_unfold_words
    rw [View.canon_unit_zero origin8, View.readCov_cons_toLoadRect, View.readCov_unit_zero _ origin8]
    simp only [View.readAt_eq_ld, harg3.read_unread, harg4.read_unread, View.ld_unit_zero (S := S64x1792) origin8, View.ld_unit_zero (S := S1792x256) origin8]
  iexists _; iexists _; iframe HS; ipureintro; rfl

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay2 (iblk8 V c 0 t) (iblk8 V c 1 t) k8_pay1
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = k8_pay2 (iblk8 V c 0 t) (iblk8 V c 1 t) k8_pay1 := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

-- The invariant lends the accumulator at whatever it holds and takes it back at whatever the body leaves in it.
theorem sound_body8 (c : Dev nD) (t : Fin cfg8.N) :
    iprop((dat8 V c).Φ t.castSucc ∗ (dat8 V c).owesAt () t.castSucc
      ∗ (∃ d, owns c (ms8_0 t) fullShare ((dat8 V c).before 0 t d))
      ∗ (∃ d, owns c (ms8_1 t) fullShare ((dat8 V c).before 1 t d))
      ∗ (∃ d, owns c (ms8_2 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ (dat8 V c).leavesExact 0 t ∗ (dat8 V c).leavesExact 1 t ∗ (dat8 V c).leavesExact 2 t)) := by
  unfold bodyAt8
  simp only [before8_0, before8_1]
  rw [show (dat8 V c).owesAt () t.succ = (dat8 V c).owesAt () t.castSucc from rfl]
  rw [show (dat8 V c).Φ t.succ = Pipeline.ΦA spec8 c from rfl, show (dat8 V c).Φ t.castSucc = Pipeline.ΦA spec8 c from rfl]
  rw [show (dat8 V c).leavesExact 0 t = owns c (ms8_0 t) fullShare ((dat8 V c).after 0 t) from by
    unfold Dat.leavesExact; rw [live8_0 t], after8_0]
  rw [show (dat8 V c).leavesExact 1 t = owns c (ms8_1 t) fullShare ((dat8 V c).after 1 t) from by
    unfold Dat.leavesExact; rw [live8_1 t], after8_1]
  rw [show (dat8 V c).leavesExact 2 t = owns c (ms8_2 t) fullShare ((dat8 V c).after 2 t) from by
    unfold Dat.leavesExact; rw [live8_2 t], after8_2]
  rw [PhiA8_eq]
  iintro ⟨⟨⟨HS, Hrest⟩, Hg⟩, Ho, ⟨%d0, H0⟩, ⟨%d1, H1⟩, ⟨%d2, H2⟩⟩
  iapply (kernelRun8 c (grid8.coords t) _ _ _ _ _ _ _ _ (clears8_all t) (stores8_all t) (iblk8 V c 0 t) (iblk8 V c 1 t) Set.univ _)
  iframe H0 H1 HS
  isplitl [H2]; · iexists _; iexact H2
  iintro ⟨H0, H1, H2, HS⟩
  iframe

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := Idealize.SL.BI.Entails.refl _

theorem hout8 (c : Dev nD) : (dat8 V c).Φ (Fin.last cfg8.N) ⊢ Pipeline.ΦA spec8 c := Idealize.SL.BI.Entails.refl _

end Cert.KernelIdeal.Hand

end
-- ==== Proof.KI.SegsW.lean ====
import proofs.«176514_j47991964565814_1_alg».proof.Proof.KIRegions
import proofs.«176514_j47991964565814_1_alg».proof.Proof.KI.Reg0
import proofs.«176514_j47991964565814_1_alg».proof.Proof.KI.Reg1
import proofs.«176514_j47991964565814_1_alg».proof.Proof.KI.Reg2
import proofs.«176514_j47991964565814_1_alg».proof.Proof.KI.Reg3
import proofs.«176514_j47991964565814_1_alg».proof.Proof.KI.Reg4
import proofs.«176514_j47991964565814_1_alg».proof.Proof.KI.Reg5
import proofs.«176514_j47991964565814_1_alg».proof.Proof.KI.Reg6
import proofs.«176514_j47991964565814_1_alg».proof.Proof.KI.Reg7
import proofs.«176514_j47991964565814_1_alg».proof.Proof.KI.Reg8

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (c : Dev nD)

def W1 : Valuation τ sig (Elt F) := StableHlo.after hostOps0 (fun b => m (c, b))
def W2 : Valuation τ sig (Elt F) :=
  Function.update (W1 m c)
    main_v20 ((dat0 (fun c b => W1 m c b) c).arrAt 2 cfg0.N)
def W3 : Valuation τ sig (Elt F) :=
  Function.update (Function.update (Function.update (Function.update (W2 m c)
    main_v21_0 ((dat1 (fun c b => W2 m c b) c).arrAt 2 cfg1.N))
    main_v21_1 ((dat1 (fun c b => W2 m c b) c).arrAt 3 cfg1.N))
    main_v21_2 ((dat1 (fun c b => W2 m c b) c).arrAt 4 cfg1.N))
    main_v21_3 ((dat1 (fun c b => W2 m c b) c).arrAt 5 cfg1.N)
def W4 : Valuation τ sig (Elt F) := StableHlo.after hostOps2 (W3 m c)
def W5 : Valuation τ sig (Elt F) :=
  Function.update (Function.update (W4 m c)
    main_v24_0 ((dat2 (fun c b => W4 m c b) c).arrAt 6 cfg2.N))
    main_v24_1 ((dat2 (fun c b => W4 m c b) c).arrAt 7 cfg2.N)
def W6 : Valuation τ sig (Elt F) :=
  Function.update (W5 m c)
    main_v25 ((dat3 (fun c b => W5 m c b) c).arrAt 2 cfg3.N)
def W7 : Valuation τ sig (Elt F) :=
  Function.update (W6 m c)
    main_v26 ((dat4 (fun c b => W6 m c b) c).arrAt 2 cfg4.N)
def W8 : Valuation τ sig (Elt F) :=
  Function.update (W7 m c)
    main_v27 ((dat5 (fun c b => W7 m c b) c).arrAt 2 cfg5.N)
def W9 : Valuation τ sig (Elt F) := StableHlo.after hostOps6 (W8 m c)
def W10 : Valuation τ sig (Elt F) :=
  Function.update (W9 m c)
    main_v29 ((dat6 (fun c b => W9 m c b) c).arrAt 2 cfg6.N)
def W11 : Valuation τ sig (Elt F) :=
  Function.update (W10 m c)
    main_v30 ((dat7 (fun c b => W10 m c b) c).arrAt 2 cfg7.N)
def W12 : Valuation τ sig (Elt F) := StableHlo.after hostOps8 (W11 m c)
def W13 : Valuation τ sig (Elt F) :=
  Function.update (W12 m c)
    main_v45 ((dat8 (fun c b => W12 m c b) c).arrAt 2 cfg8.N)
def W14 : Valuation τ sig (Elt F) := StableHlo.after hostOps9 (W13 m c)

-- An update is not seen at another reference.
theorem upd_ne {V : Valuation τ sig (Elt F)} {a b : Ref sig .tc} (h : b ≠ a) (x) :
    Function.update V (Proc.devRef .tc a) x (Proc.devRef .tc b) = V (Proc.devRef .tc b) :=
  Function.update_of_ne (StableHlo.devRef_ne_of_ne h) ..

theorem W2_main_v20 : W2 m c main_v20 = (dat0 (fun c b => W1 m c b) c).arrAt 2 cfg0.N :=
  Function.update_self ..
theorem W3_main_v21_0 : W3 m c main_v21_0 = (dat1 (fun c b => W2 m c b) c).arrAt 2 cfg1.N :=
  (upd_ne (by decide) _).trans ((upd_ne (by decide) _).trans ((upd_ne (by decide) _).trans (Function.update_self ..)))
theorem W3_main_v21_1 : W3 m c main_v21_1 = (dat1 (fun c b => W2 m c b) c).arrAt 3 cfg1.N :=
  (upd_ne (by decide) _).trans ((upd_ne (by decide) _).trans (Function.update_self ..))
theorem W3_main_v21_2 : W3 m c main_v21_2 = (dat1 (fun c b => W2 m c b) c).arrAt 4 cfg1.N :=
  (upd_ne (by decide) _).trans (Function.update_self ..)
theorem W3_main_v21_3 : W3 m c main_v21_3 = (dat1 (fun c b => W2 m c b) c).arrAt 5 cfg1.N :=
  Function.update_self ..
theorem W5_main_v24_0 : W5 m c main_v24_0 = (dat2 (fun c b => W4 m c b) c).arrAt 6 cfg2.N :=
  (upd_ne (by decide) _).trans (Function.update_self ..)
theorem W5_main_v24_1 : W5 m c main_v24_1 = (dat2 (fun c b => W4 m c b) c).arrAt 7 cfg2.N :=
  Function.update_self ..
theorem W6_main_v25 : W6 m c main_v25 = (dat3 (fun c b => W5 m c b) c).arrAt 2 cfg3.N :=
  Function.update_self ..
theorem W7_main_v26 : W7 m c main_v26 = (dat4 (fun c b => W6 m c b) c).arrAt 2 cfg4.N :=
  Function.update_self ..
theorem W8_main_v27 : W8 m c main_v27 = (dat5 (fun c b => W7 m c b) c).arrAt 2 cfg5.N :=
  Function.update_self ..
theorem W10_main_v29 : W10 m c main_v29 = (dat6 (fun c b => W9 m c b) c).arrAt 2 cfg6.N :=
  Function.update_self ..
theorem W11_main_v30 : W11 m c main_v30 = (dat7 (fun c b => W10 m c b) c).arrAt 2 cfg7.N :=
  Function.update_self ..
theorem W13_main_v45 : W13 m c main_v45 = (dat8 (fun c b => W12 m c b) c).arrAt 2 cfg8.N :=
  Function.update_self ..

def outsW : Outs (F := F)
  | 2, r, c => W2 m c r
  | 3, r, c => W3 m c r
  | 5, r, c => W5 m c r
  | 6, r, c => W6 m c r
  | 7, r, c => W7 m c r
  | 8, r, c => W8 m c r
  | 10, r, c => W10 m c r
  | 11, r, c => W11 m c r
  | 13, r, c => W13 m c r
  | _, r, c => m ((c : Thread nD τ).loc r)

-- Updates of equal valuations by equal contents are equal.
theorem upd_congr {V V' : Valuation τ sig (Elt F)} {a : DevRef τ sig} {x y : BufTy.Contents (Elt F) a.ty}
    (h : V = V') (hx : x = y) : Function.update V a x = Function.update V' a y := h ▸ hx ▸ rfl

theorem V1_eq : V1 m c = W1 m c := rfl
theorem V2_eq : V2 m (outsW m) c = W2 m c := upd_congr (V1_eq m c) (W2_main_v20 m c)
theorem V3_eq : V3 m (outsW m) c = W3 m c :=
  upd_congr (upd_congr (upd_congr (upd_congr (V2_eq m c) (W3_main_v21_0 m c)) (W3_main_v21_1 m c)) (W3_main_v21_2 m c))
    (W3_main_v21_3 m c)
theorem V4_eq : V4 m (outsW m) c = W4 m c := congrArg (StableHlo.after hostOps2) (V3_eq m c)
theorem V5_eq : V5 m (outsW m) c = W5 m c :=
  upd_congr (upd_congr (V4_eq m c) (W5_main_v24_0 m c)) (W5_main_v24_1 m c)
theorem V6_eq : V6 m (outsW m) c = W6 m c := upd_congr (V5_eq m c) (W6_main_v25 m c)
theorem V7_eq : V7 m (outsW m) c = W7 m c := upd_congr (V6_eq m c) (W7_main_v26 m c)
theorem V8_eq : V8 m (outsW m) c = W8 m c := upd_congr (V7_eq m c) (W8_main_v27 m c)
theorem V9_eq : V9 m (outsW m) c = W9 m c := congrArg (StableHlo.after hostOps6) (V8_eq m c)
theorem V10_eq : V10 m (outsW m) c = W10 m c := upd_congr (V9_eq m c) (W10_main_v29 m c)
theorem V11_eq : V11 m (outsW m) c = W11 m c := upd_congr (V10_eq m c) (W11_main_v30 m c)
theorem V12_eq : V12 m (outsW m) c = W12 m c := congrArg (StableHlo.after hostOps8) (V11_eq m c)
theorem V13_eq : V13 m (outsW m) c = W13 m c := upd_congr (V12_eq m c) (W13_main_v45 m c)
theorem V14_eq : V14 m (outsW m) c = W14 m c := congrArg (StableHlo.after hostOps9) (V13_eq m c)

end Cert.KernelIdeal.Hand

end
-- ==== Proof.KI.Seg0.lean ====
import proofs.«176514_j47991964565814_1_alg».proof.Proof.KI.Reg0
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrRefs0 : Finset.univ.image (Pipeline.arrRef spec0) = {main_v19, main_v20} := by decide

theorem arrays_eq_shares {cfg : Cfg sig Λ₀} {c : Dev nD} (dat : Dat τ (Elt F) Unit ℕ (UR sig nD τ) ℕ cfg c)
    (harr : ∀ w, (cfg.spec w).arr.IsWhole) (G : (w : Fin cfg.W) → Buf (Elt F) ((cfg.win w).arr.view.loc (c : Thread nD τ))) :
    (dat.arrays G : sProp 𝕄)
      = bigSep Finset.univ fun w => (((c : Thread nD τ).loc (Pipeline.arrRef cfg.spec w)) ↦{dat.share w} G w : sProp 𝕄) := by
  unfold Dat.arrays
  exact bigSep_congr fun w _ => by rw [(harr w).set_eq_univ]

theorem arrays0_eq (c : Dev nD) (G : (w : Fin cfg0.W) → Buf (Elt F) ((cfg0.win w).arr.view.loc (c : Thread nD τ))) :
    ((dat0 V c).arrays G : sProp 𝕄)
      = iprop((((c : Thread nD τ).loc main_v19) ↦{fullShare.left} G 0) ∗ (((c : Thread nD τ).loc main_v19) ↦{fullShare.right} G 1)
          ∗ (((c : Thread nD τ).loc main_v20) ↦{fullShare} G 2)) := by
  rw [arrays_eq_shares (dat0 V c) arr_whole0 G, bigSep_W0]; rfl

theorem entry0 (c : Dev nD) :
    (unscopedBufs c (V c) : sProp 𝕄)
      ⊢ iprop((dat0 V c).arrays ((dat0 V c).arrAt · 0) ∗ Pipeline.unscopedRest spec0 c (V c)) := by
  rw [Pipeline.unscopedBufs_split₀ cfgs (0 : Fin 9) winFacts₀0.arr_unscoped c (V c)]
  refine sep_mono ?_ .rfl
  rw [arrays0_eq]
  unfold Pipeline.arrBufs
  rw [show Finset.univ.image (Pipeline.arrRef (cfgs (0 : Fin 9)).spec) = {main_v19, main_v20} from arrRefs0,
    BI.bigSep_insert (by decide), BI.bigSep_singleton]
  refine (show iprop((((c : Thread nD τ).loc main_v19) ↦{fullShare} V c main_v19) ∗ (((c : Thread nD τ).loc main_v20) ↦{fullShare} V c main_v20)) ⊢ _ from ?_)
  iintro ⟨H19, H20⟩
  ihave H := (pointsTo_share (PosShare.mem_left_op_right fullShare)).1 $$ H19
  icases H with ⟨Hl, Hr⟩
  isplitl [Hl]; · iexact Hl
  isplitl [Hr]; · iexact Hr
  iexact H20

theorem exit0 (c : Dev nD) :
    iprop((dat0 V c).arrays ((dat0 V c).arrAt · cfg0.N) ∗ Pipeline.unscopedRest spec0 c (V c))
      ⊢ (unscopedBufs c (Function.update (V c) main_v20 ((dat0 V c).arrAt 2 cfg0.N)) : sProp 𝕄) := by
  rw [Pipeline.unscopedBufs_split₀ cfgs (0 : Fin 9) winFacts₀0.arr_unscoped c (Function.update (V c) main_v20 ((dat0 V c).arrAt 2 cfg0.N))]
  refine sep_mono ?_ (Entails.of_eq ?_)
  · rw [arrays0_eq]
    unfold Pipeline.arrBufs
    rw [show Finset.univ.image (Pipeline.arrRef (cfgs (0 : Fin 9)).spec) = {main_v19, main_v20} from arrRefs0,
      BI.bigSep_insert (by decide), BI.bigSep_singleton]
    rw [(dat0 V c).arrAt_in 0 rfl, (dat0 V c).arrAt_in 1 rfl, A_eq0, A_eq0]
    rw [Function.update_of_ne (by decide : main_v19 ≠ main_v20), Function.update_self]
    refine (show _ ⊢ iprop((((c : Thread nD τ).loc main_v19) ↦{fullShare} V c main_v19) ∗ (((c : Thread nD τ).loc main_v20) ↦{fullShare} (dat0 V c).arrAt 2 cfg0.N)) from ?_)
    iintro ⟨Hl, Hr, H20⟩
    isplitl [Hl Hr]
    · iapply (pointsTo_share (PosShare.mem_left_op_right fullShare)).2
      isplitl [Hl] <;> iassumption
    iexact H20
  · unfold Pipeline.unscopedRest
    refine bigSep_congr fun b hb => ?_
    have hne : b ≠ main_v20 := fun e => (Finset.mem_sdiff.mp hb).2 (by rw [e, show Finset.univ.image (Pipeline.arrRef spec0) = {main_v19, main_v20} from arrRefs0]; decide)
    rw [Function.update_of_ne hne]

end Cert.KernelIdeal.Hand

end
-- ==== Proof.KI.Segs.lean ====
import proofs.«176514_j47991964565814_1_alg».proof.Proof.KI.SegsW
import proofs.«176514_j47991964565814_1_alg».proof.Proof.KI.Seg0
import Idealize.ShloMosaic.Lib.Pipeline.FrameBody
import Idealize.ShloMosaic.Lib.Pipeline.RegionsLoop
import Idealize.ShloMosaic.Lib.Pipeline.Frame
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

-- A valuation read at the references of the core.
abbrev atTc (W : Dev nD → Valuation τ sig (Elt F)) (c : Dev nD) (b : Ref sig .tc) : Buf (Elt F) ((c.tc : Thread nD τ).loc b) := W c b

def pdats : (p : Fin 9) → (c : Dev nD) → Dat τ (Elt F) Unit ℕ (UR sig nD τ) ℕ (cfgs p) c
  | ⟨0, _⟩ => dat0 (atTc (W1 m))
  | ⟨1, _⟩ => dat1 (atTc (W2 m))
  | ⟨2, _⟩ => dat2 (atTc (W4 m))
  | ⟨3, _⟩ => dat3 (atTc (W5 m))
  | ⟨4, _⟩ => dat4 (atTc (W6 m))
  | ⟨5, _⟩ => dat5 (atTc (W7 m))
  | ⟨6, _⟩ => dat6 (atTc (W9 m))
  | ⟨7, _⟩ => dat7 (atTc (W10 m))
  | ⟨8, _⟩ => dat8 (atTc (W12 m))

abbrev R (c : Dev nD) : sProp 𝕄 :=
  iprop((∃ r, prngReg c r) ∗ ∃ W, owes (c : Thread nD τ) (0 : CellTallies nD τ sig Unit) W)

abbrev Reg (p : Fin 9) :=
  Pipeline.RegionSeg (pcfgs (F := F)) adm (pdats m) () defs₀ Variants.none (fun _ => ∅) (fun _ _ => 0) p

section
variable {cfg : Cfg sig Λ₀} {c : Dev nD} (dat : Dat τ (Elt F) Unit ℕ (UR sig nD τ) ℕ cfg c)

theorem owes_owed (t : Fin (cfg.N + 1)) (h : dat.owed t = 0) (W : Finset (SemLoc sig × Unit)) :
    (owes (c : Thread nD τ) (0 : CellTallies nD τ sig Unit) W : sProp 𝕄) = owes (c : Thread nD τ) (dat.owed t) W := by
  rw [h]

-- `V` with the arrays of the windows `os` at what the write-backs leave in them.
def wb : List (Fin cfg.W) → Valuation τ sig (Elt F) → Valuation τ sig (Elt F)
  | [], V => V
  | o :: os, V => wb os (Function.update V (Proc.devRef .tc (Pipeline.arrRef cfg.spec o)) (dat.arrAt o cfg.N))

theorem wb_of_ne (b : Ref sig .tc) : ∀ (os : List (Fin cfg.W)) (V : Valuation τ sig (Elt F)),
    (∀ o ∈ os, b ≠ Pipeline.arrRef cfg.spec o) → wb dat os V (Proc.devRef .tc b) = V (Proc.devRef .tc b)
  | [], _, _ => rfl
  | o :: os, _, h => (wb_of_ne b os _ fun w hw => h w (List.mem_cons_of_mem _ hw)).trans
      (upd_ne (h o List.mem_cons_self) _)

-- Distinct arrays: the last write to an output window's array is its own.
theorem wb_mem (hinj : Function.Injective (Pipeline.arrRef cfg.spec)) (o : Fin cfg.W) :
    ∀ (os : List (Fin cfg.W)) (V : Valuation τ sig (Elt F)), os.Nodup → o ∈ os →
      wb dat os V (Proc.devRef .tc (Pipeline.arrRef cfg.spec o)) = dat.arrAt o cfg.N
  | o' :: os, _, hn, ho => by
    rcases List.mem_cons.1 ho with rfl | ho
    · exact (wb_of_ne dat _ os _ fun w hw e => (List.nodup_cons.1 hn).1 (by rwa [hinj e])).trans (Function.update_self ..)
    · exact wb_mem hinj o os _ (List.nodup_cons.1 hn).2 ho
end

variable (pd : (p : Fin 9) → (c : Dev nD) → Dat τ (Elt F) Unit ℕ (UR sig nD τ) ℕ (cfgs p) c) (p : Fin 9)
  (V V' : Dev nD → Valuation τ sig (Elt F))
  (howed : ∀ c t, (pd p c).owed t = 0)
  (hrec : ∀ c t, (pd p c).recorded t = Set.univ)
  (hbody : ∀ c, BodyObligation (pd p c) (defs₀ (F := F)) Variants.none () Set.univ)
  (hΦin : ∀ c, Pipeline.ΦA (cfgs p).spec c ⊢ (pd p c).Φ 0)
  (hΦout : ∀ c, (pd p c).Φ (Fin.last (cfgs p).N) ⊢ Pipeline.ΦA (cfgs p).spec c)

-- A region as a segment of the program, given how its arrays leave and rejoin the unscoped buffers.
set_option backward.isDefEq.respectTransparency.types false in
def regOf₀ (hw : Pipeline.WinFacts₀ (cfgs p).spec) (hbp : ∀ w : Fin (cfgs p).W, 0 < ((cfgs p).spec w).block.numel)
    (hsw : ∀ (w : Fin (cfgs p).W) (s : Fin ((cfgs p).spec w).nbuf), (((cfgs p).spec w).stage s).IsWhole)
    (hsplit : ∀ c, (unscopedBufs c (fun b => V c b) : sProp 𝕄)
      ⊢ iprop((pd p c).arrays ((pd p c).arrAt · 0) ∗ Pipeline.unscopedRest (cfgs p).spec c (fun b => V c b)))
    (hjoin : ∀ c, iprop((pd p c).arrays ((pd p c).arrAt · (cfgs p).N) ∗ Pipeline.unscopedRest (cfgs p).spec c (fun b => V c b))
      ⊢ (unscopedBufs c (fun b => V' c b) : sProp 𝕄)) :
    Pipeline.RegionSeg (pcfgs (F := F)) adm pd () defs₀ Variants.none (fun _ => ∅) (fun _ _ => 0) p where
  win := hw
  block_pos := hbp
  stage_whole := hsw
  K := PEmpty
  osem k := k.elim
  ho := Pipeline.OwnSemFacts.none _
  hbody c := (hbody c).loose
  hwaits := Pipeline.hwaits_of_owed_zero _ _ _ _ _ _ p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (fun b => V c b)
  hentry c := by
    rw [Pipeline.ownSems0_none]
    have hsplit := hsplit c
    rw [Pipeline.unscopedBufs_held] at hsplit
    iintro ⟨⟨Hub, Hg, Hown⟩, -, -⟩
    ihave Hs := hsplit $$ Hub
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hown]
    · unfold Pipeline.Dat.owesAt Pipeline.owesWithin
      icases Hown with ⟨%W, Hown⟩; iexists W; isplitr
      · ipureintro; exact fun x _ => Or.inl ((hrec c 0).symm ▸ Set.mem_univ x)
      iapply (Entails.of_eq (owes_owed (pd p c) 0 (howed c 0) W))
      iexact Hown
    isplitl [Hg]; · iexact Hg
    iexact Hrest
  hin c := by
    iintro ⟨Hg, -, Hsc⟩
    iapply (hΦin c)
    unfold Pipeline.ΦA
    isplitl [Hsc]; · iexact Hsc
    iexact Hg
  hout c := by
    rw [Pipeline.ownSems0_none]
    refine (hΦout c).trans ?_
    unfold Pipeline.ΦA
    iintro ⟨Hsc, Hg⟩
    isplitl [Hg]; · iexact Hg
    isplitr; · iempintro
    iexact Hsc
  hexit c := by
    have hjoin := hjoin c
    rw [Pipeline.unscopedBufs_held] at hjoin
    iintro ⟨Harr, Hown, Hg, Hrest⟩
    imodintro
    isplitl [Harr Hrest]
    · iapply hjoin; isplitl [Harr] <;> iassumption
    isplitl [Hg]; · iexact Hg
    unfold Pipeline.Dat.owesAt Pipeline.owesWithin
    icases Hown with ⟨%W, -, Hown⟩; iexists W
    iapply (Entails.of_eq (owes_owed (pd p c) (Fin.last (cfgs p).N) (howed c _) W).symm)
    iexact Hown

-- A region whose windows sit on distinct arrays, leaving the arrays of its output windows `os` rewritten.
set_option backward.isDefEq.respectTransparency.types false in
def regOf (lf : Pipeline.LaunchFacts (nD := nD) (τ := τ) cfgs p) (os : List (Fin (cfgs p).W))
    (hV' : ∀ c, V' c = wb (pd p c) os (V c))
    (hos : os.Nodup ∧ ∀ w, w ∉ os → ((cfgs p).win w).isOut = false)
    (hq : ∀ c w, (pd p c).q w = fullShare)
    (hA : ∀ c w, (pd p c).A w = V c (Pipeline.arrRef (cfgs p).spec w)) :
    Pipeline.RegionSeg (pcfgs (F := F)) adm pd () defs₀ Variants.none (fun _ => ∅) (fun _ _ => 0) p :=
  regOf₀ pd p V V' howed hrec hbody hΦin hΦout lf.win.to₀ lf.block_pos lf.stage_whole
    (fun c => Pipeline.arrays_of_unscopedBufs (p := p) (pcfgs (F := F)) adm pd lf.win lf.arr_whole c
      ((pd p c).share_full (hq c)) (fun b => V c b) (hA c))
    (fun c => Pipeline.unscopedBufs_of_arrays (p := p) (pcfgs (F := F)) adm lf.win lf.arr_whole c pd ((pd p c).share_full (hq c))
      (fun b => V c b) (fun b => V' c b) ((pd p c).arrAt · (cfgs p).N)
      (fun w => by
        rw [hV' c]
        by_cases hw : w ∈ os
        · exact (wb_mem _ lf.win.arr_inj w os _ hos.1 hw).symm
        · exact ((pd p c).arrAt_in w (hos.2 w hw) _).trans ((hA c w).trans
            (wb_of_ne _ _ os _ fun o ho e => hw (by rwa [lf.win.arr_inj e])).symm))
      (fun b hb => by
        rw [hV' c]
        exact wb_of_ne _ b os _ fun o _ e => hb (e ▸ Finset.mem_image_of_mem _ (Finset.mem_univ o))))

-- Region 0 reads one array through two windows, so its arrays are split off and put back by its own two entailments.
def reg0 : Reg m 0 :=
  regOf₀ (pdats m) 0 (W1 m) (W2 m) (fun _ _ => rfl) (fun _ _ => rfl) (body_obligation0 (atTc (W1 m))) (hin0 (atTc (W1 m))) (hout0 (atTc (W1 m)))
    winFacts₀0 block_pos0 stage_whole0 (entry0 (atTc (W1 m))) fun c => by
      have h := exit0 (fun c b => W1 m c b) c
      rwa [show Function.update (fun b : Ref sig .tc => W1 m c b) main_v20 ((dat0 (fun c b => W1 m c b) c).arrAt 2 cfg0.N)
          = fun b : Ref sig .tc => W2 m c b from funext fun b => by
        by_cases hb : b = main_v20
        · subst hb; rw [Function.update_self, W2_main_v20]
        · rw [Function.update_of_ne hb]; exact (upd_ne hb _).symm] at h
def reg1 : Reg m 1 :=
  regOf (pdats m) 1 (W2 m) (W3 m) (fun _ _ => rfl) (fun _ _ => rfl) (body_obligation1 (atTc (W2 m)))
    (hin1 (atTc (W2 m))) (hout1 (atTc (W2 m))) launch1 [2, 3, 4, 5] (fun _ => rfl) (by decide) (fun _ _ => rfl)
    (A_eq1 (atTc (W2 m)))
def reg2 : Reg m 2 :=
  regOf (pdats m) 2 (W4 m) (W5 m) (fun _ _ => rfl) (fun _ _ => rfl) (body_obligation2 (atTc (W4 m)))
    (hin2 (atTc (W4 m))) (hout2 (atTc (W4 m))) launch2 [6, 7] (fun _ => rfl) (by decide) (fun _ _ => rfl)
    (A_eq2 (atTc (W4 m)))
def reg3 : Reg m 3 :=
  regOf (pdats m) 3 (W5 m) (W6 m) (fun _ _ => rfl) (fun _ _ => rfl) (body_obligation3 (atTc (W5 m)))
    (hin3 (atTc (W5 m))) (hout3 (atTc (W5 m))) launch3 [2] (fun _ => rfl) (by decide) (fun _ _ => rfl)
    (A_eq3 (atTc (W5 m)))
def reg4 : Reg m 4 :=
  regOf (pdats m) 4 (W6 m) (W7 m) (fun _ _ => rfl) (fun _ _ => rfl) (body_obligation4 (atTc (W6 m)))
    (hin4 (atTc (W6 m))) (hout4 (atTc (W6 m))) launch4 [2] (fun _ => rfl) (by decide) (fun _ _ => rfl)
    (A_eq4 (atTc (W6 m)))
def reg5 : Reg m 5 :=
  regOf (pdats m) 5 (W7 m) (W8 m) (fun _ _ => rfl) (fun _ _ => rfl) (body_obligation5 (atTc (W7 m)))
    (hin5 (atTc (W7 m))) (hout5 (atTc (W7 m))) launch5 [2] (fun _ => rfl) (by decide) (fun _ _ => rfl)
    (A_eq5 (atTc (W7 m)))
def reg6 : Reg m 6 :=
  regOf (pdats m) 6 (W9 m) (W10 m) (fun _ _ => rfl) (fun _ _ => rfl) (body_obligation6 (atTc (W9 m)))
    (hin6 (atTc (W9 m))) (hout6 (atTc (W9 m))) launch6 [2] (fun _ => rfl) (by decide) (fun _ _ => rfl)
    (A_eq6 (atTc (W9 m)))
def reg7 : Reg m 7 :=
  regOf (pdats m) 7 (W10 m) (W11 m) (fun _ _ => rfl) (fun _ _ => rfl) (body_obligation7 (atTc (W10 m)))
    (hin7 (atTc (W10 m))) (hout7 (atTc (W10 m))) launch7 [2] (fun _ => rfl) (by decide) (fun _ _ => rfl)
    (A_eq7 (atTc (W10 m)))
def reg8 : Reg m 8 :=
  regOf (pdats m) 8 (W12 m) (W13 m) (fun _ _ => rfl) (fun _ _ => rfl) (body_obligation8 (atTc (W12 m)))
    (hin8 (atTc (W12 m))) (hout8 (atTc (W12 m))) launch8 [2] (fun _ => rfl) (by decide) (fun _ _ => rfl)
    (A_eq8 (atTc (W12 m)))

end Cert.KernelIdeal.Hand

end
-- ==== Proof.KI.Run.lean ====
import proofs.«176514_j47991964565814_1_alg».proof.Proof.KI.Segs

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase Idealize.SL.BI.Laws Idealize.SL.ProofMode
open Idealize.ShloMosaic.Rounds
open Idealize.ShloMosaic.Pipeline (Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Equal valuations give the same thread state.
theorem held_congr (c : Dev nD) {V W : Valuation τ sig (Elt F)} (h : V = W) :
    (iprop(StableHlo.held (c : Thread nD τ) (Pipeline.ucRefs τ sig) V ∗ R c) : sProp 𝕄)
      ⊢ iprop(StableHlo.held (c : Thread nD τ) (Pipeline.ucRefs τ sig) W ∗ R c) := h ▸ .rfl

-- The items of the program chain from the launch to the return, where every whole unscoped buffer is read off the state.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m c b) := by
  refine Pipeline.θ_run_regions_kit_dev (pcfgs (F := F)) adm (pdats m) () cellOf_inj emb₁ defs₀ Variants.none
    (fun _ => ∅) (fun _ _ => 0) m ρ main
    (segs m (outsW m) Variants.none (fun _ => ∅) (fun _ _ => 0) (fun _ => R) () (pdats m) (reg0 m) (reg1 m) (reg2 m)
      (reg3 m) (reg4 m) (reg5 m) (reg6 m) (reg7 m) (reg8 m))
    (fun c Q => by rewrite [main_chain c, Seg.run_eq_chain]; exact .rfl)
    (fun c => by simp only [segs, Seg.pipes_host, Seg.pipes_region, Seg.pipes_nil]; decide) 0 (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (W14 m c))
    (hch := fun c => ⟨.rfl, .rfl, .rfl, held_congr c (V3_eq m c).symm, held_congr c (V4_eq m c), .rfl, .rfl, .rfl,
      held_congr c (V8_eq m c).symm, held_congr c (V9_eq m c), .rfl, held_congr c (V11_eq m c).symm,
      held_congr c (V12_eq m c), held_congr c (V13_eq m c).symm,
      (held_congr c (V14_eq m c)).trans (sep_mono .rfl (by iintro ⟨-, H⟩; iexact H))⟩)
    (hinit := Pipeline.initEach (fun _ => ∅) (fun _ _ => 0) fun c => ?_)
    (QY := fun c s => ∀ b ∈ Pipeline.ucRefs τ sig, s.mem ((c : Thread nD τ).1, b) = W14 m c b)
    (hfin := fun c s' => ?_) (hQ := fun _ h => h)
  · rw [BI.bigSep_emp_const, ownU_emb₁]
    iintro Hu; imodintro
    isplitl [Hu]; · iexact Hu
    iempintro
  · rw [← Pipeline.unscopedBufs_held (Ix := Unit) (Name := ℕ) (U := UR sig nD τ) (Lvl := ℕ) c (V0 m c)]
    iintro ⟨⟨Hub, -, Hown, -, Hg, -⟩, -⟩
    imodintro
    isplitl [Hub]; · iexact Hub
    isplitl [Hg]; · iexists _; iexact Hg
    iexists ∅; iexact Hown
  · unfold StableHlo.held
    iintro ⟨Hh, HSI⟩
    imodintro
    iapply (pointsTo_read_all (Pipeline.ucRefs τ sig) (fun b => ((c : Thread nD τ).1, b)) (W14 m c) s')
    isplitl [Hh] <;> iassumption

end Cert.KernelIdeal.Hand

end
-- ==== Proof.KI.Frame.lean ====
import proofs.«176514_j47991964565814_1_alg».proof.Proof.KI.Run

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

-- An unscoped buffer no item writes ends as launched.
theorem arg_end {r : PUnit × MemSt nD τ sig (Elt F)} (h : ∀ c : Dev nD, ∀ b ∈ Pipeline.ucRefs τ sig,
      r.2.mem ((c : Thread nD τ).1, b) = W14 m c b) (c : Dev nD) (b : Ref sig .tc)
    (hb : ¬ (Proc.devRef .tc b : DevRef τ sig).isScoped)
    (hV : V14 m (outsW m) c (Proc.devRef .tc b) = m ((c : Thread nD τ).loc b)) :
    r.2.mem ((c.tc : Thread nD τ).loc b) = m ((c.tc : Thread nD τ).loc b) :=
  (h c _ (Finset.mem_filter.mpr ⟨StableHlo.devRef_mem_tcRefs b, hb⟩)).trans ((congrFun (V14_eq m c) _).symm.trans hV)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_end m h c main_arg0 (by decide) (V14_main_arg0 m _ c), arg_end m h c main_arg1 (by decide) (V14_main_arg1 m _ c),
     arg_end m h c main_arg2 (by decide) (V14_main_arg2 m _ c), arg_end m h c main_arg3 (by decide) (V14_main_arg3 m _ c),
     arg_end m h c main_arg4 (by decide) (V14_main_arg4 m _ c), arg_end m h c main_arg5 (by decide) (V14_main_arg5 m _ c)⟩)
    (run_all m ρ)

end Cert.KernelIdeal.Hand

end
-- ==== Proof.RefStagesP.lean ====
import proofs.«176514_j47991964565814_1_alg».proof.Proof.Gen.ReferenceIdeal
import Idealize.ShloMosaic.Lib.StableHlo.Run
import Idealize.ShloMosaic.Lib.Pipeline.Value
import Idealize.ShloMosaic.Lib.ValueIdx
import Idealize.ShloMosaic.Lib.StackMember
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S8192x512, .f32⟩ : BufTy).Contents (Elt F)) (x1 : (⟨S2x131072, .i32⟩ : BufTy).Contents (Elt F)) (x2 : (⟨S8192, .i32⟩ : BufTy).Contents (Elt F)) (x3 : (⟨S512x256, .f32⟩ : BufTy).Contents (Elt F)) (x4 : (⟨S1792x256, .f32⟩ : BufTy).Contents (Elt F)) (x5 : (⟨S256, .f32⟩ : BufTy).Contents (Elt F))

open ValueIdx StackMember in
-- An m×k by k×n product at an index; the operands may be read at any indices that have these coordinates.
theorem plain_dot_apply {m k n : Nat} {d : DotDims ⟨2, ![m, k]⟩ ⟨2, ![k, n]⟩ ⟨2, ![m, n]⟩} (hd : d = DotDims.plain m k n)
    (A : FVec Ideal ⟨2, ![m, k]⟩ .f32) (B : FVec Ideal ⟨2, ![k, n]⟩ .f32) (i : (⟨2, ![m, n]⟩ : Shape).Idx)
    {li : Fin k → (⟨2, ![m, k]⟩ : Shape).Idx} {ri : Fin k → (⟨2, ![k, n]⟩ : Shape).Idx}
    (hl0 : ∀ c, li c 0 = i 0 := by exact fun _ => rfl) (hl1 : ∀ c, li c 1 = c := by exact fun _ => rfl)
    (hr0 : ∀ c, ri c 0 = c := by exact fun _ => rfl) (hr1 : ∀ c, ri c 1 = i 1 := by exact fun _ => rfl) :
    Host.dotGeneral d none A B i = ∑ c : Fin k, A (li c) * B (ri c) := by
  subst hd
  have hl : ∀ c, li c = ix2 (i 0) c := fun c => funext fun a => match a with
    | ⟨0, _⟩ => hl0 c
    | ⟨1, _⟩ => hl1 c
  have hr : ∀ c, ri c = ix2 c (i 1) := fun c => funext fun a => match a with
    | ⟨0, _⟩ => hr0 c
    | ⟨1, _⟩ => hr1 c
  simp only [hl, hr]
  conv_lhs => rw [eq_ix2 i]
  exact dotGeneral_plain_apply none A B (i 0) (i 1)

-- A broadcast scalar is read at the empty index.
theorem bcast_scalar_apply {S : Shape} {t : EltTy} {h : S_.BroadcastsInDim S (![] : Fin 0 → Fin S.rank)}
    (v : (⟨S_, t⟩ : BufTy).Contents (Elt F)) (i : S.Idx) : broadcastInDim S ![] h v i = v fun a => a.elim0 :=
  broadcastInDim_apply _ _ _ i _ fun a => a.elim0

def val_main_v0 : (⟨S1x131072, .i32⟩ : BufTy).Contents (Elt F) :=
  extractStridedSlice S1x131072 ![0, 0] (x1) slices_S2x131072_S1x131072_0_0

def val_main_v1 : (⟨S131072, .i32⟩ : BufTy).Contents (Elt F) :=
  shapeCast _ (val_main_v0 x1) shapeCasts_S1x131072_S131072

def val_main_v2 : (⟨S1x131072, .i32⟩ : BufTy).Contents (Elt F) :=
  extractStridedSlice S1x131072 ![1, 0] (x1) slices_S2x131072_S1x131072_1_0

def val_main_v3 : (⟨S131072, .i32⟩ : BufTy).Contents (Elt F) :=
  shapeCast _ (val_main_v2 x1) shapeCasts_S1x131072_S131072

def val_main_cst : (⟨S_, .f32⟩ : BufTy).Contents (Elt F) :=
  constant S_ .f32 0x00000000#32

def val_main_v4 : (⟨S8192x8192, .f32⟩ : BufTy).Contents (Elt F) :=
  broadcastInDim S8192x8192 ![] bcast_S_S8192x8192 (val_main_cst (F := F))

def val_main_c : (⟨S_, .i32⟩ : BufTy).Contents (Elt F) :=
  constantI S_ 32 0#32

def val_main_v5 : (⟨S131072, .i32⟩ : BufTy).Contents (Elt F) :=
  broadcastInDim S131072 ![] bcast_S_S131072 (val_main_c (F := F))

def val_main_v6 : (⟨S131072, .i1⟩ : BufTy).Contents (Elt F) :=
  cmpi .slt (val_main_v1 x1) (val_main_v5 (F := F))

def val_main_c_0 : (⟨S_, .i32⟩ : BufTy).Contents (Elt F) :=
  constantI S_ 32 8192#32

def val_main_v7 : (⟨S131072, .i32⟩ : BufTy).Contents (Elt F) :=
  broadcastInDim S131072 ![] bcast_S_S131072 (val_main_c_0 (F := F))

def val_main_v8 : (⟨S131072, .i32⟩ : BufTy).Contents (Elt F) :=
  addi (val_main_v1 x1) (val_main_v7 (F := F))

def val_main_v9 : (⟨S131072, .i32⟩ : BufTy).Contents (Elt F) :=
  select (val_main_v6 x1) (val_main_v8 x1) (val_main_v1 x1)

def val_main_c_1 : (⟨S_, .i32⟩ : BufTy).Contents (Elt F) :=
  constantI S_ 32 0#32

def val_main_v10 : (⟨S131072, .i32⟩ : BufTy).Contents (Elt F) :=
  broadcastInDim S131072 ![] bcast_S_S131072 (val_main_c_1 (F := F))

def val_main_v11 : (⟨S131072, .i1⟩ : BufTy).Contents (Elt F) :=
  cmpi .slt (val_main_v3 x1) (val_main_v10 (F := F))

def val_main_c_2 : (⟨S_, .i32⟩ : BufTy).Contents (Elt F) :=
  constantI S_ 32 8192#32

def val_main_v12 : (⟨S131072, .i32⟩ : BufTy).Contents (Elt F) :=
  broadcastInDim S131072 ![] bcast_S_S131072 (val_main_c_2 (F := F))

def val_main_v13 : (⟨S131072, .i32⟩ : BufTy).Contents (Elt F) :=
  addi (val_main_v3 x1) (val_main_v12 (F := F))

def val_main_v14 : (⟨S131072, .i32⟩ : BufTy).Contents (Elt F) :=
  select (val_main_v11 x1) (val_main_v13 x1) (val_main_v3 x1)

def val_main_v15 : (⟨S131072x1, .i32⟩ : BufTy).Contents (Elt F) :=
  broadcastInDim S131072x1 ![0] bcast_S131072_S131072x1_0 (val_main_v9 x1)

def val_main_v16 : (⟨S131072x1, .i32⟩ : BufTy).Contents (Elt F) :=
  broadcastInDim S131072x1 ![0] bcast_S131072_S131072x1_0 (val_main_v14 x1)

def val_main_v17 : (⟨S131072x2, .i32⟩ : BufTy).Contents (Elt F) :=
  concatenate S131072x2 1 [⟨S131072x1, (val_main_v15 x1)⟩, ⟨S131072x1, (val_main_v16 x1)⟩] concatenates_S131072x1_S131072x1_S131072x2_d1

def val_main_cst_3 : (⟨S_, .f32⟩ : BufTy).Contents (Elt F) :=
  constant S_ .f32 0x3F800000#32

def val_main_v18 : (⟨S131072, .f32⟩ : BufTy).Contents (Elt F) :=
  broadcastInDim S131072 ![] bcast_S_S131072 (val_main_cst_3 (F := F))

def val_main_v19 : (⟨S8192x8192, .f32⟩ : BufTy).Contents (Elt F) :=
  Host.scatterAdd scatter_S8192x8192_S131072x2_S131072_n_01_01_1 (val_main_v4 (F := F)) (val_main_v17 x1) (val_main_v18 (F := F))

def val_main_v20 : (⟨S8192x8192, .i32⟩ : BufTy).Contents (Elt F) :=
  iotaInDim S8192x8192 32 0
theorem val_main_v20_apply (i : S8192x8192.Idx) :
    val_main_v20 (F := F) i = BitVec.ofNat 32 (i 0).val := rfl

def val_main_v21 : (⟨S8192x8192, .i32⟩ : BufTy).Contents (Elt F) :=
  iotaInDim S8192x8192 32 1
theorem val_main_v21_apply (i : S8192x8192.Idx) :
    val_main_v21 (F := F) i = BitVec.ofNat 32 (i 1).val := rfl

def val_main_c_4 : (⟨S_, .i32⟩ : BufTy).Contents (Elt F) :=
  constantI S_ 32 0#32
theorem val_main_c_4_apply (i : S_.Idx) :
    val_main_c_4 (F := F) i = 0#32 := rfl

def val_main_v22 : (⟨S8192x8192, .i32⟩ : BufTy).Contents (Elt F) :=
  broadcastInDim S8192x8192 ![] bcast_S_S8192x8192 (val_main_c_4 (F := F))
abbrev idx_main_v22 (i : S8192x8192.Idx) : S_.Idx := fun a => a.elim0
theorem val_main_v22_apply (i : S8192x8192.Idx) :
    val_main_v22 (F := F) i = val_main_c_4 (F := F) (idx_main_v22 i) :=
  bcast_scalar_apply _ i

def val_main_v23 : (⟨S8192x8192, .i32⟩ : BufTy).Contents (Elt F) :=
  addi (val_main_v20 (F := F)) (val_main_v22 (F := F))
theorem val_main_v23_apply (i : S8192x8192.Idx) :
    val_main_v23 (F := F) i = IntOp.addi (val_main_v20 (F := F) i) (val_main_v22 (F := F) i) := rfl

def val_main_v24 : (⟨S8192x8192, .i1⟩ : BufTy).Contents (Elt F) :=
  cmpi .eq (val_main_v23 (F := F)) (val_main_v21 (F := F))
theorem val_main_v24_apply (i : S8192x8192.Idx) :
    val_main_v24 (F := F) i = IntOp.cmpi .eq (val_main_v23 (F := F) i) (val_main_v21 (F := F) i) := rfl

def val_main_v25 : (⟨S8192x8192, .f32⟩ : BufTy).Contents (Elt F) :=
  uitofp .f32 (val_main_v24 (F := F))
theorem val_main_v25_apply (i : S8192x8192.Idx) :
    val_main_v25 (F := F) i = FloatOps.uitofp .f32 (val_main_v24 (F := F) i) := rfl

def val_main_v26 : (⟨S8192x8192, .f32⟩ : BufTy).Contents (Elt F) :=
  subf (val_main_v19 x1) (val_main_v25 (F := F))
theorem val_main_v26_apply (i : S8192x8192.Idx) :
    val_main_v26 x1 i = FloatOps.subf (val_main_v19 x1 i) (val_main_v25 (F := F) i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v27 : (⟨S8192x8192, .f32⟩ : BufTy).Contents (Elt F) :=
  broadcastInDim S8192x8192 ![] bcast_S_S8192x8192 (val_main_cst_5 (F := F))
abbrev idx_main_v27 (i : S8192x8192.Idx) : S_.Idx := fun a => a.elim0
theorem val_main_v27_apply (i : S8192x8192.Idx) :
    val_main_v27 (F := F) i = val_main_cst_5 (F := F) (idx_main_v27 i) :=
  bcast_scalar_apply _ i

def val_main_v28 : (⟨S8192x8192, .i1⟩ : BufTy).Contents (Elt F) :=
  cmpf .ogt (val_main_v26 x1) (val_main_v27 (F := F))
theorem val_main_v28_apply (i : S8192x8192.Idx) :
    val_main_v28 x1 i = FloatOps.cmpf .ogt (val_main_v26 x1 i) (val_main_v27 (F := F) i) := rfl

def val_main_v29 : (⟨S8192x8192, .f32⟩ : BufTy).Contents (Elt F) :=
  uitofp .f32 (val_main_v28 x1)
theorem val_main_v29_apply (i : S8192x8192.Idx) :
    val_main_v29 x1 i = FloatOps.uitofp .f32 (val_main_v28 x1 i) := rfl

def val_main_v30 : (⟨S8192x8192, .f32⟩ : BufTy).Contents (Elt F) :=
  Host.dotGeneral dot_S8192x8192_S8192x8192_S8192x8192_1_0_0_1_n_n none (val_main_v19 x1) (val_main_v19 x1)
abbrev lidx_main_v30 (i : S8192x8192.Idx) (k : Fin 8192) : S8192x8192.Idx := fun a => match a with
  | ⟨0, _⟩ => ⟨(i 0).val, (i 0).isLt⟩
  | ⟨1, _⟩ => ⟨k.val, k.isLt⟩
abbrev ridx_main_v30 (i : S8192x8192.Idx) (k : Fin 8192) : S8192x8192.Idx := fun a => match a with
  | ⟨0, _⟩ => ⟨k.val, k.isLt⟩
  | ⟨1, _⟩ => ⟨(i 1).val, (i 1).isLt⟩

def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

def val_main_v31 : (⟨S8192x8192, .f32⟩ : BufTy).Contents (Elt F) :=
  broadcastInDim S8192x8192 ![] bcast_S_S8192x8192 (val_main_cst_6 (F := F))
abbrev idx_main_v31 (i : S8192x8192.Idx) : S_.Idx := fun a => a.elim0
theorem val_main_v31_apply (i : S8192x8192.Idx) :
    val_main_v31 (F := F) i = val_main_cst_6 (F := F) (idx_main_v31 i) :=
  bcast_scalar_apply _ i

def val_main_v32 : (⟨S8192x8192, .i1⟩ : BufTy).Contents (Elt F) :=
  cmpf .ogt (val_main_v30 x1) (val_main_v31 (F := F))
theorem val_main_v32_apply (i : S8192x8192.Idx) :
    val_main_v32 x1 i = FloatOps.cmpf .ogt (val_main_v30 x1 i) (val_main_v31 (F := F) i) := rfl

def val_main_v33 : (⟨S8192x8192, .f32⟩ : BufTy).Contents (Elt F) :=
  uitofp .f32 (val_main_v32 x1)
theorem val_main_v33_apply (i : S8192x8192.Idx) :
    val_main_v33 x1 i = FloatOps.uitofp .f32 (val_main_v32 x1 i) := rfl

def val_main_v34 : (⟨S8192x8192, .f32⟩ : BufTy).Contents (Elt F) :=
  subf (val_main_v33 x1) (val_main_v19 x1)
theorem val_main_v34_apply (i : S8192x8192.Idx) :
    val_main_v34 x1 i = FloatOps.subf (val_main_v33 x1 i) (val_main_v19 x1 i) := rfl

def val_main_v35 : (⟨S8192x8192, .f32⟩ : BufTy).Contents (Elt F) :=
  subf (val_main_v34 x1) (val_main_v25 (F := F))
theorem val_main_v35_apply (i : S8192x8192.Idx) :
    val_main_v35 x1 i = FloatOps.subf (val_main_v34 x1 i) (val_main_v25 (F := F) i) := rfl

def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

def val_main_v36 : (⟨S8192x8192, .f32⟩ : BufTy).Contents (Elt F) :=
  broadcastInDim S8192x8192 ![] bcast_S_S8192x8192 (val_main_cst_7 (F := F))
abbrev idx_main_v36 (i : S8192x8192.Idx) : S_.Idx := fun a => a.elim0
theorem val_main_v36_apply (i : S8192x8192.Idx) :
    val_main_v36 (F := F) i = val_main_cst_7 (F := F) (idx_main_v36 i) :=
  bcast_scalar_apply _ i

def val_main_v37 : (⟨S8192x8192, .i1⟩ : BufTy).Contents (Elt F) :=
  cmpf .ogt (val_main_v35 x1) (val_main_v36 (F := F))
theorem val_main_v37_apply (i : S8192x8192.Idx) :
    val_main_v37 x1 i = FloatOps.cmpf .ogt (val_main_v35 x1 i) (val_main_v36 (F := F) i) := rfl

def val_main_v38 : (⟨S8192x8192, .f32⟩ : BufTy).Contents (Elt F) :=
  uitofp .f32 (val_main_v37 x1)
theorem val_main_v38_apply (i : S8192x8192.Idx) :
    val_main_v38 x1 i = FloatOps.uitofp .f32 (val_main_v37 x1 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v39 : (⟨S8192, .f32⟩ : BufTy).Contents (Elt F) :=
  Host.reduceAdd (val_main_v29 x1) (val_main_cst_8 (F := F)) reducesTo_S8192x8192_S8192_d1 h_S_
abbrev idx_main_v39 (i : S8192.Idx) (k : Fin 8192) : S8192x8192.Idx := fun a => match a with
  | ⟨0, _⟩ => ⟨(i 0).val, (i 0).isLt⟩
  | ⟨1, _⟩ => ⟨k.val, k.isLt⟩

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v40 : (⟨S8192, .f32⟩ : BufTy).Contents (Elt F) :=
  broadcastInDim S8192 ![] bcast_S_S8192 (val_main_cst_9 (F := F))
abbrev idx_main_v40 (i : S8192.Idx) : S_.Idx := fun a => a.elim0
theorem val_main_v40_apply (i : S8192.Idx) :
    val_main_v40 (F := F) i = val_main_cst_9 (F := F) (idx_main_v40 i) :=
  bcast_scalar_apply _ i

def val_main_v41 : (⟨S8192, .i1⟩ : BufTy).Contents (Elt F) :=
  cmpf .ogt (val_main_v39 x1) (val_main_v40 (F := F))
theorem val_main_v41_apply (i : S8192.Idx) :
    val_main_v41 x1 i = FloatOps.cmpf .ogt (val_main_v39 x1 i) (val_main_v40 (F := F) i) := rfl

def val_main_cst_10 : (⟨S_, .f32⟩ : BufTy).Contents (Elt F) :=
  constant S_ .f32 0xBF000000#32
theorem val_main_cst_10_apply (i : S_.Idx) :
    val_main_cst_10 (F := F) i = FloatOps.ofBits .f32 0xBF000000#32 := rfl

def val_main_v42 : (⟨S8192, .f32⟩ : BufTy).Contents (Elt F) :=
  broadcastInDim S8192 ![] bcast_S_S8192 (val_main_cst_10 (F := F))
abbrev idx_main_v42 (i : S8192.Idx) : S_.Idx := fun a => a.elim0
theorem val_main_v42_apply (i : S8192.Idx) :
    val_main_v42 (F := F) i = val_main_cst_10 (F := F) (idx_main_v42 i) :=
  bcast_scalar_apply _ i

def val_main_v43 : (⟨S8192, .f32⟩ : BufTy).Contents (Elt F) :=
  Host.powf (val_main_v39 x1) (val_main_v42 (F := F))
theorem val_main_v43_apply (i : S8192.Idx) :
    val_main_v43 x1 i = FloatOps.hostPowf (val_main_v39 x1 i) (val_main_v42 (F := F) i) := rfl

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_call0_v0 : (⟨S_, .f32⟩ : BufTy).Contents (Elt F) :=
  id (val_main_cst_11 (F := F))
theorem val_main_call0_v0_apply (i : S_.Idx) :
    val_main_call0_v0 (F := F) i = (val_main_cst_11 (F := F) i) := rfl

def val_main_call0_v1 : (⟨S8192, .f32⟩ : BufTy).Contents (Elt F) :=
  broadcastInDim S8192 ![] bcast_S_S8192 (val_main_call0_v0 (F := F))
abbrev idx_main_call0_v1 (i : S8192.Idx) : S_.Idx := fun a => a.elim0
theorem val_main_call0_v1_apply (i : S8192.Idx) :
    val_main_call0_v1 (F := F) i = val_main_call0_v0 (F := F) (idx_main_call0_v1 i) :=
  bcast_scalar_apply _ i

def val_main_v44 : (⟨S8192, .f32⟩ : BufTy).Contents (Elt F) :=
  select (val_main_v41 x1) (val_main_v43 x1) (val_main_call0_v1 (F := F))
theorem val_main_v44_apply (i : S8192.Idx) :
    val_main_v44 x1 i = Scalar.select (val_main_v41 x1 i) (val_main_v43 x1 i) (val_main_call0_v1 (F := F) i) := rfl

def val_main_v45 : (⟨S8192x1, .f32⟩ : BufTy).Contents (Elt F) :=
  broadcastInDim S8192x1 ![0] bcast_S8192_S8192x1_0 (val_main_v44 x1)
abbrev idx_main_v45 (i : S8192x1.Idx) : S8192.Idx := fun a => match a with
  | ⟨0, _⟩ => ⟨(i 0).val, (i 0).isLt⟩
theorem val_main_v45_apply (i : S8192x1.Idx) :
    val_main_v45 x1 i = val_main_v44 x1 (idx_main_v45 i) :=
  broadcastInDim_apply _ _ _ i _ (Fin.forall_fin_one.2 rfl)

def val_main_v46 : (⟨S8192x8192, .f32⟩ : BufTy).Contents (Elt F) :=
  broadcastInDim S8192x8192 ![0, 1] bcast_S8192x1_S8192x8192_0_1 (val_main_v45 x1)
abbrev idx_main_v46 (i : S8192x8192.Idx) : S8192x1.Idx := fun a => match a with
  | ⟨0, _⟩ => ⟨(i 0).val, (i 0).isLt⟩
  | ⟨1, _⟩ => ⟨0, Nat.one_pos⟩
theorem val_main_v46_apply (i : S8192x8192.Idx) :
    val_main_v46 x1 i = val_main_v45 x1 (idx_main_v46 i) :=
  broadcastInDim_apply _ _ _ i _ (Fin.forall_fin_two.2 ⟨rfl, rfl⟩)

def val_main_v47 : (⟨S8192x8192, .f32⟩ : BufTy).Contents (Elt F) :=
  mulf (val_main_v46 x1) (val_main_v29 x1)
theorem val_main_v47_apply (i : S8192x8192.Idx) :
    val_main_v47 x1 i = FloatOps.mulf (val_main_v46 x1 i) (val_main_v29 x1 i) := rfl

def val_main_v48 : (⟨S1x8192, .f32⟩ : BufTy).Contents (Elt F) :=
  broadcastInDim S1x8192 ![1] bcast_S8192_S1x8192_1 (val_main_v44 x1)
abbrev idx_main_v48 (i : S1x8192.Idx) : S8192.Idx := fun a => match a with
  | ⟨0, _⟩ => ⟨(i 1).val, (i 1).isLt⟩
theorem val_main_v48_apply (i : S1x8192.Idx) :
    val_main_v48 x1 i = val_main_v44 x1 (idx_main_v48 i) :=
  broadcastInDim_apply _ _ _ i _ (Fin.forall_fin_one.2 rfl)

def val_main_v49 : (⟨S8192x8192, .f32⟩ : BufTy).Contents (Elt F) :=
  broadcastInDim S8192x8192 ![0, 1] bcast_S1x8192_S8192x8192_0_1 (val_main_v48 x1)
abbrev idx_main_v49 (i : S8192x8192.Idx) : S1x8192.Idx := fun a => match a with
  | ⟨0, _⟩ => ⟨0, Nat.one_pos⟩
  | ⟨1, _⟩ => ⟨(i 1).val, (i 1).isLt⟩
theorem val_main_v49_apply (i : S8192x8192.Idx) :
    val_main_v49 x1 i = val_main_v48 x1 (idx_main_v49 i) :=
  broadcastInDim_apply _ _ _ i _ (Fin.forall_fin_two.2 ⟨rfl, rfl⟩)

def val_main_v50 : (⟨S8192x8192, .f32⟩ : BufTy).Contents (Elt F) :=
  mulf (val_main_v47 x1) (val_main_v49 x1)
theorem val_main_v50_apply (i : S8192x8192.Idx) :
    val_main_v50 x1 i = FloatOps.mulf (val_main_v47 x1 i) (val_main_v49 x1 i) := rfl

def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

def val_main_v51 : (⟨S8192, .f32⟩ : BufTy).Contents (Elt F) :=
  Host.reduceAdd (val_main_v38 x1) (val_main_cst_12 (F := F)) reducesTo_S8192x8192_S8192_d1 h_S_
abbrev idx_main_v51 (i : S8192.Idx) (k : Fin 8192) : S8192x8192.Idx := fun a => match a with
  | ⟨0, _⟩ => ⟨(i 0).val, (i 0).isLt⟩
  | ⟨1, _⟩ => ⟨k.val, k.isLt⟩

def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

def val_main_v52 : (⟨S8192, .f32⟩ : BufTy).Contents (Elt F) :=
  broadcastInDim S8192 ![] bcast_S_S8192 (val_main_cst_13 (F := F))
abbrev idx_main_v52 (i : S8192.Idx) : S_.Idx := fun a => a.elim0
theorem val_main_v52_apply (i : S8192.Idx) :
    val_main_v52 (F := F) i = val_main_cst_13 (F := F) (idx_main_v52 i) :=
  bcast_scalar_apply _ i

def val_main_v53 : (⟨S8192, .i1⟩ : BufTy).Contents (Elt F) :=
  cmpf .ogt (val_main_v51 x1) (val_main_v52 (F := F))
theorem val_main_v53_apply (i : S8192.Idx) :
    val_main_v53 x1 i = FloatOps.cmpf .ogt (val_main_v51 x1 i) (val_main_v52 (F := F) i) := rfl

def val_main_cst_14 : (⟨S_, .f32⟩ : BufTy).Contents (Elt F) :=
  constant S_ .f32 0xBF000000#32
theorem val_main_cst_14_apply (i : S_.Idx) :
    val_main_cst_14 (F := F) i = FloatOps.ofBits .f32 0xBF000000#32 := rfl

def val_main_v54 : (⟨S8192, .f32⟩ : BufTy).Contents (Elt F) :=
  broadcastInDim S8192 ![] bcast_S_S8192 (val_main_cst_14 (F := F))
abbrev idx_main_v54 (i : S8192.Idx) : S_.Idx := fun a => a.elim0
theorem val_main_v54_apply (i : S8192.Idx) :
    val_main_v54 (F := F) i = val_main_cst_14 (F := F) (idx_main_v54 i) :=
  bcast_scalar_apply _ i

def val_main_v55 : (⟨S8192, .f32⟩ : BufTy).Contents (Elt F) :=
  Host.powf (val_main_v51 x1) (val_main_v54 (F := F))
theorem val_main_v55_apply (i : S8192.Idx) :
    val_main_v55 x1 i = FloatOps.hostPowf (val_main_v51 x1 i) (val_main_v54 (F := F) i) := rfl

def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

def val_main_call1_v0 : (⟨S_, .f32⟩ : BufTy).Contents (Elt F) :=
  id (val_main_cst_15 (F := F))
theorem val_main_call1_v0_apply (i : S_.Idx) :
    val_main_call1_v0 (F := F) i = (val_main_cst_15 (F := F) i) := rfl

def val_main_call1_v1 : (⟨S8192, .f32⟩ : BufTy).Contents (Elt F) :=
  broadcastInDim S8192 ![] bcast_S_S8192 (val_main_call1_v0 (F := F))
abbrev idx_main_call1_v1 (i : S8192.Idx) : S_.Idx := fun a => a.elim0
theorem val_main_call1_v1_apply (i : S8192.Idx) :
    val_main_call1_v1 (F := F) i = val_main_call1_v0 (F := F) (idx_main_call1_v1 i) :=
  bcast_scalar_apply _ i

def val_main_v56 : (⟨S8192, .f32⟩ : BufTy).Contents (Elt F) :=
  select (val_main_v53 x1) (val_main_v55 x1) (val_main_call1_v1 (F := F))
theorem val_main_v56_apply (i : S8192.Idx) :
    val_main_v56 x1 i = Scalar.select (val_main_v53 x1 i) (val_main_v55 x1 i) (val_main_call1_v1 (F := F) i) := rfl

def val_main_v57 : (⟨S8192x1, .f32⟩ : BufTy).Contents (Elt F) :=
  broadcastInDim S8192x1 ![0] bcast_S8192_S8192x1_0 (val_main_v56 x1)
abbrev idx_main_v57 (i : S8192x1.Idx) : S8192.Idx := fun a => match a with
  | ⟨0, _⟩ => ⟨(i 0).val, (i 0).isLt⟩
theorem val_main_v57_apply (i : S8192x1.Idx) :
    val_main_v57 x1 i = val_main_v56 x1 (idx_main_v57 i) :=
  broadcastInDim_apply _ _ _ i _ (Fin.forall_fin_one.2 rfl)

def val_main_v58 : (⟨S8192x8192, .f32⟩ : BufTy).Contents (Elt F) :=
  broadcastInDim S8192x8192 ![0, 1] bcast_S8192x1_S8192x8192_0_1 (val_main_v57 x1)
abbrev idx_main_v58 (i : S8192x8192.Idx) : S8192x1.Idx := fun a => match a with
  | ⟨0, _⟩ => ⟨(i 0).val, (i 0).isLt⟩
  | ⟨1, _⟩ => ⟨0, Nat.one_pos⟩
theorem val_main_v58_apply (i : S8192x8192.Idx) :
    val_main_v58 x1 i = val_main_v57 x1 (idx_main_v58 i) :=
  broadcastInDim_apply _ _ _ i _ (Fin.forall_fin_two.2 ⟨rfl, rfl⟩)

def val_main_v59 : (⟨S8192x8192, .f32⟩ : BufTy).Contents (Elt F) :=
  mulf (val_main_v58 x1) (val_main_v38 x1)
theorem val_main_v59_apply (i : S8192x8192.Idx) :
    val_main_v59 x1 i = FloatOps.mulf (val_main_v58 x1 i) (val_main_v38 x1 i) := rfl

def val_main_v60 : (⟨S1x8192, .f32⟩ : BufTy).Contents (Elt F) :=
  broadcastInDim S1x8192 ![1] bcast_S8192_S1x8192_1 (val_main_v56 x1)
abbrev idx_main_v60 (i : S1x8192.Idx) : S8192.Idx := fun a => match a with
  | ⟨0, _⟩ => ⟨(i 1).val, (i 1).isLt⟩
theorem val_main_v60_apply (i : S1x8192.Idx) :
    val_main_v60 x1 i = val_main_v56 x1 (idx_main_v60 i) :=
  broadcastInDim_apply _ _ _ i _ (Fin.forall_fin_one.2 rfl)

def val_main_v61 : (⟨S8192x8192, .f32⟩ : BufTy).Contents (Elt F) :=
  broadcastInDim S8192x8192 ![0, 1] bcast_S1x8192_S8192x8192_0_1 (val_main_v60 x1)
abbrev idx_main_v61 (i : S8192x8192.Idx) : S1x8192.Idx := fun a => match a with
  | ⟨0, _⟩ => ⟨0, Nat.one_pos⟩
  | ⟨1, _⟩ => ⟨(i 1).val, (i 1).isLt⟩
theorem val_main_v61_apply (i : S8192x8192.Idx) :
    val_main_v61 x1 i = val_main_v60 x1 (idx_main_v61 i) :=
  broadcastInDim_apply _ _ _ i _ (Fin.forall_fin_two.2 ⟨rfl, rfl⟩)

def val_main_v62 : (⟨S8192x8192, .f32⟩ : BufTy).Contents (Elt F) :=
  mulf (val_main_v59 x1) (val_main_v61 x1)
theorem val_main_v62_apply (i : S8192x8192.Idx) :
    val_main_v62 x1 i = FloatOps.mulf (val_main_v59 x1 i) (val_main_v61 x1 i) := rfl

def val_main_v63 : (⟨S8192x256, .f32⟩ : BufTy).Contents (Elt F) :=
  Host.dotGeneral dot_S8192x512_S512x256_S8192x256_1_0_0_1_n_n none (x0) (x3)
abbrev lidx_main_v63 (i : S8192x256.Idx) (k : Fin 512) : S8192x512.Idx := fun a => match a with
  | ⟨0, _⟩ => ⟨(i 0).val, (i 0).isLt⟩
  | ⟨1, _⟩ => ⟨k.val, k.isLt⟩
abbrev ridx_main_v63 (i : S8192x256.Idx) (k : Fin 512) : S512x256.Idx := fun a => match a with
  | ⟨0, _⟩ => ⟨k.val, k.isLt⟩
  | ⟨1, _⟩ => ⟨(i 1).val, (i 1).isLt⟩

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S8192x256, .f32⟩ : BufTy).Contents (Elt F) :=
  broadcastInDim S8192x256 ![] bcast_S_S8192x256 (val_main_call2_cst (F := F))
abbrev idx_main_call2_v0 (i : S8192x256.Idx) : S_.Idx := fun a => a.elim0
theorem val_main_call2_v0_apply (i : S8192x256.Idx) :
    val_main_call2_v0 (F := F) i = val_main_call2_cst (F := F) (idx_main_call2_v0 i) :=
  bcast_scalar_apply _ i

def val_main_v64 : (⟨S8192x256, .f32⟩ : BufTy).Contents (Elt F) :=
  maximumf (val_main_v63 x0 x3) (val_main_call2_v0 (F := F))
theorem val_main_v64_apply (i : S8192x256.Idx) :
    val_main_v64 x0 x3 i = FloatOps.maximumf (val_main_v63 x0 x3 i) (val_main_call2_v0 (F := F) i) := rfl

def val_main_v65 : (⟨S8192x256, .f32⟩ : BufTy).Contents (Elt F) :=
  Host.dotGeneral dot_S8192x8192_S8192x256_S8192x256_1_0_0_1_n_n none (val_main_v50 x1) (val_main_v64 x0 x3)
abbrev lidx_main_v65 (i : S8192x256.Idx) (k : Fin 8192) : S8192x8192.Idx := fun a => match a with
  | ⟨0, _⟩ => ⟨(i 0).val, (i 0).isLt⟩
  | ⟨1, _⟩ => ⟨k.val, k.isLt⟩
abbrev ridx_main_v65 (i : S8192x256.Idx) (k : Fin 8192) : S8192x256.Idx := fun a => match a with
  | ⟨0, _⟩ => ⟨k.val, k.isLt⟩
  | ⟨1, _⟩ => ⟨(i 1).val, (i 1).isLt⟩

def val_main_v66 : (⟨S8192x256, .f32⟩ : BufTy).Contents (Elt F) :=
  Host.dotGeneral dot_S8192x8192_S8192x256_S8192x256_1_0_0_1_n_n none (val_main_v62 x1) (val_main_v64 x0 x3)
abbrev lidx_main_v66 (i : S8192x256.Idx) (k : Fin 8192) : S8192x8192.Idx := fun a => match a with
  | ⟨0, _⟩ => ⟨(i 0).val, (i 0).isLt⟩
  | ⟨1, _⟩ => ⟨k.val, k.isLt⟩
abbrev ridx_main_v66 (i : S8192x256.Idx) (k : Fin 8192) : S8192x256.Idx := fun a => match a with
  | ⟨0, _⟩ => ⟨k.val, k.isLt⟩
  | ⟨1, _⟩ => ⟨(i 1).val, (i 1).isLt⟩

def val_main_v67 : (⟨S8192x512, .f32⟩ : BufTy).Contents (Elt F) :=
  concatenate S8192x512 1 [⟨S8192x256, (val_main_v65 x0 x1 x3)⟩, ⟨S8192x256, (val_main_v66 x0 x1 x3)⟩] concatenates_S8192x256_S8192x256_S8192x512_d1

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S8192x512, .f32⟩ : BufTy).Contents (Elt F) :=
  broadcastInDim S8192x512 ![] bcast_S_S8192x512 (val_main_call3_cst (F := F))
abbrev idx_main_call3_v0 (i : S8192x512.Idx) : S_.Idx := fun a => a.elim0
theorem val_main_call3_v0_apply (i : S8192x512.Idx) :
    val_main_call3_v0 (F := F) i = val_main_call3_cst (F := F) (idx_main_call3_v0 i) :=
  bcast_scalar_apply _ i

def val_main_v68 : (⟨S8192x512, .f32⟩ : BufTy).Contents (Elt F) :=
  maximumf (val_main_v67 x0 x1 x3) (val_main_call3_v0 (F := F))
theorem val_main_v68_apply (i : S8192x512.Idx) :
    val_main_v68 x0 x1 x3 i = FloatOps.maximumf (val_main_v67 x0 x1 x3 i) (val_main_call3_v0 (F := F) i) := rfl

def val_main_v69 : (⟨S8192x512, .f32⟩ : BufTy).Contents (Elt F) :=
  Host.dotGeneral dot_S8192x8192_S8192x512_S8192x512_1_0_0_1_n_n none (val_main_v50 x1) (val_main_v68 x0 x1 x3)
abbrev lidx_main_v69 (i : S8192x512.Idx) (k : Fin 8192) : S8192x8192.Idx := fun a => match a with
  | ⟨0, _⟩ => ⟨(i 0).val, (i 0).isLt⟩
  | ⟨1, _⟩ => ⟨k.val, k.isLt⟩
abbrev ridx_main_v69 (i : S8192x512.Idx) (k : Fin 8192) : S8192x512.Idx := fun a => match a with
  | ⟨0, _⟩ => ⟨k.val, k.isLt⟩
  | ⟨1, _⟩ => ⟨(i 1).val, (i 1).isLt⟩

def val_main_v70 : (⟨S8192x512, .f32⟩ : BufTy).Contents (Elt F) :=
  Host.dotGeneral dot_S8192x8192_S8192x512_S8192x512_1_0_0_1_n_n none (val_main_v62 x1) (val_main_v68 x0 x1 x3)
abbrev lidx_main_v70 (i : S8192x512.Idx) (k : Fin 8192) : S8192x8192.Idx := fun a => match a with
  | ⟨0, _⟩ => ⟨(i 0).val, (i 0).isLt⟩
  | ⟨1, _⟩ => ⟨k.val, k.isLt⟩
abbrev ridx_main_v70 (i : S8192x512.Idx) (k : Fin 8192) : S8192x512.Idx := fun a => match a with
  | ⟨0, _⟩ => ⟨k.val, k.isLt⟩
  | ⟨1, _⟩ => ⟨(i 1).val, (i 1).isLt⟩

def val_main_v71 : (⟨S8192x1024, .f32⟩ : BufTy).Contents (Elt F) :=
  concatenate S8192x1024 1 [⟨S8192x512, (val_main_v69 x0 x1 x3)⟩, ⟨S8192x512, (val_main_v70 x0 x1 x3)⟩] concatenates_S8192x512_S8192x512_S8192x1024_d1

def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl

def val_main_call4_v0 : (⟨S8192x1024, .f32⟩ : BufTy).Contents (Elt F) :=
  broadcastInDim S8192x1024 ![] bcast_S_S8192x1024 (val_main_call4_cst (F := F))
abbrev idx_main_call4_v0 (i : S8192x1024.Idx) : S_.Idx := fun a => a.elim0
theorem val_main_call4_v0_apply (i : S8192x1024.Idx) :
    val_main_call4_v0 (F := F) i = val_main_call4_cst (F := F) (idx_main_call4_v0 i) :=
  bcast_scalar_apply _ i

def val_main_v72 : (⟨S8192x1024, .f32⟩ : BufTy).Contents (Elt F) :=
  maximumf (val_main_v71 x0 x1 x3) (val_main_call4_v0 (F := F))
theorem val_main_v72_apply (i : S8192x1024.Idx) :
    val_main_v72 x0 x1 x3 i = FloatOps.maximumf (val_main_v71 x0 x1 x3 i) (val_main_call4_v0 (F := F) i) := rfl

def val_main_v73 : (⟨S8192x1792, .f32⟩ : BufTy).Contents (Elt F) :=
  concatenate S8192x1792 1 [⟨S8192x256, (val_main_v64 x0 x3)⟩, ⟨S8192x512, (val_main_v68 x0 x1 x3)⟩, ⟨S8192x1024, (val_main_v72 x0 x1 x3)⟩] concatenates_S8192x256_S8192x512_S8192x1024_S8192x1792_d1

def val_main_cst_16 : (⟨S_, .f32⟩ : BufTy).Contents (Elt F) :=
  constant S_ .f32 0x00000000#32

def val_main_v74 : (⟨S64x1792, .f32⟩ : BufTy).Contents (Elt F) :=
  broadcastInDim S64x1792 ![] bcast_S_S64x1792 (val_main_cst_16 (F := F))

def val_main_v75 : (⟨S8192x1, .i32⟩ : BufTy).Contents (Elt F) :=
  broadcastInDim S8192x1 ![0] bcast_S8192_S8192x1_0 (x2)

def val_main_v76 : (⟨S64x1792, .f32⟩ : BufTy).Contents (Elt F) :=
  Host.scatterAdd scatter_S64x1792_S8192x1_S8192x1792_1_0_0_1 (val_main_v74 (F := F)) (val_main_v75 x2) (val_main_v73 x0 x1 x3)

def val_main_cst_17 : (⟨S_, .f32⟩ : BufTy).Contents (Elt F) :=
  constant S_ .f32 0x3F800000#32

def val_main_v77 : (⟨S8192, .f32⟩ : BufTy).Contents (Elt F) :=
  broadcastInDim S8192 ![] bcast_S_S8192 (val_main_cst_17 (F := F))

def val_main_cst_18 : (⟨S_, .f32⟩ : BufTy).Contents (Elt F) :=
  constant S_ .f32 0x00000000#32

def val_main_v78 : (⟨S64, .f32⟩ : BufTy).Contents (Elt F) :=
  broadcastInDim S64 ![] bcast_S_S64 (val_main_cst_18 (F := F))

def val_main_v79 : (⟨S8192x1, .i32⟩ : BufTy).Contents (Elt F) :=
  broadcastInDim S8192x1 ![0] bcast_S8192_S8192x1_0 (x2)

def val_main_v80 : (⟨S64, .f32⟩ : BufTy).Contents (Elt F) :=
  Host.scatterAdd scatter_S64_S8192x1_S8192_n_0_0_1 (val_main_v78 (F := F)) (val_main_v79 x2) (val_main_v77 (F := F))

def val_main_cst_19 : (⟨S_, .f32⟩ : BufTy).Contents (Elt F) :=
  constant S_ .f32 0x3F800000#32

def val_main_v81 : (⟨S64, .f32⟩ : BufTy).Contents (Elt F) :=
  broadcastInDim S64 ![] bcast_S_S64 (val_main_cst_19 (F := F))

def val_main_v82 : (⟨S64, .f32⟩ : BufTy).Contents (Elt F) :=
  maximumf (val_main_v80 x2) (val_main_v81 (F := F))

def val_main_v83 : (⟨S64x1, .f32⟩ : BufTy).Contents (Elt F) :=
  broadcastInDim S64x1 ![0] bcast_S64_S64x1_0 (val_main_v82 x2)

def val_main_v84 : (⟨S64x1792, .f32⟩ : BufTy).Contents (Elt F) :=
  broadcastInDim S64x1792 ![0, 1] bcast_S64x1_S64x1792_0_1 (val_main_v83 x2)

def val_main_v85 : (⟨S64x1792, .f32⟩ : BufTy).Contents (Elt F) :=
  Host.divf (val_main_v76 x0 x1 x2 x3) (val_main_v84 x2)

def val_main_v86 : (⟨S64x256, .f32⟩ : BufTy).Contents (Elt F) :=
  Host.dotGeneral dot_S64x1792_S1792x256_S64x256_1_0_0_1_n_n none (val_main_v85 x0 x1 x2 x3) (x4)
abbrev lidx_main_v86 (i : S64x256.Idx) (k : Fin 1792) : S64x1792.Idx := fun a => match a with
  | ⟨0, _⟩ => ⟨(i 0).val, (i 0).isLt⟩
  | ⟨1, _⟩ => ⟨k.val, k.isLt⟩
abbrev ridx_main_v86 (i : S64x256.Idx) (k : Fin 1792) : S1792x256.Idx := fun a => match a with
  | ⟨0, _⟩ => ⟨k.val, k.isLt⟩
  | ⟨1, _⟩ => ⟨(i 1).val, (i 1).isLt⟩

def val_main_v87 : (⟨S1x256, .f32⟩ : BufTy).Contents (Elt F) :=
  broadcastInDim S1x256 ![1] bcast_S256_S1x256_1 (x5)
abbrev idx_main_v87 (i : S1x256.Idx) : S256.Idx := fun a => match a with
  | ⟨0, _⟩ => ⟨(i 1).val, (i 1).isLt⟩
theorem val_main_v87_apply (i : S1x256.Idx) :
    val_main_v87 x5 i = x5 (idx_main_v87 i) :=
  broadcastInDim_apply _ _ _ i _ (Fin.forall_fin_one.2 rfl)

def val_main_v88 : (⟨S64x256, .f32⟩ : BufTy).Contents (Elt F) :=
  broadcastInDim S64x256 ![0, 1] bcast_S1x256_S64x256_0_1 (val_main_v87 x5)
abbrev idx_main_v88 (i : S64x256.Idx) : S1x256.Idx := fun a => match a with
  | ⟨0, _⟩ => ⟨0, Nat.one_pos⟩
  | ⟨1, _⟩ => ⟨(i 1).val, (i 1).isLt⟩
theorem val_main_v88_apply (i : S64x256.Idx) :
    val_main_v88 x5 i = val_main_v87 x5 (idx_main_v88 i) :=
  broadcastInDim_apply _ _ _ i _ (Fin.forall_fin_two.2 ⟨rfl, rfl⟩)

def val_main_v89 : (⟨S64x256, .f32⟩ : BufTy).Contents (Elt F) :=
  addf (val_main_v86 x0 x1 x2 x3 x4) (val_main_v88 x5)
theorem val_main_v89_apply (i : S64x256.Idx) :
    val_main_v89 x0 x1 x2 x3 x4 x5 i = FloatOps.addf (val_main_v86 x0 x1 x2 x3 x4 i) (val_main_v88 x5 i) := rfl

def val_main_cst_20 : (⟨S_, .f32⟩ : BufTy).Contents (Elt F) :=
  constant S_ .f32 0x00000000#32

section
variable (x0 : (⟨S8192x512, .f32⟩ : BufTy).Contents (Elt Ideal)) (x1 : (⟨S2x131072, .i32⟩ : BufTy).Contents (Elt Ideal)) (x2 : (⟨S8192, .i32⟩ : BufTy).Contents (Elt Ideal)) (x3 : (⟨S512x256, .f32⟩ : BufTy).Contents (Elt Ideal)) (x4 : (⟨S1792x256, .f32⟩ : BufTy).Contents (Elt Ideal))
theorem val_main_v30_apply (i : S8192x8192.Idx) :
    val_main_v30 x1 i = ∑ k : Fin 8192, (val_main_v19 x1) (lidx_main_v30 i k) * (val_main_v19 x1) (ridx_main_v30 i k) :=
  plain_dot_apply rfl _ _ i
-- A row sum at an index; the summands may be read at any indices that have these coordinates.
theorem row_sum_apply (y : FVec Ideal S8192x8192 .f32) (z : FVec Ideal S_ .f32) (i : S8192.Idx)
    {ix : Fin 8192 → S8192x8192.Idx} (h0 : ∀ k, ix k 0 = i 0) (h1 : ∀ k, ix k 1 = k) :
    Host.reduceAdd y z reducesTo_S8192x8192_S8192_d1 h_S_ i = z (Shape.Idx.first h_S_) + ∑ k : Fin 8192, y (ix k) := by
  simp only [Host.reduceAdd, Ideal.hostReduceAdd_def]
  rw [Ideal.hostReduceAdd_single reducesTo_S8192x8192_S8192_d1 (by decide)]
  refine congrArg (_ + ·) (Finset.sum_congr rfl fun k _ => ?_)
  exact congrArg y (funext fun a => by match a with | ⟨0, _⟩ => exact (h0 k).symm | ⟨1, _⟩ => exact (h1 k).symm)
theorem val_main_v39_apply (i : S8192.Idx) :
    val_main_v39 x1 i = (val_main_cst_8 (F := Ideal)) (Shape.Idx.first h_S_) + ∑ k : Fin 8192, (val_main_v29 x1) (idx_main_v39 i k) :=
  row_sum_apply _ _ i (fun _ => rfl) fun _ => rfl
theorem val_main_v51_apply (i : S8192.Idx) :
    val_main_v51 x1 i = (val_main_cst_12 (F := Ideal)) (Shape.Idx.first h_S_) + ∑ k : Fin 8192, (val_main_v38 x1) (idx_main_v51 i k) :=
  row_sum_apply _ _ i (fun _ => rfl) fun _ => rfl
theorem val_main_v63_apply (i : S8192x256.Idx) :
    val_main_v63 x0 x3 i = ∑ k : Fin 512, x0 (lidx_main_v63 i k) * x3 (ridx_main_v63 i k) :=
  plain_dot_apply rfl _ _ i
theorem val_main_v65_apply (i : S8192x256.Idx) :
    val_main_v65 x0 x1 x3 i = ∑ k : Fin 8192, (val_main_v50 x1) (lidx_main_v65 i k) * (val_main_v64 x0 x3) (ridx_main_v65 i k) :=
  plain_dot_apply rfl _ _ i
theorem val_main_v66_apply (i : S8192x256.Idx) :
    val_main_v66 x0 x1 x3 i = ∑ k : Fin 8192, (val_main_v62 x1) (lidx_main_v66 i k) * (val_main_v64 x0 x3) (ridx_main_v66 i k) :=
  plain_dot_apply rfl _ _ i
theorem val_main_v69_apply (i : S8192x512.Idx) :
    val_main_v69 x0 x1 x3 i = ∑ k : Fin 8192, (val_main_v50 x1) (lidx_main_v69 i k) * (val_main_v68 x0 x1 x3) (ridx_main_v69 i k) :=
  plain_dot_apply rfl _ _ i
theorem val_main_v70_apply (i : S8192x512.Idx) :
    val_main_v70 x0 x1 x3 i = ∑ k : Fin 8192, (val_main_v62 x1) (lidx_main_v70 i k) * (val_main_v68 x0 x1 x3) (ridx_main_v70 i k) :=
  plain_dot_apply rfl _ _ i
theorem val_main_v86_apply (i : S64x256.Idx) :
    val_main_v86 x0 x1 x2 x3 x4 i = ∑ k : Fin 1792, (val_main_v85 x0 x1 x2 x3) (lidx_main_v86 i k) * x4 (ridx_main_v86 i k) :=
  plain_dot_apply rfl _ _ i
end

end Cert.ReferenceIdeal.Read

end
-- ==== Proof.LibNary5.lean ====
import Idealize.ShloMosaic.Lib.StableHlo.Run

noncomputable section

namespace Idealize.ShloMosaic.StableHlo

open Idealize.SL Idealize.SL.Sem

variable {τ : Topo} {sig : RefSig} {Val : EltTy → Type}
variable {x a b y : Ref sig .tc}

-- Under the binder the reference `![x, a, b] k` is no literal; read at its own reference each operand can be rewritten on.
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result']; congr 1; funext k; fin_cases k <;> rfl

macro "after_results_simp5" : tactic =>
  `(tactic| (simp (disch := decide) only [after_cons, after_nil,
      nullary_result', unary_result', binary_result', ternary_result', quaternary_result', reshape_result',
      nary3_result', nary4_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRunHand.lean ====
import proofs.«176514_j47991964565814_1_alg».proof.Proof.RefStagesP
import proofs.«176514_j47991964565814_1_alg».proof.Proof.LibNary5
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ StableHlo.unary main_arg1 main_v0 (extractStridedSlice S1x131072 ![0, 0] · slices_S2x131072_S1x131072_0_0),
    StableHlo.reshape main_v0 main_v1 rfl shapeCasts_S1x131072_S131072,
    StableHlo.unary main_arg1 main_v2 (extractStridedSlice S1x131072 ![1, 0] · slices_S2x131072_S1x131072_1_0),
    StableHlo.reshape main_v2 main_v3 rfl shapeCasts_S1x131072_S131072,
    StableHlo.nullary main_cst (constant S_ .f32 0x00000000#32),
    StableHlo.unary main_cst main_v4 (broadcastInDim S8192x8192 ![] bcast_S_S8192x8192),
    StableHlo.nullary main_c (constantI S_ 32 0#32),
    StableHlo.unary main_c main_v5 (broadcastInDim S131072 ![] bcast_S_S131072),
    StableHlo.binary main_v1 main_v5 main_v6 (cmpi .slt),
    StableHlo.nullary main_c_0 (constantI S_ 32 8192#32),
    StableHlo.unary main_c_0 main_v7 (broadcastInDim S131072 ![] bcast_S_S131072),
    StableHlo.binary main_v1 main_v7 main_v8 addi,
    StableHlo.ternary main_v6 main_v8 main_v1 main_v9 select,
    StableHlo.nullary main_c_1 (constantI S_ 32 0#32),
    StableHlo.unary main_c_1 main_v10 (broadcastInDim S131072 ![] bcast_S_S131072),
    StableHlo.binary main_v3 main_v10 main_v11 (cmpi .slt),
    StableHlo.nullary main_c_2 (constantI S_ 32 8192#32),
    StableHlo.unary main_c_2 main_v12 (broadcastInDim S131072 ![] bcast_S_S131072),
    StableHlo.binary main_v3 main_v12 main_v13 addi,
    StableHlo.ternary main_v11 main_v13 main_v3 main_v14 select,
    StableHlo.unary main_v9 main_v15 (broadcastInDim S131072x1 ![0] bcast_S131072_S131072x1_0),
    StableHlo.unary main_v14 main_v16 (broadcastInDim S131072x1 ![0] bcast_S131072_S131072x1_0),
    StableHlo.binary main_v15 main_v16 main_v17 (fun a b => concatenate S131072x2 1 [⟨S131072x1, a⟩, ⟨S131072x1, b⟩] concatenates_S131072x1_S131072x1_S131072x2_d1),
    StableHlo.nullary main_cst_3 (constant S_ .f32 0x3F800000#32),
    StableHlo.unary main_cst_3 main_v18 (broadcastInDim S131072 ![] bcast_S_S131072),
    StableHlo.ternary main_v4 main_v17 main_v18 main_v19 (fun x i u => Host.scatterAdd scatter_S8192x8192_S131072x2_S131072_n_01_01_1 x i u) ]

abbrev opsB : List (HloOp τ sig (Elt F)) :=
  [ StableHlo.nullary main_v20 (iotaInDim S8192x8192 32 0),
    StableHlo.nullary main_v21 (iotaInDim S8192x8192 32 1),
    StableHlo.nullary main_c_4 (constantI S_ 32 0#32),
    StableHlo.unary main_c_4 main_v22 (broadcastInDim S8192x8192 ![] bcast_S_S8192x8192),
    StableHlo.binary main_v20 main_v22 main_v23 addi,
    StableHlo.binary main_v23 main_v21 main_v24 (cmpi .eq),
    StableHlo.unary main_v24 main_v25 (uitofp .f32),
    StableHlo.binary main_v19 main_v25 main_v26 subf,
    StableHlo.nullary main_cst_5 (constant S_ .f32 0x00000000#32),
    StableHlo.unary main_cst_5 main_v27 (broadcastInDim S8192x8192 ![] bcast_S_S8192x8192),
    StableHlo.binary main_v26 main_v27 main_v28 (cmpf .ogt),
    StableHlo.unary main_v28 main_v29 (uitofp .f32),
    StableHlo.binary main_v19 main_v19 main_v30 (fun l r => Host.dotGeneral dot_S8192x8192_S8192x8192_S8192x8192_1_0_0_1_n_n none l r),
    StableHlo.nullary main_cst_6 (constant S_ .f32 0x00000000#32),
    StableHlo.unary main_cst_6 main_v31 (broadcastInDim S8192x8192 ![] bcast_S_S8192x8192),
    StableHlo.binary main_v30 main_v31 main_v32 (cmpf .ogt),
    StableHlo.unary main_v32 main_v33 (uitofp .f32),
    StableHlo.binary main_v33 main_v19 main_v34 subf,
    StableHlo.binary main_v34 main_v25 main_v35 subf,
    StableHlo.nullary main_cst_7 (constant S_ .f32 0x00000000#32),
    StableHlo.unary main_cst_7 main_v36 (broadcastInDim S8192x8192 ![] bcast_S_S8192x8192),
    StableHlo.binary main_v35 main_v36 main_v37 (cmpf .ogt),
    StableHlo.unary main_v37 main_v38 (uitofp .f32) ]

abbrev opsC : List (HloOp τ sig (Elt F)) :=
  [ StableHlo.nullary main_cst_8 (constant S_ .f32 0x00000000#32),
    StableHlo.binary main_v29 main_cst_8 main_v39 (fun x v => Host.reduceAdd x v reducesTo_S8192x8192_S8192_d1 h_S_),
    StableHlo.nullary main_cst_9 (constant S_ .f32 0x00000000#32),
    StableHlo.unary main_cst_9 main_v40 (broadcastInDim S8192 ![] bcast_S_S8192),
    StableHlo.binary main_v39 main_v40 main_v41 (cmpf .ogt),
    StableHlo.nullary main_cst_10 (constant S_ .f32 0xBF000000#32),
    StableHlo.unary main_cst_10 main_v42 (broadcastInDim S8192 ![] bcast_S_S8192),
    StableHlo.binary main_v39 main_v42 main_v43 Host.powf,
    StableHlo.nullary main_cst_11 (constant S_ .f32 0x00000000#32),
    StableHlo.unary main_cst_11 main_call0_v0 id,
    StableHlo.unary main_call0_v0 main_call0_v1 (broadcastInDim S8192 ![] bcast_S_S8192),
    StableHlo.ternary main_v41 main_v43 main_call0_v1 main_v44 select,
    StableHlo.unary main_v44 main_v45 (broadcastInDim S8192x1 ![0] bcast_S8192_S8192x1_0),
    StableHlo.unary main_v45 main_v46 (broadcastInDim S8192x8192 ![0, 1] bcast_S8192x1_S8192x8192_0_1),
    StableHlo.binary main_v46 main_v29 main_v47 mulf,
    StableHlo.unary main_v44 main_v48 (broadcastInDim S1x8192 ![1] bcast_S8192_S1x8192_1),
    StableHlo.unary main_v48 main_v49 (broadcastInDim S8192x8192 ![0, 1] bcast_S1x8192_S8192x8192_0_1),
    StableHlo.binary main_v47 main_v49 main_v50 mulf,
    StableHlo.nullary main_cst_12 (constant S_ .f32 0x00000000#32),
    StableHlo.binary main_v38 main_cst_12 main_v51 (fun x v => Host.reduceAdd x v reducesTo_S8192x8192_S8192_d1 h_S_),
    StableHlo.nullary main_cst_13 (constant S_ .f32 0x00000000#32),
    StableHlo.unary main_cst_13 main_v52 (broadcastInDim S8192 ![] bcast_S_S8192),
    StableHlo.binary main_v51 main_v52 main_v53 (cmpf .ogt),
    StableHlo.nullary main_cst_14 (constant S_ .f32 0xBF000000#32),
    StableHlo.unary main_cst_14 main_v54 (broadcastInDim S8192 ![] bcast_S_S8192),
    StableHlo.binary main_v51 main_v54 main_v55 Host.powf,
    StableHlo.nullary main_cst_15 (constant S_ .f32 0x00000000#32),
    StableHlo.unary main_cst_15 main_call1_v0 id,
    StableHlo.unary main_call1_v0 main_call1_v1 (broadcastInDim S8192 ![] bcast_S_S8192),
    StableHlo.ternary main_v53 main_v55 main_call1_v1 main_v56 select,
    StableHlo.unary main_v56 main_v57 (broadcastInDim S8192x1 ![0] bcast_S8192_S8192x1_0),
    StableHlo.unary main_v57 main_v58 (broadcastInDim S8192x8192 ![0, 1] bcast_S8192x1_S8192x8192_0_1),
    StableHlo.binary main_v58 main_v38 main_v59 mulf,
    StableHlo.unary main_v56 main_v60 (broadcastInDim S1x8192 ![1] bcast_S8192_S1x8192_1),
    StableHlo.unary main_v60 main_v61 (broadcastInDim S8192x8192 ![0, 1] bcast_S1x8192_S8192x8192_0_1),
    StableHlo.binary main_v59 main_v61 main_v62 mulf ]

abbrev opsD : List (HloOp τ sig (Elt F)) :=
  [ StableHlo.binary main_arg0 main_arg3 main_v63 (fun l r => Host.dotGeneral dot_S8192x512_S512x256_S8192x256_1_0_0_1_n_n none l r),
    StableHlo.nullary main_call2_cst (constant S_ .f32 0x00000000#32),
    StableHlo.unary main_call2_cst main_call2_v0 (broadcastInDim S8192x256 ![] bcast_S_S8192x256),
    StableHlo.binary main_v63 main_call2_v0 main_v64 maximumf,
    StableHlo.binary main_v50 main_v64 main_v65 (fun l r => Host.dotGeneral dot_S8192x8192_S8192x256_S8192x256_1_0_0_1_n_n none l r),
    StableHlo.binary main_v62 main_v64 main_v66 (fun l r => Host.dotGeneral dot_S8192x8192_S8192x256_S8192x256_1_0_0_1_n_n none l r),
    StableHlo.binary main_v65 main_v66 main_v67 (fun a b => concatenate S8192x512 1 [⟨S8192x256, a⟩, ⟨S8192x256, b⟩] concatenates_S8192x256_S8192x256_S8192x512_d1),
    StableHlo.nullary main_call3_cst (constant S_ .f32 0x00000000#32),
    StableHlo.unary main_call3_cst main_call3_v0 (broadcastInDim S8192x512 ![] bcast_S_S8192x512),
    StableHlo.binary main_v67 main_call3_v0 main_v68 maximumf,
    StableHlo.binary main_v50 main_v68 main_v69 (fun l r => Host.dotGeneral dot_S8192x8192_S8192x512_S8192x512_1_0_0_1_n_n none l r),
    StableHlo.binary main_v62 main_v68 main_v70 (fun l r => Host.dotGeneral dot_S8192x8192_S8192x512_S8192x512_1_0_0_1_n_n none l r),
    StableHlo.binary main_v69 main_v70 main_v71 (fun a b => concatenate S8192x1024 1 [⟨S8192x512, a⟩, ⟨S8192x512, b⟩] concatenates_S8192x512_S8192x512_S8192x1024_d1),
    StableHlo.nullary main_call4_cst (constant S_ .f32 0x00000000#32),
    StableHlo.unary main_call4_cst main_call4_v0 (broadcastInDim S8192x1024 ![] bcast_S_S8192x1024),
    StableHlo.binary main_v71 main_call4_v0 main_v72 maximumf ]

abbrev opsN : List (HloOp τ sig (Elt F)) :=
  [ StableHlo.nary ![main_v64, main_v68, main_v72] main_v73 (fun u => concatenate S8192x1792 1 [⟨S8192x256, u 0⟩, ⟨S8192x512, u 1⟩, ⟨S8192x1024, u 2⟩] concatenates_S8192x256_S8192x512_S8192x1024_S8192x1792_d1) ]

abbrev opsE : List (HloOp τ sig (Elt F)) :=
  [ StableHlo.nullary main_cst_16 (constant S_ .f32 0x00000000#32),
    StableHlo.unary main_cst_16 main_v74 (broadcastInDim S64x1792 ![] bcast_S_S64x1792),
    StableHlo.unary main_arg2 main_v75 (broadcastInDim S8192x1 ![0] bcast_S8192_S8192x1_0),
    StableHlo.ternary main_v74 main_v75 main_v73 main_v76 (fun x i u => Host.scatterAdd scatter_S64x1792_S8192x1_S8192x1792_1_0_0_1 x i u),
    StableHlo.nullary main_cst_17 (constant S_ .f32 0x3F800000#32),
    StableHlo.unary main_cst_17 main_v77 (broadcastInDim S8192 ![] bcast_S_S8192),
    StableHlo.nullary main_cst_18 (constant S_ .f32 0x00000000#32),
    StableHlo.unary main_cst_18 main_v78 (broadcastInDim S64 ![] bcast_S_S64),
    StableHlo.unary main_arg2 main_v79 (broadcastInDim S8192x1 ![0] bcast_S8192_S8192x1_0),
    StableHlo.ternary main_v78 main_v79 main_v77 main_v80 (fun x i u => Host.scatterAdd scatter_S64_S8192x1_S8192_n_0_0_1 x i u),
    StableHlo.nullary main_cst_19 (constant S_ .f32 0x3F800000#32),
    StableHlo.unary main_cst_19 main_v81 (broadcastInDim S64 ![] bcast_S_S64),
    StableHlo.binary main_v80 main_v81 main_v82 maximumf,
    StableHlo.unary main_v82 main_v83 (broadcastInDim S64x1 ![0] bcast_S64_S64x1_0),
    StableHlo.unary main_v83 main_v84 (broadcastInDim S64x1792 ![0, 1] bcast_S64x1_S64x1792_0_1),
    StableHlo.binary main_v76 main_v84 main_v85 Host.divf,
    StableHlo.binary main_v85 main_arg4 main_v86 (fun l r => Host.dotGeneral dot_S64x1792_S1792x256_S64x256_1_0_0_1_n_n none l r),
    StableHlo.unary main_arg5 main_v87 (broadcastInDim S1x256 ![1] bcast_S256_S1x256_1),
    StableHlo.unary main_v87 main_v88 (broadcastInDim S64x256 ![0, 1] bcast_S1x256_S64x256_0_1),
    StableHlo.binary main_v86 main_v88 main_v89 addf,
    StableHlo.nullary main_cst_20 (constant S_ .f32 0x00000000#32) ]

abbrev ops : List (HloOp τ sig (Elt F)) := opsA ++ (opsB ++ (opsC ++ (opsD ++ (opsN ++ opsE))))

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsA, opsB, opsC, opsD, opsN, opsE, List.forall_append, List.Forall, nullary_bufs_sub, unary_bufs_sub,
    binary_bufs_sub, ternary_bufs_sub, reshape_bufs_sub, nary_bufs_sub, and_self]

theorem ops_fresh : ∀ op ∈ (ops : List (HloOp τ sig (Elt F))), op.fresh = ∅ := by
  refine List.forall_iff_forall_mem.1 ?_
  simp only [ops, List.forall_append]
  repeat' apply And.intro
  all_goals rfl

variable (W₀ W : Valuation τ sig (Elt F))
variable (x0 : (⟨S8192x512, .f32⟩ : BufTy).Contents (Elt F)) (x1 : (⟨S2x131072, .i32⟩ : BufTy).Contents (Elt F)) (x2 : (⟨S8192, .i32⟩ : BufTy).Contents (Elt F))
  (x3 : (⟨S512x256, .f32⟩ : BufTy).Contents (Elt F)) (x4 : (⟨S1792x256, .f32⟩ : BufTy).Contents (Elt F)) (x5 : (⟨S256, .f32⟩ : BufTy).Contents (Elt F))

-- `W` holds each of the six arguments as `W₀` does.
def Same : Prop :=
  W (Proc.devRef .tc main_arg0) = W₀ (Proc.devRef .tc main_arg0) ∧ W (Proc.devRef .tc main_arg1) = W₀ (Proc.devRef .tc main_arg1)
  ∧ W (Proc.devRef .tc main_arg2) = W₀ (Proc.devRef .tc main_arg2) ∧ W (Proc.devRef .tc main_arg3) = W₀ (Proc.devRef .tc main_arg3)
  ∧ W (Proc.devRef .tc main_arg4) = W₀ (Proc.devRef .tc main_arg4) ∧ W (Proc.devRef .tc main_arg5) = W₀ (Proc.devRef .tc main_arg5)

-- No stretch writes an argument.
theorem keepA (h : Same W₀ W) : Same W₀ (after opsA W) := by
  obtain ⟨h0, h1, h2, h3, h4, h5⟩ := h
  refine ⟨?_, ?_, ?_, ?_, ?_, ?_⟩ <;> after_results_simp5 <;> assumption

theorem keepB (h : Same W₀ W) : Same W₀ (after opsB W) := by
  obtain ⟨h0, h1, h2, h3, h4, h5⟩ := h
  refine ⟨?_, ?_, ?_, ?_, ?_, ?_⟩ <;> after_results_simp5 <;> assumption

theorem keepC (h : Same W₀ W) : Same W₀ (after opsC W) := by
  obtain ⟨h0, h1, h2, h3, h4, h5⟩ := h
  refine ⟨?_, ?_, ?_, ?_, ?_, ?_⟩ <;> after_results_simp5 <;> assumption

theorem keepD (h : Same W₀ W) : Same W₀ (after opsD W) := by
  obtain ⟨h0, h1, h2, h3, h4, h5⟩ := h
  refine ⟨?_, ?_, ?_, ?_, ?_, ?_⟩ <;> after_results_simp5 <;> assumption

theorem keepN (h : Same W₀ W) : Same W₀ (after opsN W) := by
  obtain ⟨h0, h1, h2, h3, h4, h5⟩ := h
  refine ⟨?_, ?_, ?_, ?_, ?_, ?_⟩ <;> after_results_simp5 <;> assumption

theorem keepE (h : Same W₀ W) : Same W₀ (after opsE W) := by
  obtain ⟨h0, h1, h2, h3, h4, h5⟩ := h
  refine ⟨?_, ?_, ?_, ?_, ?_, ?_⟩ <;> after_results_simp5 <;> assumption

theorem afterA (h1 : W (Proc.devRef .tc main_arg1) = x1) :
    after opsA W (Proc.devRef .tc main_v19) = Read.val_main_v19 (F := F) x1 := by
  subst h1
  after_results_simp5
  rfl

theorem afterB (h19 : W (Proc.devRef .tc main_v19) = Read.val_main_v19 (F := F) x1) :
    after opsB W (Proc.devRef .tc main_v29) = Read.val_main_v29 (F := F) x1
    ∧ after opsB W (Proc.devRef .tc main_v38) = Read.val_main_v38 (F := F) x1 := by
  refine ⟨?_, ?_⟩ <;> (after_results_simp5; rw [h19]; rfl)

theorem afterC (h29 : W (Proc.devRef .tc main_v29) = Read.val_main_v29 (F := F) x1)
    (h38 : W (Proc.devRef .tc main_v38) = Read.val_main_v38 (F := F) x1) :
    after opsC W (Proc.devRef .tc main_v50) = Read.val_main_v50 (F := F) x1
    ∧ after opsC W (Proc.devRef .tc main_v62) = Read.val_main_v62 (F := F) x1 := by
  refine ⟨?_, ?_⟩ <;> after_results_simp5
  · rw [h29]; rfl
  · rw [h38]; rfl

theorem afterD (h0 : W (Proc.devRef .tc main_arg0) = x0) (h3 : W (Proc.devRef .tc main_arg3) = x3)
    (h50 : W (Proc.devRef .tc main_v50) = Read.val_main_v50 (F := F) x1)
    (h62 : W (Proc.devRef .tc main_v62) = Read.val_main_v62 (F := F) x1) :
    after opsD W (Proc.devRef .tc main_v64) = Read.val_main_v64 (F := F) x0 x3
    ∧ after opsD W (Proc.devRef .tc main_v68) = Read.val_main_v68 (F := F) x0 x1 x3
    ∧ after opsD W (Proc.devRef .tc main_v72) = Read.val_main_v72 (F := F) x0 x1 x3 := by
  subst h0 h3
  refine ⟨by after_results_simp5; rfl, ?_, ?_⟩ <;> (after_results; rw [h50, h62]; rfl)

theorem afterE (h2 : W (Proc.devRef .tc main_arg2) = x2) (h4 : W (Proc.devRef .tc main_arg4) = x4) (h5 : W (Proc.devRef .tc main_arg5) = x5)
    (h73 : W (Proc.devRef .tc main_v73) = Read.val_main_v73 (F := F) x0 x1 x3) :
    after opsE W (Proc.devRef .tc main_v89) = Read.val_main_v89 (F := F) x0 x1 x2 x3 x4 x5
    ∧ after opsE W (Proc.devRef .tc main_cst_20) = constant (F := F) S_ .f32 0x00000000#32 := by
  subst h2 h4 h5
  refine ⟨?_, ?_⟩
  · after_results_simp5
    rw [h73]
    rfl
  · after_results_simp5

-- The stretches in order, from any contents: each reads what the ones before it left.
theorem after_ops :
    after ops W (Proc.devRef .tc main_v89) = Read.val_main_v89 (F := F) (W (Proc.devRef .tc main_arg0)) (W (Proc.devRef .tc main_arg1))
        (W (Proc.devRef .tc main_arg2)) (W (Proc.devRef .tc main_arg3)) (W (Proc.devRef .tc main_arg4)) (W (Proc.devRef .tc main_arg5))
    ∧ after ops W (Proc.devRef .tc main_cst_20) = constant (F := F) S_ .f32 0x00000000#32
    ∧ Same W (after ops W) := by
  simp only [ops, StableHlo.after_append]
  have s : Same W W := ⟨rfl, rfl, rfl, rfl, rfl, rfl⟩
  have hA := afterA W _ rfl
  have s := keepA W W s
  generalize after opsA W = WA at hA s ⊢
  obtain ⟨h29, h38⟩ := afterB WA _ hA
  have s := keepB W WA s
  generalize after opsB WA = WB at h29 h38 s ⊢
  obtain ⟨h50, h62⟩ := afterC WB _ h29 h38
  have s := keepC W WB s
  generalize after opsC WB = WC at h50 h62 s ⊢
  obtain ⟨h64, h68, h72⟩ := afterD WC _ _ _ s.1 s.2.2.2.1 h50 h62
  have s := keepD W WC s
  generalize after opsD WC = WD at h64 h68 h72 s ⊢
  have h73 : after opsN WD (Proc.devRef .tc main_v73) = Read.val_main_v73 (F := F) (W (Proc.devRef .tc main_arg0)) (W (Proc.devRef .tc main_arg1))
      (W (Proc.devRef .tc main_arg3)) := by
    after_results_simp5
    rw [h64, h68, h72]
    rfl
  have s := keepN W WD s
  generalize after opsN WD = WN at h73 s ⊢
  exact (afterE WN _ _ _ _ _ _ s.2.2.1 s.2.2.2.2.1 s.2.2.2.2.2 h73).elim fun h89 h20 =>
    ⟨h89, h20, keepE W WN s⟩

def res_main_v89 (m : (ℓ : Loc nD τ sig) → Buf (Elt F) ℓ) (c : Dev nD) : Buf (Elt F) ((c.tc : Thread nD τ).loc main_v89) :=
  Read.val_main_v89 (F := F) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

theorem val_main_v89_eq (m : (ℓ : Loc nD τ sig) → Buf (Elt F) ℓ) (c : Dev nD) :
    res_main_v89 m c = Read.val_main_v89 (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = res_main_v89 m c
      ∧ r.2.mem ((c.tc : Thread nD τ).loc main_cst_20) = constant S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c =>
      have ⟨k89, k20, k0, k1, k2, k3, k4, k5⟩ := after_ops (F := F) (launchContents m c)
      ⟨(h c main_v89).trans k89, (h c main_cst_20).trans k20, (h c main_arg0).trans k0, (h c main_arg1).trans k1,
        (h c main_arg2).trans k2, (h c main_arg3).trans k3, (h c main_arg4).trans k4, (h c main_arg5).trans k5⟩)
    (run_seq scopedRefs_eq scopedSems_eq defs main (fun _ => ops) main_eq (fun _ => ops_sub) m ρ (fun _ => ops_fresh))

end Cert.ReferenceIdeal.HandRun

end
-- ==== Proof.Ref.lean ====
import proofs.«176514_j47991964565814_1_alg».proof.Proof.RefRunHand
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

def pos01 (x : EReal) : EReal := if 0 < x then 1 else 0

def eye (j : S8192x8192.Idx) : EReal := if (j 0).val = (j 1).val then 1 else 0

def dinv (d : EReal) : EReal := if 0 < d then Ideal.pow d (Ideal.ofBits .f32 0xBF000000#32) else 0

def zeroScalar : Vec Ideal S_ .f32 := fun _ => 0

abbrev Mat (m n : Nat) : Type := (⟨2, ![m, n]⟩ : Shape).Idx → EReal

def mm {m K n : Nat} (A : Mat m K) (B : Mat K n) : Mat m n := fun j => ∑ k : Fin K, A (ix2 (j 0) k) * B (ix2 k (j 1))

def relu {m n : Nat} (M : Mat m n) : Mat m n := fun j => max (M j) 0

def aa (a : Vec Ideal S8192x8192 .f32) : Vec Ideal S8192x8192 .f32 :=
  fun j => ∑ k : Fin 8192, a (ix2 (j 0) k) * a (ix2 k (j 1))

def refA1 (a : Mat 8192 8192) : Mat 8192 8192 := fun j => pos01 (a j - eye j)

def refA2 (a : Mat 8192 8192) : Mat 8192 8192 := fun j => pos01 (pos01 (aa a j) - a j - eye j)

def deg (M : Mat 8192 8192) (r : Fin 8192) : EReal := ∑ q : Fin 8192, M (ix2 r q)

def refNorm (M : Mat 8192 8192) : Mat 8192 8192 := fun j => dinv (deg M (j 0)) * M j * dinv (deg M (j 1))

-- One round of propagation at any width: relu [A·r | B·r].
def hop {n n' : Nat} (hc : Shape.Concatenates [(⟨2, ![8192, n]⟩ : Shape), ⟨2, ![8192, n]⟩] ⟨2, ![8192, n']⟩ 1)
    (A B : Mat 8192 8192) (r : Mat 8192 n) : Mat 8192 n' :=
  relu (concatenate ⟨2, ![8192, n']⟩ 1 [⟨⟨2, ![8192, n]⟩, mm A r⟩, ⟨⟨2, ![8192, n]⟩, mm B r⟩] hc)

def refOut (p : Mat 64 1792) (W : Mat 1792 256) (b : Vec Ideal S256 .f32) : Mat 64 256 :=
  fun j => mm p W j + b (ix1 (j 1))

variable (x : Vec Ideal S8192x512 .f32) (e : Vec Ideal S2x131072 .i32) (b : Vec Ideal S8192 .i32)
  (w : Vec Ideal S512x256 .f32) (W : Vec Ideal S1792x256 .f32) (c : Vec Ideal S256 .f32)

def refA : Vec Ideal S8192x8192 .f32 := Read.val_main_v19 (F := Ideal) e

def refPool (h : Vec Ideal S8192x1792 .f32) (b : Vec Ideal S8192 .i32) : Vec Ideal S64x1792 .f32 :=
  Host.divf (F := Ideal) (φ := .f32)
    (Host.scatterAdd (F := Ideal) (φ := .f32) scatter_S64x1792_S8192x1_S8192x1792_1_0_0_1 (Read.val_main_v74 (F := Ideal))
      (Read.val_main_v75 (F := Ideal) b) h)
    (Read.val_main_v84 (F := Ideal) b)

def refA1n : Vec Ideal S8192x8192 .f32 := refNorm (refA1 (refA e))

def refA2n : Vec Ideal S8192x8192 .f32 := refNorm (refA2 (refA e))

def refR : Vec Ideal S8192x256 .f32 := relu (mm x w)

def refH1 : Vec Ideal S8192x512 .f32 :=
  hop concatenates_S8192x256_S8192x256_S8192x512_d1 (refA1n e) (refA2n e) (refR x w)

def refH2 : Vec Ideal S8192x1024 .f32 :=
  hop concatenates_S8192x512_S8192x512_S8192x1024_d1 (refA1n e) (refA2n e) (refH1 x e w)

def refHn : Vec Ideal S8192x1792 .f32 :=
  concatenate S8192x1792 1 [⟨S8192x256, refR x w⟩, ⟨S8192x512, refH1 x e w⟩, ⟨S8192x1024, refH2 x e w⟩]
    concatenates_S8192x256_S8192x512_S8192x1024_S8192x1792_d1

def refResult : Vec Ideal S64x256 .f32 := refOut (refPool (refHn x e w) b) W c

theorem uitofp_ogt_zero (x : Ideal .f32) :
    (FloatOps.uitofp .f32 (FloatOps.cmpf .ogt x (FloatOps.ofBits .f32 0x00000000#32 : Ideal .f32)) : Ideal .f32) = pos01 x := by
  show (((Ideal.cmp .ogt x (Ideal.ofBits .f32 0x00000000#32)).toNat : ℝ) : EReal) = pos01 x
  rw [Ideal.ofBits_zero_f32]
  unfold pos01 Ideal.cmp
  by_cases h : (0 : EReal) < x <;> simp [h]

-- Two numbers below 8192 agree as 32-bit words exactly when they are equal.
theorem word_eq (a b : Nat) (ha : a < 8192) (hb : b < 8192) :
    (FloatOps.uitofp .f32 (IntOp.cmpi .eq (IntOp.addi (BitVec.ofNat 32 a) 0#32) (BitVec.ofNat 32 b)) : Ideal .f32)
      = if a = b then 1 else 0 := by
  show (((IntOp.cmpi .eq (IntOp.addi (BitVec.ofNat 32 a) 0#32) (BitVec.ofNat 32 b)).toNat : ℝ) : EReal) = _
  unfold IntOp.cmpi IntOp.addi
  rw [BitVec.add_zero]
  by_cases h : a = b
  · subst h; simp
  · have hne : BitVec.ofNat 32 a ≠ BitVec.ofNat 32 b := by
      intro e
      have e' := congrArg BitVec.toNat e
      simp only [BitVec.toNat_ofNat] at e'
      omega
    simp [h, hne]

theorem select_pow (d : Ideal .f32) :
    Scalar.select (FloatOps.cmpf .ogt d (FloatOps.ofBits .f32 0x00000000#32 : Ideal .f32))
      (FloatOps.hostPowf d (FloatOps.ofBits .f32 0xBF000000#32 : Ideal .f32)) (FloatOps.ofBits .f32 0x00000000#32 : Ideal .f32) = dinv d := by
  show Scalar.select (Ideal.cmp .ogt d (Ideal.ofBits .f32 0x00000000#32)) (Ideal.pow d (Ideal.ofBits .f32 0xBF000000#32))
    (Ideal.ofBits .f32 0x00000000#32) = dinv d
  rw [Ideal.ofBits_zero_f32]
  unfold dinv Ideal.cmp Scalar.select
  by_cases h : (0 : EReal) < d <;> simp [h]

-- A contraction read through index maps that are the row and the column of the output index.
theorem mm_of {m K n : Nat} (A : Mat m K) (B : Mat K n) (j : (⟨2, ![m, n]⟩ : Shape).Idx)
    (l : Fin K → (⟨2, ![m, K]⟩ : Shape).Idx) (r : Fin K → (⟨2, ![K, n]⟩ : Shape).Idx)
    (hl : ∀ k, l k = ix2 (j 0) k := by exact fun _ => eq_ix2 _) (hr : ∀ k, r k = ix2 k (j 1) := by exact fun _ => eq_ix2 _) :
    ∑ k, A (l k) * B (r k) = mm A B j :=
  Finset.sum_congr rfl fun k _ => by rw [hl, hr]; rfl

theorem deg_of (M : Mat 8192 8192) (i : Fin 8192) (l : Fin 8192 → (⟨2, ![8192, 8192]⟩ : Shape).Idx)
    (hl : ∀ k, l k = ix2 i k) : Ideal.ofBits .f32 0x00000000#32 + ∑ k, M (l k) = deg M i := by
  rw [Ideal.ofBits_zero_f32, zero_add]
  exact Finset.sum_congr rfl fun k _ => congrArg M (hl k)

theorem relu_of {m n : Nat} (M : Mat m n) (j : (⟨2, ![m, n]⟩ : Shape).Idx) (v : EReal) (h : v = M j) :
    max v (Ideal.ofBits .f32 0x00000000#32) = relu M j := by
  rw [Ideal.ofBits_zero_f32, h]
  rfl

theorem v25_eq : Read.val_main_v25 (F := Ideal) = eye := by
  funext j
  rw [Read.val_main_v25_apply, Read.val_main_v24_apply, Read.val_main_v23_apply, Read.val_main_v20_apply,
    Read.val_main_v22_apply, Read.val_main_c_4_apply, Read.val_main_v21_apply]
  exact word_eq _ _ (idx2_lt0 j) (idx2_lt1 j)

theorem v29_eq : Read.val_main_v29 (F := Ideal) e = refA1 (refA e) := by
  funext j
  rw [Read.val_main_v29_apply, Read.val_main_v28_apply, Read.val_main_v27_apply, Read.val_main_cst_5_apply,
    uitofp_ogt_zero, Read.val_main_v26_apply, v25_eq]
  rfl

theorem v30_eq : Read.val_main_v30 (F := Ideal) e = aa (refA e) := by
  funext j
  rw [Read.val_main_v30_apply]
  exact mm_of _ _ j _ _

theorem v38_eq : Read.val_main_v38 (F := Ideal) e = refA2 (refA e) := by
  funext j
  rw [Read.val_main_v38_apply, Read.val_main_v37_apply, Read.val_main_v36_apply, Read.val_main_cst_7_apply,
    uitofp_ogt_zero, Read.val_main_v35_apply, Read.val_main_v34_apply, Read.val_main_v33_apply,
    Read.val_main_v32_apply, Read.val_main_v31_apply, Read.val_main_cst_6_apply, uitofp_ogt_zero, v30_eq, v25_eq]
  rfl

theorem v39_apply (i : S8192.Idx) : Read.val_main_v39 (F := Ideal) e i = deg (refA1 (refA e)) (i 0) := by
  rw [Read.val_main_v39_apply, Read.val_main_cst_8_apply, v29_eq]
  exact deg_of _ _ _ fun _ => eq_ix2 _

theorem v51_apply (i : S8192.Idx) : Read.val_main_v51 (F := Ideal) e i = deg (refA2 (refA e)) (i 0) := by
  rw [Read.val_main_v51_apply, Read.val_main_cst_12_apply, v38_eq]
  exact deg_of _ _ _ fun _ => eq_ix2 _

theorem v44_apply (i : S8192.Idx) : Read.val_main_v44 (F := Ideal) e i = dinv (deg (refA1 (refA e)) (i 0)) := by
  rw [Read.val_main_v44_apply, Read.val_main_v41_apply, Read.val_main_v40_apply, Read.val_main_cst_9_apply,
    Read.val_main_v43_apply, Read.val_main_v42_apply, Read.val_main_cst_10_apply,
    Read.val_main_call0_v1_apply, Read.val_main_call0_v0_apply, Read.val_main_cst_11_apply,
    select_pow, v39_apply]

theorem v56_apply (i : S8192.Idx) : Read.val_main_v56 (F := Ideal) e i = dinv (deg (refA2 (refA e)) (i 0)) := by
  rw [Read.val_main_v56_apply, Read.val_main_v53_apply, Read.val_main_v52_apply, Read.val_main_cst_13_apply,
    Read.val_main_v55_apply, Read.val_main_v54_apply, Read.val_main_cst_14_apply,
    Read.val_main_call1_v1_apply, Read.val_main_call1_v0_apply, Read.val_main_cst_15_apply,
    select_pow, v51_apply]

theorem v50_eq : Read.val_main_v50 (F := Ideal) e = refA1n e := by
  funext j
  rw [Read.val_main_v50_apply, Read.val_main_v47_apply, Read.val_main_v46_apply, Read.val_main_v45_apply, v44_apply,
    Read.val_main_v49_apply, Read.val_main_v48_apply, v44_apply, v29_eq]
  rfl

theorem v62_eq : Read.val_main_v62 (F := Ideal) e = refA2n e := by
  funext j
  rw [Read.val_main_v62_apply, Read.val_main_v59_apply, Read.val_main_v58_apply, Read.val_main_v57_apply, v56_apply,
    Read.val_main_v61_apply, Read.val_main_v60_apply, v56_apply, v38_eq]
  rfl

theorem v64_eq : Read.val_main_v64 (F := Ideal) x w = refR x w := by
  funext j
  rw [Read.val_main_v64_apply, Read.val_main_v63_apply, Read.val_main_call2_v0_apply, Read.val_main_call2_cst_apply]
  exact relu_of _ j _ (mm_of _ _ j _ _)

theorem v65_eq : Read.val_main_v65 (F := Ideal) x e w = mm (refA1n e) (refR x w) := by
  funext j
  rw [Read.val_main_v65_apply, v50_eq, v64_eq]
  exact mm_of _ _ j _ _

theorem v66_eq : Read.val_main_v66 (F := Ideal) x e w = mm (refA2n e) (refR x w) := by
  funext j
  rw [Read.val_main_v66_apply, v62_eq, v64_eq]
  exact mm_of _ _ j _ _

theorem v68_eq : Read.val_main_v68 (F := Ideal) x e w = refH1 x e w := by
  funext j
  rw [Read.val_main_v68_apply, Read.val_main_call3_v0_apply, Read.val_main_call3_cst_apply]
  exact relu_of _ j _ (by unfold Read.val_main_v67; rw [v65_eq, v66_eq])

theorem v69_eq : Read.val_main_v69 (F := Ideal) x e w = mm (refA1n e) (refH1 x e w) := by
  funext j
  rw [Read.val_main_v69_apply, v50_eq, v68_eq]
  exact mm_of _ _ j _ _

theorem v70_eq : Read.val_main_v70 (F := Ideal) x e w = mm (refA2n e) (refH1 x e w) := by
  funext j
  rw [Read.val_main_v70_apply, v62_eq, v68_eq]
  exact mm_of _ _ j _ _

theorem v72_eq : Read.val_main_v72 (F := Ideal) x e w = refH2 x e w := by
  funext j
  rw [Read.val_main_v72_apply, Read.val_main_call4_v0_apply, Read.val_main_call4_cst_apply]
  exact relu_of _ j _ (by unfold Read.val_main_v71; rw [v69_eq, v70_eq])

theorem v73_eq : Read.val_main_v73 (F := Ideal) x e w = refHn x e w := by
  unfold Read.val_main_v73
  rw [v64_eq, v68_eq, v72_eq]
  rfl

theorem v85_eq : Read.val_main_v85 (F := Ideal) x e b w = refPool (refHn x e w) b := by
  unfold Read.val_main_v85 Read.val_main_v76
  rw [v73_eq]
  rfl

theorem v89_eq : Read.val_main_v89 (F := Ideal) x e b w W c = refResult x e b w W c := by
  funext j
  rw [Read.val_main_v89_apply, Read.val_main_v86_apply, v85_eq, Read.val_main_v88_apply, Read.val_main_v87_apply]
  show _ + _ = _ + _
  congr 1
  · exact mm_of _ _ j _ _
  · exact congrArg c (eq_ix1 _)

theorem zero_scalar : constant (F := Ideal) S_ .f32 0x00000000#32 = zeroScalar :=
  funext fun _ => Ideal.ofBits_zero_f32

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89)
        = refResult (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_cst_20) = zeroScalar
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c => ⟨(h c).1.trans ((HandRun.val_main_v89_eq m c).trans (v89_eq _ _ _ _ _ _)),
      (h c).2.1.trans zero_scalar, (h c).2.2⟩)
    (HandRun.run (F := Ideal) m ρ)

end Cert.ReferenceIdeal.RefValue

end
-- ==== Proof.Alg.lean ====
import Idealize.ShloMosaic.PureOps.Ideal.Laws
import Idealize.ShloMosaic.Lib.ValueIdx
import Idealize.ShloMosaic.Lib.Pipeline.Value
import Mathlib.Analysis.SpecialFunctions.Pow.Real

namespace Cert.Alg

open Idealize.ShloMosaic Idealize.ShloMosaic.ValueIdx

theorem ofBits_neg_half : Ideal.ofBits .f32 0xBF000000#32 = ((-(1 / 2 : ℝ) : ℝ) : EReal) := by
  simp [Ideal.ofBits, Ideal.ieee, -EReal.coe_mul, -EReal.coe_neg]; norm_num

theorem rpow_neg_half (r : ℝ) (hr : 0 < r) : Real.rpow r (-(1 / 2 : ℝ)) = (Real.sqrt r)⁻¹ := by
  rw [Real.sqrt_eq_rpow]
  exact Real.rpow_neg hr.le _

-- At a positive real both sides are 1/√d, at +∞ both are 0, and elsewhere the guard answers 0.
theorem pow_neg_half_eq_rsqrt (d : EReal) :
    (if d > 0 then Ideal.pow d (Ideal.ofBits .f32 0xBF000000#32) else 0)
      = (if d > 0 then Ideal.rsqrt d else 0) := by
  rw [ofBits_neg_half]
  induction d using EReal.rec with
  | bot => rw [if_neg (not_lt_bot), if_neg (not_lt_bot)]
  | top =>
    rw [if_pos EReal.zero_lt_top, if_pos EReal.zero_lt_top, Ideal.pow_top, Ideal.rsqrt_top]
    have h1 : ¬ ((0 : EReal) < ((-(1 / 2 : ℝ) : ℝ) : EReal)) := by
      rw [not_lt]; exact_mod_cast (by norm_num : (-(1 / 2 : ℝ)) ≤ 0)
    have h2 : ¬ (((-(1 / 2 : ℝ) : ℝ) : EReal) = 0) := by
      exact_mod_cast (by norm_num : (-(1 / 2 : ℝ)) ≠ 0)
    rw [if_neg h1, if_neg h2]
  | coe r =>
    by_cases h : (0 : EReal) < (r : EReal)
    · have hr : 0 < r := by exact_mod_cast h
      rw [if_pos h, if_pos h, Ideal.pow_coe_coe, Ideal.rsqrt_coe, if_neg (not_lt.2 hr.le), if_neg hr.ne',
        rpow_neg_half r hr]
    · rw [if_neg h, if_neg h]

variable {α β : Type} {m n₁ n₂ n : ℕ}

-- A pointwise map of two column blocks side by side is the mapped blocks side by side: both read one block at one index.
theorem map_cat2 (f : α → β) (x : (⟨2, ![m, n₁]⟩ : Shape).Idx → α) (y : (⟨2, ![m, n₂]⟩ : Shape).Idx → α)
    (h : Shape.Concatenates [(⟨2, ![m, n₁]⟩ : Shape), ⟨2, ![m, n₂]⟩] ⟨2, ![m, n]⟩ 1) :
    (fun j => f (concatenate ⟨2, ![m, n]⟩ 1 [⟨⟨2, ![m, n₁]⟩, x⟩, ⟨⟨2, ![m, n₂]⟩, y⟩] h j))
      = concatenate ⟨2, ![m, n]⟩ 1 [⟨⟨2, ![m, n₁]⟩, fun i => f (x i)⟩, ⟨⟨2, ![m, n₂]⟩, fun i => f (y i)⟩] h := by
  funext j
  have hw : n₁ + n₂ = n := by simpa using h.2.2
  have hn : (j 1).val < n := (j 1).isLt
  by_cases hq : (j 1).val < n₁
  · have hi : ∀ b : Fin 2, ((ix2 (j 0) ⟨(j 1).val, hq⟩ : (⟨2, ![m, n₁]⟩ : Shape).Idx) b).val = (j b).val := fun b => by
      match b with
      | ⟨0, _⟩ => rfl
      | ⟨1, _⟩ => rfl
    rw [concatenate_pair_apply_left 1 x y h j rfl _ hi, concatenate_pair_apply_left 1 _ _ h j rfl _ hi]
  · have hi : ∀ b : Fin 2, b ≠ 1 →
        ((ix2 (j 0) ⟨(j 1).val - n₁, by omega⟩ : (⟨2, ![m, n₂]⟩ : Shape).Idx) b).val = (j b).val := fun b hb => by
      match b with
      | ⟨0, _⟩ => rfl
      | ⟨1, _⟩ => exact absurd rfl hb
    have ha : (j 1).val - n₁ + n₁ = (j 1).val := by omega
    rw [concatenate_pair_apply_right 1 x y h j rfl rfl _ hi ha, concatenate_pair_apply_right 1 _ _ h j rfl rfl _ hi ha]

end Cert.Alg
-- ==== Proof.Val.Host.lean ====
import proofs.«176514_j47991964565814_1_alg».proof.Proof.KIRegions
import proofs.«176514_j47991964565814_1_alg».proof.Proof.LibNary5
import proofs.«176514_j47991964565814_1_alg».proof.Proof.Ref
import Idealize.ShloMosaic.Lib.StableHlo.Run
import Idealize.ShloMosaic.Lib.ValueIdx
import Idealize.ShloMosaic.Lib.Pipeline.Value
import Idealize.ShloMosaic.Lib.IdealHost

set_option maxRecDepth 16384

noncomputable section

namespace Cert.KernelIdeal.Val

open Cert.KernelIdeal Cert.KernelIdeal.Gen Idealize.ShloMosaic Idealize.ShloMosaic.TcCoe
open Idealize.ShloMosaic.StableHlo Idealize.ShloMosaic.ValueIdx
open Cert.ReferenceIdeal.RefValue (refA refPool)

variable (W : Valuation τ sig (Elt Ideal))

-- The adjacency is counted from the edge list term for term as the reference counts it.
theorem after0_v19 :
    (StableHlo.after (hostOps0 (F := Ideal)) W main_v19 : Vec Ideal S8192x8192 .f32) = refA (W main_arg1) := by
  after_results_simp
  rfl

theorem colAsRow_apply (d : Vec Ideal S8192x1 .f32) (k : Fin 8192) :
    shapeCast S1x8192 d shapeCasts_S8192x1_S1x8192 (ix2 (0 : Fin 1) k) = d (ix2 k (0 : Fin 1)) := by
  refine shapeCast_apply d shapeCasts_S8192x1_S1x8192 (ix2 (0 : Fin 1) k) (ix2 k (0 : Fin 1)) ?_
  rw [Shape.rowMajor_val_two, Shape.rowMajor_val_two]
  show k.val * 1 + 0 = 0 * 8192 + k.val
  omega

theorem after2_v22 :
    (StableHlo.after (hostOps2 (F := Ideal)) W main_v22 : Vec Ideal S1x8192 .f32)
      = shapeCast S1x8192 (W main_v21_2 : Vec Ideal S8192x1 .f32) shapeCasts_S8192x1_S1x8192 := by
  after_results
  rfl

theorem after2_v23 :
    (StableHlo.after (hostOps2 (F := Ideal)) W main_v23 : Vec Ideal S1x8192 .f32)
      = shapeCast S1x8192 (W main_v21_3 : Vec Ideal S8192x1 .f32) shapeCasts_S8192x1_S1x8192 := by
  after_results
  rfl

theorem after6_v28 :
    (StableHlo.after (hostOps6 (F := Ideal)) W main_v28 : Vec Ideal S8192x512 .f32)
      = concatenate S8192x512 1
          [⟨S8192x256, (W main_v26 : Vec Ideal S8192x256 .f32)⟩, ⟨S8192x256, (W main_v27 : Vec Ideal S8192x256 .f32)⟩]
          concatenates_S8192x256_S8192x256_S8192x512_d1 := by
  after_results

-- The mean over each graph is taken term for term as the reference takes it.
theorem after8_v44 :
    (StableHlo.after (hostOps8 (F := Ideal)) W main_v44 : Vec Ideal S64x1792 .f32)
      = refPool (concatenate S8192x1792 1
          [⟨S8192x256, W main_v25⟩, ⟨S8192x512, W main_v28⟩,
           ⟨S8192x1024, concatenate S8192x1024 1 [⟨S8192x512, W main_v29⟩, ⟨S8192x512, W main_v30⟩]
              concatenates_S8192x512_S8192x512_S8192x1024_d1⟩]
          concatenates_S8192x256_S8192x512_S8192x1024_S8192x1792_d1) (W main_arg2) := by
  after_results_simp5
  rfl

theorem biasRows_apply (b : Vec Ideal S256 .f32) (j : S64x256.Idx) :
    broadcastInDim S64x256 ![0, 1] bcast_S1x256_S64x256_0_1 (broadcastInDim S1x256 ![1] bcast_S256_S1x256_1 b) j
      = b (ix1 (j 1)) := by
  refine (broadcastInDim_apply ![0, 1] bcast_S1x256_S64x256_0_1 (broadcastInDim S1x256 ![1] bcast_S256_S1x256_1 b) j
    (ix2 (0 : Fin 1) (j 1)) (fun a => by match a with | ⟨0, _⟩ => rfl | ⟨1, _⟩ => rfl)).trans ?_
  exact broadcastInDim_apply ![1] bcast_S256_S1x256_1 b (ix2 (0 : Fin 1) (j 1)) (ix1 (j 1))
    (fun a => by match a with | ⟨0, _⟩ => rfl)

abbrev headIn : Vec Ideal S64x256 .f32 := W main_v45
abbrev biasIn : Vec Ideal S256 .f32 := W main_arg5

theorem after9_v48 (j : S64x256.Idx) :
    (StableHlo.after (hostOps9 (F := Ideal)) W main_v48 : Vec Ideal S64x256 .f32) j = headIn W j + biasIn W (ix1 (j 1)) := by
  have e : (StableHlo.after (hostOps9 (F := Ideal)) W main_v48 : Vec Ideal S64x256 .f32)
      = addf (F := Ideal) (φ := FTy.f32) (headIn W)
          (broadcastInDim S64x256 ![0, 1] bcast_S1x256_S64x256_0_1 (broadcastInDim S1x256 ![1] bcast_S256_S1x256_1 (biasIn W))) := by
    after_results
  rw [e, addf_apply, biasRows_apply]

theorem after9_cst8 :
    (StableHlo.after (hostOps9 (F := Ideal)) W main_cst_8 : Vec Ideal S_ .f32) = constant (F := Ideal) S_ .f32 0x00000000#32 := by
  after_results

end Cert.KernelIdeal.Val

end
-- ==== Proof.Val.Reg1Pay.lean ====
import proofs.«176514_j47991964565814_1_alg».proof.Proof.Gen.KernelIdeal.Skeleton
import Idealize.ShloMosaic.Lib.ValueIdx
import Idealize.ShloMosaic.Lib.Pipeline.Value
import Idealize.ShloMosaic.PureOps.Ideal.Laws

noncomputable section
namespace Cert.KernelIdeal.Val
open Idealize.ShloMosaic Idealize.ShloMosaic.ValueIdx
open Cert.KernelIdeal Cert.KernelIdeal.Gen

theorem one_f32 : Ideal.ofBits .f32 0x3F800000#32 = 1 := by
  simp [Ideal.ofBits, Ideal.ieee, -EReal.coe_mul]; norm_num

theorem eqWord_toReal (a b : Nat) (ha : a < 2 ^ 32) (hb : b < 2 ^ 32) :
    (FloatOps.sitofp (F := Ideal) .f32 (BitVec.setWidth 32 (IntOp.cmpi .eq (BitVec.ofNat 32 a) (BitVec.ofNat 32 b))) : EReal)
      = if a = b then 1 else 0 := by
  by_cases h : a = b
  · subst h
    rw [if_pos rfl]
    have e : IntOp.cmpi .eq (BitVec.ofNat 32 a) (BitVec.ofNat 32 a) = 1#1 := by simp [IntOp.cmpi]
    rw [e]
    show (((BitVec.setWidth 32 1#1).toInt : ℝ) : EReal) = 1
    have : (BitVec.setWidth 32 1#1).toInt = 1 := by decide
    rw [this]; norm_num
  · rw [if_neg h]
    have e : IntOp.cmpi .eq (BitVec.ofNat 32 a) (BitVec.ofNat 32 b) = 0#1 := by
      have hne : BitVec.ofNat 32 a ≠ BitVec.ofNat 32 b := fun e => h (by
        have := congrArg BitVec.toNat e
        rw [BitVec.toNat_ofNat, BitVec.toNat_ofNat, Nat.mod_eq_of_lt ha, Nat.mod_eq_of_lt hb] at this
        exact this)
      show BitVec.ofBool (BitVec.ofNat 32 a == BitVec.ofNat 32 b) = 0#1
      rw [beq_eq_false_iff_ne.mpr hne]; rfl
    rw [e]
    show (((BitVec.setWidth 32 0#1).toInt : ℝ) : EReal) = 0
    have : (BitVec.setWidth 32 0#1).toInt = 0 := by decide
    rw [this]; norm_num

theorem rowWord (n r : Nat) :
    IntOp.addi (Scalar.muli (BitVec.ofNat 32 n) 64#32) (BitVec.ofNat 32 r) = BitVec.ofNat 32 (n * 64 + r) := by
  show BitVec.ofNat 32 n * BitVec.ofNat 32 64 + BitVec.ofNat 32 r = _
  rw [← BitVec.ofNat_mul, ← BitVec.ofNat_add]

theorem band_lt (i : grid1.Coords) : (i 0).val < 128 := (i 0).isLt

theorem eye_apply (i : grid1.Coords) (r : Fin 64) (k : Fin 8192) :
    k1_pay2 (F := Ideal) i (ix2 r k) = if (i 0).val * 64 + r.val = k.val then 1 else 0 := by
  unfold k1_pay2
  simp only [sitofp_apply, extui_apply]
  show FloatOps.sitofp (F := Ideal) .f32 (BitVec.setWidth 32 (IntOp.cmpi .eq
      (IntOp.addi (Scalar.muli (BitVec.ofNat 32 (i 0).val) 64#32) (iota .tc S64x8192 32 [0] iota_S64x8192_d0_w32 (ix2 r k)))
      (iota .tc S64x8192 32 [1] iota_S64x8192_d1_w32 (ix2 r k)))) = _
  rw [iota_single_apply, iota_single_apply]
  show FloatOps.sitofp (F := Ideal) .f32 (BitVec.setWidth 32 (IntOp.cmpi .eq
      (IntOp.addi (Scalar.muli (BitVec.ofNat 32 (i 0).val) 64#32) (BitVec.ofNat 32 r.val)) (BitVec.ofNat 32 k.val))) = _
  rw [rowWord]
  have hi := band_lt i
  have hr := r.isLt
  have hk := k.isLt
  exact eqWord_toReal _ _ (by omega) (by omega)

theorem indicator_pos (z : EReal) :
    Scalar.select (FloatOps.cmpf (F := Ideal) (φ := .f32) .ogt z (Scalar.ofBits (F := Ideal) .f32 0x00000000#32))
        (Scalar.ofBits (F := Ideal) .f32 0x3F800000#32) (Scalar.ofBits (F := Ideal) .f32 0x00000000#32)
      = if 0 < z then 1 else 0 := by
  show (if Ideal.cmp .ogt z (Ideal.ofBits .f32 0x00000000#32) = 1 then Ideal.ofBits .f32 0x3F800000#32
      else Ideal.ofBits .f32 0x00000000#32) = _
  rw [Ideal.ofBits_zero_f32, one_f32]
  by_cases h : 0 < z
  · rw [if_pos h, if_pos]
    show BitVec.ofBool (decide (0 < z)) = 1
    rw [decide_eq_true h]; rfl
  · rw [if_neg h, if_neg]
    show ¬BitVec.ofBool (decide (0 < z)) = 1
    rw [decide_eq_false h]; decide

theorem hop1_at (i : grid1.Coords) (x : Vec Ideal S64x8192 .f32) (y : S64x8192.Idx) :
    k1_pay4 (F := Ideal) i x y
      = if 0 < x y - (if (i 0).val * 64 + (y 0).val = (y 1).val then 1 else 0) then 1 else 0 := by
  obtain ⟨r, k, rfl⟩ : ∃ (r : Fin 64) (k : Fin 8192), y = ix2 r k := ⟨y 0, y 1, eq_ix2 y⟩
  unfold k1_pay4 k1_pay3
  simp only [select_apply, cmpf_apply, subf_apply, broadcast_apply, shapeCast_self]
  rw [eye_apply]
  exact indicator_pos _

theorem hop2_at (i : grid1.Coords) (x xx : Vec Ideal S64x8192 .f32) (y : S64x8192.Idx) :
    k1_pay5 (F := Ideal) i x xx y
      = if 0 < (if 0 < xx y then 1 else 0) - x y - (if (i 0).val * 64 + (y 0).val = (y 1).val then 1 else 0)
          then 1 else 0 := by
  obtain ⟨r, k, rfl⟩ : ∃ (r : Fin 64) (k : Fin 8192), y = ix2 r k := ⟨y 0, y 1, eq_ix2 y⟩
  unfold k1_pay5 k1_pay3
  simp only [select_apply, cmpf_apply, subf_apply, broadcast_apply, shapeCast_self]
  rw [eye_apply, indicator_pos (xx (ix2 r k))]
  exact indicator_pos _

-- A row sum over the band's columns, kept as a column: at row `y 0` the finite sum of the summand along that row.
theorem rowSum_at (v : FVec Ideal S64x8192 .f32) (y : S64x1.Idx) :
    shapeCast S64x1 (multiReduction (F := Ideal) .add [1] S64 v 0x00000000#32 reduces_S64x8192_S64 (.inl rfl) rfl)
        shapeCasts_S64_S64x1 y
      = ∑ k : Fin 8192, v (ix2 (y 0) k) := by
  obtain ⟨r, z, rfl⟩ : ∃ (r : Fin 64) (z : Fin 1), y = ix2 r z := ⟨y 0, y 1, eq_ix2 y⟩
  obtain rfl : z = 0 := Subsingleton.elim _ _
  refine (shapeCast_apply _ shapeCasts_S64_S64x1 (ix2 r (0 : Fin 1)) (ix1 r) (by
    rw [Shape.rowMajor_val_one, Shape.rowMajor_val_two]
    show r.val = r.val * 1 + 0
    omega)).trans ?_
  refine (Ideal.multiReduction_add_single v _ reduces_S64x8192_S64 _ _ (ix1 r)).trans ?_
  show ∑ k : Fin 8192, v (reduces_S64x8192_S64.lift (ix1 r) k) = _
  refine Finset.sum_congr rfl fun k _ => congrArg v ?_
  funext a
  apply Fin.ext
  match a with
  | ⟨0, _⟩ => rfl
  | ⟨1, _⟩ => rfl

theorem deg1_at (i : grid1.Coords) (x : Vec Ideal S64x8192 .f32) (y : S64x1.Idx) :
    k1_pay6 (F := Ideal) i x y = ∑ k : Fin 8192, k1_pay4 (F := Ideal) i x (ix2 (y 0) k) := by
  unfold k1_pay6
  exact rowSum_at _ y

theorem deg2_at (v : FVec Ideal S64x8192 .f32) (y : S64x1.Idx) :
    k1_pay1 (F := Ideal) v y = ∑ k : Fin 8192, v (ix2 (y 0) k) := by
  unfold k1_pay1
  exact rowSum_at _ y

end Cert.KernelIdeal.Val
-- ==== Proof.LibB.lean ====
import Idealize.ShloMosaic.Lib.ValueIdx

namespace Cert.KernelIdeal.Val

open Idealize.ShloMosaic

-- Row bands of `B` rows tile an `R × C` array: an index lies in band `(i 0) / B`, whose block starts at row `(i 0) / B * B`, column 0.
theorem mem_band {R C : ℕ} (B : ℕ) (hB : 0 < B) (i : (⟨2, ![R, C]⟩ : Shape).Idx) (ix sz xs : Fin 2 → ℕ)
    (h0 : ix 0 = (i 0).val / B) (h1 : ix 1 = 0) (hs : sz 0 = B) (hx0 : xs 0 = B) (hx1 : xs 1 = C) :
    ∀ a : Fin 2, ix a * sz a ≤ (i a).val ∧ (i a).val < ix a * sz a + xs a := by
  intro a
  match a with
  | ⟨0, _⟩ =>
    show ix 0 * sz 0 ≤ (i 0).val ∧ (i 0).val < ix 0 * sz 0 + xs 0
    rw [h0, hs, hx0]
    exact ⟨Nat.div_mul_le_self _ _, Nat.lt_div_mul_add hB⟩
  | ⟨1, _⟩ =>
    show ix 1 * sz 1 ≤ (i 1).val ∧ (i 1).val < ix 1 * sz 1 + xs 1
    rw [h1, hx1, Nat.zero_mul, Nat.zero_add]
    exact ⟨Nat.zero_le _, (i 1).isLt⟩

end Cert.KernelIdeal.Val
-- ==== Proof.Val.Reg1.lean ====
import proofs.«176514_j47991964565814_1_alg».proof.Proof.KI.Reg1
import proofs.«176514_j47991964565814_1_alg».proof.Proof.Val.Reg1Pay
import proofs.«176514_j47991964565814_1_alg».proof.Proof.LibB
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

abbrev adj (c : Dev nD) : Vec Ideal S8192x8192 .f32 := V c main_v19
abbrev adjSq (c : Dev nD) : Vec Ideal S8192x8192 .f32 := V c main_v20

def eye (j : S8192x8192.Idx) : EReal := if (j 0).val = (j 1).val then 1 else 0

def hop1 (a : S8192x8192.Idx → EReal) (j : S8192x8192.Idx) : EReal := if 0 < a j - eye j then 1 else 0

def hop2 (a aa : S8192x8192.Idx → EReal) (j : S8192x8192.Idx) : EReal :=
  if 0 < (if 0 < aa j then 1 else 0) - a j - eye j then 1 else 0

theorem hop1_of_band (A : S8192x8192.Idx → EReal) (x : EReal) (e : S8192x8192.Idx) (n t r k : Nat)
    (hx : x = A e) (h0 : (e 0).val = t * 64 + r) (h1 : (e 1).val = k) (hn : n = t) :
    (if 0 < x - (if n * 64 + r = k then 1 else 0) then 1 else 0 : EReal) = hop1 A e := by
  subst hx hn; unfold hop1 eye; rw [h0, h1]

theorem hop2_of_band (A AA : S8192x8192.Idx → EReal) (x xx : EReal) (e : S8192x8192.Idx) (n t r k : Nat)
    (hx : x = A e) (hxx : xx = AA e) (h0 : (e 0).val = t * 64 + r) (h1 : (e 1).val = k) (hn : n = t) :
    (if 0 < (if 0 < xx then 1 else 0) - x - (if n * 64 + r = k then 1 else 0) then 1 else 0 : EReal) = hop2 A AA e := by
  subst hx hxx hn; unfold hop2 eye; rw [h0, h1]

theorem hz : (![0, 0] : Fin 2 → Nat) = fun _ => 0 := funext fun a => by fin_cases a <;> rfl

theorem bands_at : ∀ t : Fin cfg1.N,
    ((grid1.coords t) 0).val = t.val
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem coords_at (t : Fin cfg1.N) : ((grid1.coords t) 0).val = t.val := (bands_at t).1

theorem bandOf_lt (r : Nat) (hr : r < 8192) : r / 64 < cfg1.N := by
  rw [show cfg1.N = 128 from N_1]; omega

theorem adjBand_apply (c : Dev nD) (t : Fin cfg1.N) (y : S64x8192.Idx) (e : S8192x8192.Idx)
    (h0 : (e 0).val = t.val * 64 + (y 0).val) (h1 : (e 1).val = (y 1).val) :
    (Hand.band1 V c 0 t : Vec Ideal S64x8192 .f32) y = adj V c e := by
  obtain ⟨-, i0, i1, -⟩ := bands_at t
  unfold Hand.band1
  rw [View.read_apply]
  show V c main_v19 _ = V c main_v19 _
  congr 1
  funext a
  apply Fin.ext
  match a with
  | ⟨0, _⟩ => show win1_0.index t (0 : Fin 2) * 64 + 1 * (y 0).val = (e 0).val; rw [i0, h0]; omega
  | ⟨1, _⟩ => show win1_0.index t (1 : Fin 2) * 8192 + 1 * (y 1).val = (e 1).val; rw [i1, h1]; omega

theorem adjSqBand_apply (c : Dev nD) (t : Fin cfg1.N) (y : S64x8192.Idx) (e : S8192x8192.Idx)
    (h0 : (e 0).val = t.val * 64 + (y 0).val) (h1 : (e 1).val = (y 1).val) :
    (Hand.band1 V c 1 t : Vec Ideal S64x8192 .f32) y = adjSq V c e := by
  obtain ⟨-, -, -, i0, i1, -⟩ := bands_at t
  unfold Hand.band1
  rw [View.read_apply]
  show V c main_v20 _ = V c main_v20 _
  congr 1
  funext a
  apply Fin.ext
  match a with
  | ⟨0, _⟩ => show win1_1.index t (0 : Fin 2) * 64 + 1 * (y 0).val = (e 0).val; rw [i0, h0]; omega
  | ⟨1, _⟩ => show win1_1.index t (1 : Fin 2) * 8192 + 1 * (y 1).val = (e 1).val; rw [i1, h1]; omega

-- A band's mask element is the whole mask's at the index with the same row and column.
theorem hop1_band (c : Dev nD) (t : Fin cfg1.N) (y : S64x8192.Idx) (e : S8192x8192.Idx)
    (h0 : (e 0).val = t.val * 64 + (y 0).val) (h1 : (e 1).val = (y 1).val) :
    k1_pay4 (F := Ideal) (grid1.coords t) (Hand.band1 V c 0 t) y = hop1 (adj V c) e :=
  (hop1_at _ _ y).trans (hop1_of_band (adj V c) _ _ _ _ _ _ (adjBand_apply V c t y e h0 h1) h0 h1 (coords_at t))

theorem hop2_band (c : Dev nD) (t : Fin cfg1.N) (y : S64x8192.Idx) (e : S8192x8192.Idx)
    (h0 : (e 0).val = t.val * 64 + (y 0).val) (h1 : (e 1).val = (y 1).val) :
    k1_pay5 (F := Ideal) (grid1.coords t) (Hand.band1 V c 0 t) (Hand.band1 V c 1 t) y = hop2 (adj V c) (adjSq V c) e :=
  (hop2_at _ _ _ y).trans (hop2_of_band (adj V c) (adjSq V c) _ _ _ _ _ _ _
    (adjBand_apply V c t y e h0 h1) (adjSqBand_apply V c t y e h0 h1) h0 h1 (coords_at t))

theorem flushed_hop1 (c : Dev nD) (t : Fin cfg1.N) :
    (Hand.dat1 (F := Ideal) V c).flushed 2 t = ((cfg1.win 2).blk t).view.read (Elt Ideal) (hop1 (adj V c)) := by
  show (cfg1.win 2).cut (grid1.coords t) ((Hand.dat1 (F := Ideal) V c).after 2 t) = _
  rw [Hand.after1_2]
  funext y
  obtain ⟨-, -, -, -, -, i0, i1, -⟩ := bands_at t
  show _ = hop1 (adj V c) ((win1_2.rect t).emb y)
  exact hop1_band V c t y _ ((win1_2.rect_emb_val t y 0).trans (by rw [i0]; rfl)) (win1_2.rect_emb_val_of_index_zero t 1 i1 y)

theorem hop1_covered (i : S8192x8192.Idx) :
    ∃ t : Fin cfg1.N, (cfg1.win 2).flush t = true ∧ i ∈ ((cfg1.win 2).blk t).view.set := by
  obtain ⟨t, ht⟩ : ∃ t : Fin cfg1.N, t.val = (i 0).val / 64 := ⟨⟨(i 0).val / 64, bandOf_lt _ (i 0).isLt⟩, rfl⟩
  obtain ⟨-, -, -, -, -, i0, i1, -⟩ := bands_at t
  refine ⟨t, flush1_2 t, ?_⟩
  show i ∈ ((View.whole main_v21_0).slice (win1_2.rect t)).set
  rw [View.set_slice_whole, Rect.mem_set_unit]
  exact mem_band 64 (by decide) i _ _ _ (i0.trans ht) i1 rfl rfl rfl

theorem arrAt1_2 (c : Dev nD) (j : S8192x8192.Idx) :
    (Hand.dat1 (F := Ideal) V c).arrAt 2 cfg1.N j = hop1 (adj V c) j :=
  congrFun ((Hand.dat1 (F := Ideal) V c).arrAt_eq_of_cover 2 (hop1 (adj V c))
    (fun t _ => flushed_hop1 V c t) hop1_covered) j

theorem flushed_hop2 (c : Dev nD) (t : Fin cfg1.N) :
    (Hand.dat1 (F := Ideal) V c).flushed 3 t
      = ((cfg1.win 3).blk t).view.read (Elt Ideal) (hop2 (adj V c) (adjSq V c)) := by
  show (cfg1.win 3).cut (grid1.coords t) ((Hand.dat1 (F := Ideal) V c).after 3 t) = _
  rw [Hand.after1_3]
  funext y
  obtain ⟨-, -, -, -, -, -, -, i0, i1, -⟩ := bands_at t
  show _ = hop2 (adj V c) (adjSq V c) ((win1_3.rect t).emb y)
  exact hop2_band V c t y _ ((win1_3.rect_emb_val t y 0).trans (by rw [i0]; rfl)) (win1_3.rect_emb_val_of_index_zero t 1 i1 y)

theorem hop2_covered (i : S8192x8192.Idx) :
    ∃ t : Fin cfg1.N, (cfg1.win 3).flush t = true ∧ i ∈ ((cfg1.win 3).blk t).view.set := by
  obtain ⟨t, ht⟩ : ∃ t : Fin cfg1.N, t.val = (i 0).val / 64 := ⟨⟨(i 0).val / 64, bandOf_lt _ (i 0).isLt⟩, rfl⟩
  obtain ⟨-, -, -, -, -, -, -, i0, i1, -⟩ := bands_at t
  refine ⟨t, flush1_3 t, ?_⟩
  show i ∈ ((View.whole main_v21_1).slice (win1_3.rect t)).set
  rw [View.set_slice_whole, Rect.mem_set_unit]
  exact mem_band 64 (by decide) i _ _ _ (i0.trans ht) i1 rfl rfl rfl

theorem arrAt1_3 (c : Dev nD) (j : S8192x8192.Idx) :
    (Hand.dat1 (F := Ideal) V c).arrAt 3 cfg1.N j = hop2 (adj V c) (adjSq V c) j :=
  congrFun ((Hand.dat1 (F := Ideal) V c).arrAt_eq_of_cover 3 (hop2 (adj V c) (adjSq V c))
    (fun t _ => flushed_hop2 V c t) hop2_covered) j

def rowSum (M : S8192x8192.Idx → EReal) (j : S8192x1.Idx) : EReal := ∑ k : Fin 8192, M (ix2 (j 0) k)

theorem flushed_deg1 (c : Dev nD) (t : Fin cfg1.N) :
    (Hand.dat1 (F := Ideal) V c).flushed 4 t
      = ((cfg1.win 4).blk t).view.read (Elt Ideal) (rowSum (hop1 (adj V c))) := by
  show (cfg1.win 4).cut (grid1.coords t) ((Hand.dat1 (F := Ideal) V c).after 4 t) = _
  rw [Hand.after1_4]
  funext y
  refine (deg1_at (grid1.coords t) (Hand.band1 V c 0 t) y).trans ?_
  show _ = rowSum (hop1 (adj V c)) (((cfg1.win 4).blk t).view.emb y)
  unfold rowSum
  refine Finset.sum_congr rfl fun k _ => ?_
  obtain ⟨-, -, -, -, -, -, -, -, -, i0, -⟩ := bands_at t
  exact hop1_band V c t (ix2 (y 0) k) (ix2 ((win1_4.rect t).emb y 0) k) ((win1_4.rect_emb_val t y 0).trans (by rw [i0]; rfl)) rfl

theorem flushed_deg2 (c : Dev nD) (t : Fin cfg1.N) :
    (Hand.dat1 (F := Ideal) V c).flushed 5 t
      = ((cfg1.win 5).blk t).view.read (Elt Ideal) (rowSum (hop2 (adj V c) (adjSq V c))) := by
  show (cfg1.win 5).cut (grid1.coords t) ((Hand.dat1 (F := Ideal) V c).after 5 t) = _
  rw [Hand.after1_5]
  funext y
  refine (deg2_at (k1_pay5 (F := Ideal) (grid1.coords t) (Hand.band1 V c 0 t) (Hand.band1 V c 1 t)) y).trans ?_
  show _ = rowSum (hop2 (adj V c) (adjSq V c)) (((cfg1.win 5).blk t).view.emb y)
  unfold rowSum
  refine Finset.sum_congr rfl fun k _ => ?_
  obtain ⟨-, -, -, -, -, -, -, -, -, -, -, i0, -⟩ := bands_at t
  exact hop2_band V c t (ix2 (y 0) k) (ix2 ((win1_5.rect t).emb y 0) k) ((win1_5.rect_emb_val t y 0).trans (by rw [i0]; rfl)) rfl

theorem deg1_covered (i : S8192x1.Idx) :
    ∃ t : Fin cfg1.N, (cfg1.win 4).flush t = true ∧ i ∈ ((cfg1.win 4).blk t).view.set := by
  obtain ⟨t, ht⟩ : ∃ t : Fin cfg1.N, t.val = (i 0).val / 64 := ⟨⟨(i 0).val / 64, bandOf_lt _ (i 0).isLt⟩, rfl⟩
  obtain ⟨-, -, -, -, -, -, -, -, -, i0, i1, -⟩ := bands_at t
  refine ⟨t, flush1_4 t, ?_⟩
  show i ∈ ((View.whole main_v21_2).slice (win1_4.rect t)).set
  rw [View.set_slice_whole, Rect.mem_set_unit]
  exact mem_band 64 (by decide) i _ _ _ (i0.trans ht) i1 rfl rfl rfl

theorem deg2_covered (i : S8192x1.Idx) :
    ∃ t : Fin cfg1.N, (cfg1.win 5).flush t = true ∧ i ∈ ((cfg1.win 5).blk t).view.set := by
  obtain ⟨t, ht⟩ : ∃ t : Fin cfg1.N, t.val = (i 0).val / 64 := ⟨⟨(i 0).val / 64, bandOf_lt _ (i 0).isLt⟩, rfl⟩
  obtain ⟨-, -, -, -, -, -, -, -, -, -, -, i0, i1⟩ := bands_at t
  refine ⟨t, flush1_5 t, ?_⟩
  show i ∈ ((View.whole main_v21_3).slice (win1_5.rect t)).set
  rw [View.set_slice_whole, Rect.mem_set_unit]
  exact mem_band 64 (by decide) i _ _ _ (i0.trans ht) i1 rfl rfl rfl

theorem arrAt1_4 (c : Dev nD) (j : S8192x1.Idx) :
    (Hand.dat1 (F := Ideal) V c).arrAt 4 cfg1.N j = ∑ k : Fin 8192, hop1 (adj V c) (ix2 (j 0) k) :=
  congrFun ((Hand.dat1 (F := Ideal) V c).arrAt_eq_of_cover 4 (rowSum (hop1 (adj V c)))
    (fun t _ => flushed_deg1 V c t) deg1_covered) j

theorem arrAt1_5 (c : Dev nD) (j : S8192x1.Idx) :
    (Hand.dat1 (F := Ideal) V c).arrAt 5 cfg1.N j = ∑ k : Fin 8192, hop2 (adj V c) (adjSq V c) (ix2 (j 0) k) :=
  congrFun ((Hand.dat1 (F := Ideal) V c).arrAt_eq_of_cover 5 (rowSum (hop2 (adj V c) (adjSq V c)))
    (fun t _ => flushed_deg2 V c t) deg2_covered) j

end Cert.KernelIdeal.Val
-- ==== Proof.Val.Stages.lean ====
import proofs.«176514_j47991964565814_1_alg».proof.Proof.Alg
import proofs.«176514_j47991964565814_1_alg».proof.Proof.Ref
import proofs.«176514_j47991964565814_1_alg».proof.Proof.Val.Host
import proofs.«176514_j47991964565814_1_alg».proof.Proof.Val.Reg1

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Cert.ReferenceIdeal.RefValue (Mat mm relu hop deg refNorm)

-- The kernel divides by the root where the reference takes the power -1/2, and multiplies in another order.
theorem norm_entry (M M' : Mat 8192 8192) (d d' : Vec Ideal S8192x1 .f32) (r : Vec Ideal S1x8192 .f32)
    (hM : M' = M) (hd' : d' = d) (hd : ∀ i : Fin 8192, d (ix2 i (0 : Fin 1)) = deg M i)
    (hr : ∀ k : Fin 8192, r (ix2 (0 : Fin 1) k) = d (ix2 k (0 : Fin 1)))
    (j : S8192x8192.Idx) :
    M' j * (if d' (ix2 (j 0) (0 : Fin 1)) > 0 then Ideal.rsqrt (d' (ix2 (j 0) (0 : Fin 1))) else 0)
        * (if r (ix2 (0 : Fin 1) (j 1)) > 0 then Ideal.rsqrt (r (ix2 (0 : Fin 1) (j 1))) else 0)
      = refNorm M j := by
  subst hM hd'
  rw [hr (j 1), hd (j 0), hd (j 1), ← Cert.Alg.pow_neg_half_eq_rsqrt, ← Cert.Alg.pow_neg_half_eq_rsqrt, mul_comm (M' j)]
  rfl

-- Each half rectified, then the halves side by side, is the side-by-side halves rectified.
theorem round {n n' : Nat} (hc : Shape.Concatenates [(⟨2, ![8192, n]⟩ : Shape), ⟨2, ![8192, n]⟩] ⟨2, ![8192, n']⟩ 1)
    (A B : Mat 8192 8192) (r : Mat 8192 n) :
    concatenate ⟨2, ![8192, n']⟩ 1 [⟨⟨2, ![8192, n]⟩, relu (mm A r)⟩, ⟨⟨2, ![8192, n]⟩, relu (mm B r)⟩] hc = hop hc A B r :=
  (Cert.Alg.map_cat2 (fun v => max v 0) (mm A r) (mm B r) hc).symm

macro "carry" : tactic =>
  `(tactic| repeat (
      (first
        | rw [V14_of] | rw [V13_of] | rw [V12_of] | rw [V11_of] | rw [V10_of] | rw [V9_of] | rw [V8_of]
        | rw [V7_of] | rw [V6_of] | rw [V5_of] | rw [V4_of] | rw [V3_of] | rw [V2_of] | rw [V1_of])
      rotate_left
      decide))

end Cert.KernelIdeal.Val

end
-- ==== Proof.LibMM.lean ====
import Idealize.ShloMosaic.Lib.StackMember
import Idealize.ShloMosaic.PureOps.Ideal.Laws
import Idealize.ShloMosaic.Lib.ValueIdx

namespace Cert.LibMM

open Idealize.ShloMosaic Idealize.ShloMosaic.ValueIdx Idealize.ShloMosaic.StackMember

-- an m×k by k×n block product into a zero accumulator, at an entry: the sum over the contracted coordinate
theorem plain_matmul_zero_apply {m k n : Nat} {d : DotDims ⟨2, ![m, k]⟩ ⟨2, ![k, n]⟩ ⟨2, ![m, n]⟩} (hd : d = DotDims.plain m k n)
    (prec : Option ContractPrecision) (A : FVec Ideal ⟨2, ![m, k]⟩ .f32) (B : FVec Ideal ⟨2, ![k, n]⟩ .f32) (a : Fin m) (b : Fin n) :
    FloatOps.matmul d prec A B (constant ⟨2, ![m, n]⟩ .f32 0x00000000#32) (ix2 a b) = ∑ c : Fin k, A (ix2 a c) * B (ix2 c b) := by
  subst hd
  rw [Ideal.matmul_constant_zero_apply]
  exact (Ideal.dotGeneral_apply (DotDims.plain m k n) prec default A B (ix2 a b)).symm.trans (dotGeneral_plain_apply prec A B a b)

end Cert.LibMM
-- ==== Proof.Val.Reg0.lean ====
import proofs.«176514_j47991964565814_1_alg».proof.Proof.LibMM
import proofs.«176514_j47991964565814_1_alg».proof.Proof.KI.Reg0
import Idealize.ShloMosaic.Lib.Pipeline.Value
import Idealize.ShloMosaic.Lib.ValueIdx
import Idealize.ShloMosaic.PureOps.Ideal.Laws
import Idealize.ShloMosaic.Lib.Tactic
import Mathlib.Algebra.BigOperators.Fin
import Mathlib.Algebra.BigOperators.Group.Finset.Basic

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.Tactic
open Idealize.ShloMosaic.Pipeline (Dat)
open Idealize.ShloMosaic.ValueIdx
open scoped BigOperators

theorem r0_pay1_apply (j : S1024x1024.Idx) : k0_pay1 (F := Ideal) j = 0 := by
  unfold k0_pay1
  simp only [shapeCast_self]
  exact Ideal.ofBits_zero_f32

theorem r0_pay2_apply (x0 x1 xa : Vec Ideal S1024x1024 .f32) (r s : Fin 1024) :
    k0_pay2 (F := Ideal) x0 x1 xa (ix2 r s) = xa (ix2 r s) + ∑ k : Fin 1024, x0 (ix2 r k) * x1 (ix2 k s) := by
  unfold k0_pay2
  simp only [shapeCast_self]
  exact congrArg (xa (ix2 r s) + ·) (Cert.LibMM.plain_matmul_zero_apply rfl none x0 x1 r s)

variable (V : (c : Dev nD) → (b : Ref sig .tc) → Buf (Elt Ideal) ((c : Thread nD τ).loc b))

abbrev a0 (c : Dev nD) : Vec Ideal S8192x8192 .f32 := V c main_v19

theorem r0_index0 : ∀ t : Fin grid0.N, win0_0.index t 0 = t.val / 64 ∧ win0_0.index t 1 = t.val % 8 := by decide +kernel
theorem r0_index1 : ∀ t : Fin grid0.N, win0_1.index t 0 = t.val % 8 ∧ win0_1.index t 1 = t.val / 8 % 8 := by decide +kernel
theorem r0_index2 : ∀ t : Fin grid0.N, win0_2.index t 0 = t.val / 64 ∧ win0_2.index t 1 = t.val / 8 % 8 := by decide +kernel
theorem r0_xsize2 : ∀ t : Fin grid0.N, win0_2.xsize (grid0.coords t) 0 = 1024 ∧ win0_2.xsize (grid0.coords t) 1 = 1024 := by decide +kernel

-- An index of the large array is fixed by its block and its place in the block.
theorem r0_idx {j k : S8192x8192.Idx} {x : S1024x1024.Idx} {i0 i1 I0 I1 : ℕ}
    (hj0 : (j 0).val = i0 * 1024 + 1 * (x 0).val) (hj1 : (j 1).val = i1 * 1024 + 1 * (x 1).val) (h0 : i0 = I0) (h1 : i1 = I1)
    (hk0 : (k 0).val = 1024 * I0 + (x 0).val) (hk1 : (k 1).val = 1024 * I1 + (x 1).val) : j = k := by
  funext a
  apply Fin.ext
  match a with
  | ⟨0, _⟩ => show (j 0).val = (k 0).val; omega
  | ⟨1, _⟩ => show (j 1).val = (k 1).val; omega

def aN0 (c : Dev nD) (R C : ℕ) : EReal := if h : R < 8192 ∧ C < 8192 then a0 V c (ix2 ⟨R, h.1⟩ ⟨C, h.2⟩) else 0

theorem r0_blk0_eq (c : Dev nD) (t : Fin cfg0.N) (r k : Fin 1024) :
    (iblk0 V c 0 t : Vec Ideal S1024x1024 .f32) (ix2 r k) = aN0 V c (1024 * (t.val / 64) + r.val) (1024 * (t.val % 8) + k.val) := by
  have hN : t.val < 512 := lt_of_lt_of_eq t.isLt (show cfg0.N = 512 from N_0)
  have hr := r.isLt
  have hk := k.isLt
  have h : 1024 * (t.val / 64) + r.val < 8192 ∧ 1024 * (t.val % 8) + k.val < 8192 := ⟨by omega, by omega⟩
  unfold aN0 iblk0
  rw [dif_pos h, View.read_apply]
  exact congrArg (V c main_v19) (r0_idx (x := ix2 r k) (k := ix2 ⟨_, h.1⟩ ⟨_, h.2⟩) rfl rfl (r0_index0 t).1 (r0_index0 t).2 rfl rfl)

theorem r0_blk1_eq (c : Dev nD) (t : Fin cfg0.N) (k s : Fin 1024) :
    (iblk0 V c 1 t : Vec Ideal S1024x1024 .f32) (ix2 k s) = aN0 V c (1024 * (t.val % 8) + k.val) (1024 * (t.val / 8 % 8) + s.val) := by
  have hN : t.val < 512 := lt_of_lt_of_eq t.isLt (show cfg0.N = 512 from N_0)
  have hs := s.isLt
  have hk := k.isLt
  have h : 1024 * (t.val % 8) + k.val < 8192 ∧ 1024 * (t.val / 8 % 8) + s.val < 8192 := ⟨by omega, by omega⟩
  unfold aN0 iblk0
  rw [dif_pos h, View.read_apply]
  exact congrArg (V c main_v19) (r0_idx (x := ix2 k s) (k := ix2 ⟨_, h.1⟩ ⟨_, h.2⟩) rfl rfl (r0_index1 t).1 (r0_index1 t).2 rfl rfl)

def r0_part (c : Dev nD) (R S b : ℕ) : EReal := ∑ m ∈ Finset.range (1024 * b), aN0 V c R m * aN0 V c m S

theorem r0_part_zero (c : Dev nD) (R S : ℕ) : r0_part V c R S 0 = 0 := by
  unfold r0_part; rw [Nat.mul_zero, Finset.range_zero, Finset.sum_empty]

theorem r0_part_succ (c : Dev nD) (R S b : ℕ) :
    r0_part V c R S (b + 1) = r0_part V c R S b + ∑ k : Fin 1024, aN0 V c R (1024 * b + k.val) * aN0 V c (1024 * b + k.val) S := by
  unfold r0_part
  rw [Nat.mul_succ, Finset.sum_range_add]
  exact congrArg (_ + ·) (Finset.sum_range fun x => aN0 V c R (1024 * b + x) * aN0 V c (1024 * b + x) S)

theorem r0_part_full (c : Dev nD) (R S : ℕ) (hR : R < 8192) (hS : S < 8192) :
    r0_part V c R S 8 = ∑ k : Fin 8192, a0 V c (ix2 ⟨R, hR⟩ k) * a0 V c (ix2 k ⟨S, hS⟩) := by
  unfold r0_part
  rw [show 1024 * 8 = 8192 from rfl, Finset.sum_range]
  refine Finset.sum_congr rfl fun k _ => ?_
  unfold aN0
  rw [dif_pos ⟨hR, k.isLt⟩, dif_pos ⟨k.isLt, hS⟩]

theorem r0_step (c : Dev nD) (t : Fin cfg0.N) (r s : Fin 1024) (xa : Vec Ideal S1024x1024 .f32) :
    k0_pay2 (F := Ideal) (iblk0 V c 0 t) (iblk0 V c 1 t) xa (ix2 r s)
      = xa (ix2 r s) + ∑ k : Fin 1024, aN0 V c (1024 * (t.val / 64) + r.val) (1024 * (t.val % 8) + k.val)
          * aN0 V c (1024 * (t.val % 8) + k.val) (1024 * (t.val / 8 % 8) + s.val) := by
  refine (r0_pay2_apply (iblk0 V c 0 t) (iblk0 V c 1 t) xa r s).trans ?_
  refine congrArg (xa (ix2 r s) + ·) (Finset.sum_congr rfl fun k _ => ?_)
  rw [r0_blk0_eq, r0_blk1_eq]

theorem r0_accStep (c : Dev nD) (t : Fin cfg0.N) (prev : Vec Ideal S1024x1024 .f32) (r s : Fin 1024) :
    accStep0 V c t prev (ix2 r s) = (if t.val % 8 = 0 then 0 else prev (ix2 r s))
      + ∑ k : Fin 1024, aN0 V c (1024 * (t.val / 64) + r.val) (1024 * (t.val % 8) + k.val)
          * aN0 V c (1024 * (t.val % 8) + k.val) (1024 * (t.val / 8 % 8) + s.val) := by
  rw [accStep0, r0_step]
  by_cases h0 : t.val % 8 = 0
  · rw [if_pos h0, if_pos h0, r0_pay1_apply]
  · rw [if_neg h0, if_neg h0]

theorem r0_acc_first (c : Dev nD) (r s : Fin 1024) (n : ℕ) (h : n < cfg0.N) (h0 : n % 8 = 0) :
    accIn0 V c (n + 1) h (ix2 r s) = r0_part V c (1024 * (n / 64) + r.val) (1024 * (n / 8 % 8) + s.val) (n % 8 + 1) := by
  rw [accIn0_succ V c ⟨n, h⟩, r0_accStep]
  dsimp only
  rw [if_pos h0, r0_part_succ, h0, r0_part_zero]

-- After the step at point `n = (i * 8 + j) * 8 + k` entry (r, s) is the sum of A(1024 i + r, m) * A(m, 1024 j + s) over m below 1024 (k + 1).
theorem r0_acc_eq (c : Dev nD) (r s : Fin 1024) : ∀ (n : ℕ) (h : n < cfg0.N),
    accIn0 V c (n + 1) h (ix2 r s) = r0_part V c (1024 * (n / 64) + r.val) (1024 * (n / 8 % 8) + s.val) (n % 8 + 1) := by
  intro n
  induction n with
  | zero => intro h; exact r0_acc_first V c r s 0 h rfl
  | succ n ih =>
    intro h
    by_cases h0 : (n + 1) % 8 = 0
    · exact r0_acc_first V c r s (n + 1) h h0
    · have ih' := ih (Nat.lt_of_succ_lt h)
      have e1 : n / 64 = (n + 1) / 64 := by omega
      have e2 : n / 8 % 8 = (n + 1) / 8 % 8 := by omega
      have e3 : n % 8 + 1 = (n + 1) % 8 := by omega
      rw [e1, e2, e3] at ih'
      rw [accIn0_succ V c ⟨n + 1, h⟩, r0_accStep]
      dsimp only
      rw [if_neg h0, ih', r0_part_succ]

def prod0 (c : Dev nD) : Vec Ideal S8192x8192 .f32 := fun j => ∑ k : Fin 8192, a0 V c (ix2 (j 0) k) * a0 V c (ix2 k (j 1))

theorem r0_out_apply (c : Dev nD) (t : Fin cfg0.N) (h7 : t.val % 8 = 7) (r s : Fin 1024) (k : S8192x8192.Idx)
    (hk0 : (k 0).val = 1024 * (t.val / 64) + r.val) (hk1 : (k 1).val = 1024 * (t.val / 8 % 8) + s.val) :
    outAt0 V c t (ix2 r s) = prod0 V c k := by
  rw [outAt0, r0_acc_eq V c r s t.val t.isLt, h7]
  have hk0' : 1024 * (t.val / 64) + r.val < 8192 := hk0 ▸ (k 0).isLt
  have hk1' : 1024 * (t.val / 8 % 8) + s.val < 8192 := hk1 ▸ (k 1).isLt
  refine (r0_part_full V c _ _ hk0' hk1').trans ?_
  unfold prod0
  have e0 : (⟨1024 * (t.val / 64) + r.val, hk0'⟩ : Fin 8192) = k 0 := Fin.ext hk0.symm
  have e1 : (⟨1024 * (t.val / 8 % 8) + s.val, hk1'⟩ : Fin 8192) = k 1 := Fin.ext hk1.symm
  rw [e0, e1]

theorem r0_oblk_apply (c : Dev nD) (t : Fin cfg0.N) (G : Vec Ideal S8192x8192 .f32) (x : S1024x1024.Idx) (k : S8192x8192.Idx)
    (hk0 : (k 0).val = 1024 * (t.val / 64) + (x 0).val) (hk1 : (k 1).val = 1024 * (t.val / 8 % 8) + (x 1).val) :
    ((((cfg0.win 2).blk t).view.read (Elt Ideal) (G : Buf (Elt Ideal) ((c : Thread nD τ).loc main_v20))) : Vec Ideal S1024x1024 .f32) x = G k := by
  rw [View.read_apply]
  exact congrArg G (r0_idx rfl rfl (r0_index2 t).1 (r0_index2 t).2 hk0 hk1)

theorem r0_flushed (c : Dev nD) (t : Fin cfg0.N) (hf : (cfg0.win 2).flush t = true) :
    (dat0 V c).flushed 2 t = ((cfg0.win 2).blk t).view.read (Elt Ideal) (prod0 V c) := by
  have h7 : t.val % 8 = 7 := (flush0_2 t).mp hf
  have hN : t.val < 512 := lt_of_lt_of_eq t.isLt (show cfg0.N = 512 from N_0)
  show (cfg0.win 2).cut (grid0.coords t) ((dat0 V c).after 2 t) = _
  rw [after0_2]
  refine funext fun (x : S1024x1024.Idx) => ?_
  have hx0 : (x 0).val < 1024 := (x 0).isLt
  have hx1 : (x 1).val < 1024 := (x 1).isLt
  have hx : x = ix2 (n0 := 1024) (n1 := 1024) (x 0) (x 1) := eq_ix2 (n0 := 1024) (n1 := 1024) x
  have b0 : 1024 * (t.val / 64) + (x 0).val < 8192 := by omega
  have b1 : 1024 * (t.val / 8 % 8) + (x 1).val < 8192 := by omega
  refine Eq.trans ?_ (r0_oblk_apply c t (prod0 V c) x (ix2 ⟨_, b0⟩ ⟨_, b1⟩) rfl rfl).symm
  show outAt0 V c t x = _
  exact (congrArg (outAt0 V c t) hx).trans (r0_out_apply V c t h7 (x 0) (x 1) _ rfl rfl)

theorem r0_cover (i : S8192x8192.Idx) : ∃ t : Fin cfg0.N, (cfg0.win 2).flush t = true ∧ i ∈ ((cfg0.win 2).blk t).view.set := by
  have h0 : (i 0 : Nat) < 8192 := (i 0).isLt
  have h1 : (i 1 : Nat) < 8192 := (i 1).isLt
  have hN : cfg0.N = 512 := N_0
  obtain ⟨t, ht⟩ : ∃ t : Fin cfg0.N, t.val = ((i 0).val / 1024 * 8 + (i 1).val / 1024) * 8 + 7 :=
    ⟨⟨((i 0).val / 1024 * 8 + (i 1).val / 1024) * 8 + 7, by rw [hN]; omega⟩, rfl⟩
  refine ⟨t, (flush0_2 t).mpr (by omega), ?_⟩
  show i ∈ ((View.whole main_v20).slice (win0_2.rect t)).set
  rw [View.set_slice_whole, Rect.mem_set_unit]
  have hi := r0_index2 t
  have hx := r0_xsize2 t
  intro a
  match a with
  | ⟨0, _⟩ => show win0_2.index t 0 * win0_2.size 0 ≤ (i 0 : Nat) ∧ (i 0 : Nat) < win0_2.index t 0 * win0_2.size 0 + win0_2.xsize (grid0.coords t) 0
              rw [hi.1, hx.1, show win0_2.size 0 = 1024 from rfl]; omega
  | ⟨1, _⟩ => show win0_2.index t 1 * win0_2.size 1 ≤ (i 1 : Nat) ∧ (i 1 : Nat) < win0_2.index t 1 * win0_2.size 1 + win0_2.xsize (grid0.coords t) 1
              rw [hi.2, hx.2, show win0_2.size 1 = 1024 from rfl]; omega

theorem arrAt0_2 (c : Dev nD) (j : S8192x8192.Idx) :
    (Hand.dat0 (F := Ideal) V c).arrAt 2 cfg0.N j = ∑ k : Fin 8192, a0 V c (ix2 (j 0) k) * a0 V c (ix2 k (j 1)) :=
  congrFun ((dat0 V c).arrAt_eq_of_cover 2 (prod0 V c) (r0_flushed V c) r0_cover) j

end Cert.KernelIdeal.Val

end
-- ==== Proof.Val.Reg2.lean ====
import proofs.«176514_j47991964565814_1_alg».proof.Proof.KI.Reg2
import proofs.«176514_j47991964565814_1_alg».proof.Proof.LibB
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

def dinv (d : EReal) : EReal := if d > 0 then Ideal.rsqrt d else 0

theorem select_rsqrt_eq_dinv (d : Ideal .f32) :
    Scalar.select (FloatOps.cmpf .ogt d (Scalar.ofBits .f32 0x00000000#32)) (FloatOps.rsqrt d) (Scalar.ofBits (F := Ideal) .f32 0x00000000#32)
      = dinv d := by
  have hz : (Scalar.ofBits (F := Ideal) .f32 0x00000000#32) = (0 : EReal) := Ideal.ofBits_zero_f32
  rw [hz, Ideal.cmpf_def]
  unfold dinv Ideal.cmp Scalar.select
  by_cases h : (0 : EReal) < d
  · simp [h]
  · simp [h]

theorem bcast_col2 (v : S64x1.Idx → EReal) (y : S64x8192.Idx) :
    broadcastTo S64x8192 v broadcasts_S64x1_S64x8192 y = v (ix2 (y 0) 0) :=
  broadcastTo_apply v _ y (ix2 (y 0) 0) (fun a => by fin_cases a <;> rfl)

theorem bcast_row2 (v : S1x8192.Idx → EReal) (y : S64x8192.Idx) :
    broadcastTo S64x8192 v broadcasts_S1x8192_S64x8192 y = v (ix2 0 (y 1)) :=
  broadcastTo_apply v _ y (ix2 0 (y 1)) (fun a => by fin_cases a <;> rfl)

theorem pay2_2_apply (x : Vec Ideal S64x1 .f32) (y : S64x1.Idx) : k2_pay2 x y = dinv (x y) := by
  unfold k2_pay2
  rw [shapeCast_self]
  exact select_rsqrt_eq_dinv (x y)

theorem pay2_3_apply (x : Vec Ideal S1x8192 .f32) (y : S1x8192.Idx) : k2_pay3 x y = dinv (x y) := by
  unfold k2_pay3
  rw [shapeCast_self]
  exact select_rsqrt_eq_dinv (x y)

theorem payNorm4_apply (x2 : Vec Ideal S64x1 .f32) (x4 : Vec Ideal S1x8192 .f32) (x0 : Vec Ideal S64x8192 .f32) (y : S64x8192.Idx) :
    k2_pay4 x2 x4 x0 y = x0 y * dinv (x2 (ix2 (y 0) 0)) * dinv (x4 (ix2 0 (y 1))) := by
  unfold k2_pay4
  rw [shapeCast_self, shapeCast_self, shapeCast_self]
  rw [mulf_apply, mulf_apply, bcast_col2, bcast_row2]
  exact congrArg₂ (· * ·) (congrArg₂ (· * ·) rfl (select_rsqrt_eq_dinv _)) (select_rsqrt_eq_dinv _)

theorem pay2_1_apply (v17 : FVec Ideal S64x1 .f32) (v27 : FVec Ideal S1x8192 .f32) (x1 : Vec Ideal S64x8192 .f32) (y : S64x8192.Idx) :
    k2_pay1 v17 v27 x1 y = x1 y * v17 (ix2 (y 0) 0) * v27 (ix2 0 (y 1)) := by
  unfold k2_pay1
  rw [shapeCast_self]
  rw [mulf_apply, mulf_apply, bcast_col2, bcast_row2]

variable (V : (c : Dev nD) → (b : Ref sig .tc) → Buf (Elt Ideal) ((c : Thread nD τ).loc b))

abbrev e2_0 (c : Dev nD) : Vec Ideal S8192x8192 .f32 := V c main_v21_0

abbrev e2_1 (c : Dev nD) : Vec Ideal S8192x8192 .f32 := V c main_v21_1

abbrev e2_2 (c : Dev nD) : Vec Ideal S8192x1 .f32 := V c main_v21_2

abbrev e2_3 (c : Dev nD) : Vec Ideal S8192x1 .f32 := V c main_v21_3

abbrev e2_4 (c : Dev nD) : Vec Ideal S1x8192 .f32 := V c main_v22

abbrev e2_5 (c : Dev nD) : Vec Ideal S1x8192 .f32 := V c main_v23

def norm2_6 (c : Dev nD) : S8192x8192.Idx → EReal :=
  fun j => e2_0 V c j * dinv (e2_2 V c (ix2 (j 0) 0)) * dinv (e2_4 V c (ix2 0 (j 1)))

def norm2_7 (c : Dev nD) : S8192x8192.Idx → EReal :=
  fun j => e2_1 V c j * dinv (e2_3 V c (ix2 (j 0) 0)) * dinv (e2_5 V c (ix2 0 (j 1)))

theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

theorem flushed2_6_eq (c : Dev nD) (t : Fin cfg2.N) :
    (Hand.dat2 V c).flushed 6 t = ((cfg2.win 6).blk t).view.read (Elt Ideal) (norm2_6 V c) := by
  show (cfg2.win 6).cut (grid2.coords t) ((Hand.dat2 V c).after 6 t) = _
  rw [Hand.after2_6]
  obtain ⟨⟨a0, b0⟩, -, ⟨a2, b2⟩, -, ⟨a4, b4⟩, -, ⟨a6, b6⟩, -⟩ := idx2 t
  funext y
  show k2_pay4 (Hand.iblk2 V c 2 t) (Hand.iblk2 V c 4 t) (Hand.iblk2 V c 0 t) y
    = norm2_6 V c (((cfg2.win 6).blk t).view.emb y)
  rw [payNorm4_apply]
  have h0 : ((cfg2.win 0).blk t).view.emb y = ((cfg2.win 6).blk t).view.emb y :=
    Shape.idx_ext₂
      (by show win2_0.index t (0 : Fin 2) * 64 + 1 * (y 0).val = win2_6.index t (0 : Fin 2) * 64 + 1 * (y 0).val; omega)
      (by show win2_0.index t (1 : Fin 2) * 8192 + 1 * (y 1).val = win2_6.index t (1 : Fin 2) * 8192 + 1 * (y 1).val; omega)
  have h2 : ((cfg2.win 2).blk t).view.emb (ix2 (y 0) (0 : Fin 1) : S64x1.Idx)
      = (ix2 ((((cfg2.win 6).blk t).view.emb y) 0) (0 : Fin 1) : S8192x1.Idx) :=
    Shape.idx_ext₂
      (by show win2_2.index t (0 : Fin 2) * 64 + 1 * (y 0).val = win2_6.index t (0 : Fin 2) * 64 + 1 * (y 0).val; omega)
      (by show win2_2.index t (1 : Fin 2) * 1 + 1 * 0 = 0; omega)
  have h4 : ((cfg2.win 4).blk t).view.emb (ix2 (0 : Fin 1) (y 1) : S1x8192.Idx)
      = (ix2 (0 : Fin 1) ((((cfg2.win 6).blk t).view.emb y) 1) : S1x8192.Idx) :=
    Shape.idx_ext₂
      (by show win2_4.index t (0 : Fin 2) * 1 + 1 * 0 = 0; omega)
      (by show win2_4.index t (1 : Fin 2) * 8192 + 1 * (y 1).val = win2_6.index t (1 : Fin 2) * 8192 + 1 * (y 1).val; omega)
  unfold Hand.iblk2 norm2_6
  simp only [View.read_apply]
  rw [h0, h2, h4]
  rfl

theorem cover2_6 (i : S8192x8192.Idx) :
    ∃ t : Fin cfg2.N, (cfg2.win 6).flush t = true ∧ i ∈ ((cfg2.win 6).blk t).view.set := by
  have hi0 : (i 0).val < 8192 := (i 0).isLt
  have hN : cfg2.N = 128 := N_2
  obtain ⟨t, ht⟩ : ∃ t : Fin cfg2.N, t.val = (i 0).val / 64 := ⟨⟨(i 0).val / 64, by omega⟩, rfl⟩
  obtain ⟨-, -, -, -, -, -, ⟨a6, b6⟩, -⟩ := idx2 t
  refine ⟨t, flush2_6 t, ?_⟩
  show i ∈ ((View.whole main_v24_0).slice (win2_6.rect t)).set
  rw [View.set_slice_whole, Rect.mem_set_unit]
  exact mem_band 64 (by decide) i _ _ _ (a6.trans ht) b6 rfl rfl rfl

theorem arrAt2_6 (c : Dev nD) (j : S8192x8192.Idx) :
    (Hand.dat2 (F := Ideal) V c).arrAt 6 cfg2.N j
      = e2_0 V c j * dinv (e2_2 V c (ix2 (j 0) 0)) * dinv (e2_4 V c (ix2 0 (j 1))) :=
  congrFun ((Hand.dat2 V c).arrAt_eq_of_cover 6 (norm2_6 V c) (fun t _ => flushed2_6_eq V c t) cover2_6) j

theorem flushed2_7_eq (c : Dev nD) (t : Fin cfg2.N) :
    (Hand.dat2 V c).flushed 7 t = ((cfg2.win 7).blk t).view.read (Elt Ideal) (norm2_7 V c) := by
  show (cfg2.win 7).cut (grid2.coords t) ((Hand.dat2 V c).after 7 t) = _
  rw [Hand.after2_7]
  obtain ⟨-, ⟨a1, b1⟩, -, ⟨a3, b3⟩, -, ⟨a5, b5⟩, -, ⟨a7, b7⟩⟩ := idx2 t
  funext y
  show k2_pay1 (k2_pay2 (Hand.iblk2 V c 3 t)) (k2_pay3 (Hand.iblk2 V c 5 t)) (Hand.iblk2 V c 1 t) y
    = norm2_7 V c (((cfg2.win 7).blk t).view.emb y)
  rw [pay2_1_apply, pay2_2_apply, pay2_3_apply]
  have h1 : ((cfg2.win 1).blk t).view.emb y = ((cfg2.win 7).blk t).view.emb y :=
    Shape.idx_ext₂
      (by show win2_1.index t (0 : Fin 2) * 64 + 1 * (y 0).val = win2_7.index t (0 : Fin 2) * 64 + 1 * (y 0).val; omega)
      (by show win2_1.index t (1 : Fin 2) * 8192 + 1 * (y 1).val = win2_7.index t (1 : Fin 2) * 8192 + 1 * (y 1).val; omega)
  have h3 : ((cfg2.win 3).blk t).view.emb (ix2 (y 0) (0 : Fin 1) : S64x1.Idx)
      = (ix2 ((((cfg2.win 7).blk t).view.emb y) 0) (0 : Fin 1) : S8192x1.Idx) :=
    Shape.idx_ext₂
      (by show win2_3.index t (0 : Fin 2) * 64 + 1 * (y 0).val = win2_7.index t (0 : Fin 2) * 64 + 1 * (y 0).val; omega)
      (by show win2_3.index t (1 : Fin 2) * 1 + 1 * 0 = 0; omega)
  have h5 : ((cfg2.win 5).blk t).view.emb (ix2 (0 : Fin 1) (y 1) : S1x8192.Idx)
      = (ix2 (0 : Fin 1) ((((cfg2.win 7).blk t).view.emb y) 1) : S1x8192.Idx) :=
    Shape.idx_ext₂
      (by show win2_5.index t (0 : Fin 2) * 1 + 1 * 0 = 0; omega)
      (by show win2_5.index t (1 : Fin 2) * 8192 + 1 * (y 1).val = win2_7.index t (1 : Fin 2) * 8192 + 1 * (y 1).val; omega)
  unfold Hand.iblk2 norm2_7
  simp only [View.read_apply]
  rw [h1, h3, h5]
  rfl

theorem cover2_7 (i : S8192x8192.Idx) :
    ∃ t : Fin cfg2.N, (cfg2.win 7).flush t = true ∧ i ∈ ((cfg2.win 7).blk t).view.set := by
  have hi0 : (i 0).val < 8192 := (i 0).isLt
  have hN : cfg2.N = 128 := N_2
  obtain ⟨t, ht⟩ : ∃ t : Fin cfg2.N, t.val = (i 0).val / 64 := ⟨⟨(i 0).val / 64, by omega⟩, rfl⟩
  obtain ⟨-, -, -, -, -, -, -, ⟨a7, b7⟩⟩ := idx2 t
  refine ⟨t, flush2_7 t, ?_⟩
  show i ∈ ((View.whole main_v24_1).slice (win2_7.rect t)).set
  rw [View.set_slice_whole, Rect.mem_set_unit]
  exact mem_band 64 (by decide) i _ _ _ (a7.trans ht) b7 rfl rfl rfl

theorem arrAt2_7 (c : Dev nD) (j : S8192x8192.Idx) :
    (Hand.dat2 (F := Ideal) V c).arrAt 7 cfg2.N j
      = e2_1 V c j * dinv (e2_3 V c (ix2 (j 0) 0)) * dinv (e2_5 V c (ix2 0 (j 1))) :=
  congrFun ((Hand.dat2 V c).arrAt_eq_of_cover 7 (norm2_7 V c) (fun t _ => flushed2_7_eq V c t) cover2_7) j

end Cert.KernelIdeal.Val

end
-- ==== Proof.Val.Reg3.lean ====
import proofs.«176514_j47991964565814_1_alg».proof.Proof.KI.Reg3
import proofs.«176514_j47991964565814_1_alg».proof.Proof.LibB
import proofs.«176514_j47991964565814_1_alg».proof.Proof.LibMM
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen Cert.KernelIdeal.Hand

theorem prod3_apply (x0 : Vec Ideal S1024x512 .f32) (x1 : Vec Ideal S512x256 .f32) (j : S1024x256.Idx) :
    k3_pay2 x0 x1 (k3_pay1 (F := Ideal)) j = ∑ k : Fin 512, x0 (ix2 (j 0) k) * x1 (ix2 k (j 1)) := by
  obtain ⟨p, q, rfl⟩ : ∃ (p : Fin 1024) (q : Fin 256), j = ix2 p q := ⟨j 0, j 1, eq_ix2 j⟩
  unfold k3_pay2 k3_pay1
  simp only [shapeCast_self]
  rw [addf_apply, broadcast_apply]
  rw [show (FloatOps.ofBits FTy.f32 0#32 : Ideal .f32) = 0 from Ideal.ofBits_zero_f32, zero_add]
  exact Cert.LibMM.plain_matmul_zero_apply rfl none x0 x1 p q

theorem relu3_apply (v : Vec Ideal S1024x256 .f32) (j : S1024x256.Idx) : k3_pay3 v j = max (v j) 0 := by
  unfold k3_pay3
  rw [maximumf_apply, broadcast_apply]
  rw [show (FloatOps.ofBits FTy.f32 0#32 : Ideal .f32) = 0 from Ideal.ofBits_zero_f32]

variable (V : (c : Dev nD) → (b : Ref sig .tc) → Buf (Elt Ideal) ((c : Thread nD τ).loc b))

abbrev x3 (c : Dev nD) : Vec Ideal S8192x512 .f32 := V c main_arg0
abbrev w3 (c : Dev nD) : Vec Ideal S512x256 .f32 := V c main_arg3

def res3 (c : Dev nD) : Vec Ideal S8192x256 .f32 := fun j => max (∑ k : Fin 512, x3 V c (ix2 (j 0) k) * w3 V c (ix2 k (j 1))) 0

theorem at3 : ∀ t : Fin cfg3.N, (win3_0.index t 0 = t.val ∧ win3_0.index t 1 = 0)
    ∧ (win3_2.index t 0 = t.val ∧ win3_2.index t 1 = 0)
    ∧ (win3_2.xsize (grid3.coords t) 0 = 1024 ∧ win3_2.xsize (grid3.coords t) 1 = 256) :=
  (by decide +kernel : ∀ t : Fin grid3.N, (win3_0.index t 0 = t.val ∧ win3_0.index t 1 = 0)
    ∧ (win3_2.index t 0 = t.val ∧ win3_2.index t 1 = 0)
    ∧ (win3_2.xsize (grid3.coords t) 0 = 1024 ∧ win3_2.xsize (grid3.coords t) 1 = 256))

theorem iblk3_0_apply (c : Dev nD) (t : Fin cfg3.N) (y : S1024x512.Idx) (k : S8192x512.Idx)
    (hk0 : (k 0).val = 1024 * t.val + (y 0).val) (hk1 : (k 1).val = (y 1).val) :
    (iblk3 V c 0 t : Vec Ideal S1024x512 .f32) y = x3 V c k := by
  have hi := (at3 t).1
  unfold iblk3
  rw [View.read_apply]
  show V c main_arg0 _ = V c main_arg0 _
  congr 1
  funext a
  apply Fin.ext
  match a with
  | ⟨0, _⟩ => show win3_0.index t 0 * 1024 + 1 * (y 0).val = (k 0).val; rw [hi.1, hk0]; omega
  | ⟨1, _⟩ => show win3_0.index t 1 * 512 + 1 * (y 1).val = (k 1).val; rw [hi.2, hk1]; omega

theorem iblk3_1_eq (c : Dev nD) (t : Fin cfg3.N) : (iblk3 V c 1 t : Vec Ideal S512x256 .f32) = w3 V c := by
  have hz : (fun a => win3_1.index t a * main_arg3.ty.shape.size a) = fun _ => 0 := by
    rcases fin_N3 t with rfl | rfl | rfl | rfl | rfl | rfl | rfl | rfl <;> exact funext fun a => by fin_cases a <;> decide
  exact Memref.read_access_unit_zero (Elt Ideal) main_arg3 hz (fun a => by rw [congrFun hz a]; simp) (V c main_arg3)

theorem flushed3 (c : Dev nD) (t : Fin cfg3.N) (hf : (cfg3.win 2).flush t = true) :
    (dat3 V c).flushed 2 t = ((cfg3.win 2).blk t).view.read (Elt Ideal) (res3 V c) := by
  show (cfg3.win 2).cut (grid3.coords t) ((dat3 V c).after 2 t) = _
  rw [after3_2, iblk3_1_eq]
  funext y
  rw [View.read_apply]
  have hi := (at3 t).2.1
  have e0 : ((win3_2.rect t).emb y 0 : Nat) = t.val * 1024 + (y 0).val := by
    rw [Pipeline.Window.rect_emb_val, hi.1]; rfl
  have e1 : ((win3_2.rect t).emb y 1 : Nat) = (y 1).val := by
    rw [Pipeline.Window.rect_emb_val, hi.2]; show 0 * 256 + (y 1).val = _; omega
  show k3_pay3 (k3_pay2 (iblk3 V c 0 t) (w3 V c) (k3_pay1 (F := Ideal))) y = res3 V c ((win3_2.rect t).emb y)
  rw [relu3_apply, prod3_apply]
  unfold res3
  congr 1
  refine Finset.sum_congr rfl fun k _ => ?_
  rw [iblk3_0_apply V c t (ix2 (y 0) k) (ix2 ((win3_2.rect t).emb y 0) k) (by show ((win3_2.rect t).emb y 0 : Nat) = 1024 * t.val + (y 0 : Nat); rw [e0]; omega) rfl]
  congr 2
  funext a
  apply Fin.ext
  match a with
  | ⟨0, _⟩ => rfl
  | ⟨1, _⟩ => exact e1.symm

theorem covered3 (i : S8192x256.Idx) : ∃ t : Fin cfg3.N, (cfg3.win 2).flush t = true ∧ i ∈ ((cfg3.win 2).blk t).view.set := by
  have h0 : (i 0 : Nat) < 8192 := (i 0).isLt
  have hN : cfg3.N = 8 := N_3
  obtain ⟨t, ht⟩ : ∃ t : Fin cfg3.N, t.val = (i 0 : Nat) / 1024 := ⟨⟨(i 0 : Nat) / 1024, by omega⟩, rfl⟩
  obtain ⟨-, hi, hx⟩ := at3 t
  refine ⟨t, flush3_2 t, ?_⟩
  show i ∈ ((View.whole main_v25).slice (win3_2.rect t)).set
  rw [View.set_slice_whole, Rect.mem_set_unit]
  exact mem_band 1024 (by decide) i _ _ _ (hi.1.trans ht) hi.2 rfl hx.1 hx.2

theorem arrAt3_2 (c : Dev nD) (j : S8192x256.Idx) :
    (Hand.dat3 (F := Ideal) V c).arrAt 2 cfg3.N j = max (∑ k : Fin 512, x3 V c (ix2 (j 0) k) * w3 V c (ix2 k (j 1))) 0 :=
  congrFun ((dat3 V c).arrAt_eq_of_cover 2 (res3 V c) (flushed3 V c) covered3) j

end Cert.KernelIdeal.Val

end
-- ==== Proof.Val.Reg4.lean ====
import proofs.«176514_j47991964565814_1_alg».proof.Proof.LibMM
import proofs.«176514_j47991964565814_1_alg».proof.Proof.KI.Reg4
import Idealize.ShloMosaic.Lib.Pipeline.Value
import Idealize.ShloMosaic.Lib.ValueIdx
import Idealize.ShloMosaic.PureOps.Ideal.Laws
import Idealize.ShloMosaic.Lib.Tactic
import Mathlib.Algebra.BigOperators.Intervals

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

section AtIdeal4
variable (V : (c : Dev nD) → (b : Ref sig .tc) → Buf (Elt Ideal) ((c : Thread nD τ).loc b))

abbrev a4 (c : Dev nD) : Vec Ideal S8192x8192 .f32 := V c main_v24_0
abbrev r4 (c : Dev nD) : Vec Ideal S8192x256 .f32 := V c main_v25
abbrev lblk4 (c : Dev nD) (t : Fin cfg4.N) : Vec Ideal S1024x1024 .f32 := Hand.blk4 V c 0 t
abbrev rblk4 (c : Dev nD) (t : Fin cfg4.N) : Vec Ideal S1024x256 .f32 := Hand.blk4 V c 1 t

theorem idx4_0 : ∀ t : Fin grid4.N, win4_0.index t 0 = t.val / 8 ∧ win4_0.index t 1 = t.val % 8 := by decide +kernel
theorem idx4_1 : ∀ t : Fin grid4.N, win4_1.index t 0 = t.val % 8 ∧ win4_1.index t 1 = 0 := by decide +kernel
theorem idx4_2 : ∀ t : Fin grid4.N, win4_2.index t 0 = t.val / 8 ∧ win4_2.index t 1 = 0 := by decide +kernel

theorem lblk4_apply (c : Dev nD) (t : Fin cfg4.N) (p l : Fin 1024) (m n : Fin 8192)
    (hm : m.val = 1024 * (t.val / 8) + p.val) (hn : n.val = 1024 * (t.val % 8) + l.val) :
    lblk4 V c t (ix2 p l) = a4 V c (ix2 m n) := by
  have hi := idx4_0 t
  unfold lblk4 Hand.blk4
  rw [View.read_apply]
  show V c main_v24_0 _ = V c main_v24_0 (ix2 m n)
  congr 1
  funext ax
  apply Fin.ext
  match ax with
  | ⟨0, _⟩ => show win4_0.index t 0 * 1024 + 1 * p.val = m.val; rw [hi.1, hm]; omega
  | ⟨1, _⟩ => show win4_0.index t 1 * 1024 + 1 * l.val = n.val; rw [hi.2, hn]; omega

theorem rblk4_apply (c : Dev nD) (t : Fin cfg4.N) (l : Fin 1024) (q : Fin 256) (n : Fin 8192)
    (hn : n.val = 1024 * (t.val % 8) + l.val) :
    rblk4 V c t (ix2 l q) = r4 V c (ix2 n q) := by
  have hi := idx4_1 t
  unfold rblk4 Hand.blk4
  rw [View.read_apply]
  show V c main_v25 _ = V c main_v25 (ix2 n q)
  congr 1
  funext ax
  apply Fin.ext
  match ax with
  | ⟨0, _⟩ => show win4_1.index t 0 * 1024 + 1 * l.val = n.val; rw [hi.1, hn]; omega
  | ⟨1, _⟩ => show win4_1.index t 1 * 256 + 1 * q.val = q.val; rw [hi.2]; omega

theorem pay1_4_apply (y : S1024x256.Idx) : k4_pay1 (F := Ideal) y = 0 := by
  unfold k4_pay1
  simp only [shapeCast_self]
  exact Ideal.ofBits_zero_f32

theorem pay2_4_apply (x0 : Vec Ideal S1024x1024 .f32) (x1 xs : Vec Ideal S1024x256 .f32) (p : Fin 1024) (q : Fin 256) :
    k4_pay2 x0 x1 xs (ix2 p q) = xs (ix2 p q) + ∑ l : Fin 1024, x0 (ix2 p l) * x1 (ix2 l q) := by
  unfold k4_pay2
  simp only [shapeCast_self]
  exact congrArg (xs (ix2 p q) + ·) (Cert.LibMM.plain_matmul_zero_apply rfl none x0 x1 p q)

theorem pay3_4_apply (v : Vec Ideal S1024x256 .f32) (y : S1024x256.Idx) : k4_pay3 v y = max (v y) 0 := by
  unfold k4_pay3
  show max (v y) (Ideal.ofBits .f32 0x00000000#32) = _
  rw [Ideal.ofBits_zero_f32]

def term4 (c : Dev nD) (m q n : ℕ) : EReal :=
  if h : m < 8192 ∧ n < 8192 ∧ q < 256 then a4 V c (ix2 ⟨m, h.1⟩ ⟨n, h.2.1⟩) * r4 V c (ix2 ⟨n, h.2.1⟩ ⟨q, h.2.2⟩) else 0

theorem sum_blocks4 (f : ℕ → EReal) (L : ℕ) : ∀ B : ℕ,
    ∑ n ∈ Finset.range (B * L), f n = ∑ b ∈ Finset.range B, ∑ l ∈ Finset.range L, f (L * b + l)
  | 0 => by simp
  | B + 1 => by
    rw [Nat.succ_mul, Finset.sum_range_add, sum_blocks4 f L B, Finset.sum_range_succ, Nat.mul_comm B L]

theorem blockSum4 (c : Dev nD) (t : Fin cfg4.N) (p : Fin 1024) (q : Fin 256) :
    ∑ l : Fin 1024, lblk4 V c t (ix2 p l) * rblk4 V c t (ix2 l q)
      = ∑ l ∈ Finset.range 1024, term4 V c (1024 * (t.val / 8) + p.val) q.val (1024 * (t.val % 8) + l) := by
  have hN : t.val < 64 := lt_of_lt_of_eq t.isLt (show cfg4.N = 64 from N_4)
  rw [Finset.sum_range]
  refine Finset.sum_congr rfl fun l _ => ?_
  have hm : 1024 * (t.val / 8) + p.val < 8192 := by have := p.isLt; omega
  have hn : 1024 * (t.val % 8) + l.val < 8192 := by have := l.isLt; omega
  unfold term4
  rw [dif_pos ⟨hm, hn, q.isLt⟩, lblk4_apply V c t p l ⟨_, hm⟩ ⟨_, hn⟩ rfl rfl, rblk4_apply V c t l q ⟨_, hn⟩ rfl]

-- after position n the running sum holds, entry by entry, the first n % 8 + 1 stretches of 1024 terms of the entry's sum
theorem accAt4_apply (c : Dev nD) : ∀ (n : ℕ) (hn : n < cfg4.N) (p : Fin 1024) (q : Fin 256),
    (Hand.accAt4 V c n hn : Vec Ideal S1024x256 .f32) (ix2 p q)
      = ∑ kk ∈ Finset.range (n % 8 + 1), ∑ l ∈ Finset.range 1024, term4 V c (1024 * (n / 8) + p.val) q.val (1024 * kk + l) := by
  intro n
  induction n with
  | zero =>
    intro hn p q
    refine (congrFun (Hand.accAt4_restart V c ⟨0, hn⟩ rfl) (ix2 p q)).trans ?_
    refine (pay2_4_apply (lblk4 V c ⟨0, hn⟩) (rblk4 V c ⟨0, hn⟩) (k4_pay1 (F := Ideal)) p q).trans ?_
    rw [pay1_4_apply, zero_add, blockSum4 V c ⟨0, hn⟩ p q]
    simp
  | succ m ih =>
    intro hn p q
    by_cases h0 : (m + 1) % 8 = 0
    · refine (congrFun (Hand.accAt4_restart V c ⟨m + 1, hn⟩ h0) (ix2 p q)).trans ?_
      refine (pay2_4_apply (lblk4 V c ⟨m + 1, hn⟩) (rblk4 V c ⟨m + 1, hn⟩) (k4_pay1 (F := Ideal)) p q).trans ?_
      rw [pay1_4_apply, zero_add, blockSum4 V c ⟨m + 1, hn⟩ p q]
      show _ = ∑ kk ∈ Finset.range ((m + 1) % 8 + 1), _
      rw [h0, Finset.sum_range_one]
    · refine (congrFun (Hand.accAt4_add V c ⟨m + 1, hn⟩ h0) (ix2 p q)).trans ?_
      refine (pay2_4_apply (lblk4 V c ⟨m + 1, hn⟩) (rblk4 V c ⟨m + 1, hn⟩) (Hand.accAt4 V c m (Nat.lt_of_succ_lt hn)) p q).trans ?_
      rw [ih (Nat.lt_of_succ_lt hn) p q, blockSum4 V c ⟨m + 1, hn⟩ p q]
      show _ + (∑ l ∈ Finset.range 1024, term4 V c (1024 * ((m + 1) / 8) + p.val) q.val (1024 * ((m + 1) % 8) + l)) = _
      have e1 : m / 8 = (m + 1) / 8 := by omega
      have e2 : (m + 1) % 8 = m % 8 + 1 := by omega
      rw [e1, e2, Finset.sum_range_succ (fun kk => ∑ l ∈ Finset.range 1024, term4 V c (1024 * ((m + 1) / 8) + p.val) q.val (1024 * kk + l)) (m % 8 + 1)]

theorem accAt4_at (c : Dev nD) (n : ℕ) (hn : n < cfg4.N) (y : S1024x256.Idx) :
    (Hand.accAt4 V c n hn : Vec Ideal S1024x256 .f32) y
      = ∑ kk ∈ Finset.range (n % 8 + 1), ∑ l ∈ Finset.range 1024, term4 V c (1024 * (n / 8) + (y 0).val) (y 1).val (1024 * kk + l) := by
  exact (congrArg (Hand.accAt4 V c n hn : Vec Ideal S1024x256 .f32) (eq_ix2 y)).trans (accAt4_apply V c n hn (y 0) (y 1))

def res4 (c : Dev nD) : Vec Ideal S8192x256 .f32 :=
  fun j => max (∑ k : Fin 8192, a4 V c (ix2 (j 0) k) * r4 V c (ix2 k (j 1))) 0

-- an entry's whole sum is its eight stretches
theorem whole4 (c : Dev nD) (m : Fin 8192) (q : Fin 256) :
    ∑ k : Fin 8192, a4 V c (ix2 m k) * r4 V c (ix2 k q)
      = ∑ kk ∈ Finset.range 8, ∑ l ∈ Finset.range 1024, term4 V c m.val q.val (1024 * kk + l) := by
  rw [show (∑ kk ∈ Finset.range 8, ∑ l ∈ Finset.range 1024, term4 V c m.val q.val (1024 * kk + l)) = ∑ n ∈ Finset.range 8192, term4 V c m.val q.val n from
    (sum_blocks4 (fun n => term4 V c m.val q.val n) 1024 8).symm, Finset.sum_range]
  refine Finset.sum_congr rfl fun k _ => ?_
  unfold term4
  rw [dif_pos ⟨m.isLt, k.isLt, q.isLt⟩]

theorem ext4_2 : ∀ t : Fin grid4.N, win4_2.xsize (grid4.coords t) 0 = 1024 ∧ win4_2.xsize (grid4.coords t) 1 = 256 := by decide +kernel

theorem flushed4_eq (c : Dev nD) (t : Fin cfg4.N) (hf : (cfg4.win 2).flush t = true) :
    (Hand.dat4 V c).flushed 2 t = ((cfg4.win 2).blk t).view.read (Elt Ideal) (res4 V c) := by
  have hN : t.val < 64 := lt_of_lt_of_eq t.isLt (show cfg4.N = 64 from N_4)
  have h7 : t.val % 8 = 7 := (flush4_2 t).mp hf
  have hi := idx4_2 t
  show (cfg4.win 2).cut (grid4.coords t) ((Hand.dat4 V c).after 2 t) = _
  rw [Hand.after4_2]; unfold Hand.outAt4
  funext x
  have hx0 : (x 0).val < 1024 := lt_of_lt_of_eq (x 0).isLt (ext4_2 t).1
  have hx1 : (x 1).val < 256 := lt_of_lt_of_eq (x 1).isLt (ext4_2 t).2
  have hm : 1024 * (t.val / 8) + (x 0).val < 8192 := by omega
  rw [View.read_apply]
  show k4_pay3 (Hand.accAt4 V c t.val t.isLt) ((cfg4.win 2).xinj (grid4.coords t) x) = res4 V c (((cfg4.win 2).blk t).view.emb x)
  rw [pay3_4_apply, accAt4_at V c t.val t.isLt ((cfg4.win 2).xinj (grid4.coords t) x), h7]
  have hidx : (((cfg4.win 2).blk t).view.emb x : S8192x256.Idx) = ix2 ⟨1024 * (t.val / 8) + (x 0).val, hm⟩ ⟨(x 1).val, hx1⟩ := by
    funext ax
    apply Fin.ext
    match ax with
    | ⟨0, _⟩ => show win4_2.index t 0 * 1024 + 1 * (x 0).val = 1024 * (t.val / 8) + (x 0).val; rw [hi.1]; omega
    | ⟨1, _⟩ => show win4_2.index t 1 * 256 + 1 * (x 1).val = (x 1).val; rw [hi.2]; omega
  rw [hidx]
  unfold res4
  show _ = max (∑ k : Fin 8192, a4 V c (ix2 ⟨1024 * (t.val / 8) + (x 0).val, hm⟩ k) * r4 V c (ix2 k ⟨(x 1).val, hx1⟩)) 0
  rw [whole4 V c ⟨1024 * (t.val / 8) + (x 0).val, hm⟩ ⟨(x 1).val, hx1⟩]

-- row m lies in the block written at point 8 (m / 1024) + 7
theorem cover4 (i : S8192x256.Idx) : ∃ t : Fin cfg4.N, (cfg4.win 2).flush t = true ∧ i ∈ ((cfg4.win 2).blk t).view.set := by
  have h0 : (i 0 : Nat) < 8192 := (i 0).isLt
  have h1 : (i 1 : Nat) < 256 := (i 1).isLt
  have hN : cfg4.N = 64 := N_4
  let t : Fin cfg4.N := ⟨8 * ((i 0).val / 1024) + 7, by rw [hN]; omega⟩
  have hi := idx4_2 t
  have he := ext4_2 t
  refine ⟨t, (flush4_2 t).mpr (by show (8 * ((i 0).val / 1024) + 7) % 8 = 7; omega), ?_⟩
  show i ∈ ((View.whole main_v26).slice (win4_2.rect t)).set
  rw [View.set_slice_whole, Rect.mem_set_unit]
  intro ax
  match ax with
  | ⟨0, _⟩ =>
    show win4_2.index t 0 * win4_2.size 0 ≤ (i 0 : Nat) ∧ (i 0 : Nat) < win4_2.index t 0 * win4_2.size 0 + win4_2.xsize (grid4.coords t) 0
    rw [hi.1, he.1, show win4_2.size 0 = 1024 from rfl]
    show (8 * ((i 0).val / 1024) + 7) / 8 * 1024 ≤ (i 0).val ∧ (i 0).val < (8 * ((i 0).val / 1024) + 7) / 8 * 1024 + 1024
    omega
  | ⟨1, _⟩ =>
    show win4_2.index t 1 * win4_2.size 1 ≤ (i 1 : Nat) ∧ (i 1 : Nat) < win4_2.index t 1 * win4_2.size 1 + win4_2.xsize (grid4.coords t) 1
    rw [hi.2, he.2]; omega

-- the result, entry by entry: max (∑ₖ a[m, k] · r[k, q]) 0
theorem arrAt4_2 (c : Dev nD) (j : S8192x256.Idx) :
    (Hand.dat4 (F := Ideal) V c).arrAt 2 cfg4.N j = max (∑ k : Fin 8192, a4 V c (ix2 (j 0) k) * r4 V c (ix2 k (j 1))) 0 :=
  congrFun ((Hand.dat4 (F := Ideal) V c).arrAt_eq_of_cover 2 (res4 V c) (flushed4_eq V c) cover4) j

end AtIdeal4

end Cert.KernelIdeal.Val

end
-- ==== Proof.Val.Reg5.lean ====
import proofs.«176514_j47991964565814_1_alg».proof.Proof.LibMM
import proofs.«176514_j47991964565814_1_alg».proof.Proof.KI.Reg5
import Idealize.ShloMosaic.Lib.Pipeline.Value
import Idealize.ShloMosaic.Lib.ValueIdx
import Idealize.ShloMosaic.PureOps.Ideal.Laws
import Idealize.ShloMosaic.Lib.Tactic
import Mathlib.Algebra.BigOperators.Intervals

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

section AtIdeal5
variable (V : (c : Dev nD) → (b : Ref sig .tc) → Buf (Elt Ideal) ((c : Thread nD τ).loc b))

abbrev a5 (c : Dev nD) : Vec Ideal S8192x8192 .f32 := V c main_v24_1
abbrev r5 (c : Dev nD) : Vec Ideal S8192x256 .f32 := V c main_v25
abbrev lblk5 (c : Dev nD) (t : Fin cfg5.N) : Vec Ideal S1024x1024 .f32 := Hand.blk5 V c 0 t
abbrev rblk5 (c : Dev nD) (t : Fin cfg5.N) : Vec Ideal S1024x256 .f32 := Hand.blk5 V c 1 t

theorem idx5_0 : ∀ t : Fin grid5.N, win5_0.index t 0 = t.val / 8 ∧ win5_0.index t 1 = t.val % 8 := by decide +kernel
theorem idx5_1 : ∀ t : Fin grid5.N, win5_1.index t 0 = t.val % 8 ∧ win5_1.index t 1 = 0 := by decide +kernel
theorem idx5_2 : ∀ t : Fin grid5.N, win5_2.index t 0 = t.val / 8 ∧ win5_2.index t 1 = 0 := by decide +kernel

theorem lblk5_apply (c : Dev nD) (t : Fin cfg5.N) (p l : Fin 1024) (m n : Fin 8192)
    (hm : m.val = 1024 * (t.val / 8) + p.val) (hn : n.val = 1024 * (t.val % 8) + l.val) :
    lblk5 V c t (ix2 p l) = a5 V c (ix2 m n) := by
  have hi := idx5_0 t
  unfold lblk5 Hand.blk5
  rw [View.read_apply]
  show V c main_v24_1 _ = V c main_v24_1 (ix2 m n)
  congr 1
  funext ax
  apply Fin.ext
  match ax with
  | ⟨0, _⟩ => show win5_0.index t 0 * 1024 + 1 * p.val = m.val; rw [hi.1, hm]; omega
  | ⟨1, _⟩ => show win5_0.index t 1 * 1024 + 1 * l.val = n.val; rw [hi.2, hn]; omega

theorem rblk5_apply (c : Dev nD) (t : Fin cfg5.N) (l : Fin 1024) (q : Fin 256) (n : Fin 8192)
    (hn : n.val = 1024 * (t.val % 8) + l.val) :
    rblk5 V c t (ix2 l q) = r5 V c (ix2 n q) := by
  have hi := idx5_1 t
  unfold rblk5 Hand.blk5
  rw [View.read_apply]
  show V c main_v25 _ = V c main_v25 (ix2 n q)
  congr 1
  funext ax
  apply Fin.ext
  match ax with
  | ⟨0, _⟩ => show win5_1.index t 0 * 1024 + 1 * l.val = n.val; rw [hi.1, hn]; omega
  | ⟨1, _⟩ => show win5_1.index t 1 * 256 + 1 * q.val = q.val; rw [hi.2]; omega

theorem pay1_5_apply (y : S1024x256.Idx) : k5_pay1 (F := Ideal) y = 0 := by
  unfold k5_pay1
  simp only [shapeCast_self]
  exact Ideal.ofBits_zero_f32

theorem pay2_5_apply (x0 : Vec Ideal S1024x1024 .f32) (x1 xs : Vec Ideal S1024x256 .f32) (p : Fin 1024) (q : Fin 256) :
    k5_pay2 x0 x1 xs (ix2 p q) = xs (ix2 p q) + ∑ l : Fin 1024, x0 (ix2 p l) * x1 (ix2 l q) := by
  unfold k5_pay2
  simp only [shapeCast_self]
  exact congrArg (xs (ix2 p q) + ·) (Cert.LibMM.plain_matmul_zero_apply rfl none x0 x1 p q)

theorem pay3_5_apply (v : Vec Ideal S1024x256 .f32) (y : S1024x256.Idx) : k5_pay3 v y = max (v y) 0 := by
  unfold k5_pay3
  show max (v y) (Ideal.ofBits .f32 0x00000000#32) = _
  rw [Ideal.ofBits_zero_f32]

def term5 (c : Dev nD) (m q n : ℕ) : EReal :=
  if h : m < 8192 ∧ n < 8192 ∧ q < 256 then a5 V c (ix2 ⟨m, h.1⟩ ⟨n, h.2.1⟩) * r5 V c (ix2 ⟨n, h.2.1⟩ ⟨q, h.2.2⟩) else 0

theorem sum_blocks5 (f : ℕ → EReal) (L : ℕ) : ∀ B : ℕ,
    ∑ n ∈ Finset.range (B * L), f n = ∑ b ∈ Finset.range B, ∑ l ∈ Finset.range L, f (L * b + l)
  | 0 => by simp
  | B + 1 => by
    rw [Nat.succ_mul, Finset.sum_range_add, sum_blocks5 f L B, Finset.sum_range_succ, Nat.mul_comm B L]

theorem blockSum5 (c : Dev nD) (t : Fin cfg5.N) (p : Fin 1024) (q : Fin 256) :
    ∑ l : Fin 1024, lblk5 V c t (ix2 p l) * rblk5 V c t (ix2 l q)
      = ∑ l ∈ Finset.range 1024, term5 V c (1024 * (t.val / 8) + p.val) q.val (1024 * (t.val % 8) + l) := by
  have hN : t.val < 64 := lt_of_lt_of_eq t.isLt (show cfg5.N = 64 from N_5)
  rw [Finset.sum_range]
  refine Finset.sum_congr rfl fun l _ => ?_
  have hm : 1024 * (t.val / 8) + p.val < 8192 := by have := p.isLt; omega
  have hn : 1024 * (t.val % 8) + l.val < 8192 := by have := l.isLt; omega
  unfold term5
  rw [dif_pos ⟨hm, hn, q.isLt⟩, lblk5_apply V c t p l ⟨_, hm⟩ ⟨_, hn⟩ rfl rfl, rblk5_apply V c t l q ⟨_, hn⟩ rfl]

-- after position n the running sum holds, entry by entry, the first n % 8 + 1 stretches of 1024 terms of the entry's sum
theorem accAt5_apply (c : Dev nD) : ∀ (n : ℕ) (hn : n < cfg5.N) (p : Fin 1024) (q : Fin 256),
    (Hand.accAt5 V c n hn : Vec Ideal S1024x256 .f32) (ix2 p q)
      = ∑ kk ∈ Finset.range (n % 8 + 1), ∑ l ∈ Finset.range 1024, term5 V c (1024 * (n / 8) + p.val) q.val (1024 * kk + l) := by
  intro n
  induction n with
  | zero =>
    intro hn p q
    refine (congrFun (Hand.accAt5_restart V c ⟨0, hn⟩ rfl) (ix2 p q)).trans ?_
    refine (pay2_5_apply (lblk5 V c ⟨0, hn⟩) (rblk5 V c ⟨0, hn⟩) (k5_pay1 (F := Ideal)) p q).trans ?_
    rw [pay1_5_apply, zero_add, blockSum5 V c ⟨0, hn⟩ p q]
    simp
  | succ m ih =>
    intro hn p q
    by_cases h0 : (m + 1) % 8 = 0
    · refine (congrFun (Hand.accAt5_restart V c ⟨m + 1, hn⟩ h0) (ix2 p q)).trans ?_
      refine (pay2_5_apply (lblk5 V c ⟨m + 1, hn⟩) (rblk5 V c ⟨m + 1, hn⟩) (k5_pay1 (F := Ideal)) p q).trans ?_
      rw [pay1_5_apply, zero_add, blockSum5 V c ⟨m + 1, hn⟩ p q]
      show _ = ∑ kk ∈ Finset.range ((m + 1) % 8 + 1), _
      rw [h0, Finset.sum_range_one]
    · refine (congrFun (Hand.accAt5_add V c ⟨m + 1, hn⟩ h0) (ix2 p q)).trans ?_
      refine (pay2_5_apply (lblk5 V c ⟨m + 1, hn⟩) (rblk5 V c ⟨m + 1, hn⟩) (Hand.accAt5 V c m (Nat.lt_of_succ_lt hn)) p q).trans ?_
      rw [ih (Nat.lt_of_succ_lt hn) p q, blockSum5 V c ⟨m + 1, hn⟩ p q]
      show _ + (∑ l ∈ Finset.range 1024, term5 V c (1024 * ((m + 1) / 8) + p.val) q.val (1024 * ((m + 1) % 8) + l)) = _
      have e1 : m / 8 = (m + 1) / 8 := by omega
      have e2 : (m + 1) % 8 = m % 8 + 1 := by omega
      rw [e1, e2, Finset.sum_range_succ (fun kk => ∑ l ∈ Finset.range 1024, term5 V c (1024 * ((m + 1) / 8) + p.val) q.val (1024 * kk + l)) (m % 8 + 1)]

theorem accAt5_at (c : Dev nD) (n : ℕ) (hn : n < cfg5.N) (y : S1024x256.Idx) :
    (Hand.accAt5 V c n hn : Vec Ideal S1024x256 .f32) y
      = ∑ kk ∈ Finset.range (n % 8 + 1), ∑ l ∈ Finset.range 1024, term5 V c (1024 * (n / 8) + (y 0).val) (y 1).val (1024 * kk + l) := by
  exact (congrArg (Hand.accAt5 V c n hn : Vec Ideal S1024x256 .f32) (eq_ix2 y)).trans (accAt5_apply V c n hn (y 0) (y 1))

def res5 (c : Dev nD) : Vec Ideal S8192x256 .f32 :=
  fun j => max (∑ k : Fin 8192, a5 V c (ix2 (j 0) k) * r5 V c (ix2 k (j 1))) 0

-- an entry's whole sum is its eight stretches
theorem whole5 (c : Dev nD) (m : Fin 8192) (q : Fin 256) :
    ∑ k : Fin 8192, a5 V c (ix2 m k) * r5 V c (ix2 k q)
      = ∑ kk ∈ Finset.range 8, ∑ l ∈ Finset.range 1024, term5 V c m.val q.val (1024 * kk + l) := by
  rw [show (∑ kk ∈ Finset.range 8, ∑ l ∈ Finset.range 1024, term5 V c m.val q.val (1024 * kk + l)) = ∑ n ∈ Finset.range 8192, term5 V c m.val q.val n from
    (sum_blocks5 (fun n => term5 V c m.val q.val n) 1024 8).symm, Finset.sum_range]
  refine Finset.sum_congr rfl fun k _ => ?_
  unfold term5
  rw [dif_pos ⟨m.isLt, k.isLt, q.isLt⟩]

theorem ext5_2 : ∀ t : Fin grid5.N, win5_2.xsize (grid5.coords t) 0 = 1024 ∧ win5_2.xsize (grid5.coords t) 1 = 256 := by decide +kernel

theorem flushed5_eq (c : Dev nD) (t : Fin cfg5.N) (hf : (cfg5.win 2).flush t = true) :
    (Hand.dat5 V c).flushed 2 t = ((cfg5.win 2).blk t).view.read (Elt Ideal) (res5 V c) := by
  have hN : t.val < 64 := lt_of_lt_of_eq t.isLt (show cfg5.N = 64 from N_5)
  have h7 : t.val % 8 = 7 := (flush5_2 t).mp hf
  have hi := idx5_2 t
  show (cfg5.win 2).cut (grid5.coords t) ((Hand.dat5 V c).after 2 t) = _
  rw [Hand.after5_2]; unfold Hand.outAt5
  funext x
  have hx0 : (x 0).val < 1024 := lt_of_lt_of_eq (x 0).isLt (ext5_2 t).1
  have hx1 : (x 1).val < 256 := lt_of_lt_of_eq (x 1).isLt (ext5_2 t).2
  have hm : 1024 * (t.val / 8) + (x 0).val < 8192 := by omega
  rw [View.read_apply]
  show k5_pay3 (Hand.accAt5 V c t.val t.isLt) ((cfg5.win 2).xinj (grid5.coords t) x) = res5 V c (((cfg5.win 2).blk t).view.emb x)
  rw [pay3_5_apply, accAt5_at V c t.val t.isLt ((cfg5.win 2).xinj (grid5.coords t) x), h7]
  have hidx : (((cfg5.win 2).blk t).view.emb x : S8192x256.Idx) = ix2 ⟨1024 * (t.val / 8) + (x 0).val, hm⟩ ⟨(x 1).val, hx1⟩ := by
    funext ax
    apply Fin.ext
    match ax with
    | ⟨0, _⟩ => show win5_2.index t 0 * 1024 + 1 * (x 0).val = 1024 * (t.val / 8) + (x 0).val; rw [hi.1]; omega
    | ⟨1, _⟩ => show win5_2.index t 1 * 256 + 1 * (x 1).val = (x 1).val; rw [hi.2]; omega
  rw [hidx]
  unfold res5
  show _ = max (∑ k : Fin 8192, a5 V c (ix2 ⟨1024 * (t.val / 8) + (x 0).val, hm⟩ k) * r5 V c (ix2 k ⟨(x 1).val, hx1⟩)) 0
  rw [whole5 V c ⟨1024 * (t.val / 8) + (x 0).val, hm⟩ ⟨(x 1).val, hx1⟩]

-- row m lies in the block written at point 8 (m / 1024) + 7
theorem cover5 (i : S8192x256.Idx) : ∃ t : Fin cfg5.N, (cfg5.win 2).flush t = true ∧ i ∈ ((cfg5.win 2).blk t).view.set := by
  have h0 : (i 0 : Nat) < 8192 := (i 0).isLt
  have h1 : (i 1 : Nat) < 256 := (i 1).isLt
  have hN : cfg5.N = 64 := N_5
  let t : Fin cfg5.N := ⟨8 * ((i 0).val / 1024) + 7, by rw [hN]; omega⟩
  have hi := idx5_2 t
  have he := ext5_2 t
  refine ⟨t, (flush5_2 t).mpr (by show (8 * ((i 0).val / 1024) + 7) % 8 = 7; omega), ?_⟩
  show i ∈ ((View.whole main_v27).slice (win5_2.rect t)).set
  rw [View.set_slice_whole, Rect.mem_set_unit]
  intro ax
  match ax with
  | ⟨0, _⟩ =>
    show win5_2.index t 0 * win5_2.size 0 ≤ (i 0 : Nat) ∧ (i 0 : Nat) < win5_2.index t 0 * win5_2.size 0 + win5_2.xsize (grid5.coords t) 0
    rw [hi.1, he.1, show win5_2.size 0 = 1024 from rfl]
    show (8 * ((i 0).val / 1024) + 7) / 8 * 1024 ≤ (i 0).val ∧ (i 0).val < (8 * ((i 0).val / 1024) + 7) / 8 * 1024 + 1024
    omega
  | ⟨1, _⟩ =>
    show win5_2.index t 1 * win5_2.size 1 ≤ (i 1 : Nat) ∧ (i 1 : Nat) < win5_2.index t 1 * win5_2.size 1 + win5_2.xsize (grid5.coords t) 1
    rw [hi.2, he.2]; omega

-- the result, entry by entry: max (∑ₖ a[m, k] · r[k, q]) 0
theorem arrAt5_2 (c : Dev nD) (j : S8192x256.Idx) :
    (Hand.dat5 (F := Ideal) V c).arrAt 2 cfg5.N j = max (∑ k : Fin 8192, a5 V c (ix2 (j 0) k) * r5 V c (ix2 k (j 1))) 0 :=
  congrFun ((Hand.dat5 (F := Ideal) V c).arrAt_eq_of_cover 2 (res5 V c) (flushed5_eq V c) cover5) j

end AtIdeal5

end Cert.KernelIdeal.Val

end
-- ==== Proof.Val.Reg6.lean ====
import proofs.«176514_j47991964565814_1_alg».proof.Proof.LibMM
import proofs.«176514_j47991964565814_1_alg».proof.Proof.KI.Reg6
import Idealize.ShloMosaic.Lib.Pipeline.Value
import Idealize.ShloMosaic.Lib.ValueIdx
import Idealize.ShloMosaic.PureOps.Ideal.Laws
import Idealize.ShloMosaic.Lib.Tactic
import Mathlib.Algebra.BigOperators.Intervals

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

section AtIdeal6
variable (V : (c : Dev nD) → (b : Ref sig .tc) → Buf (Elt Ideal) ((c : Thread nD τ).loc b))

abbrev a6 (c : Dev nD) : Vec Ideal S8192x8192 .f32 := V c main_v24_0
abbrev r6 (c : Dev nD) : Vec Ideal S8192x512 .f32 := V c main_v28
abbrev lblk6 (c : Dev nD) (t : Fin cfg6.N) : Vec Ideal S1024x1024 .f32 := Hand.blk6 V c 0 t
abbrev rblk6 (c : Dev nD) (t : Fin cfg6.N) : Vec Ideal S1024x512 .f32 := Hand.blk6 V c 1 t

theorem idx6_0 : ∀ t : Fin grid6.N, win6_0.index t 0 = t.val / 8 ∧ win6_0.index t 1 = t.val % 8 := by decide +kernel
theorem idx6_1 : ∀ t : Fin grid6.N, win6_1.index t 0 = t.val % 8 ∧ win6_1.index t 1 = 0 := by decide +kernel
theorem idx6_2 : ∀ t : Fin grid6.N, win6_2.index t 0 = t.val / 8 ∧ win6_2.index t 1 = 0 := by decide +kernel

theorem lblk6_apply (c : Dev nD) (t : Fin cfg6.N) (p l : Fin 1024) (m n : Fin 8192)
    (hm : m.val = 1024 * (t.val / 8) + p.val) (hn : n.val = 1024 * (t.val % 8) + l.val) :
    lblk6 V c t (ix2 p l) = a6 V c (ix2 m n) := by
  have hi := idx6_0 t
  unfold lblk6 Hand.blk6
  rw [View.read_apply]
  show V c main_v24_0 _ = V c main_v24_0 (ix2 m n)
  congr 1
  funext ax
  apply Fin.ext
  match ax with
  | ⟨0, _⟩ => show win6_0.index t 0 * 1024 + 1 * p.val = m.val; rw [hi.1, hm]; omega
  | ⟨1, _⟩ => show win6_0.index t 1 * 1024 + 1 * l.val = n.val; rw [hi.2, hn]; omega

theorem rblk6_apply (c : Dev nD) (t : Fin cfg6.N) (l : Fin 1024) (q : Fin 512) (n : Fin 8192)
    (hn : n.val = 1024 * (t.val % 8) + l.val) :
    rblk6 V c t (ix2 l q) = r6 V c (ix2 n q) := by
  have hi := idx6_1 t
  unfold rblk6 Hand.blk6
  rw [View.read_apply]
  show V c main_v28 _ = V c main_v28 (ix2 n q)
  congr 1
  funext ax
  apply Fin.ext
  match ax with
  | ⟨0, _⟩ => show win6_1.index t 0 * 1024 + 1 * l.val = n.val; rw [hi.1, hn]; omega
  | ⟨1, _⟩ => show win6_1.index t 1 * 512 + 1 * q.val = q.val; rw [hi.2]; omega

theorem pay1_6_apply (y : S1024x512.Idx) : k6_pay1 (F := Ideal) y = 0 := by
  unfold k6_pay1
  simp only [shapeCast_self]
  exact Ideal.ofBits_zero_f32

theorem pay2_6_apply (x0 : Vec Ideal S1024x1024 .f32) (x1 xs : Vec Ideal S1024x512 .f32) (p : Fin 1024) (q : Fin 512) :
    k6_pay2 x0 x1 xs (ix2 p q) = xs (ix2 p q) + ∑ l : Fin 1024, x0 (ix2 p l) * x1 (ix2 l q) := by
  unfold k6_pay2
  simp only [shapeCast_self]
  exact congrArg (xs (ix2 p q) + ·) (Cert.LibMM.plain_matmul_zero_apply rfl none x0 x1 p q)

theorem pay3_6_apply (v : Vec Ideal S1024x512 .f32) (y : S1024x512.Idx) : k6_pay3 v y = max (v y) 0 := by
  unfold k6_pay3
  show max (v y) (Ideal.ofBits .f32 0x00000000#32) = _
  rw [Ideal.ofBits_zero_f32]

def term6 (c : Dev nD) (m q n : ℕ) : EReal :=
  if h : m < 8192 ∧ n < 8192 ∧ q < 512 then a6 V c (ix2 ⟨m, h.1⟩ ⟨n, h.2.1⟩) * r6 V c (ix2 ⟨n, h.2.1⟩ ⟨q, h.2.2⟩) else 0

theorem sum_blocks6 (f : ℕ → EReal) (L : ℕ) : ∀ B : ℕ,
    ∑ n ∈ Finset.range (B * L), f n = ∑ b ∈ Finset.range B, ∑ l ∈ Finset.range L, f (L * b + l)
  | 0 => by simp
  | B + 1 => by
    rw [Nat.succ_mul, Finset.sum_range_add, sum_blocks6 f L B, Finset.sum_range_succ, Nat.mul_comm B L]

theorem blockSum6 (c : Dev nD) (t : Fin cfg6.N) (p : Fin 1024) (q : Fin 512) :
    ∑ l : Fin 1024, lblk6 V c t (ix2 p l) * rblk6 V c t (ix2 l q)
      = ∑ l ∈ Finset.range 1024, term6 V c (1024 * (t.val / 8) + p.val) q.val (1024 * (t.val % 8) + l) := by
  have hN : t.val < 64 := lt_of_lt_of_eq t.isLt (show cfg6.N = 64 from N_6)
  rw [Finset.sum_range]
  refine Finset.sum_congr rfl fun l _ => ?_
  have hm : 1024 * (t.val / 8) + p.val < 8192 := by have := p.isLt; omega
  have hn : 1024 * (t.val % 8) + l.val < 8192 := by have := l.isLt; omega
  unfold term6
  rw [dif_pos ⟨hm, hn, q.isLt⟩, lblk6_apply V c t p l ⟨_, hm⟩ ⟨_, hn⟩ rfl rfl, rblk6_apply V c t l q ⟨_, hn⟩ rfl]

-- after position n the running sum holds, entry by entry, the first n % 8 + 1 stretches of 1024 terms of the entry's sum
theorem accAt6_apply (c : Dev nD) : ∀ (n : ℕ) (hn : n < cfg6.N) (p : Fin 1024) (q : Fin 512),
    (Hand.accAt6 V c n hn : Vec Ideal S1024x512 .f32) (ix2 p q)
      = ∑ kk ∈ Finset.range (n % 8 + 1), ∑ l ∈ Finset.range 1024, term6 V c (1024 * (n / 8) + p.val) q.val (1024 * kk + l) := by
  intro n
  induction n with
  | zero =>
    intro hn p q
    refine (congrFun (Hand.accAt6_restart V c ⟨0, hn⟩ rfl) (ix2 p q)).trans ?_
    refine (pay2_6_apply (lblk6 V c ⟨0, hn⟩) (rblk6 V c ⟨0, hn⟩) (k6_pay1 (F := Ideal)) p q).trans ?_
    rw [pay1_6_apply, zero_add, blockSum6 V c ⟨0, hn⟩ p q]
    simp
  | succ m ih =>
    intro hn p q
    by_cases h0 : (m + 1) % 8 = 0
    · refine (congrFun (Hand.accAt6_restart V c ⟨m + 1, hn⟩ h0) (ix2 p q)).trans ?_
      refine (pay2_6_apply (lblk6 V c ⟨m + 1, hn⟩) (rblk6 V c ⟨m + 1, hn⟩) (k6_pay1 (F := Ideal)) p q).trans ?_
      rw [pay1_6_apply, zero_add, blockSum6 V c ⟨m + 1, hn⟩ p q]
      show _ = ∑ kk ∈ Finset.range ((m + 1) % 8 + 1), _
      rw [h0, Finset.sum_range_one]
    · refine (congrFun (Hand.accAt6_add V c ⟨m + 1, hn⟩ h0) (ix2 p q)).trans ?_
      refine (pay2_6_apply (lblk6 V c ⟨m + 1, hn⟩) (rblk6 V c ⟨m + 1, hn⟩) (Hand.accAt6 V c m (Nat.lt_of_succ_lt hn)) p q).trans ?_
      rw [ih (Nat.lt_of_succ_lt hn) p q, blockSum6 V c ⟨m + 1, hn⟩ p q]
      show _ + (∑ l ∈ Finset.range 1024, term6 V c (1024 * ((m + 1) / 8) + p.val) q.val (1024 * ((m + 1) % 8) + l)) = _
      have e1 : m / 8 = (m + 1) / 8 := by omega
      have e2 : (m + 1) % 8 = m % 8 + 1 := by omega
      rw [e1, e2, Finset.sum_range_succ (fun kk => ∑ l ∈ Finset.range 1024, term6 V c (1024 * ((m + 1) / 8) + p.val) q.val (1024 * kk + l)) (m % 8 + 1)]

theorem accAt6_at (c : Dev nD) (n : ℕ) (hn : n < cfg6.N) (y : S1024x512.Idx) :
    (Hand.accAt6 V c n hn : Vec Ideal S1024x512 .f32) y
      = ∑ kk ∈ Finset.range (n % 8 + 1), ∑ l ∈ Finset.range 1024, term6 V c (1024 * (n / 8) + (y 0).val) (y 1).val (1024 * kk + l) := by
  exact (congrArg (Hand.accAt6 V c n hn : Vec Ideal S1024x512 .f32) (eq_ix2 y)).trans (accAt6_apply V c n hn (y 0) (y 1))

def res6 (c : Dev nD) : Vec Ideal S8192x512 .f32 :=
  fun j => max (∑ k : Fin 8192, a6 V c (ix2 (j 0) k) * r6 V c (ix2 k (j 1))) 0

-- an entry's whole sum is its eight stretches
theorem whole6 (c : Dev nD) (m : Fin 8192) (q : Fin 512) :
    ∑ k : Fin 8192, a6 V c (ix2 m k) * r6 V c (ix2 k q)
      = ∑ kk ∈ Finset.range 8, ∑ l ∈ Finset.range 1024, term6 V c m.val q.val (1024 * kk + l) := by
  rw [show (∑ kk ∈ Finset.range 8, ∑ l ∈ Finset.range 1024, term6 V c m.val q.val (1024 * kk + l)) = ∑ n ∈ Finset.range 8192, term6 V c m.val q.val n from
    (sum_blocks6 (fun n => term6 V c m.val q.val n) 1024 8).symm, Finset.sum_range]
  refine Finset.sum_congr rfl fun k _ => ?_
  unfold term6
  rw [dif_pos ⟨m.isLt, k.isLt, q.isLt⟩]

theorem ext6_2 : ∀ t : Fin grid6.N, win6_2.xsize (grid6.coords t) 0 = 1024 ∧ win6_2.xsize (grid6.coords t) 1 = 512 := by decide +kernel

theorem flushed6_eq (c : Dev nD) (t : Fin cfg6.N) (hf : (cfg6.win 2).flush t = true) :
    (Hand.dat6 V c).flushed 2 t = ((cfg6.win 2).blk t).view.read (Elt Ideal) (res6 V c) := by
  have hN : t.val < 64 := lt_of_lt_of_eq t.isLt (show cfg6.N = 64 from N_6)
  have h7 : t.val % 8 = 7 := (flush6_2 t).mp hf
  have hi := idx6_2 t
  show (cfg6.win 2).cut (grid6.coords t) ((Hand.dat6 V c).after 2 t) = _
  rw [Hand.after6_2]; unfold Hand.outAt6
  funext x
  have hx0 : (x 0).val < 1024 := lt_of_lt_of_eq (x 0).isLt (ext6_2 t).1
  have hx1 : (x 1).val < 512 := lt_of_lt_of_eq (x 1).isLt (ext6_2 t).2
  have hm : 1024 * (t.val / 8) + (x 0).val < 8192 := by omega
  rw [View.read_apply]
  show k6_pay3 (Hand.accAt6 V c t.val t.isLt) ((cfg6.win 2).xinj (grid6.coords t) x) = res6 V c (((cfg6.win 2).blk t).view.emb x)
  rw [pay3_6_apply, accAt6_at V c t.val t.isLt ((cfg6.win 2).xinj (grid6.coords t) x), h7]
  have hidx : (((cfg6.win 2).blk t).view.emb x : S8192x512.Idx) = ix2 ⟨1024 * (t.val / 8) + (x 0).val, hm⟩ ⟨(x 1).val, hx1⟩ := by
    funext ax
    apply Fin.ext
    match ax with
    | ⟨0, _⟩ => show win6_2.index t 0 * 1024 + 1 * (x 0).val = 1024 * (t.val / 8) + (x 0).val; rw [hi.1]; omega
    | ⟨1, _⟩ => show win6_2.index t 1 * 512 + 1 * (x 1).val = (x 1).val; rw [hi.2]; omega
  rw [hidx]
  unfold res6
  show _ = max (∑ k : Fin 8192, a6 V c (ix2 ⟨1024 * (t.val / 8) + (x 0).val, hm⟩ k) * r6 V c (ix2 k ⟨(x 1).val, hx1⟩)) 0
  rw [whole6 V c ⟨1024 * (t.val / 8) + (x 0).val, hm⟩ ⟨(x 1).val, hx1⟩]

-- row m lies in the block written at point 8 (m / 1024) + 7
theorem cover6 (i : S8192x512.Idx) : ∃ t : Fin cfg6.N, (cfg6.win 2).flush t = true ∧ i ∈ ((cfg6.win 2).blk t).view.set := by
  have h0 : (i 0 : Nat) < 8192 := (i 0).isLt
  have h1 : (i 1 : Nat) < 512 := (i 1).isLt
  have hN : cfg6.N = 64 := N_6
  let t : Fin cfg6.N := ⟨8 * ((i 0).val / 1024) + 7, by rw [hN]; omega⟩
  have hi := idx6_2 t
  have he := ext6_2 t
  refine ⟨t, (flush6_2 t).mpr (by show (8 * ((i 0).val / 1024) + 7) % 8 = 7; omega), ?_⟩
  show i ∈ ((View.whole main_v29).slice (win6_2.rect t)).set
  rw [View.set_slice_whole, Rect.mem_set_unit]
  intro ax
  match ax with
  | ⟨0, _⟩ =>
    show win6_2.index t 0 * win6_2.size 0 ≤ (i 0 : Nat) ∧ (i 0 : Nat) < win6_2.index t 0 * win6_2.size 0 + win6_2.xsize (grid6.coords t) 0
    rw [hi.1, he.1, show win6_2.size 0 = 1024 from rfl]
    show (8 * ((i 0).val / 1024) + 7) / 8 * 1024 ≤ (i 0).val ∧ (i 0).val < (8 * ((i 0).val / 1024) + 7) / 8 * 1024 + 1024
    omega
  | ⟨1, _⟩ =>
    show win6_2.index t 1 * win6_2.size 1 ≤ (i 1 : Nat) ∧ (i 1 : Nat) < win6_2.index t 1 * win6_2.size 1 + win6_2.xsize (grid6.coords t) 1
    rw [hi.2, he.2]; omega

-- the result, entry by entry: max (∑ₖ a[m, k] · r[k, q]) 0
theorem arrAt6_2 (c : Dev nD) (j : S8192x512.Idx) :
    (Hand.dat6 (F := Ideal) V c).arrAt 2 cfg6.N j = max (∑ k : Fin 8192, a6 V c (ix2 (j 0) k) * r6 V c (ix2 k (j 1))) 0 :=
  congrFun ((Hand.dat6 (F := Ideal) V c).arrAt_eq_of_cover 2 (res6 V c) (flushed6_eq V c) cover6) j

end AtIdeal6

end Cert.KernelIdeal.Val

end
-- ==== Proof.Val.Reg7.lean ====
import proofs.«176514_j47991964565814_1_alg».proof.Proof.LibMM
import proofs.«176514_j47991964565814_1_alg».proof.Proof.KI.Reg7
import Idealize.ShloMosaic.Lib.Pipeline.Value
import Idealize.ShloMosaic.Lib.ValueIdx
import Idealize.ShloMosaic.PureOps.Ideal.Laws
import Idealize.ShloMosaic.Lib.Tactic
import Mathlib.Algebra.BigOperators.Intervals

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

section AtIdeal7
variable (V : (c : Dev nD) → (b : Ref sig .tc) → Buf (Elt Ideal) ((c : Thread nD τ).loc b))

abbrev a7 (c : Dev nD) : Vec Ideal S8192x8192 .f32 := V c main_v24_1
abbrev r7 (c : Dev nD) : Vec Ideal S8192x512 .f32 := V c main_v28
abbrev lblk7 (c : Dev nD) (t : Fin cfg7.N) : Vec Ideal S1024x1024 .f32 := Hand.blk7 V c 0 t
abbrev rblk7 (c : Dev nD) (t : Fin cfg7.N) : Vec Ideal S1024x512 .f32 := Hand.blk7 V c 1 t

theorem idx7_0 : ∀ t : Fin grid7.N, win7_0.index t 0 = t.val / 8 ∧ win7_0.index t 1 = t.val % 8 := by decide +kernel
theorem idx7_1 : ∀ t : Fin grid7.N, win7_1.index t 0 = t.val % 8 ∧ win7_1.index t 1 = 0 := by decide +kernel
theorem idx7_2 : ∀ t : Fin grid7.N, win7_2.index t 0 = t.val / 8 ∧ win7_2.index t 1 = 0 := by decide +kernel

theorem lblk7_apply (c : Dev nD) (t : Fin cfg7.N) (p l : Fin 1024) (m n : Fin 8192)
    (hm : m.val = 1024 * (t.val / 8) + p.val) (hn : n.val = 1024 * (t.val % 8) + l.val) :
    lblk7 V c t (ix2 p l) = a7 V c (ix2 m n) := by
  have hi := idx7_0 t
  unfold lblk7 Hand.blk7
  rw [View.read_apply]
  show V c main_v24_1 _ = V c main_v24_1 (ix2 m n)
  congr 1
  funext ax
  apply Fin.ext
  match ax with
  | ⟨0, _⟩ => show win7_0.index t 0 * 1024 + 1 * p.val = m.val; rw [hi.1, hm]; omega
  | ⟨1, _⟩ => show win7_0.index t 1 * 1024 + 1 * l.val = n.val; rw [hi.2, hn]; omega

theorem rblk7_apply (c : Dev nD) (t : Fin cfg7.N) (l : Fin 1024) (q : Fin 512) (n : Fin 8192)
    (hn : n.val = 1024 * (t.val % 8) + l.val) :
    rblk7 V c t (ix2 l q) = r7 V c (ix2 n q) := by
  have hi := idx7_1 t
  unfold rblk7 Hand.blk7
  rw [View.read_apply]
  show V c main_v28 _ = V c main_v28 (ix2 n q)
  congr 1
  funext ax
  apply Fin.ext
  match ax with
  | ⟨0, _⟩ => show win7_1.index t 0 * 1024 + 1 * l.val = n.val; rw [hi.1, hn]; omega
  | ⟨1, _⟩ => show win7_1.index t 1 * 512 + 1 * q.val = q.val; rw [hi.2]; omega

theorem pay1_7_apply (y : S1024x512.Idx) : k7_pay1 (F := Ideal) y = 0 := by
  unfold k7_pay1
  simp only [shapeCast_self]
  exact Ideal.ofBits_zero_f32

theorem pay2_7_apply (x0 : Vec Ideal S1024x1024 .f32) (x1 xs : Vec Ideal S1024x512 .f32) (p : Fin 1024) (q : Fin 512) :
    k7_pay2 x0 x1 xs (ix2 p q) = xs (ix2 p q) + ∑ l : Fin 1024, x0 (ix2 p l) * x1 (ix2 l q) := by
  unfold k7_pay2
  simp only [shapeCast_self]
  exact congrArg (xs (ix2 p q) + ·) (Cert.LibMM.plain_matmul_zero_apply rfl none x0 x1 p q)

theorem pay3_7_apply (v : Vec Ideal S1024x512 .f32) (y : S1024x512.Idx) : k7_pay3 v y = max (v y) 0 := by
  unfold k7_pay3
  show max (v y) (Ideal.ofBits .f32 0x00000000#32) = _
  rw [Ideal.ofBits_zero_f32]

def term7 (c : Dev nD) (m q n : ℕ) : EReal :=
  if h : m < 8192 ∧ n < 8192 ∧ q < 512 then a7 V c (ix2 ⟨m, h.1⟩ ⟨n, h.2.1⟩) * r7 V c (ix2 ⟨n, h.2.1⟩ ⟨q, h.2.2⟩) else 0

theorem sum_blocks7 (f : ℕ → EReal) (L : ℕ) : ∀ B : ℕ,
    ∑ n ∈ Finset.range (B * L), f n = ∑ b ∈ Finset.range B, ∑ l ∈ Finset.range L, f (L * b + l)
  | 0 => by simp
  | B + 1 => by
    rw [Nat.succ_mul, Finset.sum_range_add, sum_blocks7 f L B, Finset.sum_range_succ, Nat.mul_comm B L]

theorem blockSum7 (c : Dev nD) (t : Fin cfg7.N) (p : Fin 1024) (q : Fin 512) :
    ∑ l : Fin 1024, lblk7 V c t (ix2 p l) * rblk7 V c t (ix2 l q)
      = ∑ l ∈ Finset.range 1024, term7 V c (1024 * (t.val / 8) + p.val) q.val (1024 * (t.val % 8) + l) := by
  have hN : t.val < 64 := lt_of_lt_of_eq t.isLt (show cfg7.N = 64 from N_7)
  rw [Finset.sum_range]
  refine Finset.sum_congr rfl fun l _ => ?_
  have hm : 1024 * (t.val / 8) + p.val < 8192 := by have := p.isLt; omega
  have hn : 1024 * (t.val % 8) + l.val < 8192 := by have := l.isLt; omega
  unfold term7
  rw [dif_pos ⟨hm, hn, q.isLt⟩, lblk7_apply V c t p l ⟨_, hm⟩ ⟨_, hn⟩ rfl rfl, rblk7_apply V c t l q ⟨_, hn⟩ rfl]

-- after position n the running sum holds, entry by entry, the first n % 8 + 1 stretches of 1024 terms of the entry's sum
theorem accAt7_apply (c : Dev nD) : ∀ (n : ℕ) (hn : n < cfg7.N) (p : Fin 1024) (q : Fin 512),
    (Hand.accAt7 V c n hn : Vec Ideal S1024x512 .f32) (ix2 p q)
      = ∑ kk ∈ Finset.range (n % 8 + 1), ∑ l ∈ Finset.range 1024, term7 V c (1024 * (n / 8) + p.val) q.val (1024 * kk + l) := by
  intro n
  induction n with
  | zero =>
    intro hn p q
    refine (congrFun (Hand.accAt7_restart V c ⟨0, hn⟩ rfl) (ix2 p q)).trans ?_
    refine (pay2_7_apply (lblk7 V c ⟨0, hn⟩) (rblk7 V c ⟨0, hn⟩) (k7_pay1 (F := Ideal)) p q).trans ?_
    rw [pay1_7_apply, zero_add, blockSum7 V c ⟨0, hn⟩ p q]
    simp
  | succ m ih =>
    intro hn p q
    by_cases h0 : (m + 1) % 8 = 0
    · refine (congrFun (Hand.accAt7_restart V c ⟨m + 1, hn⟩ h0) (ix2 p q)).trans ?_
      refine (pay2_7_apply (lblk7 V c ⟨m + 1, hn⟩) (rblk7 V c ⟨m + 1, hn⟩) (k7_pay1 (F := Ideal)) p q).trans ?_
      rw [pay1_7_apply, zero_add, blockSum7 V c ⟨m + 1, hn⟩ p q]
      show _ = ∑ kk ∈ Finset.range ((m + 1) % 8 + 1), _
      rw [h0, Finset.sum_range_one]
    · refine (congrFun (Hand.accAt7_add V c ⟨m + 1, hn⟩ h0) (ix2 p q)).trans ?_
      refine (pay2_7_apply (lblk7 V c ⟨m + 1, hn⟩) (rblk7 V c ⟨m + 1, hn⟩) (Hand.accAt7 V c m (Nat.lt_of_succ_lt hn)) p q).trans ?_
      rw [ih (Nat.lt_of_succ_lt hn) p q, blockSum7 V c ⟨m + 1, hn⟩ p q]
      show _ + (∑ l ∈ Finset.range 1024, term7 V c (1024 * ((m + 1) / 8) + p.val) q.val (1024 * ((m + 1) % 8) + l)) = _
      have e1 : m / 8 = (m + 1) / 8 := by omega
      have e2 : (m + 1) % 8 = m % 8 + 1 := by omega
      rw [e1, e2, Finset.sum_range_succ (fun kk => ∑ l ∈ Finset.range 1024, term7 V c (1024 * ((m + 1) / 8) + p.val) q.val (1024 * kk + l)) (m % 8 + 1)]

theorem accAt7_at (c : Dev nD) (n : ℕ) (hn : n < cfg7.N) (y : S1024x512.Idx) :
    (Hand.accAt7 V c n hn : Vec Ideal S1024x512 .f32) y
      = ∑ kk ∈ Finset.range (n % 8 + 1), ∑ l ∈ Finset.range 1024, term7 V c (1024 * (n / 8) + (y 0).val) (y 1).val (1024 * kk + l) := by
  exact (congrArg (Hand.accAt7 V c n hn : Vec Ideal S1024x512 .f32) (eq_ix2 y)).trans (accAt7_apply V c n hn (y 0) (y 1))

def res7 (c : Dev nD) : Vec Ideal S8192x512 .f32 :=
  fun j => max (∑ k : Fin 8192, a7 V c (ix2 (j 0) k) * r7 V c (ix2 k (j 1))) 0

-- an entry's whole sum is its eight stretches
theorem whole7 (c : Dev nD) (m : Fin 8192) (q : Fin 512) :
    ∑ k : Fin 8192, a7 V c (ix2 m k) * r7 V c (ix2 k q)
      = ∑ kk ∈ Finset.range 8, ∑ l ∈ Finset.range 1024, term7 V c m.val q.val (1024 * kk + l) := by
  rw [show (∑ kk ∈ Finset.range 8, ∑ l ∈ Finset.range 1024, term7 V c m.val q.val (1024 * kk + l)) = ∑ n ∈ Finset.range 8192, term7 V c m.val q.val n from
    (sum_blocks7 (fun n => term7 V c m.val q.val n) 1024 8).symm, Finset.sum_range]
  refine Finset.sum_congr rfl fun k _ => ?_
  unfold term7
  rw [dif_pos ⟨m.isLt, k.isLt, q.isLt⟩]

theorem ext7_2 : ∀ t : Fin grid7.N, win7_2.xsize (grid7.coords t) 0 = 1024 ∧ win7_2.xsize (grid7.coords t) 1 = 512 := by decide +kernel

theorem flushed7_eq (c : Dev nD) (t : Fin cfg7.N) (hf : (cfg7.win 2).flush t = true) :
    (Hand.dat7 V c).flushed 2 t = ((cfg7.win 2).blk t).view.read (Elt Ideal) (res7 V c) := by
  have hN : t.val < 64 := lt_of_lt_of_eq t.isLt (show cfg7.N = 64 from N_7)
  have h7 : t.val % 8 = 7 := (flush7_2 t).mp hf
  have hi := idx7_2 t
  show (cfg7.win 2).cut (grid7.coords t) ((Hand.dat7 V c).after 2 t) = _
  rw [Hand.after7_2]; unfold Hand.outAt7
  funext x
  have hx0 : (x 0).val < 1024 := lt_of_lt_of_eq (x 0).isLt (ext7_2 t).1
  have hx1 : (x 1).val < 512 := lt_of_lt_of_eq (x 1).isLt (ext7_2 t).2
  have hm : 1024 * (t.val / 8) + (x 0).val < 8192 := by omega
  rw [View.read_apply]
  show k7_pay3 (Hand.accAt7 V c t.val t.isLt) ((cfg7.win 2).xinj (grid7.coords t) x) = res7 V c (((cfg7.win 2).blk t).view.emb x)
  rw [pay3_7_apply, accAt7_at V c t.val t.isLt ((cfg7.win 2).xinj (grid7.coords t) x), h7]
  have hidx : (((cfg7.win 2).blk t).view.emb x : S8192x512.Idx) = ix2 ⟨1024 * (t.val / 8) + (x 0).val, hm⟩ ⟨(x 1).val, hx1⟩ := by
    funext ax
    apply Fin.ext
    match ax with
    | ⟨0, _⟩ => show win7_2.index t 0 * 1024 + 1 * (x 0).val = 1024 * (t.val / 8) + (x 0).val; rw [hi.1]; omega
    | ⟨1, _⟩ => show win7_2.index t 1 * 512 + 1 * (x 1).val = (x 1).val; rw [hi.2]; omega
  rw [hidx]
  unfold res7
  show _ = max (∑ k : Fin 8192, a7 V c (ix2 ⟨1024 * (t.val / 8) + (x 0).val, hm⟩ k) * r7 V c (ix2 k ⟨(x 1).val, hx1⟩)) 0
  rw [whole7 V c ⟨1024 * (t.val / 8) + (x 0).val, hm⟩ ⟨(x 1).val, hx1⟩]

-- row m lies in the block written at point 8 (m / 1024) + 7
theorem cover7 (i : S8192x512.Idx) : ∃ t : Fin cfg7.N, (cfg7.win 2).flush t = true ∧ i ∈ ((cfg7.win 2).blk t).view.set := by
  have h0 : (i 0 : Nat) < 8192 := (i 0).isLt
  have h1 : (i 1 : Nat) < 512 := (i 1).isLt
  have hN : cfg7.N = 64 := N_7
  let t : Fin cfg7.N := ⟨8 * ((i 0).val / 1024) + 7, by rw [hN]; omega⟩
  have hi := idx7_2 t
  have he := ext7_2 t
  refine ⟨t, (flush7_2 t).mpr (by show (8 * ((i 0).val / 1024) + 7) % 8 = 7; omega), ?_⟩
  show i ∈ ((View.whole main_v30).slice (win7_2.rect t)).set
  rw [View.set_slice_whole, Rect.mem_set_unit]
  intro ax
  match ax with
  | ⟨0, _⟩ =>
    show win7_2.index t 0 * win7_2.size 0 ≤ (i 0 : Nat) ∧ (i 0 : Nat) < win7_2.index t 0 * win7_2.size 0 + win7_2.xsize (grid7.coords t) 0
    rw [hi.1, he.1, show win7_2.size 0 = 1024 from rfl]
    show (8 * ((i 0).val / 1024) + 7) / 8 * 1024 ≤ (i 0).val ∧ (i 0).val < (8 * ((i 0).val / 1024) + 7) / 8 * 1024 + 1024
    omega
  | ⟨1, _⟩ =>
    show win7_2.index t 1 * win7_2.size 1 ≤ (i 1 : Nat) ∧ (i 1 : Nat) < win7_2.index t 1 * win7_2.size 1 + win7_2.xsize (grid7.coords t) 1
    rw [hi.2, he.2]; omega

-- the result, entry by entry: max (∑ₖ a[m, k] · r[k, q]) 0
theorem arrAt7_2 (c : Dev nD) (j : S8192x512.Idx) :
    (Hand.dat7 (F := Ideal) V c).arrAt 2 cfg7.N j = max (∑ k : Fin 8192, a7 V c (ix2 (j 0) k) * r7 V c (ix2 k (j 1))) 0 :=
  congrFun ((Hand.dat7 (F := Ideal) V c).arrAt_eq_of_cover 2 (res7 V c) (flushed7_eq V c) cover7) j

end AtIdeal7

end Cert.KernelIdeal.Val

end
-- ==== Proof.Val.Reg8.lean ====
import proofs.«176514_j47991964565814_1_alg».proof.Proof.KI.Reg8
import proofs.«176514_j47991964565814_1_alg».proof.Proof.LibMM
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen Cert.KernelIdeal.Hand

theorem prod8_apply (x0 : Vec Ideal S64x1792 .f32) (x1 : Vec Ideal S1792x256 .f32) (j : S64x256.Idx) :
    k8_pay2 x0 x1 (k8_pay1 (F := Ideal)) j = ∑ k : Fin 1792, x0 (ix2 (j 0) k) * x1 (ix2 k (j 1)) := by
  obtain ⟨p, q, rfl⟩ : ∃ (p : Fin 64) (q : Fin 256), j = ix2 p q := ⟨j 0, j 1, eq_ix2 j⟩
  unfold k8_pay2 k8_pay1
  simp only [shapeCast_self]
  rw [addf_apply, broadcast_apply]
  rw [show (FloatOps.ofBits FTy.f32 0#32 : Ideal .f32) = 0 from Ideal.ofBits_zero_f32, zero_add]
  exact Cert.LibMM.plain_matmul_zero_apply rfl none x0 x1 p q

variable (V : (c : Dev nD) → (b : Ref sig .tc) → Buf (Elt Ideal) ((c : Thread nD τ).loc b))

abbrev g8 (c : Dev nD) : Vec Ideal S64x1792 .f32 := V c main_v44
abbrev w8 (c : Dev nD) : Vec Ideal S1792x256 .f32 := V c main_arg4

def res8 (c : Dev nD) : Vec Ideal S64x256 .f32 := fun j => ∑ k : Fin 1792, g8 V c (ix2 (j 0) k) * w8 V c (ix2 k (j 1))

theorem iblk8_0_eq (c : Dev nD) (t : Fin cfg8.N) : (iblk8 V c 0 t : Vec Ideal S64x1792 .f32) = g8 V c := by
  obtain rfl := fin_N8 t
  have hz : (fun a => win8_0.index t8_0 a * main_v44.ty.shape.size a) = fun _ => 0 := funext fun a => by fin_cases a <;> decide
  exact Memref.read_access_unit_zero (Elt Ideal) main_v44 hz (fun a => by rw [congrFun hz a]; simp) (V c main_v44)
theorem iblk8_1_eq (c : Dev nD) (t : Fin cfg8.N) : (iblk8 V c 1 t : Vec Ideal S1792x256 .f32) = w8 V c := by
  obtain rfl := fin_N8 t
  have hz : (fun a => win8_1.index t8_0 a * main_arg4.ty.shape.size a) = fun _ => 0 := funext fun a => by fin_cases a <;> decide
  exact Memref.read_access_unit_zero (Elt Ideal) main_arg4 hz (fun a => by rw [congrFun hz a]; simp) (V c main_arg4)

theorem flushed8 (c : Dev nD) (t : Fin cfg8.N) (hf : (cfg8.win 2).flush t = true) :
    (dat8 V c).flushed 2 t = ((cfg8.win 2).blk t).view.read (Elt Ideal) (res8 V c) := by
  obtain rfl := fin_N8 t
  show (cfg8.win 2).cut (grid8.coords t8_0) ((dat8 V c).after 2 t8_0) = _
  rw [after8_2, iblk8_0_eq, iblk8_1_eq]
  have hz : (fun a => win8_2.index t8_0 a * main_v45.ty.shape.size a) = fun _ => 0 := funext fun a => by fin_cases a <;> decide
  refine Eq.trans ?_ (Memref.read_access_unit_zero (Elt Ideal) main_v45 hz (fun a => by rw [congrFun hz a]; simp) (res8 V c)).symm
  funext j
  exact prod8_apply (g8 V c) (w8 V c) j

theorem covered8 (i : S64x256.Idx) : ∃ t : Fin cfg8.N, (cfg8.win 2).flush t = true ∧ i ∈ ((cfg8.win 2).blk t).view.set :=
  ⟨t8_0, flush8_2 t8_0, by
    show i ∈ ((View.whole main_v45).slice (win8_2.rect t8_0)).set
    rw [View.set_slice_whole, Rect.mem_set_unit]
    intro a
    have h0 : (i 0 : Nat) < 64 := (i 0).isLt
    have h1 : (i 1 : Nat) < 256 := (i 1).isLt
    match a with
    | ⟨0, _⟩ => show win8_2.index t8_0 0 * win8_2.size 0 ≤ (i 0 : Nat) ∧ (i 0 : Nat) < win8_2.index t8_0 0 * win8_2.size 0 + win8_2.xsize (grid8.coords t8_0) 0
                rw [show win8_2.index t8_0 0 * win8_2.size 0 = 0 from by decide +kernel, show win8_2.xsize (grid8.coords t8_0) 0 = 64 from by decide +kernel]; omega
    | ⟨1, _⟩ => show win8_2.index t8_0 1 * win8_2.size 1 ≤ (i 1 : Nat) ∧ (i 1 : Nat) < win8_2.index t8_0 1 * win8_2.size 1 + win8_2.xsize (grid8.coords t8_0) 1
                rw [show win8_2.index t8_0 1 * win8_2.size 1 = 0 from by decide +kernel, show win8_2.xsize (grid8.coords t8_0) 1 = 256 from by decide +kernel]; omega⟩

theorem arrAt8_2 (c : Dev nD) (j : S64x256.Idx) :
    (Hand.dat8 (F := Ideal) V c).arrAt 2 cfg8.N j = ∑ k : Fin 1792, g8 V c (ix2 (j 0) k) * w8 V c (ix2 k (j 1)) :=
  congrFun ((dat8 V c).arrAt_eq_of_cover 2 (res8 V c) (flushed8 V c) covered8) j

end Cert.KernelIdeal.Val

end
-- ==== Proof.Val.Kernel.lean ====
import proofs.«176514_j47991964565814_1_alg».proof.Proof.Val.Stages
import proofs.«176514_j47991964565814_1_alg».proof.Proof.KI.SegsW
import proofs.«176514_j47991964565814_1_alg».proof.Proof.Val.Reg0
import proofs.«176514_j47991964565814_1_alg».proof.Proof.Val.Reg1
import proofs.«176514_j47991964565814_1_alg».proof.Proof.Val.Reg2
import proofs.«176514_j47991964565814_1_alg».proof.Proof.Val.Reg3
import proofs.«176514_j47991964565814_1_alg».proof.Proof.Val.Reg4
import proofs.«176514_j47991964565814_1_alg».proof.Proof.Val.Reg5
import proofs.«176514_j47991964565814_1_alg».proof.Proof.Val.Reg6
import proofs.«176514_j47991964565814_1_alg».proof.Proof.Val.Reg7
import proofs.«176514_j47991964565814_1_alg».proof.Proof.Val.Reg8

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Cert.ReferenceIdeal.RefValue (aa refA1 refA2 deg mm relu refR refA refPool refA1n refA2n refH1 refH2 refHn refResult
  zeroScalar)

variable (m : (ℓ : Loc nD τ sig) → Buf (Elt Ideal) ℓ) (c : Dev nD)

abbrev xIn : Vec Ideal S8192x512 .f32 := m ((c : Thread nD τ).loc main_arg0)
abbrev eIn : Vec Ideal S2x131072 .i32 := m ((c : Thread nD τ).loc main_arg1)
abbrev gIn : Vec Ideal S8192 .i32 := m ((c : Thread nD τ).loc main_arg2)
abbrev wIn : Vec Ideal S512x256 .f32 := m ((c : Thread nD τ).loc main_arg3)
abbrev woIn : Vec Ideal S1792x256 .f32 := m ((c : Thread nD τ).loc main_arg4)
abbrev bIn : Vec Ideal S256 .f32 := m ((c : Thread nD τ).loc main_arg5)

theorem arg0_at5 : W5 m c main_arg0 = xIn m c := by
  rw [← V5_eq m c]; carry; try rfl
theorem arg3_at5 : W5 m c main_arg3 = wIn m c := by
  rw [← V5_eq m c]; carry; try rfl
theorem arg2_at11 : W11 m c main_arg2 = gIn m c := by
  rw [← V11_eq m c]; carry; try rfl
theorem arg4_at12 : W12 m c main_arg4 = woIn m c := by
  rw [← V12_eq m c]; carry; try rfl
theorem arg5_at13 : W13 m c main_arg5 = bIn m c := by
  rw [← V13_eq m c]; carry; try rfl

theorem adj_eq : W1 m c main_v19 = refA (eIn m c) :=
  after0_v19 _

theorem adj_at2 : W2 m c main_v19 = refA (eIn m c) := by
  rw [← V2_eq m c]; carry; rw [V1_eq m c]; exact adj_eq m c

theorem sq_eq : W2 m c main_v20 = aa (refA (eIn m c)) :=
  (W2_main_v20 m c).trans (funext fun j => (arrAt0_2 (fun c b => W1 m c b) c j).trans
    (congrArg (aa · j) (adj_eq m c)))

theorem m1_eq : W3 m c main_v21_0 = refA1 (refA (eIn m c)) :=
  (W3_main_v21_0 m c).trans (funext fun j => (arrAt1_2 (fun c b => W2 m c b) c j).trans
    (congrArg (refA1 · j) (adj_at2 m c)))

theorem m2_eq : W3 m c main_v21_1 = refA2 (refA (eIn m c)) :=
  (W3_main_v21_1 m c).trans (funext fun j => (arrAt1_3 (fun c b => W2 m c b) c j).trans
    (congrArg₂ (hop2 · · j) (adj_at2 m c) (sq_eq m c)))

theorem d1_eq (i : Fin 8192) :
    (W3 m c main_v21_2 : Vec Ideal S8192x1 .f32) (ix2 i (0 : Fin 1)) = deg (refA1 (refA (eIn m c))) i := by
  rw [W3_main_v21_2 m c]
  exact (arrAt1_4 (fun c b => W2 m c b) c _).trans (congrArg (fun a => deg (refA1 a) i) (adj_at2 m c))

theorem d2_eq (i : Fin 8192) :
    (W3 m c main_v21_3 : Vec Ideal S8192x1 .f32) (ix2 i (0 : Fin 1)) = deg (refA2 (refA (eIn m c))) i := by
  rw [W3_main_v21_3 m c]
  exact (arrAt1_5 (fun c b => W2 m c b) c _).trans
    (congrArg₂ (fun a s => ∑ k : Fin 8192, hop2 a s (ix2 i k)) (adj_at2 m c) (sq_eq m c))

theorem m1_at4 : W4 m c main_v21_0 = refA1 (refA (eIn m c)) := by
  rw [← V4_eq m c]; carry; rw [V3_eq m c]; exact m1_eq m c
theorem m2_at4 : W4 m c main_v21_1 = refA2 (refA (eIn m c)) := by
  rw [← V4_eq m c]; carry; rw [V3_eq m c]; exact m2_eq m c
theorem d1_at4 : W4 m c main_v21_2 = W3 m c main_v21_2 := by
  rw [← V4_eq m c]; carry; rw [V3_eq m c]
theorem d2_at4 : W4 m c main_v21_3 = W3 m c main_v21_3 := by
  rw [← V4_eq m c]; carry; rw [V3_eq m c]

theorem r1_eq (k : Fin 8192) :
    (W4 m c main_v22 : Vec Ideal S1x8192 .f32) (ix2 (0 : Fin 1) k)
      = (W3 m c main_v21_2 : Vec Ideal S8192x1 .f32) (ix2 k (0 : Fin 1)) :=
  (congrFun (after2_v22 (W3 m c)) _).trans (colAsRow_apply _ k)
theorem r2_eq (k : Fin 8192) :
    (W4 m c main_v23 : Vec Ideal S1x8192 .f32) (ix2 (0 : Fin 1) k)
      = (W3 m c main_v21_3 : Vec Ideal S8192x1 .f32) (ix2 k (0 : Fin 1)) :=
  (congrFun (after2_v23 (W3 m c)) _).trans (colAsRow_apply _ k)

theorem n1_eq : W5 m c main_v24_0 = refA1n (eIn m c) :=
  (W5_main_v24_0 m c).trans (funext fun j => (arrAt2_6 (fun c b => W4 m c b) c j).trans
    (norm_entry _ _ _ _ _ (m1_at4 m c) (d1_at4 m c) (d1_eq m c) (r1_eq m c) j))

theorem n2_eq : W5 m c main_v24_1 = refA2n (eIn m c) :=
  (W5_main_v24_1 m c).trans (funext fun j => (arrAt2_7 (fun c b => W4 m c b) c j).trans
    (norm_entry _ _ _ _ _ (m2_at4 m c) (d2_at4 m c) (d2_eq m c) (r2_eq m c) j))

theorem emb_eq : W6 m c main_v25 = refR (xIn m c) (wIn m c) :=
  (W6_main_v25 m c).trans (funext fun j => (arrAt3_2 (fun c b => W5 m c b) c j).trans
    (congrArg₂ (refR · · j) (arg0_at5 m c) (arg3_at5 m c)))

theorem n1_at6 : W6 m c main_v24_0 = refA1n (eIn m c) := by
  rw [← V6_eq m c]; carry; rw [V5_eq m c]; exact n1_eq m c
theorem n2_at7 : W7 m c main_v24_1 = refA2n (eIn m c) := by
  rw [← V7_eq m c]; carry; rw [V5_eq m c]; exact n2_eq m c
theorem emb_at7 : W7 m c main_v25 = refR (xIn m c) (wIn m c) := by
  rw [← V7_eq m c]; carry; rw [V6_eq m c]; exact emb_eq m c
theorem n1_at9 : W9 m c main_v24_0 = refA1n (eIn m c) := by
  rw [← V9_eq m c]; carry; rw [V5_eq m c]; exact n1_eq m c
theorem n2_at10 : W10 m c main_v24_1 = refA2n (eIn m c) := by
  rw [← V10_eq m c]; carry; rw [V5_eq m c]; exact n2_eq m c

theorem p1_eq : W7 m c main_v26 = relu (mm (refA1n (eIn m c)) (refR (xIn m c) (wIn m c))) :=
  (W7_main_v26 m c).trans (funext fun j => (arrAt4_2 (fun c b => W6 m c b) c j).trans
    (congrArg₂ (fun a r => relu (mm a r) j) (n1_at6 m c) (emb_eq m c)))

theorem q1_eq : W8 m c main_v27 = relu (mm (refA2n (eIn m c)) (refR (xIn m c) (wIn m c))) :=
  (W8_main_v27 m c).trans (funext fun j => (arrAt5_2 (fun c b => W7 m c b) c j).trans
    (congrArg₂ (fun a r => relu (mm a r) j) (n2_at7 m c) (emb_at7 m c)))

theorem p1_at8 : W8 m c main_v26 = relu (mm (refA1n (eIn m c)) (refR (xIn m c) (wIn m c))) := by
  rw [← V8_eq m c]; carry; rw [V7_eq m c]; exact p1_eq m c

theorem h1_eq : W9 m c main_v28 = refH1 (xIn m c) (eIn m c) (wIn m c) := by
  refine (after6_v28 (W8 m c)).trans ?_
  rw [p1_at8 m c, q1_eq m c]
  exact round _ _ _ _

theorem h1_at10 : W10 m c main_v28 = refH1 (xIn m c) (eIn m c) (wIn m c) := by
  rw [← V10_eq m c]; carry; rw [V9_eq m c]; exact h1_eq m c

theorem p2_eq : W10 m c main_v29 = relu (mm (refA1n (eIn m c)) (refH1 (xIn m c) (eIn m c) (wIn m c))) :=
  (W10_main_v29 m c).trans (funext fun j => (arrAt6_2 (fun c b => W9 m c b) c j).trans
    (congrArg₂ (fun a r => relu (mm a r) j) (n1_at9 m c) (h1_eq m c)))

theorem q2_eq : W11 m c main_v30 = relu (mm (refA2n (eIn m c)) (refH1 (xIn m c) (eIn m c) (wIn m c))) :=
  (W11_main_v30 m c).trans (funext fun j => (arrAt7_2 (fun c b => W10 m c b) c j).trans
    (congrArg₂ (fun a r => relu (mm a r) j) (n2_at10 m c) (h1_at10 m c)))

theorem emb_at11 : W11 m c main_v25 = refR (xIn m c) (wIn m c) := by
  rw [← V11_eq m c]; carry; rw [V6_eq m c]; exact emb_eq m c
theorem h1_at11 : W11 m c main_v28 = refH1 (xIn m c) (eIn m c) (wIn m c) := by
  rw [← V11_eq m c]; carry; rw [V9_eq m c]; exact h1_eq m c
theorem p2_at11 : W11 m c main_v29 = relu (mm (refA1n (eIn m c)) (refH1 (xIn m c) (eIn m c) (wIn m c))) := by
  rw [← V11_eq m c]; carry; rw [V10_eq m c]; exact p2_eq m c

theorem pool_eq : W12 m c main_v44 = refPool (refHn (xIn m c) (eIn m c) (wIn m c)) (gIn m c) := by
  refine (after8_v44 (W11 m c)).trans ?_
  rw [emb_at11 m c, h1_at11 m c, p2_at11 m c, q2_eq m c, arg2_at11 m c, round]
  rfl

theorem head_eq (j : S64x256.Idx) :
    (W13 m c main_v45 : Vec Ideal S64x256 .f32) j
      = mm (refPool (refHn (xIn m c) (eIn m c) (wIn m c)) (gIn m c)) (woIn m c) j := by
  rw [W13_main_v45 m c]
  exact (arrAt8_2 (fun c b => W12 m c b) c j).trans (congrArg₂ (mm · · j) (pool_eq m c) (arg4_at12 m c))

theorem result_eq :
    (W14 m c main_v48 : Vec Ideal S64x256 .f32)
      = refResult (xIn m c) (eIn m c) (gIn m c) (wIn m c) (woIn m c) (bIn m c) :=
  funext fun j => (after9_v48 (W13 m c) j).trans
    (congrArg₂ (fun a b : EReal => a + b) (head_eq m c j) (congrFun (arg5_at13 m c) _))

theorem loss_eq : (W14 m c main_cst_8 : Vec Ideal S_ .f32) = zeroScalar :=
  (after9_cst8 (W13 m c)).trans Cert.ReferenceIdeal.RefValue.zero_scalar

theorem args_end :
    W14 m c main_arg0 = m ((c : Thread nD τ).loc main_arg0) ∧ W14 m c main_arg1 = m ((c : Thread nD τ).loc main_arg1)
    ∧ W14 m c main_arg2 = m ((c : Thread nD τ).loc main_arg2) ∧ W14 m c main_arg3 = m ((c : Thread nD τ).loc main_arg3)
    ∧ W14 m c main_arg4 = m ((c : Thread nD τ).loc main_arg4) ∧ W14 m c main_arg5 = m ((c : Thread nD τ).loc main_arg5) := by
  rw [← V14_eq m c]
  exact ⟨V14_main_arg0 m (outsW m) c, V14_main_arg1 m (outsW m) c, V14_main_arg2 m (outsW m) c,
    V14_main_arg3 m (outsW m) c, V14_main_arg4 m (outsW m) c, V14_main_arg5 m (outsW m) c⟩

end Cert.KernelIdeal.Val

end
-- ==== Proof.lean ====
import proofs.«176514_j47991964565814_1_alg».proof.Defs
import proofs.«176514_j47991964565814_1_alg».proof.Proof.Gen.Kernel
import proofs.«176514_j47991964565814_1_alg».proof.Proof.Gen.KernelIdeal
import proofs.«176514_j47991964565814_1_alg».proof.Proof.Gen.ReferenceIdeal
import proofs.«176514_j47991964565814_1_alg».proof.Proof.Gen.Pre_finite_inputs
import proofs.«176514_j47991964565814_1_alg».proof.Proof.K.Frame
import proofs.«176514_j47991964565814_1_alg».proof.Proof.KI.Frame
import proofs.«176514_j47991964565814_1_alg».proof.Proof.Ref
import proofs.«176514_j47991964565814_1_alg».proof.Proof.Val.Kernel

set_option maxRecDepth 16384

noncomputable section

namespace Cert.Proof

open Idealize.ShloMosaic Idealize.ShloMosaic.TcCoe Idealize.SL.Sem

theorem frame_ref : Cert.frame_ReferenceIdeal := fun m ρ _ =>
  (θ_run Cert.ReferenceIdeal.defs _ _).mono (fun _ h c => (h c).2.2) (Cert.ReferenceIdeal.RefValue.ref_run m ρ)

theorem algebraic : Cert.algebraic_KernelIdeal_ReferenceIdeal := by
  intro m ρ m' ρ' _ hagree
  refine ⟨fun c => Cert.ReferenceIdeal.RefValue.refResult (Cert.KernelIdeal.Val.xIn m c) (Cert.KernelIdeal.Val.eIn m c)
      (Cert.KernelIdeal.Val.gIn m c) (Cert.KernelIdeal.Val.wIn m c) (Cert.KernelIdeal.Val.woIn m c) (Cert.KernelIdeal.Val.bIn m c),
    fun _ => Cert.ReferenceIdeal.RefValue.zeroScalar, ?_, ?_⟩
  ·
    refine (θ_run Cert.KernelIdeal.defs _ _).mono (fun r h c => ?_) (Cert.KernelIdeal.Hand.run_all (F := Ideal) m ρ)
    have rd : ∀ b : Ref Cert.KernelIdeal.sig .tc,
        Proc.devRef .tc b ∈ Pipeline.ucRefs Cert.KernelIdeal.τ Cert.KernelIdeal.sig →
        r.2.mem ((c.tc : Thread Cert.KernelIdeal.nD Cert.KernelIdeal.τ).loc b) = Cert.KernelIdeal.Hand.W14 m c b :=
      fun b hb => h c (Proc.devRef .tc b) hb
    obtain ⟨e0, e1, e2, e3, e4, e5⟩ := Cert.KernelIdeal.Val.args_end m c
    exact ⟨(rd Cert.KernelIdeal.main_v48 (Finset.mem_filter.mpr ⟨StableHlo.devRef_mem_tcRefs _, by decide⟩)).trans (Cert.KernelIdeal.Val.result_eq m c),
      (rd Cert.KernelIdeal.main_cst_8 (Finset.mem_filter.mpr ⟨StableHlo.devRef_mem_tcRefs _, by decide⟩)).trans (Cert.KernelIdeal.Val.loss_eq m c),
      (rd Cert.KernelIdeal.main_arg0 (Finset.mem_filter.mpr ⟨StableHlo.devRef_mem_tcRefs _, by decide⟩)).trans e0,
      (rd Cert.KernelIdeal.main_arg1 (Finset.mem_filter.mpr ⟨StableHlo.devRef_mem_tcRefs _, by decide⟩)).trans e1,
      (rd Cert.KernelIdeal.main_arg2 (Finset.mem_filter.mpr ⟨StableHlo.devRef_mem_tcRefs _, by decide⟩)).trans e2,
      (rd Cert.KernelIdeal.main_arg3 (Finset.mem_filter.mpr ⟨StableHlo.devRef_mem_tcRefs _, by decide⟩)).trans e3,
      (rd Cert.KernelIdeal.main_arg4 (Finset.mem_filter.mpr ⟨StableHlo.devRef_mem_tcRefs _, by decide⟩)).trans e4,
      (rd Cert.KernelIdeal.main_arg5 (Finset.mem_filter.mpr ⟨StableHlo.devRef_mem_tcRefs _, by decide⟩)).trans e5⟩
  ·
    refine (θ_run Cert.ReferenceIdeal.defs _ _).mono (fun r h c => ?_) (Cert.ReferenceIdeal.RefValue.ref_run m' ρ')
    obtain ⟨a0, a1, a2, a3, a4, a5⟩ := hagree c
    exact ⟨(h c).1.trans (by rw [a0, a1, a2, a3, a4, a5]), (h c).2.1, (h c).2.2⟩

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  frame_ref,
  trivial,
  algebraic⟩

end Cert.Proof

end
